-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_arg2)) (v2 : (c : Dev Cert.KernelIdeal.nD) → Buf (Elt Ideal) ((c.tc : Thread Cert.KernelIdeal.nD Cert.KernelIdeal.τ).loc Cert.KernelIdeal.main_arg7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg2) = v1 c
          ∧ r.2.mem ((c.tc : Thread Cert.KernelIdeal.nD Cert.KernelIdeal.τ).loc Cert.KernelIdeal.main_arg7) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg2) = v1 c
          ∧ r.2.mem ((c.tc : Thread Cert.ReferenceIdeal.nD Cert.ReferenceIdeal.τ).loc Cert.ReferenceIdeal.main_arg7) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S100000x3 : Shape := ⟨2, ![100000, 3]⟩
abbrev S100000x128 : Shape := ⟨2, ![100000, 128]⟩
abbrev S25000x3 : Shape := ⟨2, ![25000, 3]⟩
abbrev S128x128 : Shape := ⟨2, ![128, 128]⟩
abbrev S128 : Shape := ⟨1, ![128]⟩
abbrev S1 : Shape := ⟨1, ![1]⟩
abbrev S25000x16 : Shape := ⟨2, ![25000, 16]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S25000x3 : S_.BroadcastsInDim S25000x3 (![] : Fin 0 → Fin S25000x3.rank)
  reducesTo_S25000x3_S_d0_1 : S25000x3.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1 : S_.BroadcastsInDim S1 (![] : Fin 0 → Fin S1.rank)
  reducesTo_S1_S_d0 : S1.ReducesTo [0] S_
  bcast_S_S25000x16 : S_.BroadcastsInDim S25000x16 (![] : Fin 0 → Fin S25000x16.rank)
  reducesTo_S25000x16_S_d0_1 : S25000x16.ReducesTo [0, 1] S_

variable [Facts]

def fn_part2 {F : FTy → Type} [FloatOps F] (main_arg7 : IVec S1 32) (main_arg8 : IVec S25000x16 32) (main_v28 : IVec S_ 1) (main_v33 : IVec S1 1) : IVec S_ 1 :=
  let main_c_12 : IVec S_ 1 := constantI S_ 1 1#1
  let main_v34 : IVec S_ 1 := (fun x v => Host.reduce IntOp.andi x v reducesTo_S1_S_d0 h_S_) main_v33 main_c_12
  let main_v35 : IVec S_ 1 := andi main_v28 main_v34
  let main_c_13 : IVec S_ 32 := constantI S_ 32 25000#32
  let main_v36 : IVec S1 32 := broadcastInDim S1 ![] bcast_S_S1 main_c_13
  let main_v37 : IVec S1 1 := cmpi .sge main_arg7 main_v36
  let main_c_14 : IVec S_ 32 := constantI S_ 32 25000#32
  let main_v38 : IVec S1 32 := broadcastInDim S1 ![] bcast_S_S1 main_c_14
  let main_v39 : IVec S1 1 := cmpi .sle main_arg7 main_v38
  let main_v40 : IVec S1 1 := andi main_v37 main_v39
  let main_c_15 : IVec S_ 1 := constantI S_ 1 1#1
  let main_v41 : IVec S_ 1 := (fun x v => Host.reduce IntOp.andi x v reducesTo_S1_S_d0 h_S_) main_v40 main_c_15
  let main_v42 : IVec S_ 1 := andi main_v35 main_v41
  let main_c_16 : IVec S_ 32 := constantI S_ 32 0#32
  let main_v43 : IVec S25000x16 32 := broadcastInDim S25000x16 ![] bcast_S_S25000x16 main_c_16
  let main_v44 : IVec S25000x16 1 := cmpi .sge main_arg8 main_v43
  let main_c_17 : IVec S_ 32 := constantI S_ 32 99999#32
  let main_v45 : IVec S25000x16 32 := broadcastInDim S25000x16 ![] bcast_S_S25000x16 main_c_17
  let main_v46 : IVec S25000x16 1 := cmpi .sle main_arg8 main_v45
  let main_v47 : IVec S25000x16 1 := andi main_v44 main_v46
  let main_c_18 : IVec S_ 1 := constantI S_ 1 1#1
  let main_v48 : IVec S_ 1 := (fun x v => Host.reduce IntOp.andi x v reducesTo_S25000x16_S_d0_1 h_S_) main_v47 main_c_18
  let main_v49 : IVec S_ 1 := andi main_v42 main_v48
  main_v49

def fn_part1 {F : FTy → Type} [FloatOps F] (main_arg4 : FVec F S128 .f32) (main_arg5 : FVec F S128 .f32) (main_arg6 : IVec S1 32) (main_arg7 : IVec S1 32) (main_arg8 : IVec S25000x16 32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_c_10 : IVec S_ 32 := constantI S_ 32 100000#32
  let main_v29 : IVec S1 32 := broadcastInDim S1 ![] bcast_S_S1 main_c_10
  let main_v30 : IVec S1 1 := cmpi .sge main_arg6 main_v29
  let main_c_11 : IVec S_ 32 := constantI S_ 32 100000#32
  let main_v31 : IVec S1 32 := broadcastInDim S1 ![] bcast_S_S1 main_c_11
  let main_v32 : IVec S1 1 := cmpi .sle main_arg6 main_v31
  let main_v33 : IVec S1 1 := andi main_v30 main_v32
  fn_part2 (F := F) main_arg7 main_arg8 main_v28 main_v33

def fn {F : FTy → Type} [FloatOps F] (main_arg0 : FVec F S100000x3 .f32) (main_arg1 : FVec F S100000x128 .f32) (main_arg2 : FVec F S25000x3 .f32) (main_arg3 : FVec F S128x128 .f32) (main_arg4 : FVec F S128 .f32) (main_arg5 : FVec F S128 .f32) (main_arg6 : IVec S1 32) (main_arg7 : IVec S1 32) (main_arg8 : IVec S25000x16 32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S25000x3 .f32 := Host.absf main_arg2
  let main_cst_2 : FVec F S_ .f32 := constant S_ .f32 0x7F800000#32
  let main_v10 : FVec F S25000x3 .f32 := broadcastInDim S25000x3 ![] bcast_S_S25000x3 main_cst_2
  let main_v11 : IVec S25000x3 1 := cmpf .olt main_v9 main_v10
  let main_c_3 : IVec S_ 1 := constantI S_ 1 1#1
  let main_v12 : IVec S_ 1 := (fun x v => Host.reduce IntOp.andi x v reducesTo_S25000x3_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_v13 main_v16
-- ==== Kernel.lean ====
abbrev S100000x3 : Shape := ⟨2, ![100000, 3]⟩
abbrev S100000x128 : Shape := ⟨2, ![100000, 128]⟩
abbrev S25000x3 : Shape := ⟨2, ![25000, 3]⟩
abbrev S128x128 : Shape := ⟨2, ![128, 128]⟩
abbrev S128 : Shape := ⟨1, ![128]⟩
abbrev S1 : Shape := ⟨1, ![1]⟩
abbrev S25000x16 : Shape := ⟨2, ![25000, 16]⟩
abbrev S1x128 : Shape := ⟨2, ![1, 128]⟩
abbrev S10000x128 : Shape := ⟨2, ![10000, 128]⟩
abbrev S10000 : Shape := ⟨1, ![10000]⟩
abbrev S10000x1 : Shape := ⟨2, ![10000, 1]⟩
abbrev S400000 : Shape := ⟨1, ![400000]⟩
abbrev S25000x128 : Shape := ⟨2, ![25000, 128]⟩
abbrev S12544 : Shape := ⟨1, ![12544]⟩
abbrev S8x128 : Shape := ⟨2, ![8, 128]⟩
abbrev S_ : Shape := ⟨0, ![]⟩
abbrev S1x16 : Shape := ⟨2, ![1, 16]⟩
abbrev S16 : Shape := ⟨1, ![16]⟩

abbrev nBuf : Table → Nat
  | .hbm => 14
  | .local .tc .vmem => 7
  | .local .scVector .vmem => 9
  | _ => 0

abbrev bufTy : (tb : Table) → Fin (nBuf tb) → BufTy
  | .hbm, ⟨0, _⟩ => ⟨S100000x3, .f32⟩
  | .hbm, ⟨1, _⟩ => ⟨S100000x128, .f32⟩
  | .hbm, ⟨2, _⟩ => ⟨S25000x3, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S1, .i32⟩
  | .hbm, ⟨7, _⟩ => ⟨S1, .i32⟩
  | .hbm, ⟨8, _⟩ => ⟨S25000x16, .i32⟩
  | .hbm, ⟨9, _⟩ => ⟨S1x128, .f32⟩
  | .hbm, ⟨10, _⟩ => ⟨S1x128, .f32⟩
  | .hbm, ⟨11, _⟩ => ⟨S100000x128, .f32⟩
  | .hbm, ⟨12, _⟩ => ⟨S400000, .i32⟩
  | .hbm, ⟨13, _⟩ => ⟨S25000x128, .f32⟩
  | .local .tc .vmem, ⟨0, _⟩ => ⟨S10000x128, .f32⟩
  | .local .tc .vmem, ⟨1, _⟩ => ⟨S10000x128, .f32⟩
  | .local .tc .vmem, ⟨2, _⟩ => ⟨S128x128, .f32⟩
  | .local .tc .vmem, ⟨3, _⟩ => ⟨S1x128, .f32⟩
  | .local .tc .vmem, ⟨4, _⟩ => ⟨S1x128, .f32⟩
  | .local .tc .vmem, ⟨5, _⟩ => ⟨S10000x128, .f32⟩
  | .local .tc .vmem, ⟨6, _⟩ => ⟨S10000x128, .f32⟩
  | .local .scVector .vmem, ⟨0, _⟩ => ⟨S12544, .i32⟩
  | .local .scVector .vmem, ⟨1, _⟩ => ⟨S128x128, .f32⟩
  | .local .scVector .vmem, ⟨2, _⟩ => ⟨S128x128, .f32⟩
  | .local .scVector .vmem, ⟨3, _⟩ => ⟨S128x128, .f32⟩
  | .local .scVector .vmem, ⟨4, _⟩ => ⟨S128x128, .f32⟩
  | .local .scVector .vmem, ⟨5, _⟩ => ⟨S8x128, .f32⟩
  | .local .scVector .vmem, ⟨6, _⟩ => ⟨S8x128, .f32⟩
  | .local .scVector .vmem, ⟨7, _⟩ => ⟨S8x128, .f32⟩
  | .local .scVector .vmem, ⟨8, _⟩ => ⟨S8x128, .f32⟩
  | _, _ => ⟨S100000x3, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | _ => false

abbrev sig : RefSig :=
  ofTables nBuf rfl bufTy 4 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v2_scv : Ref sig .scVector := ⟨.hbm, 11, rfl⟩
abbrev main_v3_scv : Ref sig .scVector := ⟨.hbm, 12, rfl⟩
abbrev main_v4_scv : Ref sig .scVector := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc1_scratch6 : Ref sig .scVector := ⟨.vmem, 6, rfl⟩
abbrev cc1_scratch7 : Ref sig .scVector := ⟨.vmem, 7, rfl⟩
abbrev cc1_scratch8 : Ref sig .scVector := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S10000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32_5 : BitVec 32 := 784#32
  let v22 : BitVec 32 := Scalar.muli v1 c784_i32_5
  let c24216_i32 : BitVec 32 := 24216#32
  let v23 : BitVec 32 := Scalar.minsi v22 c24216_i32
  let c16_i32_7 : BitVec 32 := 16#32
  let v27 : BitVec 32 := Scalar.muli v23 c16_i32_7
  ![v27.toNat]
def k1_cond1 (i : grid1.Coords) : BitVec 1 :=
  let c25000_i32 : BitVec 32 := 25000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := Scalar.subi c25000_i32 v2
  let c784_i32_0 : BitVec 32 := 784#32
  let v4 : BitVec 32 := Scalar.minsi v3 c784_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v4 c8_i32
  let c0_i32_4 : BitVec 32 := 0#32
  let v18 : BitVec 1 := Scalar.cmpi .ne v17 c0_i32_4
  let v19 : BitVec 1 := Scalar.andi v16 v18
  let v5 : BitVec 32 := Scalar.divsi v4 c8_i32
  let c1_i32 : BitVec 32 := 1#32
  let v20 : BitVec 32 := Scalar.subi v5 c1_i32
  let v21 : BitVec 32 := Scalar.select v19 v20 v5
  let c0_i32_8 : BitVec 32 := 0#32
  let v28 : BitVec 1 := Scalar.cmpi .sgt v21 c0_i32_8
  let v29 : BitVec 32 := Scalar.extui v28
  let c0_i32_9 : BitVec 32 := 0#32
  let v30 : BitVec 1 := Scalar.cmpi .ne v29 c0_i32_9
  v30

def k1_off2 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32_6 : BitVec 32 := 784#32
  let v24 : BitVec 32 := Scalar.muli v1 c784_i32_6
  let c784_i32_5 : BitVec 32 := 784#32
  let v22 : BitVec 32 := Scalar.muli v1 c784_i32_5
  let c24216_i32 : BitVec 32 := 24216#32
  let v23 : BitVec 32 := Scalar.minsi v22 c24216_i32
  let v25 : BitVec 32 := Scalar.subi v24 v23
  let c16_i32 : BitVec 32 := 16#32
  let v26 : BitVec 32 := Scalar.muli v25 c16_i32
  let c0_i32_36 : BitVec 32 := 0#32
  let v76 : BitVec 32 := Scalar.addi v26 c0_i32_36
  ![v76.toNat]
def k1_cond2 (i : grid1.Coords) : BitVec 1 :=
  let c25000_i32 : BitVec 32 := 25000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := Scalar.subi c25000_i32 v2
  let c784_i32_0 : BitVec 32 := 784#32
  let v4 : BitVec 32 := Scalar.minsi v3 c784_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v4 c8_i32
  let c0_i32_4 : BitVec 32 := 0#32
  let v18 : BitVec 1 := Scalar.cmpi .ne v17 c0_i32_4
  let v19 : BitVec 1 := Scalar.andi v16 v18
  let v5 : BitVec 32 := Scalar.divsi v4 c8_i32
  let c1_i32 : BitVec 32 := 1#32
  let v20 : BitVec 32 := Scalar.subi v5 c1_i32
  let v21 : BitVec 32 := Scalar.select v19 v20 v5
  let c1_i32_10 : BitVec 32 := 1#32
  let v31 : BitVec 1 := Scalar.cmpi .sgt v21 c1_i32_10
  let v32 : BitVec 32 := Scalar.extui v31
  let c0_i32_11 : BitVec 32 := 0#32
  let v33 : BitVec 1 := Scalar.cmpi .ne v32 c0_i32_11
  v33

def k1_off3 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32_6 : BitVec 32 := 784#32
  let v24 : BitVec 32 := Scalar.muli v1 c784_i32_6
  let c784_i32_5 : BitVec 32 := 784#32
  let v22 : BitVec 32 := Scalar.muli v1 c784_i32_5
  let c24216_i32 : BitVec 32 := 24216#32
  let v23 : BitVec 32 := Scalar.minsi v22 c24216_i32
  let v25 : BitVec 32 := Scalar.subi v24 v23
  let c16_i32 : BitVec 32 := 16#32
  let v26 : BitVec 32 := Scalar.muli v25 c16_i32
  let c128_i32 : BitVec 32 := 128#32
  let v76 : BitVec 32 := Scalar.addi v26 c128_i32
  ![v76.toNat]
def k1_cond3 (i : grid1.Coords) : BitVec 1 :=
  let c25000_i32 : BitVec 32 := 25000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := Scalar.subi c25000_i32 v2
  let c784_i32_0 : BitVec 32 := 784#32
  let v4 : BitVec 32 := Scalar.minsi v3 c784_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v4 c8_i32
  let c0_i32_4 : BitVec 32 := 0#32
  let v18 : BitVec 1 := Scalar.cmpi .ne v17 c0_i32_4
  let v19 : BitVec 1 := Scalar.andi v16 v18
  let v5 : BitVec 32 := Scalar.divsi v4 c8_i32
  let c1_i32 : BitVec 32 := 1#32
  let v20 : BitVec 32 := Scalar.subi v5 c1_i32
  let v21 : BitVec 32 := Scalar.select v19 v20 v5
  let c2_i32_12 : BitVec 32 := 2#32
  let v34 : BitVec 1 := Scalar.cmpi .sgt v21 c2_i32_12
  let v35 : BitVec 32 := Scalar.extui v34
  let c0_i32_13 : BitVec 32 := 0#32
  let v36 : BitVec 1 := Scalar.cmpi .ne v35 c0_i32_13
  v36

def k1_off4 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32_6 : BitVec 32 := 784#32
  let v24 : BitVec 32 := Scalar.muli v1 c784_i32_6
  let c784_i32_5 : BitVec 32 := 784#32
  let v22 : BitVec 32 := Scalar.muli v1 c784_i32_5
  let c24216_i32 : BitVec 32 := 24216#32
  let v23 : BitVec 32 := Scalar.minsi v22 c24216_i32
  let v25 : BitVec 32 := Scalar.subi v24 v23
  let c16_i32 : BitVec 32 := 16#32
  let v26 : BitVec 32 := Scalar.muli v25 c16_i32
  let c256_i32 : BitVec 32 := 256#32
  let v76 : BitVec 32 := Scalar.addi v26 c256_i32
  ![v76.toNat]
def k1_cond4 (i : grid1.Coords) : BitVec 1 :=
  let c25000_i32 : BitVec 32 := 25000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := Scalar.subi c25000_i32 v2
  let c784_i32_0 : BitVec 32 := 784#32
  let v4 : BitVec 32 := Scalar.minsi v3 c784_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v4 c8_i32
  let c0_i32_4 : BitVec 32 := 0#32
  let v18 : BitVec 1 := Scalar.cmpi .ne v17 c0_i32_4
  let v19 : BitVec 1 := Scalar.andi v16 v18
  let v5 : BitVec 32 := Scalar.divsi v4 c8_i32
  let c1_i32 : BitVec 32 := 1#32
  let v20 : BitVec 32 := Scalar.subi v5 c1_i32
  let v21 : BitVec 32 := Scalar.select v19 v20 v5
  let c3_i32 : BitVec 32 := 3#32
  let v37 : BitVec 1 := Scalar.cmpi .sgt v21 c3_i32
  let v38 : BitVec 32 := Scalar.extui v37
  let c0_i32_14 : BitVec 32 := 0#32
  let v39 : BitVec 1 := Scalar.cmpi .ne v38 c0_i32_14
  v39

def k1_off5 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32_6 : BitVec 32 := 784#32
  let v24 : BitVec 32 := Scalar.muli v1 c784_i32_6
  let c784_i32_5 : BitVec 32 := 784#32
  let v22 : BitVec 32 := Scalar.muli v1 c784_i32_5
  let c24216_i32 : BitVec 32 := 24216#32
  let v23 : BitVec 32 := Scalar.minsi v22 c24216_i32
  let v25 : BitVec 32 := Scalar.subi v24 v23
  let c16_i32 : BitVec 32 := 16#32
  let v26 : BitVec 32 := Scalar.muli v25 c16_i32
  let c384_i32 : BitVec 32 := 384#32
  let v76 : BitVec 32 := Scalar.addi v26 c384_i32
  ![v76.toNat]
@[reducible] def k1_t1_loop (i : grid1.Coords) : Scf.Loop 32 :=
  let c0_i32_24 : BitVec 32 := 0#32
  let c25000_i32 : BitVec 32 := 25000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := Scalar.subi c25000_i32 v2
  let c784_i32_0 : BitVec 32 := 784#32
  let v4 : BitVec 32 := Scalar.minsi v3 c784_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v4 c8_i32
  let c0_i32_4 : BitVec 32 := 0#32
  let v18 : BitVec 1 := Scalar.cmpi .ne v17 c0_i32_4
  let v19 : BitVec 1 := Scalar.andi v16 v18
  let v5 : BitVec 32 := Scalar.divsi v4 c8_i32
  let c1_i32 : BitVec 32 := 1#32
  let v20 : BitVec 32 := Scalar.subi v5 c1_i32
  let v21 : BitVec 32 := Scalar.select v19 v20 v5
  let c4_i32 : BitVec 32 := 4#32
  let v40 : BitVec 32 := Scalar.addi v21 c4_i32
  let c1_i32_15 : BitVec 32 := 1#32
  let v41 : BitVec 32 := Scalar.subi v40 c1_i32_15
  let c0_i32_17 : BitVec 32 := 0#32
  let v43 : BitVec 1 := Scalar.cmpi .sgt v41 c0_i32_17
  let v44 : BitVec 32 := Scalar.extui v43
  let c0_i32_18 : BitVec 32 := 0#32
  let v45 : BitVec 1 := Scalar.cmpi .slt v41 c0_i32_18
  let v46 : BitVec 32 := Scalar.extui v45
  let v47 : BitVec 32 := Scalar.subi v44 v46
  let c4_i32_16 : BitVec 32 := 4#32
  let c0_i32_19 : BitVec 32 := 0#32
  let v48 : BitVec 1 := Scalar.cmpi .sgt c4_i32_16 c0_i32_19
  let v49 : BitVec 32 := Scalar.extui v48
  let c0_i32_20 : BitVec 32 := 0#32
  let v50 : BitVec 1 := Scalar.cmpi .slt c4_i32_16 c0_i32_20
  let v51 : BitVec 32 := Scalar.extui v50
  let v52 : BitVec 32 := Scalar.subi v49 v51
  let v53 : BitVec 1 := Scalar.cmpi .ne v47 v52
  let v54 : BitVec 32 := Scalar.remsi v41 c4_i32_16
  let c0_i32_21 : BitVec 32 := 0#32
  let v55 : BitVec 1 := Scalar.cmpi .ne v54 c0_i32_21
  let v56 : BitVec 1 := Scalar.andi v53 v55
  let v42 : BitVec 32 := Scalar.divsi v41 c4_i32_16
  let c1_i32_22 : BitVec 32 := 1#32
  let v57 : BitVec 32 := Scalar.subi v42 c1_i32_22
  let v58 : BitVec 32 := Scalar.select v56 v57 v42
  let v59 : BitVec 32 := Scalar.subi v58 c0_i32_24
  let c1_i32_25 : BitVec 32 := 1#32
  let v61 : BitVec 32 := Scalar.divsi v59 c1_i32_25
  let v62 : BitVec 32 := Scalar.muli v61 c1_i32_25
  let v63 : BitVec 32 := Scalar.addi c0_i32_24 v62
  let c1_i32_26 : BitVec 32 := 1#32
  ⟨c0_i32_24, v63, c1_i32_26⟩
def k1_cond5 (i : grid1.Coords) (k1_t1 : Fin (k1_t1_loop i).trips) : BitVec 1 :=
  let c0_i32_24 : BitVec 32 := 0#32
  let c1_i32_26 : BitVec 32 := 1#32
  let arg22 : BitVec 32 := Scf.iv c0_i32_24 c1_i32_26 k1_t1
  let c4_i32_36 : BitVec 32 := 4#32
  let v76 : BitVec 32 := Scalar.muli arg22 c4_i32_36
  let c0_i32_37 : BitVec 32 := 0#32
  let v77 : BitVec 32 := Scalar.addi v76 c0_i32_37
  let c25000_i32 : BitVec 32 := 25000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := Scalar.subi c25000_i32 v2
  let c784_i32_0 : BitVec 32 := 784#32
  let v4 : BitVec 32 := Scalar.minsi v3 c784_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v4 c8_i32
  let c0_i32_4 : BitVec 32 := 0#32
  let v18 : BitVec 1 := Scalar.cmpi .ne v17 c0_i32_4
  let v19 : BitVec 1 := Scalar.andi v16 v18
  let v5 : BitVec 32 := Scalar.divsi v4 c8_i32
  let c1_i32 : BitVec 32 := 1#32
  let v20 : BitVec 32 := Scalar.subi v5 c1_i32
  let v21 : BitVec 32 := Scalar.select v19 v20 v5
  let v78 : BitVec 1 := Scalar.cmpi .slt v77 v21
  let v79 : BitVec 32 := Scalar.extui v78
  let c0_i32_38 : BitVec 32 := 0#32
  let v80 : BitVec 1 := Scalar.cmpi .ne v79 c0_i32_38
  v80

@[reducible] def k1_t2_loop : Scf.Loop 32 :=
  let c0_i32_51 : BitVec 32 := 0#32
  let c8_i32_52 : BitVec 32 := 8#32
  let v98 : BitVec 32 := Scalar.addi c0_i32_51 c8_i32_52
  let c1_i32_53 : BitVec 32 := 1#32
  ⟨c0_i32_51, v98, c1_i32_53⟩
def k1_off6 (k1_t2 : Fin k1_t2_loop.trips) (c0_i32_62 : BitVec 32) : Fin 2 → Nat :=
  let c0_i32_51 : BitVec 32 := 0#32
  let c1_i32_53 : BitVec 32 := 1#32
  let arg23 : BitVec 32 := Scf.iv c0_i32_51 c1_i32_53 k1_t2
  let c16_i32_61 : BitVec 32 := 16#32
  let v108 : BitVec 32 := Scalar.muli arg23 c16_i32_61
  let v109 : BitVec 32 := Scalar.addi v108 c0_i32_62
  let v110 : Index := Scalar.indexCast v109
  let c0 : Index := 0#32
  ![v110.toNat, 0]
def k1_off7 (k1_t2 : Fin k1_t2_loop.trips) : Fin 2 → Nat :=
  let c0_i32_51 : BitVec 32 := 0#32
  let c1_i32_53 : BitVec 32 := 1#32
  let arg23 : BitVec 32 := Scf.iv c0_i32_51 c1_i32_53 k1_t2
  let v203 : Index := Scalar.indexCast arg23
  let c0_98 : Index := 0#32
  ![v203.toNat, 0]
def k1_off8 (k1_t2 : Fin k1_t2_loop.trips) (c0_i32_100 : BitVec 32) : Fin 2 → Nat :=
  let c0_i32_51 : BitVec 32 := 0#32
  let c1_i32_53 : BitVec 32 := 1#32
  let arg23 : BitVec 32 := Scf.iv c0_i32_51 c1_i32_53 k1_t2
  let c16_i32_99 : BitVec 32 := 16#32
  let v207 : BitVec 32 := Scalar.muli arg23 c16_i32_99
  let v208 : BitVec 32 := Scalar.addi v207 c0_i32_100
  let v209 : Index := Scalar.indexCast v208
  let c16 : Index := 16#32
  ![v209.toNat, 16]
def k1_off9 (k1_t2 : Fin k1_t2_loop.trips) : Fin 2 → Nat :=
  let c0_i32_51 : BitVec 32 := 0#32
  let c1_i32_53 : BitVec 32 := 1#32
  let arg23 : BitVec 32 := Scf.iv c0_i32_51 c1_i32_53 k1_t2
  let v302 : Index := Scalar.indexCast arg23
  let c16_146 : Index := 16#32
  ![v302.toNat, 16]
def k1_off10 (k1_t2 : Fin k1_t2_loop.trips) (c0_i32_148 : BitVec 32) : Fin 2 → Nat :=
  let c0_i32_51 : BitVec 32 := 0#32
  let c1_i32_53 : BitVec 32 := 1#32
  let arg23 : BitVec 32 := Scf.iv c0_i32_51 c1_i32_53 k1_t2
  let c16_i32_147 : BitVec 32 := 16#32
  let v306 : BitVec 32 := Scalar.muli arg23 c16_i32_147
  let v307 : BitVec 32 := Scalar.addi v306 c0_i32_148
  let v308 : Index := Scalar.indexCast v307
  let c32 : Index := 32#32
  ![v308.toNat, 32]
def k1_off11 (k1_t2 : Fin k1_t2_loop.trips) : Fin 2 → Nat :=
  let c0_i32_51 : BitVec 32 := 0#32
  let c1_i32_53 : BitVec 32 := 1#32
  let arg23 : BitVec 32 := Scf.iv c0_i32_51 c1_i32_53 k1_t2
  let v401 : Index := Scalar.indexCast arg23
  let c32_194 : Index := 32#32
  ![v401.toNat, 32]
def k1_off12 (k1_t2 : Fin k1_t2_loop.trips) (c0_i32_196 : BitVec 32) : Fin 2 → Nat :=
  let c0_i32_51 : BitVec 32 := 0#32
  let c1_i32_53 : BitVec 32 := 1#32
  let arg23 : BitVec 32 := Scf.iv c0_i32_51 c1_i32_53 k1_t2
  let c16_i32_195 : BitVec 32 := 16#32
  let v405 : BitVec 32 := Scalar.muli arg23 c16_i32_195
  let v406 : BitVec 32 := Scalar.addi v405 c0_i32_196
  let v407 : Index := Scalar.indexCast v406
  let c48 : Index := 48#32
  ![v407.toNat, 48]
def k1_off13 (k1_t2 : Fin k1_t2_loop.trips) : Fin 2 → Nat :=
  let c0_i32_51 : BitVec 32 := 0#32
  let c1_i32_53 : BitVec 32 := 1#32
  let arg23 : BitVec 32 := Scf.iv c0_i32_51 c1_i32_53 k1_t2
  let v500 : Index := Scalar.indexCast arg23
  let c48_242 : Index := 48#32
  ![v500.toNat, 48]
def k1_off14 (k1_t2 : Fin k1_t2_loop.trips) (c0_i32_244 : BitVec 32) : Fin 2 → Nat :=
  let c0_i32_51 : BitVec 32 := 0#32
  let c1_i32_53 : BitVec 32 := 1#32
  let arg23 : BitVec 32 := Scf.iv c0_i32_51 c1_i32_53 k1_t2
  let c16_i32_243 : BitVec 32 := 16#32
  let v504 : BitVec 32 := Scalar.muli arg23 c16_i32_243
  let v505 : BitVec 32 := Scalar.addi v504 c0_i32_244
  let v506 : Index := Scalar.indexCast v505
  let c64 : Index := 64#32
  ![v506.toNat, 64]
def k1_off15 (k1_t2 : Fin k1_t2_loop.trips) : Fin 2 → Nat :=
  let c0_i32_51 : BitVec 32 := 0#32
  let c1_i32_53 : BitVec 32 := 1#32
  let arg23 : BitVec 32 := Scf.iv c0_i32_51 c1_i32_53 k1_t2
  let v599 : Index := Scalar.indexCast arg23
  let c64_290 : Index := 64#32
  ![v599.toNat, 64]
def k1_off16 (k1_t2 : Fin k1_t2_loop.trips) (c0_i32_292 : BitVec 32) : Fin 2 → Nat :=
  let c0_i32_51 : BitVec 32 := 0#32
  let c1_i32_53 : BitVec 32 := 1#32
  let arg23 : BitVec 32 := Scf.iv c0_i32_51 c1_i32_53 k1_t2
  let c16_i32_291 : BitVec 32 := 16#32
  let v603 : BitVec 32 := Scalar.muli arg23 c16_i32_291
  let v604 : BitVec 32 := Scalar.addi v603 c0_i32_292
  let v605 : Index := Scalar.indexCast v604
  let c80 : Index := 80#32
  ![v605.toNat, 80]
def k1_off17 (k1_t2 : Fin k1_t2_loop.trips) : Fin 2 → Nat :=
  let c0_i32_51 : BitVec 32 := 0#32
  let c1_i32_53 : BitVec 32 := 1#32
  let arg23 : BitVec 32 := Scf.iv c0_i32_51 c1_i32_53 k1_t2
  let v698 : Index := Scalar.indexCast arg23
  let c80_338 : Index := 80#32
  ![v698.toNat, 80]
def k1_off18 (k1_t2 : Fin k1_t2_loop.trips) (c0_i32_340 : BitVec 32) : Fin 2 → Nat :=
  let c0_i32_51 : BitVec 32 := 0#32
  let c1_i32_53 : BitVec 32 := 1#32
  let arg23 : BitVec 32 := Scf.iv c0_i32_51 c1_i32_53 k1_t2
  let c16_i32_339 : BitVec 32 := 16#32
  let v702 : BitVec 32 := Scalar.muli arg23 c16_i32_339
  let v703 : BitVec 32 := Scalar.addi v702 c0_i32_340
  let v704 : Index := Scalar.indexCast v703
  let c96 : Index := 96#32
  ![v704.toNat, 96]
def k1_off19 (k1_t2 : Fin k1_t2_loop.trips) : Fin 2 → Nat :=
  let c0_i32_51 : BitVec 32 := 0#32
  let c1_i32_53 : BitVec 32 := 1#32
  let arg23 : BitVec 32 := Scf.iv c0_i32_51 c1_i32_53 k1_t2
  let v797 : Index := Scalar.indexCast arg23
  let c96_386 : Index := 96#32
  ![v797.toNat, 96]
def k1_off20 (k1_t2 : Fin k1_t2_loop.trips) (c0_i32_388 : BitVec 32) : Fin 2 → Nat :=
  let c0_i32_51 : BitVec 32 := 0#32
  let c1_i32_53 : BitVec 32 := 1#32
  let arg23 : BitVec 32 := Scf.iv c0_i32_51 c1_i32_53 k1_t2
  let c16_i32_387 : BitVec 32 := 16#32
  let v801 : BitVec 32 := Scalar.muli arg23 c16_i32_387
  let v802 : BitVec 32 := Scalar.addi v801 c0_i32_388
  let v803 : Index := Scalar.indexCast v802
  let c112 : Index := 112#32
  ![v803.toNat, 112]
def k1_off21 (k1_t2 : Fin k1_t2_loop.trips) : Fin 2 → Nat :=
  let c0_i32_51 : BitVec 32 := 0#32
  let c1_i32_53 : BitVec 32 := 1#32
  let arg23 : BitVec 32 := Scf.iv c0_i32_51 c1_i32_53 k1_t2
  let v896 : Index := Scalar.indexCast arg23
  let c112_434 : Index := 112#32
  ![v896.toNat, 112]
def k1_off22 (i : grid1.Coords) (k1_t1 : Fin (k1_t1_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32_55 : BitVec 32 := 784#32
  let v99 : BitVec 32 := Scalar.muli v1 c784_i32_55
  let c0_i32_24 : BitVec 32 := 0#32
  let c1_i32_26 : BitVec 32 := 1#32
  let arg22 : BitVec 32 := Scf.iv c0_i32_24 c1_i32_26 k1_t1
  let c4_i32_36 : BitVec 32 := 4#32
  let v76 : BitVec 32 := Scalar.muli arg22 c4_i32_36
  let c0_i32_37 : BitVec 32 := 0#32
  let v77 : BitVec 32 := Scalar.addi v76 c0_i32_37
  let c8_i32_56 : BitVec 32 := 8#32
  let v100 : BitVec 32 := Scalar.muli v77 c8_i32_56
  let v101 : BitVec 32 := Scalar.addi v99 v100
  let c0_i32_57 : BitVec 32 := 0#32
  ![v101.toNat, 0]
def k1_cond7 (i : grid1.Coords) (k1_t1 : Fin (k1_t1_loop i).trips) : BitVec 1 :=
  let c0_i32_24 : BitVec 32 := 0#32
  let c1_i32_26 : BitVec 32 := 1#32
  let arg22 : BitVec 32 := Scf.iv c0_i32_24 c1_i32_26 k1_t1
  let c4_i32_36 : BitVec 32 := 4#32
  let v76 : BitVec 32 := Scalar.muli arg22 c4_i32_36
  let c0_i32_37 : BitVec 32 := 0#32
  let v77 : BitVec 32 := Scalar.addi v76 c0_i32_37
  let c4_i32_59 : BitVec 32 := 4#32
  let v104 : BitVec 32 := Scalar.addi v77 c4_i32_59
  let c25000_i32 : BitVec 32 := 25000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := Scalar.subi c25000_i32 v2
  let c784_i32_0 : BitVec 32 := 784#32
  let v4 : BitVec 32 := Scalar.minsi v3 c784_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v4 c8_i32
  let c0_i32_4 : BitVec 32 := 0#32
  let v18 : BitVec 1 := Scalar.cmpi .ne v17 c0_i32_4
  let v19 : BitVec 1 := Scalar.andi v16 v18
  let v5 : BitVec 32 := Scalar.divsi v4 c8_i32
  let c1_i32 : BitVec 32 := 1#32
  let v20 : BitVec 32 := Scalar.subi v5 c1_i32
  let v21 : BitVec 32 := Scalar.select v19 v20 v5
  let v105 : BitVec 1 := Scalar.cmpi .slt v104 v21
  let v106 : BitVec 32 := Scalar.extui v105
  let c0_i32_60 : BitVec 32 := 0#32
  let v107 : BitVec 1 := Scalar.cmpi .ne v106 c0_i32_60
  v107

def k1_off23 (i : grid1.Coords) (k1_t1 : Fin (k1_t1_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32_6 : BitVec 32 := 784#32
  let v24 : BitVec 32 := Scalar.muli v1 c784_i32_6
  let c784_i32_5 : BitVec 32 := 784#32
  let v22 : BitVec 32 := Scalar.muli v1 c784_i32_5
  let c24216_i32 : BitVec 32 := 24216#32
  let v23 : BitVec 32 := Scalar.minsi v22 c24216_i32
  let v25 : BitVec 32 := Scalar.subi v24 v23
  let c16_i32 : BitVec 32 := 16#32
  let v26 : BitVec 32 := Scalar.muli v25 c16_i32
  let c0_i32_24 : BitVec 32 := 0#32
  let c1_i32_26 : BitVec 32 := 1#32
  let arg22 : BitVec 32 := Scf.iv c0_i32_24 c1_i32_26 k1_t1
  let c4_i32_36 : BitVec 32 := 4#32
  let v76 : BitVec 32 := Scalar.muli arg22 c4_i32_36
  let c0_i32_37 : BitVec 32 := 0#32
  let v77 : BitVec 32 := Scalar.addi v76 c0_i32_37
  let c4_i32_61 : BitVec 32 := 4#32
  let v108 : BitVec 32 := Scalar.addi v77 c4_i32_61
  let c128_i32 : BitVec 32 := 128#32
  let v109 : BitVec 32 := Scalar.muli v108 c128_i32
  let v110 : BitVec 32 := Scalar.addi v26 v109
  ![v110.toNat]
def k1_cond8 (i : grid1.Coords) (k1_t1 : Fin (k1_t1_loop i).trips) : BitVec 1 :=
  let c0_i32_24 : BitVec 32 := 0#32
  let c1_i32_26 : BitVec 32 := 1#32
  let arg22 : BitVec 32 := Scf.iv c0_i32_24 c1_i32_26 k1_t1
  let c4_i32_36 : BitVec 32 := 4#32
  let v76 : BitVec 32 := Scalar.muli arg22 c4_i32_36
  let c1_i32_39 : BitVec 32 := 1#32
  let v81 : BitVec 32 := Scalar.addi v76 c1_i32_39
  let c25000_i32 : BitVec 32 := 25000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := Scalar.subi c25000_i32 v2
  let c784_i32_0 : BitVec 32 := 784#32
  let v4 : BitVec 32 := Scalar.minsi v3 c784_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v4 c8_i32
  let c0_i32_4 : BitVec 32 := 0#32
  let v18 : BitVec 1 := Scalar.cmpi .ne v17 c0_i32_4
  let v19 : BitVec 1 := Scalar.andi v16 v18
  let v5 : BitVec 32 := Scalar.divsi v4 c8_i32
  let c1_i32 : BitVec 32 := 1#32
  let v20 : BitVec 32 := Scalar.subi v5 c1_i32
  let v21 : BitVec 32 := Scalar.select v19 v20 v5
  let v82 : BitVec 1 := Scalar.cmpi .slt v81 v21
  let v83 : BitVec 32 := Scalar.extui v82
  let c0_i32_40 : BitVec 32 := 0#32
  let v84 : BitVec 1 := Scalar.cmpi .ne v83 c0_i32_40
  v84

@[reducible] def k1_t3_loop : Scf.Loop 32 :=
  let c0_i32_51 : BitVec 32 := 0#32
  let c8_i32_52 : BitVec 32 := 8#32
  let v98 : BitVec 32 := Scalar.addi c0_i32_51 c8_i32_52
  let c1_i32_53 : BitVec 32 := 1#32
  ⟨c0_i32_51, v98, c1_i32_53⟩
def k1_off24 (k1_t3 : Fin k1_t3_loop.trips) (c0_i32_62 : BitVec 32) : Fin 2 → Nat :=
  let c0_i32_51 : BitVec 32 := 0#32
  let c1_i32_53 : BitVec 32 := 1#32
  let arg23 : BitVec 32 := Scf.iv c0_i32_51 c1_i32_53 k1_t3
  let c16_i32_61 : BitVec 32 := 16#32
  let v108 : BitVec 32 := Scalar.muli arg23 c16_i32_61
  let v109 : BitVec 32 := Scalar.addi v108 c0_i32_62
  let v110 : Index := Scalar.indexCast v109
  let c0 : Index := 0#32
  ![v110.toNat, 0]
def k1_off25 (k1_t3 : Fin k1_t3_loop.trips) : Fin 2 → Nat :=
  let c0_i32_51 : BitVec 32 := 0#32
  let c1_i32_53 : BitVec 32 := 1#32
  let arg23 : BitVec 32 := Scf.iv c0_i32_51 c1_i32_53 k1_t3
  let v203 : Index := Scalar.indexCast arg23
  let c0_98 : Index := 0#32
  ![v203.toNat, 0]
def k1_off26 (k1_t3 : Fin k1_t3_loop.trips) (c0_i32_100 : BitVec 32) : Fin 2 → Nat :=
  let c0_i32_51 : BitVec 32 := 0#32
  let c1_i32_53 : BitVec 32 := 1#32
  let arg23 : BitVec 32 := Scf.iv c0_i32_51 c1_i32_53 k1_t3
  let c16_i32_99 : BitVec 32 := 16#32
  let v207 : BitVec 32 := Scalar.muli arg23 c16_i32_99
  let v208 : BitVec 32 := Scalar.addi v207 c0_i32_100
  let v209 : Index := Scalar.indexCast v208
  let c16 : Index := 16#32
  ![v209.toNat, 16]
def k1_off27 (k1_t3 : Fin k1_t3_loop.trips) : Fin 2 → Nat :=
  let c0_i32_51 : BitVec 32 := 0#32
  let c1_i32_53 : BitVec 32 := 1#32
  let arg23 : BitVec 32 := Scf.iv c0_i32_51 c1_i32_53 k1_t3
  let v302 : Index := Scalar.indexCast arg23
  let c16_146 : Index := 16#32
  ![v302.toNat, 16]
def k1_off28 (k1_t3 : Fin k1_t3_loop.trips) (c0_i32_148 : BitVec 32) : Fin 2 → Nat :=
  let c0_i32_51 : BitVec 32 := 0#32
  let c1_i32_53 : BitVec 32 := 1#32
  let arg23 : BitVec 32 := Scf.iv c0_i32_51 c1_i32_53 k1_t3
  let c16_i32_147 : BitVec 32 := 16#32
  let v306 : BitVec 32 := Scalar.muli arg23 c16_i32_147
  let v307 : BitVec 32 := Scalar.addi v306 c0_i32_148
  let v308 : Index := Scalar.indexCast v307
  let c32 : Index := 32#32
  ![v308.toNat, 32]
def k1_off29 (k1_t3 : Fin k1_t3_loop.trips) : Fin 2 → Nat :=
  let c0_i32_51 : BitVec 32 := 0#32
  let c1_i32_53 : BitVec 32 := 1#32
  let arg23 : BitVec 32 := Scf.iv c0_i32_51 c1_i32_53 k1_t3
  let v401 : Index := Scalar.indexCast arg23
  let c32_194 : Index := 32#32
  ![v401.toNat, 32]
def k1_off30 (k1_t3 : Fin k1_t3_loop.trips) (c0_i32_196 : BitVec 32) : Fin 2 → Nat :=
  let c0_i32_51 : BitVec 32 := 0#32
  let c1_i32_53 : BitVec 32 := 1#32
  let arg23 : BitVec 32 := Scf.iv c0_i32_51 c1_i32_53 k1_t3
  let c16_i32_195 : BitVec 32 := 16#32
  let v405 : BitVec 32 := Scalar.muli arg23 c16_i32_195
  let v406 : BitVec 32 := Scalar.addi v405 c0_i32_196
  let v407 : Index := Scalar.indexCast v406
  let c48 : Index := 48#32
  ![v407.toNat, 48]
def k1_off31 (k1_t3 : Fin k1_t3_loop.trips) : Fin 2 → Nat :=
  let c0_i32_51 : BitVec 32 := 0#32
  let c1_i32_53 : BitVec 32 := 1#32
  let arg23 : BitVec 32 := Scf.iv c0_i32_51 c1_i32_53 k1_t3
  let v500 : Index := Scalar.indexCast arg23
  let c48_242 : Index := 48#32
  ![v500.toNat, 48]
def k1_off32 (k1_t3 : Fin k1_t3_loop.trips) (c0_i32_244 : BitVec 32) : Fin 2 → Nat :=
  let c0_i32_51 : BitVec 32 := 0#32
  let c1_i32_53 : BitVec 32 := 1#32
  let arg23 : BitVec 32 := Scf.iv c0_i32_51 c1_i32_53 k1_t3
  let c16_i32_243 : BitVec 32 := 16#32
  let v504 : BitVec 32 := Scalar.muli arg23 c16_i32_243
  let v505 : BitVec 32 := Scalar.addi v504 c0_i32_244
  let v506 : Index := Scalar.indexCast v505
  let c64 : Index := 64#32
  ![v506.toNat, 64]
def k1_off33 (k1_t3 : Fin k1_t3_loop.trips) : Fin 2 → Nat :=
  let c0_i32_51 : BitVec 32 := 0#32
  let c1_i32_53 : BitVec 32 := 1#32
  let arg23 : BitVec 32 := Scf.iv c0_i32_51 c1_i32_53 k1_t3
  let v599 : Index := Scalar.indexCast arg23
  let c64_290 : Index := 64#32
  ![v599.toNat, 64]
def k1_off34 (k1_t3 : Fin k1_t3_loop.trips) (c0_i32_292 : BitVec 32) : Fin 2 → Nat :=
  let c0_i32_51 : BitVec 32 := 0#32
  let c1_i32_53 : BitVec 32 := 1#32
  let arg23 : BitVec 32 := Scf.iv c0_i32_51 c1_i32_53 k1_t3
  let c16_i32_291 : BitVec 32 := 16#32
  let v603 : BitVec 32 := Scalar.muli arg23 c16_i32_291
  let v604 : BitVec 32 := Scalar.addi v603 c0_i32_292
  let v605 : Index := Scalar.indexCast v604
  let c80 : Index := 80#32
  ![v605.toNat, 80]
def k1_off35 (k1_t3 : Fin k1_t3_loop.trips) : Fin 2 → Nat :=
  let c0_i32_51 : BitVec 32 := 0#32
  let c1_i32_53 : BitVec 32 := 1#32
  let arg23 : BitVec 32 := Scf.iv c0_i32_51 c1_i32_53 k1_t3
  let v698 : Index := Scalar.indexCast arg23
  let c80_338 : Index := 80#32
  ![v698.toNat, 80]
def k1_off36 (k1_t3 : Fin k1_t3_loop.trips) (c0_i32_340 : BitVec 32) : Fin 2 → Nat :=
  let c0_i32_51 : BitVec 32 := 0#32
  let c1_i32_53 : BitVec 32 := 1#32
  let arg23 : BitVec 32 := Scf.iv c0_i32_51 c1_i32_53 k1_t3
  let c16_i32_339 : BitVec 32 := 16#32
  let v702 : BitVec 32 := Scalar.muli arg23 c16_i32_339
  let v703 : BitVec 32 := Scalar.addi v702 c0_i32_340
  let v704 : Index := Scalar.indexCast v703
  let c96 : Index := 96#32
  ![v704.toNat, 96]
def k1_off37 (k1_t3 : Fin k1_t3_loop.trips) : Fin 2 → Nat :=
  let c0_i32_51 : BitVec 32 := 0#32
  let c1_i32_53 : BitVec 32 := 1#32
  let arg23 : BitVec 32 := Scf.iv c0_i32_51 c1_i32_53 k1_t3
  let v797 : Index := Scalar.indexCast arg23
  let c96_386 : Index := 96#32
  ![v797.toNat, 96]
def k1_off38 (k1_t3 : Fin k1_t3_loop.trips) (c0_i32_388 : BitVec 32) : Fin 2 → Nat :=
  let c0_i32_51 : BitVec 32 := 0#32
  let c1_i32_53 : BitVec 32 := 1#32
  let arg23 : BitVec 32 := Scf.iv c0_i32_51 c1_i32_53 k1_t3
  let c16_i32_387 : BitVec 32 := 16#32
  let v801 : BitVec 32 := Scalar.muli arg23 c16_i32_387
  let v802 : BitVec 32 := Scalar.addi v801 c0_i32_388
  let v803 : Index := Scalar.indexCast v802
  let c112 : Index := 112#32
  ![v803.toNat, 112]
def k1_off39 (k1_t3 : Fin k1_t3_loop.trips) : Fin 2 → Nat :=
  let c0_i32_51 : BitVec 32 := 0#32
  let c1_i32_53 : BitVec 32 := 1#32
  let arg23 : BitVec 32 := Scf.iv c0_i32_51 c1_i32_53 k1_t3
  let v896 : Index := Scalar.indexCast arg23
  let c112_434 : Index := 112#32
  ![v896.toNat, 112]
def k1_off40 (i : grid1.Coords) (k1_t1 : Fin (k1_t1_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32_55 : BitVec 32 := 784#32
  let v99 : BitVec 32 := Scalar.muli v1 c784_i32_55
  let c0_i32_24 : BitVec 32 := 0#32
  let c1_i32_26 : BitVec 32 := 1#32
  let arg22 : BitVec 32 := Scf.iv c0_i32_24 c1_i32_26 k1_t1
  let c4_i32_36 : BitVec 32 := 4#32
  let v76 : BitVec 32 := Scalar.muli arg22 c4_i32_36
  let c1_i32_39 : BitVec 32 := 1#32
  let v81 : BitVec 32 := Scalar.addi v76 c1_i32_39
  let c8_i32_56 : BitVec 32 := 8#32
  let v100 : BitVec 32 := Scalar.muli v81 c8_i32_56
  let v101 : BitVec 32 := Scalar.addi v99 v100
  let c0_i32_57 : BitVec 32 := 0#32
  ![v101.toNat, 0]
def k1_cond10 (i : grid1.Coords) (k1_t1 : Fin (k1_t1_loop i).trips) : BitVec 1 :=
  let c0_i32_24 : BitVec 32 := 0#32
  let c1_i32_26 : BitVec 32 := 1#32
  let arg22 : BitVec 32 := Scf.iv c0_i32_24 c1_i32_26 k1_t1
  let c4_i32_36 : BitVec 32 := 4#32
  let v76 : BitVec 32 := Scalar.muli arg22 c4_i32_36
  let c1_i32_39 : BitVec 32 := 1#32
  let v81 : BitVec 32 := Scalar.addi v76 c1_i32_39
  let c4_i32_59 : BitVec 32 := 4#32
  let v104 : BitVec 32 := Scalar.addi v81 c4_i32_59
  let c25000_i32 : BitVec 32 := 25000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := Scalar.subi c25000_i32 v2
  let c784_i32_0 : BitVec 32 := 784#32
  let v4 : BitVec 32 := Scalar.minsi v3 c784_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v4 c8_i32
  let c0_i32_4 : BitVec 32 := 0#32
  let v18 : BitVec 1 := Scalar.cmpi .ne v17 c0_i32_4
  let v19 : BitVec 1 := Scalar.andi v16 v18
  let v5 : BitVec 32 := Scalar.divsi v4 c8_i32
  let c1_i32 : BitVec 32 := 1#32
  let v20 : BitVec 32 := Scalar.subi v5 c1_i32
  let v21 : BitVec 32 := Scalar.select v19 v20 v5
  let v105 : BitVec 1 := Scalar.cmpi .slt v104 v21
  let v106 : BitVec 32 := Scalar.extui v105
  let c0_i32_60 : BitVec 32 := 0#32
  let v107 : BitVec 1 := Scalar.cmpi .ne v106 c0_i32_60
  v107

def k1_off41 (i : grid1.Coords) (k1_t1 : Fin (k1_t1_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32_6 : BitVec 32 := 784#32
  let v24 : BitVec 32 := Scalar.muli v1 c784_i32_6
  let c784_i32_5 : BitVec 32 := 784#32
  let v22 : BitVec 32 := Scalar.muli v1 c784_i32_5
  let c24216_i32 : BitVec 32 := 24216#32
  let v23 : BitVec 32 := Scalar.minsi v22 c24216_i32
  let v25 : BitVec 32 := Scalar.subi v24 v23
  let c16_i32 : BitVec 32 := 16#32
  let v26 : BitVec 32 := Scalar.muli v25 c16_i32
  let c0_i32_24 : BitVec 32 := 0#32
  let c1_i32_26 : BitVec 32 := 1#32
  let arg22 : BitVec 32 := Scf.iv c0_i32_24 c1_i32_26 k1_t1
  let c4_i32_36 : BitVec 32 := 4#32
  let v76 : BitVec 32 := Scalar.muli arg22 c4_i32_36
  let c1_i32_39 : BitVec 32 := 1#32
  let v81 : BitVec 32 := Scalar.addi v76 c1_i32_39
  let c4_i32_61 : BitVec 32 := 4#32
  let v108 : BitVec 32 := Scalar.addi v81 c4_i32_61
  let c128_i32 : BitVec 32 := 128#32
  let v109 : BitVec 32 := Scalar.muli v108 c128_i32
  let v110 : BitVec 32 := Scalar.addi v26 v109
  ![v110.toNat]
def k1_cond11 (i : grid1.Coords) (k1_t1 : Fin (k1_t1_loop i).trips) : BitVec 1 :=
  let c0_i32_24 : BitVec 32 := 0#32
  let c1_i32_26 : BitVec 32 := 1#32
  let arg22 : BitVec 32 := Scf.iv c0_i32_24 c1_i32_26 k1_t1
  let c4_i32_36 : BitVec 32 := 4#32
  let v76 : BitVec 32 := Scalar.muli arg22 c4_i32_36
  let c2_i32_41 : BitVec 32 := 2#32
  let v85 : BitVec 32 := Scalar.addi v76 c2_i32_41
  let c25000_i32 : BitVec 32 := 25000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := Scalar.subi c25000_i32 v2
  let c784_i32_0 : BitVec 32 := 784#32
  let v4 : BitVec 32 := Scalar.minsi v3 c784_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v4 c8_i32
  let c0_i32_4 : BitVec 32 := 0#32
  let v18 : BitVec 1 := Scalar.cmpi .ne v17 c0_i32_4
  let v19 : BitVec 1 := Scalar.andi v16 v18
  let v5 : BitVec 32 := Scalar.divsi v4 c8_i32
  let c1_i32 : BitVec 32 := 1#32
  let v20 : BitVec 32 := Scalar.subi v5 c1_i32
  let v21 : BitVec 32 := Scalar.select v19 v20 v5
  let v86 : BitVec 1 := Scalar.cmpi .slt v85 v21
  let v87 : BitVec 32 := Scalar.extui v86
  let c0_i32_42 : BitVec 32 := 0#32
  let v88 : BitVec 1 := Scalar.cmpi .ne v87 c0_i32_42
  v88

@[reducible] def k1_t4_loop : Scf.Loop 32 :=
  let c0_i32_51 : BitVec 32 := 0#32
  let c8_i32_52 : BitVec 32 := 8#32
  let v98 : BitVec 32 := Scalar.addi c0_i32_51 c8_i32_52
  let c1_i32_53 : BitVec 32 := 1#32
  ⟨c0_i32_51, v98, c1_i32_53⟩
def k1_off42 (k1_t4 : Fin k1_t4_loop.trips) (c0_i32_62 : BitVec 32) : Fin 2 → Nat :=
  let c0_i32_51 : BitVec 32 := 0#32
  let c1_i32_53 : BitVec 32 := 1#32
  let arg23 : BitVec 32 := Scf.iv c0_i32_51 c1_i32_53 k1_t4
  let c16_i32_61 : BitVec 32 := 16#32
  let v108 : BitVec 32 := Scalar.muli arg23 c16_i32_61
  let v109 : BitVec 32 := Scalar.addi v108 c0_i32_62
  let v110 : Index := Scalar.indexCast v109
  let c0 : Index := 0#32
  ![v110.toNat, 0]
def k1_off43 (k1_t4 : Fin k1_t4_loop.trips) : Fin 2 → Nat :=
  let c0_i32_51 : BitVec 32 := 0#32
  let c1_i32_53 : BitVec 32 := 1#32
  let arg23 : BitVec 32 := Scf.iv c0_i32_51 c1_i32_53 k1_t4
  let v203 : Index := Scalar.indexCast arg23
  let c0_98 : Index := 0#32
  ![v203.toNat, 0]
def k1_off44 (k1_t4 : Fin k1_t4_loop.trips) (c0_i32_100 : BitVec 32) : Fin 2 → Nat :=
  let c0_i32_51 : BitVec 32 := 0#32
  let c1_i32_53 : BitVec 32 := 1#32
  let arg23 : BitVec 32 := Scf.iv c0_i32_51 c1_i32_53 k1_t4
  let c16_i32_99 : BitVec 32 := 16#32
  let v207 : BitVec 32 := Scalar.muli arg23 c16_i32_99
  let v208 : BitVec 32 := Scalar.addi v207 c0_i32_100
  let v209 : Index := Scalar.indexCast v208
  let c16 : Index := 16#32
  ![v209.toNat, 16]
def k1_off45 (k1_t4 : Fin k1_t4_loop.trips) : Fin 2 → Nat :=
  let c0_i32_51 : BitVec 32 := 0#32
  let c1_i32_53 : BitVec 32 := 1#32
  let arg23 : BitVec 32 := Scf.iv c0_i32_51 c1_i32_53 k1_t4
  let v302 : Index := Scalar.indexCast arg23
  let c16_146 : Index := 16#32
  ![v302.toNat, 16]
def k1_off46 (k1_t4 : Fin k1_t4_loop.trips) (c0_i32_148 : BitVec 32) : Fin 2 → Nat :=
  let c0_i32_51 : BitVec 32 := 0#32
  let c1_i32_53 : BitVec 32 := 1#32
  let arg23 : BitVec 32 := Scf.iv c0_i32_51 c1_i32_53 k1_t4
  let c16_i32_147 : BitVec 32 := 16#32
  let v306 : BitVec 32 := Scalar.muli arg23 c16_i32_147
  let v307 : BitVec 32 := Scalar.addi v306 c0_i32_148
  let v308 : Index := Scalar.indexCast v307
  let c32 : Index := 32#32
  ![v308.toNat, 32]
def k1_off47 (k1_t4 : Fin k1_t4_loop.trips) : Fin 2 → Nat :=
  let c0_i32_51 : BitVec 32 := 0#32
  let c1_i32_53 : BitVec 32 := 1#32
  let arg23 : BitVec 32 := Scf.iv c0_i32_51 c1_i32_53 k1_t4
  let v401 : Index := Scalar.indexCast arg23
  let c32_194 : Index := 32#32
  ![v401.toNat, 32]
def k1_off48 (k1_t4 : Fin k1_t4_loop.trips) (c0_i32_196 : BitVec 32) : Fin 2 → Nat :=
  let c0_i32_51 : BitVec 32 := 0#32
  let c1_i32_53 : BitVec 32 := 1#32
  let arg23 : BitVec 32 := Scf.iv c0_i32_51 c1_i32_53 k1_t4
  let c16_i32_195 : BitVec 32 := 16#32
  let v405 : BitVec 32 := Scalar.muli arg23 c16_i32_195
  let v406 : BitVec 32 := Scalar.addi v405 c0_i32_196
  let v407 : Index := Scalar.indexCast v406
  let c48 : Index := 48#32
  ![v407.toNat, 48]
def k1_off49 (k1_t4 : Fin k1_t4_loop.trips) : Fin 2 → Nat :=
  let c0_i32_51 : BitVec 32 := 0#32
  let c1_i32_53 : BitVec 32 := 1#32
  let arg23 : BitVec 32 := Scf.iv c0_i32_51 c1_i32_53 k1_t4
  let v500 : Index := Scalar.indexCast arg23
  let c48_242 : Index := 48#32
  ![v500.toNat, 48]
def k1_off50 (k1_t4 : Fin k1_t4_loop.trips) (c0_i32_244 : BitVec 32) : Fin 2 → Nat :=
  let c0_i32_51 : BitVec 32 := 0#32
  let c1_i32_53 : BitVec 32 := 1#32
  let arg23 : BitVec 32 := Scf.iv c0_i32_51 c1_i32_53 k1_t4
  let c16_i32_243 : BitVec 32 := 16#32
  let v504 : BitVec 32 := Scalar.muli arg23 c16_i32_243
  let v505 : BitVec 32 := Scalar.addi v504 c0_i32_244
  let v506 : Index := Scalar.indexCast v505
  let c64 : Index := 64#32
  ![v506.toNat, 64]
def k1_off51 (k1_t4 : Fin k1_t4_loop.trips) : Fin 2 → Nat :=
  let c0_i32_51 : BitVec 32 := 0#32
  let c1_i32_53 : BitVec 32 := 1#32
  let arg23 : BitVec 32 := Scf.iv c0_i32_51 c1_i32_53 k1_t4
  let v599 : Index := Scalar.indexCast arg23
  let c64_290 : Index := 64#32
  ![v599.toNat, 64]
def k1_off52 (k1_t4 : Fin k1_t4_loop.trips) (c0_i32_292 : BitVec 32) : Fin 2 → Nat :=
  let c0_i32_51 : BitVec 32 := 0#32
  let c1_i32_53 : BitVec 32 := 1#32
  let arg23 : BitVec 32 := Scf.iv c0_i32_51 c1_i32_53 k1_t4
  let c16_i32_291 : BitVec 32 := 16#32
  let v603 : BitVec 32 := Scalar.muli arg23 c16_i32_291
  let v604 : BitVec 32 := Scalar.addi v603 c0_i32_292
  let v605 : Index := Scalar.indexCast v604
  let c80 : Index := 80#32
  ![v605.toNat, 80]
def k1_off53 (k1_t4 : Fin k1_t4_loop.trips) : Fin 2 → Nat :=
  let c0_i32_51 : BitVec 32 := 0#32
  let c1_i32_53 : BitVec 32 := 1#32
  let arg23 : BitVec 32 := Scf.iv c0_i32_51 c1_i32_53 k1_t4
  let v698 : Index := Scalar.indexCast arg23
  let c80_338 : Index := 80#32
  ![v698.toNat, 80]
def k1_off54 (k1_t4 : Fin k1_t4_loop.trips) (c0_i32_340 : BitVec 32) : Fin 2 → Nat :=
  let c0_i32_51 : BitVec 32 := 0#32
  let c1_i32_53 : BitVec 32 := 1#32
  let arg23 : BitVec 32 := Scf.iv c0_i32_51 c1_i32_53 k1_t4
  let c16_i32_339 : BitVec 32 := 16#32
  let v702 : BitVec 32 := Scalar.muli arg23 c16_i32_339
  let v703 : BitVec 32 := Scalar.addi v702 c0_i32_340
  let v704 : Index := Scalar.indexCast v703
  let c96 : Index := 96#32
  ![v704.toNat, 96]
def k1_off55 (k1_t4 : Fin k1_t4_loop.trips) : Fin 2 → Nat :=
  let c0_i32_51 : BitVec 32 := 0#32
  let c1_i32_53 : BitVec 32 := 1#32
  let arg23 : BitVec 32 := Scf.iv c0_i32_51 c1_i32_53 k1_t4
  let v797 : Index := Scalar.indexCast arg23
  let c96_386 : Index := 96#32
  ![v797.toNat, 96]
def k1_off56 (k1_t4 : Fin k1_t4_loop.trips) (c0_i32_388 : BitVec 32) : Fin 2 → Nat :=
  let c0_i32_51 : BitVec 32 := 0#32
  let c1_i32_53 : BitVec 32 := 1#32
  let arg23 : BitVec 32 := Scf.iv c0_i32_51 c1_i32_53 k1_t4
  let c16_i32_387 : BitVec 32 := 16#32
  let v801 : BitVec 32 := Scalar.muli arg23 c16_i32_387
  let v802 : BitVec 32 := Scalar.addi v801 c0_i32_388
  let v803 : Index := Scalar.indexCast v802
  let c112 : Index := 112#32
  ![v803.toNat, 112]
def k1_off57 (k1_t4 : Fin k1_t4_loop.trips) : Fin 2 → Nat :=
  let c0_i32_51 : BitVec 32 := 0#32
  let c1_i32_53 : BitVec 32 := 1#32
  let arg23 : BitVec 32 := Scf.iv c0_i32_51 c1_i32_53 k1_t4
  let v896 : Index := Scalar.indexCast arg23
  let c112_434 : Index := 112#32
  ![v896.toNat, 112]
def k1_off58 (i : grid1.Coords) (k1_t1 : Fin (k1_t1_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32_55 : BitVec 32 := 784#32
  let v99 : BitVec 32 := Scalar.muli v1 c784_i32_55
  let c0_i32_24 : BitVec 32 := 0#32
  let c1_i32_26 : BitVec 32 := 1#32
  let arg22 : BitVec 32 := Scf.iv c0_i32_24 c1_i32_26 k1_t1
  let c4_i32_36 : BitVec 32 := 4#32
  let v76 : BitVec 32 := Scalar.muli arg22 c4_i32_36
  let c2_i32_41 : BitVec 32 := 2#32
  let v85 : BitVec 32 := Scalar.addi v76 c2_i32_41
  let c8_i32_56 : BitVec 32 := 8#32
  let v100 : BitVec 32 := Scalar.muli v85 c8_i32_56
  let v101 : BitVec 32 := Scalar.addi v99 v100
  let c0_i32_57 : BitVec 32 := 0#32
  ![v101.toNat, 0]
def k1_cond13 (i : grid1.Coords) (k1_t1 : Fin (k1_t1_loop i).trips) : BitVec 1 :=
  let c0_i32_24 : BitVec 32 := 0#32
  let c1_i32_26 : BitVec 32 := 1#32
  let arg22 : BitVec 32 := Scf.iv c0_i32_24 c1_i32_26 k1_t1
  let c4_i32_36 : BitVec 32 := 4#32
  let v76 : BitVec 32 := Scalar.muli arg22 c4_i32_36
  let c2_i32_41 : BitVec 32 := 2#32
  let v85 : BitVec 32 := Scalar.addi v76 c2_i32_41
  let c4_i32_59 : BitVec 32 := 4#32
  let v104 : BitVec 32 := Scalar.addi v85 c4_i32_59
  let c25000_i32 : BitVec 32 := 25000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := Scalar.subi c25000_i32 v2
  let c784_i32_0 : BitVec 32 := 784#32
  let v4 : BitVec 32 := Scalar.minsi v3 c784_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v4 c8_i32
  let c0_i32_4 : BitVec 32 := 0#32
  let v18 : BitVec 1 := Scalar.cmpi .ne v17 c0_i32_4
  let v19 : BitVec 1 := Scalar.andi v16 v18
  let v5 : BitVec 32 := Scalar.divsi v4 c8_i32
  let c1_i32 : BitVec 32 := 1#32
  let v20 : BitVec 32 := Scalar.subi v5 c1_i32
  let v21 : BitVec 32 := Scalar.select v19 v20 v5
  let v105 : BitVec 1 := Scalar.cmpi .slt v104 v21
  let v106 : BitVec 32 := Scalar.extui v105
  let c0_i32_60 : BitVec 32 := 0#32
  let v107 : BitVec 1 := Scalar.cmpi .ne v106 c0_i32_60
  v107

def k1_off59 (i : grid1.Coords) (k1_t1 : Fin (k1_t1_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32_6 : BitVec 32 := 784#32
  let v24 : BitVec 32 := Scalar.muli v1 c784_i32_6
  let c784_i32_5 : BitVec 32 := 784#32
  let v22 : BitVec 32 := Scalar.muli v1 c784_i32_5
  let c24216_i32 : BitVec 32 := 24216#32
  let v23 : BitVec 32 := Scalar.minsi v22 c24216_i32
  let v25 : BitVec 32 := Scalar.subi v24 v23
  let c16_i32 : BitVec 32 := 16#32
  let v26 : BitVec 32 := Scalar.muli v25 c16_i32
  let c0_i32_24 : BitVec 32 := 0#32
  let c1_i32_26 : BitVec 32 := 1#32
  let arg22 : BitVec 32 := Scf.iv c0_i32_24 c1_i32_26 k1_t1
  let c4_i32_36 : BitVec 32 := 4#32
  let v76 : BitVec 32 := Scalar.muli arg22 c4_i32_36
  let c2_i32_41 : BitVec 32 := 2#32
  let v85 : BitVec 32 := Scalar.addi v76 c2_i32_41
  let c4_i32_61 : BitVec 32 := 4#32
  let v108 : BitVec 32 := Scalar.addi v85 c4_i32_61
  let c128_i32 : BitVec 32 := 128#32
  let v109 : BitVec 32 := Scalar.muli v108 c128_i32
  let v110 : BitVec 32 := Scalar.addi v26 v109
  ![v110.toNat]
def k1_cond14 (i : grid1.Coords) (k1_t1 : Fin (k1_t1_loop i).trips) : BitVec 1 :=
  let c0_i32_24 : BitVec 32 := 0#32
  let c1_i32_26 : BitVec 32 := 1#32
  let arg22 : BitVec 32 := Scf.iv c0_i32_24 c1_i32_26 k1_t1
  let c4_i32_36 : BitVec 32 := 4#32
  let v76 : BitVec 32 := Scalar.muli arg22 c4_i32_36
  let c3_i32_43 : BitVec 32 := 3#32
  let v89 : BitVec 32 := Scalar.addi v76 c3_i32_43
  let c25000_i32 : BitVec 32 := 25000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := Scalar.subi c25000_i32 v2
  let c784_i32_0 : BitVec 32 := 784#32
  let v4 : BitVec 32 := Scalar.minsi v3 c784_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v4 c8_i32
  let c0_i32_4 : BitVec 32 := 0#32
  let v18 : BitVec 1 := Scalar.cmpi .ne v17 c0_i32_4
  let v19 : BitVec 1 := Scalar.andi v16 v18
  let v5 : BitVec 32 := Scalar.divsi v4 c8_i32
  let c1_i32 : BitVec 32 := 1#32
  let v20 : BitVec 32 := Scalar.subi v5 c1_i32
  let v21 : BitVec 32 := Scalar.select v19 v20 v5
  let v90 : BitVec 1 := Scalar.cmpi .slt v89 v21
  let v91 : BitVec 32 := Scalar.extui v90
  let c0_i32_44 : BitVec 32 := 0#32
  let v92 : BitVec 1 := Scalar.cmpi .ne v91 c0_i32_44
  v92

@[reducible] def k1_t5_loop : Scf.Loop 32 :=
  let c0_i32_51 : BitVec 32 := 0#32
  let c8_i32_52 : BitVec 32 := 8#32
  let v98 : BitVec 32 := Scalar.addi c0_i32_51 c8_i32_52
  let c1_i32_53 : BitVec 32 := 1#32
  ⟨c0_i32_51, v98, c1_i32_53⟩
def k1_off60 (k1_t5 : Fin k1_t5_loop.trips) (c0_i32_62 : BitVec 32) : Fin 2 → Nat :=
  let c0_i32_51 : BitVec 32 := 0#32
  let c1_i32_53 : BitVec 32 := 1#32
  let arg23 : BitVec 32 := Scf.iv c0_i32_51 c1_i32_53 k1_t5
  let c16_i32_61 : BitVec 32 := 16#32
  let v108 : BitVec 32 := Scalar.muli arg23 c16_i32_61
  let v109 : BitVec 32 := Scalar.addi v108 c0_i32_62
  let v110 : Index := Scalar.indexCast v109
  let c0 : Index := 0#32
  ![v110.toNat, 0]
def k1_off61 (k1_t5 : Fin k1_t5_loop.trips) : Fin 2 → Nat :=
  let c0_i32_51 : BitVec 32 := 0#32
  let c1_i32_53 : BitVec 32 := 1#32
  let arg23 : BitVec 32 := Scf.iv c0_i32_51 c1_i32_53 k1_t5
  let v203 : Index := Scalar.indexCast arg23
  let c0_98 : Index := 0#32
  ![v203.toNat, 0]
def k1_off62 (k1_t5 : Fin k1_t5_loop.trips) (c0_i32_100 : BitVec 32) : Fin 2 → Nat :=
  let c0_i32_51 : BitVec 32 := 0#32
  let c1_i32_53 : BitVec 32 := 1#32
  let arg23 : BitVec 32 := Scf.iv c0_i32_51 c1_i32_53 k1_t5
  let c16_i32_99 : BitVec 32 := 16#32
  let v207 : BitVec 32 := Scalar.muli arg23 c16_i32_99
  let v208 : BitVec 32 := Scalar.addi v207 c0_i32_100
  let v209 : Index := Scalar.indexCast v208
  let c16 : Index := 16#32
  ![v209.toNat, 16]
def k1_off63 (k1_t5 : Fin k1_t5_loop.trips) : Fin 2 → Nat :=
  let c0_i32_51 : BitVec 32 := 0#32
  let c1_i32_53 : BitVec 32 := 1#32
  let arg23 : BitVec 32 := Scf.iv c0_i32_51 c1_i32_53 k1_t5
  let v302 : Index := Scalar.indexCast arg23
  let c16_146 : Index := 16#32
  ![v302.toNat, 16]
def k1_off64 (k1_t5 : Fin k1_t5_loop.trips) (c0_i32_148 : BitVec 32) : Fin 2 → Nat :=
  let c0_i32_51 : BitVec 32 := 0#32
  let c1_i32_53 : BitVec 32 := 1#32
  let arg23 : BitVec 32 := Scf.iv c0_i32_51 c1_i32_53 k1_t5
  let c16_i32_147 : BitVec 32 := 16#32
  let v306 : BitVec 32 := Scalar.muli arg23 c16_i32_147
  let v307 : BitVec 32 := Scalar.addi v306 c0_i32_148
  let v308 : Index := Scalar.indexCast v307
  let c32 : Index := 32#32
  ![v308.toNat, 32]
def k1_off65 (k1_t5 : Fin k1_t5_loop.trips) : Fin 2 → Nat :=
  let c0_i32_51 : BitVec 32 := 0#32
  let c1_i32_53 : BitVec 32 := 1#32
  let arg23 : BitVec 32 := Scf.iv c0_i32_51 c1_i32_53 k1_t5
  let v401 : Index := Scalar.indexCast arg23
  let c32_194 : Index := 32#32
  ![v401.toNat, 32]
def k1_off66 (k1_t5 : Fin k1_t5_loop.trips) (c0_i32_196 : BitVec 32) : Fin 2 → Nat :=
  let c0_i32_51 : BitVec 32 := 0#32
  let c1_i32_53 : BitVec 32 := 1#32
  let arg23 : BitVec 32 := Scf.iv c0_i32_51 c1_i32_53 k1_t5
  let c16_i32_195 : BitVec 32 := 16#32
  let v405 : BitVec 32 := Scalar.muli arg23 c16_i32_195
  let v406 : BitVec 32 := Scalar.addi v405 c0_i32_196
  let v407 : Index := Scalar.indexCast v406
  let c48 : Index := 48#32
  ![v407.toNat, 48]
def k1_off67 (k1_t5 : Fin k1_t5_loop.trips) : Fin 2 → Nat :=
  let c0_i32_51 : BitVec 32 := 0#32
  let c1_i32_53 : BitVec 32 := 1#32
  let arg23 : BitVec 32 := Scf.iv c0_i32_51 c1_i32_53 k1_t5
  let v500 : Index := Scalar.indexCast arg23
  let c48_242 : Index := 48#32
  ![v500.toNat, 48]
def k1_off68 (k1_t5 : Fin k1_t5_loop.trips) (c0_i32_244 : BitVec 32) : Fin 2 → Nat :=
  let c0_i32_51 : BitVec 32 := 0#32
  let c1_i32_53 : BitVec 32 := 1#32
  let arg23 : BitVec 32 := Scf.iv c0_i32_51 c1_i32_53 k1_t5
  let c16_i32_243 : BitVec 32 := 16#32
  let v504 : BitVec 32 := Scalar.muli arg23 c16_i32_243
  let v505 : BitVec 32 := Scalar.addi v504 c0_i32_244
  let v506 : Index := Scalar.indexCast v505
  let c64 : Index := 64#32
  ![v506.toNat, 64]
def k1_off69 (k1_t5 : Fin k1_t5_loop.trips) : Fin 2 → Nat :=
  let c0_i32_51 : BitVec 32 := 0#32
  let c1_i32_53 : BitVec 32 := 1#32
  let arg23 : BitVec 32 := Scf.iv c0_i32_51 c1_i32_53 k1_t5
  let v599 : Index := Scalar.indexCast arg23
  let c64_290 : Index := 64#32
  ![v599.toNat, 64]
def k1_off70 (k1_t5 : Fin k1_t5_loop.trips) (c0_i32_292 : BitVec 32) : Fin 2 → Nat :=
  let c0_i32_51 : BitVec 32 := 0#32
  let c1_i32_53 : BitVec 32 := 1#32
  let arg23 : BitVec 32 := Scf.iv c0_i32_51 c1_i32_53 k1_t5
  let c16_i32_291 : BitVec 32 := 16#32
  let v603 : BitVec 32 := Scalar.muli arg23 c16_i32_291
  let v604 : BitVec 32 := Scalar.addi v603 c0_i32_292
  let v605 : Index := Scalar.indexCast v604
  let c80 : Index := 80#32
  ![v605.toNat, 80]
def k1_off71 (k1_t5 : Fin k1_t5_loop.trips) : Fin 2 → Nat :=
  let c0_i32_51 : BitVec 32 := 0#32
  let c1_i32_53 : BitVec 32 := 1#32
  let arg23 : BitVec 32 := Scf.iv c0_i32_51 c1_i32_53 k1_t5
  let v698 : Index := Scalar.indexCast arg23
  let c80_338 : Index := 80#32
  ![v698.toNat, 80]
def k1_off72 (k1_t5 : Fin k1_t5_loop.trips) (c0_i32_340 : BitVec 32) : Fin 2 → Nat :=
  let c0_i32_51 : BitVec 32 := 0#32
  let c1_i32_53 : BitVec 32 := 1#32
  let arg23 : BitVec 32 := Scf.iv c0_i32_51 c1_i32_53 k1_t5
  let c16_i32_339 : BitVec 32 := 16#32
  let v702 : BitVec 32 := Scalar.muli arg23 c16_i32_339
  let v703 : BitVec 32 := Scalar.addi v702 c0_i32_340
  let v704 : Index := Scalar.indexCast v703
  let c96 : Index := 96#32
  ![v704.toNat, 96]
def k1_off73 (k1_t5 : Fin k1_t5_loop.trips) : Fin 2 → Nat :=
  let c0_i32_51 : BitVec 32 := 0#32
  let c1_i32_53 : BitVec 32 := 1#32
  let arg23 : BitVec 32 := Scf.iv c0_i32_51 c1_i32_53 k1_t5
  let v797 : Index := Scalar.indexCast arg23
  let c96_386 : Index := 96#32
  ![v797.toNat, 96]
def k1_off74 (k1_t5 : Fin k1_t5_loop.trips) (c0_i32_388 : BitVec 32) : Fin 2 → Nat :=
  let c0_i32_51 : BitVec 32 := 0#32
  let c1_i32_53 : BitVec 32 := 1#32
  let arg23 : BitVec 32 := Scf.iv c0_i32_51 c1_i32_53 k1_t5
  let c16_i32_387 : BitVec 32 := 16#32
  let v801 : BitVec 32 := Scalar.muli arg23 c16_i32_387
  let v802 : BitVec 32 := Scalar.addi v801 c0_i32_388
  let v803 : Index := Scalar.indexCast v802
  let c112 : Index := 112#32
  ![v803.toNat, 112]
def k1_off75 (k1_t5 : Fin k1_t5_loop.trips) : Fin 2 → Nat :=
  let c0_i32_51 : BitVec 32 := 0#32
  let c1_i32_53 : BitVec 32 := 1#32
  let arg23 : BitVec 32 := Scf.iv c0_i32_51 c1_i32_53 k1_t5
  let v896 : Index := Scalar.indexCast arg23
  let c112_434 : Index := 112#32
  ![v896.toNat, 112]
def k1_off76 (i : grid1.Coords) (k1_t1 : Fin (k1_t1_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32_55 : BitVec 32 := 784#32
  let v99 : BitVec 32 := Scalar.muli v1 c784_i32_55
  let c0_i32_24 : BitVec 32 := 0#32
  let c1_i32_26 : BitVec 32 := 1#32
  let arg22 : BitVec 32 := Scf.iv c0_i32_24 c1_i32_26 k1_t1
  let c4_i32_36 : BitVec 32 := 4#32
  let v76 : BitVec 32 := Scalar.muli arg22 c4_i32_36
  let c3_i32_43 : BitVec 32 := 3#32
  let v89 : BitVec 32 := Scalar.addi v76 c3_i32_43
  let c8_i32_56 : BitVec 32 := 8#32
  let v100 : BitVec 32 := Scalar.muli v89 c8_i32_56
  let v101 : BitVec 32 := Scalar.addi v99 v100
  let c0_i32_57 : BitVec 32 := 0#32
  ![v101.toNat, 0]
def k1_cond16 (i : grid1.Coords) (k1_t1 : Fin (k1_t1_loop i).trips) : BitVec 1 :=
  let c0_i32_24 : BitVec 32 := 0#32
  let c1_i32_26 : BitVec 32 := 1#32
  let arg22 : BitVec 32 := Scf.iv c0_i32_24 c1_i32_26 k1_t1
  let c4_i32_36 : BitVec 32 := 4#32
  let v76 : BitVec 32 := Scalar.muli arg22 c4_i32_36
  let c3_i32_43 : BitVec 32 := 3#32
  let v89 : BitVec 32 := Scalar.addi v76 c3_i32_43
  let c4_i32_59 : BitVec 32 := 4#32
  let v104 : BitVec 32 := Scalar.addi v89 c4_i32_59
  let c25000_i32 : BitVec 32 := 25000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := Scalar.subi c25000_i32 v2
  let c784_i32_0 : BitVec 32 := 784#32
  let v4 : BitVec 32 := Scalar.minsi v3 c784_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v4 c8_i32
  let c0_i32_4 : BitVec 32 := 0#32
  let v18 : BitVec 1 := Scalar.cmpi .ne v17 c0_i32_4
  let v19 : BitVec 1 := Scalar.andi v16 v18
  let v5 : BitVec 32 := Scalar.divsi v4 c8_i32
  let c1_i32 : BitVec 32 := 1#32
  let v20 : BitVec 32 := Scalar.subi v5 c1_i32
  let v21 : BitVec 32 := Scalar.select v19 v20 v5
  let v105 : BitVec 1 := Scalar.cmpi .slt v104 v21
  let v106 : BitVec 32 := Scalar.extui v105
  let c0_i32_60 : BitVec 32 := 0#32
  let v107 : BitVec 1 := Scalar.cmpi .ne v106 c0_i32_60
  v107

def k1_off77 (i : grid1.Coords) (k1_t1 : Fin (k1_t1_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32_6 : BitVec 32 := 784#32
  let v24 : BitVec 32 := Scalar.muli v1 c784_i32_6
  let c784_i32_5 : BitVec 32 := 784#32
  let v22 : BitVec 32 := Scalar.muli v1 c784_i32_5
  let c24216_i32 : BitVec 32 := 24216#32
  let v23 : BitVec 32 := Scalar.minsi v22 c24216_i32
  let v25 : BitVec 32 := Scalar.subi v24 v23
  let c16_i32 : BitVec 32 := 16#32
  let v26 : BitVec 32 := Scalar.muli v25 c16_i32
  let c0_i32_24 : BitVec 32 := 0#32
  let c1_i32_26 : BitVec 32 := 1#32
  let arg22 : BitVec 32 := Scf.iv c0_i32_24 c1_i32_26 k1_t1
  let c4_i32_36 : BitVec 32 := 4#32
  let v76 : BitVec 32 := Scalar.muli arg22 c4_i32_36
  let c3_i32_43 : BitVec 32 := 3#32
  let v89 : BitVec 32 := Scalar.addi v76 c3_i32_43
  let c4_i32_61 : BitVec 32 := 4#32
  let v108 : BitVec 32 := Scalar.addi v89 c4_i32_61
  let c128_i32 : BitVec 32 := 128#32
  let v109 : BitVec 32 := Scalar.muli v108 c128_i32
  let v110 : BitVec 32 := Scalar.addi v26 v109
  ![v110.toNat]
@[reducible] def k1_t6_loop (i : grid1.Coords) : Scf.Loop 32 :=
  let c0_i32_24 : BitVec 32 := 0#32
  let c25000_i32 : BitVec 32 := 25000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := Scalar.subi c25000_i32 v2
  let c784_i32_0 : BitVec 32 := 784#32
  let v4 : BitVec 32 := Scalar.minsi v3 c784_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v4 c8_i32
  let c0_i32_4 : BitVec 32 := 0#32
  let v18 : BitVec 1 := Scalar.cmpi .ne v17 c0_i32_4
  let v19 : BitVec 1 := Scalar.andi v16 v18
  let v5 : BitVec 32 := Scalar.divsi v4 c8_i32
  let c1_i32 : BitVec 32 := 1#32
  let v20 : BitVec 32 := Scalar.subi v5 c1_i32
  let v21 : BitVec 32 := Scalar.select v19 v20 v5
  let c4_i32 : BitVec 32 := 4#32
  let v40 : BitVec 32 := Scalar.addi v21 c4_i32
  let c1_i32_15 : BitVec 32 := 1#32
  let v41 : BitVec 32 := Scalar.subi v40 c1_i32_15
  let c0_i32_17 : BitVec 32 := 0#32
  let v43 : BitVec 1 := Scalar.cmpi .sgt v41 c0_i32_17
  let v44 : BitVec 32 := Scalar.extui v43
  let c0_i32_18 : BitVec 32 := 0#32
  let v45 : BitVec 1 := Scalar.cmpi .slt v41 c0_i32_18
  let v46 : BitVec 32 := Scalar.extui v45
  let v47 : BitVec 32 := Scalar.subi v44 v46
  let c4_i32_16 : BitVec 32 := 4#32
  let c0_i32_19 : BitVec 32 := 0#32
  let v48 : BitVec 1 := Scalar.cmpi .sgt c4_i32_16 c0_i32_19
  let v49 : BitVec 32 := Scalar.extui v48
  let c0_i32_20 : BitVec 32 := 0#32
  let v50 : BitVec 1 := Scalar.cmpi .slt c4_i32_16 c0_i32_20
  let v51 : BitVec 32 := Scalar.extui v50
  let v52 : BitVec 32 := Scalar.subi v49 v51
  let v53 : BitVec 1 := Scalar.cmpi .ne v47 v52
  let v54 : BitVec 32 := Scalar.remsi v41 c4_i32_16
  let c0_i32_21 : BitVec 32 := 0#32
  let v55 : BitVec 1 := Scalar.cmpi .ne v54 c0_i32_21
  let v56 : BitVec 1 := Scalar.andi v53 v55
  let v42 : BitVec 32 := Scalar.divsi v41 c4_i32_16
  let c1_i32_22 : BitVec 32 := 1#32
  let v57 : BitVec 32 := Scalar.subi v42 c1_i32_22
  let v58 : BitVec 32 := Scalar.select v56 v57 v42
  let v59 : BitVec 32 := Scalar.subi v58 c0_i32_24
  let c1_i32_25 : BitVec 32 := 1#32
  let v61 : BitVec 32 := Scalar.divsi v59 c1_i32_25
  let v62 : BitVec 32 := Scalar.muli v61 c1_i32_25
  let v63 : BitVec 32 := Scalar.addi c0_i32_24 v62
  let v60 : BitVec 32 := Scalar.addi c0_i32_24 v59
  let c1_i32_27 : BitVec 32 := 1#32
  ⟨v63, v60, c1_i32_27⟩
def k1_cond17 (i : grid1.Coords) (k1_t6 : Fin (k1_t6_loop i).trips) : BitVec 1 :=
  let c0_i32_24 : BitVec 32 := 0#32
  let c25000_i32 : BitVec 32 := 25000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := Scalar.subi c25000_i32 v2
  let c784_i32_0 : BitVec 32 := 784#32
  let v4 : BitVec 32 := Scalar.minsi v3 c784_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v4 c8_i32
  let c0_i32_4 : BitVec 32 := 0#32
  let v18 : BitVec 1 := Scalar.cmpi .ne v17 c0_i32_4
  let v19 : BitVec 1 := Scalar.andi v16 v18
  let v5 : BitVec 32 := Scalar.divsi v4 c8_i32
  let c1_i32 : BitVec 32 := 1#32
  let v20 : BitVec 32 := Scalar.subi v5 c1_i32
  let v21 : BitVec 32 := Scalar.select v19 v20 v5
  let c4_i32 : BitVec 32 := 4#32
  let v40 : BitVec 32 := Scalar.addi v21 c4_i32
  let c1_i32_15 : BitVec 32 := 1#32
  let v41 : BitVec 32 := Scalar.subi v40 c1_i32_15
  let c0_i32_17 : BitVec 32 := 0#32
  let v43 : BitVec 1 := Scalar.cmpi .sgt v41 c0_i32_17
  let v44 : BitVec 32 := Scalar.extui v43
  let c0_i32_18 : BitVec 32 := 0#32
  let v45 : BitVec 1 := Scalar.cmpi .slt v41 c0_i32_18
  let v46 : BitVec 32 := Scalar.extui v45
  let v47 : BitVec 32 := Scalar.subi v44 v46
  let c4_i32_16 : BitVec 32 := 4#32
  let c0_i32_19 : BitVec 32 := 0#32
  let v48 : BitVec 1 := Scalar.cmpi .sgt c4_i32_16 c0_i32_19
  let v49 : BitVec 32 := Scalar.extui v48
  let c0_i32_20 : BitVec 32 := 0#32
  let v50 : BitVec 1 := Scalar.cmpi .slt c4_i32_16 c0_i32_20
  let v51 : BitVec 32 := Scalar.extui v50
  let v52 : BitVec 32 := Scalar.subi v49 v51
  let v53 : BitVec 1 := Scalar.cmpi .ne v47 v52
  let v54 : BitVec 32 := Scalar.remsi v41 c4_i32_16
  let c0_i32_21 : BitVec 32 := 0#32
  let v55 : BitVec 1 := Scalar.cmpi .ne v54 c0_i32_21
  let v56 : BitVec 1 := Scalar.andi v53 v55
  let v42 : BitVec 32 := Scalar.divsi v41 c4_i32_16
  let c1_i32_22 : BitVec 32 := 1#32
  let v57 : BitVec 32 := Scalar.subi v42 c1_i32_22
  let v58 : BitVec 32 := Scalar.select v56 v57 v42
  let v59 : BitVec 32 := Scalar.subi v58 c0_i32_24
  let c1_i32_25 : BitVec 32 := 1#32
  let v61 : BitVec 32 := Scalar.divsi v59 c1_i32_25
  let v62 : BitVec 32 := Scalar.muli v61 c1_i32_25
  let v63 : BitVec 32 := Scalar.addi c0_i32_24 v62
  let c1_i32_27 : BitVec 32 := 1#32
  let arg22 : BitVec 32 := Scf.iv v63 c1_i32_27 k1_t6
  let c4_i32_36 : BitVec 32 := 4#32
  let v76 : BitVec 32 := Scalar.muli arg22 c4_i32_36
  let c0_i32_37 : BitVec 32 := 0#32
  let v77 : BitVec 32 := Scalar.addi v76 c0_i32_37
  let v78 : BitVec 1 := Scalar.cmpi .slt v77 v21
  let v79 : BitVec 32 := Scalar.extui v78
  let c0_i32_38 : BitVec 32 := 0#32
  let v80 : BitVec 1 := Scalar.cmpi .ne v79 c0_i32_38
  v80

@[reducible] def k1_t7_loop : Scf.Loop 32 :=
  let c0_i32_51 : BitVec 32 := 0#32
  let c8_i32_52 : BitVec 32 := 8#32
  let v98 : BitVec 32 := Scalar.addi c0_i32_51 c8_i32_52
  let c1_i32_53 : BitVec 32 := 1#32
  ⟨c0_i32_51, v98, c1_i32_53⟩
def k1_off78 (k1_t7 : Fin k1_t7_loop.trips) (c0_i32_62 : BitVec 32) : Fin 2 → Nat :=
  let c0_i32_51 : BitVec 32 := 0#32
  let c1_i32_53 : BitVec 32 := 1#32
  let arg23 : BitVec 32 := Scf.iv c0_i32_51 c1_i32_53 k1_t7
  let c16_i32_61 : BitVec 32 := 16#32
  let v108 : BitVec 32 := Scalar.muli arg23 c16_i32_61
  let v109 : BitVec 32 := Scalar.addi v108 c0_i32_62
  let v110 : Index := Scalar.indexCast v109
  let c0 : Index := 0#32
  ![v110.toNat, 0]
def k1_off79 (k1_t7 : Fin k1_t7_loop.trips) : Fin 2 → Nat :=
  let c0_i32_51 : BitVec 32 := 0#32
  let c1_i32_53 : BitVec 32 := 1#32
  let arg23 : BitVec 32 := Scf.iv c0_i32_51 c1_i32_53 k1_t7
  let v203 : Index := Scalar.indexCast arg23
  let c0_98 : Index := 0#32
  ![v203.toNat, 0]
def k1_off80 (k1_t7 : Fin k1_t7_loop.trips) (c0_i32_100 : BitVec 32) : Fin 2 → Nat :=
  let c0_i32_51 : BitVec 32 := 0#32
  let c1_i32_53 : BitVec 32 := 1#32
  let arg23 : BitVec 32 := Scf.iv c0_i32_51 c1_i32_53 k1_t7
  let c16_i32_99 : BitVec 32 := 16#32
  let v207 : BitVec 32 := Scalar.muli arg23 c16_i32_99
  let v208 : BitVec 32 := Scalar.addi v207 c0_i32_100
  let v209 : Index := Scalar.indexCast v208
  let c16 : Index := 16#32
  ![v209.toNat, 16]
def k1_off81 (k1_t7 : Fin k1_t7_loop.trips) : Fin 2 → Nat :=
  let c0_i32_51 : BitVec 32 := 0#32
  let c1_i32_53 : BitVec 32 := 1#32
  let arg23 : BitVec 32 := Scf.iv c0_i32_51 c1_i32_53 k1_t7
  let v302 : Index := Scalar.indexCast arg23
  let c16_146 : Index := 16#32
  ![v302.toNat, 16]
def k1_off82 (k1_t7 : Fin k1_t7_loop.trips) (c0_i32_148 : BitVec 32) : Fin 2 → Nat :=
  let c0_i32_51 : BitVec 32 := 0#32
  let c1_i32_53 : BitVec 32 := 1#32
  let arg23 : BitVec 32 := Scf.iv c0_i32_51 c1_i32_53 k1_t7
  let c16_i32_147 : BitVec 32 := 16#32
  let v306 : BitVec 32 := Scalar.muli arg23 c16_i32_147
  let v307 : BitVec 32 := Scalar.addi v306 c0_i32_148
  let v308 : Index := Scalar.indexCast v307
  let c32 : Index := 32#32
  ![v308.toNat, 32]
def k1_off83 (k1_t7 : Fin k1_t7_loop.trips) : Fin 2 → Nat :=
  let c0_i32_51 : BitVec 32 := 0#32
  let c1_i32_53 : BitVec 32 := 1#32
  let arg23 : BitVec 32 := Scf.iv c0_i32_51 c1_i32_53 k1_t7
  let v401 : Index := Scalar.indexCast arg23
  let c32_194 : Index := 32#32
  ![v401.toNat, 32]
def k1_off84 (k1_t7 : Fin k1_t7_loop.trips) (c0_i32_196 : BitVec 32) : Fin 2 → Nat :=
  let c0_i32_51 : BitVec 32 := 0#32
  let c1_i32_53 : BitVec 32 := 1#32
  let arg23 : BitVec 32 := Scf.iv c0_i32_51 c1_i32_53 k1_t7
  let c16_i32_195 : BitVec 32 := 16#32
  let v405 : BitVec 32 := Scalar.muli arg23 c16_i32_195
  let v406 : BitVec 32 := Scalar.addi v405 c0_i32_196
  let v407 : Index := Scalar.indexCast v406
  let c48 : Index := 48#32
  ![v407.toNat, 48]
def k1_off85 (k1_t7 : Fin k1_t7_loop.trips) : Fin 2 → Nat :=
  let c0_i32_51 : BitVec 32 := 0#32
  let c1_i32_53 : BitVec 32 := 1#32
  let arg23 : BitVec 32 := Scf.iv c0_i32_51 c1_i32_53 k1_t7
  let v500 : Index := Scalar.indexCast arg23
  let c48_242 : Index := 48#32
  ![v500.toNat, 48]
def k1_off86 (k1_t7 : Fin k1_t7_loop.trips) (c0_i32_244 : BitVec 32) : Fin 2 → Nat :=
  let c0_i32_51 : BitVec 32 := 0#32
  let c1_i32_53 : BitVec 32 := 1#32
  let arg23 : BitVec 32 := Scf.iv c0_i32_51 c1_i32_53 k1_t7
  let c16_i32_243 : BitVec 32 := 16#32
  let v504 : BitVec 32 := Scalar.muli arg23 c16_i32_243
  let v505 : BitVec 32 := Scalar.addi v504 c0_i32_244
  let v506 : Index := Scalar.indexCast v505
  let c64 : Index := 64#32
  ![v506.toNat, 64]
def k1_off87 (k1_t7 : Fin k1_t7_loop.trips) : Fin 2 → Nat :=
  let c0_i32_51 : BitVec 32 := 0#32
  let c1_i32_53 : BitVec 32 := 1#32
  let arg23 : BitVec 32 := Scf.iv c0_i32_51 c1_i32_53 k1_t7
  let v599 : Index := Scalar.indexCast arg23
  let c64_290 : Index := 64#32
  ![v599.toNat, 64]
def k1_off88 (k1_t7 : Fin k1_t7_loop.trips) (c0_i32_292 : BitVec 32) : Fin 2 → Nat :=
  let c0_i32_51 : BitVec 32 := 0#32
  let c1_i32_53 : BitVec 32 := 1#32
  let arg23 : BitVec 32 := Scf.iv c0_i32_51 c1_i32_53 k1_t7
  let c16_i32_291 : BitVec 32 := 16#32
  let v603 : BitVec 32 := Scalar.muli arg23 c16_i32_291
  let v604 : BitVec 32 := Scalar.addi v603 c0_i32_292
  let v605 : Index := Scalar.indexCast v604
  let c80 : Index := 80#32
  ![v605.toNat, 80]
def k1_off89 (k1_t7 : Fin k1_t7_loop.trips) : Fin 2 → Nat :=
  let c0_i32_51 : BitVec 32 := 0#32
  let c1_i32_53 : BitVec 32 := 1#32
  let arg23 : BitVec 32 := Scf.iv c0_i32_51 c1_i32_53 k1_t7
  let v698 : Index := Scalar.indexCast arg23
  let c80_338 : Index := 80#32
  ![v698.toNat, 80]
def k1_off90 (k1_t7 : Fin k1_t7_loop.trips) (c0_i32_340 : BitVec 32) : Fin 2 → Nat :=
  let c0_i32_51 : BitVec 32 := 0#32
  let c1_i32_53 : BitVec 32 := 1#32
  let arg23 : BitVec 32 := Scf.iv c0_i32_51 c1_i32_53 k1_t7
  let c16_i32_339 : BitVec 32 := 16#32
  let v702 : BitVec 32 := Scalar.muli arg23 c16_i32_339
  let v703 : BitVec 32 := Scalar.addi v702 c0_i32_340
  let v704 : Index := Scalar.indexCast v703
  let c96 : Index := 96#32
  ![v704.toNat, 96]
def k1_off91 (k1_t7 : Fin k1_t7_loop.trips) : Fin 2 → Nat :=
  let c0_i32_51 : BitVec 32 := 0#32
  let c1_i32_53 : BitVec 32 := 1#32
  let arg23 : BitVec 32 := Scf.iv c0_i32_51 c1_i32_53 k1_t7
  let v797 : Index := Scalar.indexCast arg23
  let c96_386 : Index := 96#32
  ![v797.toNat, 96]
def k1_off92 (k1_t7 : Fin k1_t7_loop.trips) (c0_i32_388 : BitVec 32) : Fin 2 → Nat :=
  let c0_i32_51 : BitVec 32 := 0#32
  let c1_i32_53 : BitVec 32 := 1#32
  let arg23 : BitVec 32 := Scf.iv c0_i32_51 c1_i32_53 k1_t7
  let c16_i32_387 : BitVec 32 := 16#32
  let v801 : BitVec 32 := Scalar.muli arg23 c16_i32_387
  let v802 : BitVec 32 := Scalar.addi v801 c0_i32_388
  let v803 : Index := Scalar.indexCast v802
  let c112 : Index := 112#32
  ![v803.toNat, 112]
def k1_off93 (k1_t7 : Fin k1_t7_loop.trips) : Fin 2 → Nat :=
  let c0_i32_51 : BitVec 32 := 0#32
  let c1_i32_53 : BitVec 32 := 1#32
  let arg23 : BitVec 32 := Scf.iv c0_i32_51 c1_i32_53 k1_t7
  let v896 : Index := Scalar.indexCast arg23
  let c112_434 : Index := 112#32
  ![v896.toNat, 112]
def k1_off94 (i : grid1.Coords) (k1_t6 : Fin (k1_t6_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32_55 : BitVec 32 := 784#32
  let v99 : BitVec 32 := Scalar.muli v1 c784_i32_55
  let c0_i32_24 : BitVec 32 := 0#32
  let c25000_i32 : BitVec 32 := 25000#32
  let c784_i32 : BitVec 32 := 784#32
  let v2 : BitVec 32 := Scalar.muli v1 c784_i32
  let v3 : BitVec 32 := Scalar.subi c25000_i32 v2
  let c784_i32_0 : BitVec 32 := 784#32
  let v4 : BitVec 32 := Scalar.minsi v3 c784_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v4 c8_i32
  let c0_i32_4 : BitVec 32 := 0#32
  let v18 : BitVec 1 := Scalar.cmpi .ne v17 c0_i32_4
  let v19 : BitVec 1 := Scalar.andi v16 v18
  let v5 : BitVec 32 := Scalar.divsi v4 c8_i32
  let c1_i32 : BitVec 32 := 1#32
  let v20 : BitVec 32 := Scalar.subi v5 c1_i32
  let v21 : BitVec 32 := Scalar.select v19 v20 v5
  let c4_i32 : BitVec 32 := 4#32
  let v40 : BitVec 32 := Scalar.addi v21 c4_i32
  let c1_i32_15 : BitVec 32 := 1#32
  let v41 : BitVec 32 := Scalar.subi v40 c1_i32_15
  let c0_i32_17 : BitVec 32 := 0#32
  let v43 : BitVec 1 := Scalar.cmpi .sgt v41 c0_i32_17
  let v44 : BitVec 32 := Scalar.extui v43
  let c0_i32_18 : BitVec 32 := 0#32
  let v45 : BitVec 1 := Scalar.cmpi .slt v41 c0_i32_18
  let v46 : BitVec 32 := Scalar.extui v45
  let v47 : BitVec 32 := Scalar.subi v44 v46
  let c4_i32_16 : BitVec 32 := 4#32
  let c0_i32_19 : BitVec 32 := 0#32
  let v48 : BitVec 1 := Scalar.cmpi .sgt c4_i32_16 c0_i32_19
  let v49 : BitVec 32 := Scalar.extui v48
  let c0_i32_20 : BitVec 32 := 0#32
  let v50 : BitVec 1 := Scalar.cmpi .slt c4_i32_16 c0_i32_20
  let v51 : BitVec 32 := Scalar.extui v50
  let v52 : BitVec 32 := Scalar.subi v49 v51
  let v53 : BitVec 1 := Scalar.cmpi .ne v47 v52
  let v54 : BitVec 32 := Scalar.remsi v41 c4_i32_16
  let c0_i32_21 : BitVec 32 := 0#32
  let v55 : BitVec 1 := Scalar.cmpi .ne v54 c0_i32_21
  let v56 : BitVec 1 := Scalar.andi v53 v55
  let v42 : BitVec 32 := Scalar.divsi v41 c4_i32_16
  let c1_i32_22 : BitVec 32 := 1#32
  let v57 : BitVec 32 := Scalar.subi v42 c1_i32_22
  let v58 : BitVec 32 := Scalar.select v56 v57 v42
  let v59 : BitVec 32 := Scalar.subi v58 c0_i32_24
  let c1_i32_25 : BitVec 32 := 1#32
  let v61 : BitVec 32 := Scalar.divsi v59 c1_i32_25
  let v62 : BitVec 32 := Scalar.muli v61 c1_i32_25
  let v63 : BitVec 32 := Scalar.addi c0_i32_24 v62
  let c1_i32_27 : BitVec 32 := 1#32
  let arg22 : BitVec 32 := Scf.iv v63 c1_i32_27 k1_t6
  let c4_i32_36 : BitVec 32 := 4#32
  let v76 : BitVec 32 := Scalar.muli arg22 c4_i32_36
  let c0_i32_37 : BitVec 32 := 0#32
  let v77 : BitVec 32 := Scalar.addi v76 c0_i32_37
  let c8_i32_56 : BitVec 32 := 8#32
  let v100 : BitVec 32 := Scalar.muli v77 c8_i32_56
  let v101 : BitVec 32 := Scalar.addi v99 v100
  let c0_i32_57 : BitVec 32 := 0#32
  ![v101.toNat, 0]
def k1_cond19 (i : grid1.Coords) (k1_t6 : Fin (k1_t6_loop i).trips) : BitVec 1 :=
  let c0_i32_24 : BitVec 32 := 0#32
  let c25000_i32 : BitVec 32 := 25000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := Scalar.subi c25000_i32 v2
  let c784_i32_0 : BitVec 32 := 784#32
  let v4 : BitVec 32 := Scalar.minsi v3 c784_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v4 c8_i32
  let c0_i32_4 : BitVec 32 := 0#32
  let v18 : BitVec 1 := Scalar.cmpi .ne v17 c0_i32_4
  let v19 : BitVec 1 := Scalar.andi v16 v18
  let v5 : BitVec 32 := Scalar.divsi v4 c8_i32
  let c1_i32 : BitVec 32 := 1#32
  let v20 : BitVec 32 := Scalar.subi v5 c1_i32
  let v21 : BitVec 32 := Scalar.select v19 v20 v5
  let c4_i32 : BitVec 32 := 4#32
  let v40 : BitVec 32 := Scalar.addi v21 c4_i32
  let c1_i32_15 : BitVec 32 := 1#32
  let v41 : BitVec 32 := Scalar.subi v40 c1_i32_15
  let c0_i32_17 : BitVec 32 := 0#32
  let v43 : BitVec 1 := Scalar.cmpi .sgt v41 c0_i32_17
  let v44 : BitVec 32 := Scalar.extui v43
  let c0_i32_18 : BitVec 32 := 0#32
  let v45 : BitVec 1 := Scalar.cmpi .slt v41 c0_i32_18
  let v46 : BitVec 32 := Scalar.extui v45
  let v47 : BitVec 32 := Scalar.subi v44 v46
  let c4_i32_16 : BitVec 32 := 4#32
  let c0_i32_19 : BitVec 32 := 0#32
  let v48 : BitVec 1 := Scalar.cmpi .sgt c4_i32_16 c0_i32_19
  let v49 : BitVec 32 := Scalar.extui v48
  let c0_i32_20 : BitVec 32 := 0#32
  let v50 : BitVec 1 := Scalar.cmpi .slt c4_i32_16 c0_i32_20
  let v51 : BitVec 32 := Scalar.extui v50
  let v52 : BitVec 32 := Scalar.subi v49 v51
  let v53 : BitVec 1 := Scalar.cmpi .ne v47 v52
  let v54 : BitVec 32 := Scalar.remsi v41 c4_i32_16
  let c0_i32_21 : BitVec 32 := 0#32
  let v55 : BitVec 1 := Scalar.cmpi .ne v54 c0_i32_21
  let v56 : BitVec 1 := Scalar.andi v53 v55
  let v42 : BitVec 32 := Scalar.divsi v41 c4_i32_16
  let c1_i32_22 : BitVec 32 := 1#32
  let v57 : BitVec 32 := Scalar.subi v42 c1_i32_22
  let v58 : BitVec 32 := Scalar.select v56 v57 v42
  let v59 : BitVec 32 := Scalar.subi v58 c0_i32_24
  let c1_i32_25 : BitVec 32 := 1#32
  let v61 : BitVec 32 := Scalar.divsi v59 c1_i32_25
  let v62 : BitVec 32 := Scalar.muli v61 c1_i32_25
  let v63 : BitVec 32 := Scalar.addi c0_i32_24 v62
  let c1_i32_27 : BitVec 32 := 1#32
  let arg22 : BitVec 32 := Scf.iv v63 c1_i32_27 k1_t6
  let c4_i32_36 : BitVec 32 := 4#32
  let v76 : BitVec 32 := Scalar.muli arg22 c4_i32_36
  let c0_i32_37 : BitVec 32 := 0#32
  let v77 : BitVec 32 := Scalar.addi v76 c0_i32_37
  let c4_i32_59 : BitVec 32 := 4#32
  let v104 : BitVec 32 := Scalar.addi v77 c4_i32_59
  let v105 : BitVec 1 := Scalar.cmpi .slt v104 v21
  let v106 : BitVec 32 := Scalar.extui v105
  let c0_i32_60 : BitVec 32 := 0#32
  let v107 : BitVec 1 := Scalar.cmpi .ne v106 c0_i32_60
  v107

def k1_off95 (i : grid1.Coords) (k1_t6 : Fin (k1_t6_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32_6 : BitVec 32 := 784#32
  let v24 : BitVec 32 := Scalar.muli v1 c784_i32_6
  let c784_i32_5 : BitVec 32 := 784#32
  let v22 : BitVec 32 := Scalar.muli v1 c784_i32_5
  let c24216_i32 : BitVec 32 := 24216#32
  let v23 : BitVec 32 := Scalar.minsi v22 c24216_i32
  let v25 : BitVec 32 := Scalar.subi v24 v23
  let c16_i32 : BitVec 32 := 16#32
  let v26 : BitVec 32 := Scalar.muli v25 c16_i32
  let c0_i32_24 : BitVec 32 := 0#32
  let c25000_i32 : BitVec 32 := 25000#32
  let c784_i32 : BitVec 32 := 784#32
  let v2 : BitVec 32 := Scalar.muli v1 c784_i32
  let v3 : BitVec 32 := Scalar.subi c25000_i32 v2
  let c784_i32_0 : BitVec 32 := 784#32
  let v4 : BitVec 32 := Scalar.minsi v3 c784_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v4 c8_i32
  let c0_i32_4 : BitVec 32 := 0#32
  let v18 : BitVec 1 := Scalar.cmpi .ne v17 c0_i32_4
  let v19 : BitVec 1 := Scalar.andi v16 v18
  let v5 : BitVec 32 := Scalar.divsi v4 c8_i32
  let c1_i32 : BitVec 32 := 1#32
  let v20 : BitVec 32 := Scalar.subi v5 c1_i32
  let v21 : BitVec 32 := Scalar.select v19 v20 v5
  let c4_i32 : BitVec 32 := 4#32
  let v40 : BitVec 32 := Scalar.addi v21 c4_i32
  let c1_i32_15 : BitVec 32 := 1#32
  let v41 : BitVec 32 := Scalar.subi v40 c1_i32_15
  let c0_i32_17 : BitVec 32 := 0#32
  let v43 : BitVec 1 := Scalar.cmpi .sgt v41 c0_i32_17
  let v44 : BitVec 32 := Scalar.extui v43
  let c0_i32_18 : BitVec 32 := 0#32
  let v45 : BitVec 1 := Scalar.cmpi .slt v41 c0_i32_18
  let v46 : BitVec 32 := Scalar.extui v45
  let v47 : BitVec 32 := Scalar.subi v44 v46
  let c4_i32_16 : BitVec 32 := 4#32
  let c0_i32_19 : BitVec 32 := 0#32
  let v48 : BitVec 1 := Scalar.cmpi .sgt c4_i32_16 c0_i32_19
  let v49 : BitVec 32 := Scalar.extui v48
  let c0_i32_20 : BitVec 32 := 0#32
  let v50 : BitVec 1 := Scalar.cmpi .slt c4_i32_16 c0_i32_20
  let v51 : BitVec 32 := Scalar.extui v50
  let v52 : BitVec 32 := Scalar.subi v49 v51
  let v53 : BitVec 1 := Scalar.cmpi .ne v47 v52
  let v54 : BitVec 32 := Scalar.remsi v41 c4_i32_16
  let c0_i32_21 : BitVec 32 := 0#32
  let v55 : BitVec 1 := Scalar.cmpi .ne v54 c0_i32_21
  let v56 : BitVec 1 := Scalar.andi v53 v55
  let v42 : BitVec 32 := Scalar.divsi v41 c4_i32_16
  let c1_i32_22 : BitVec 32 := 1#32
  let v57 : BitVec 32 := Scalar.subi v42 c1_i32_22
  let v58 : BitVec 32 := Scalar.select v56 v57 v42
  let v59 : BitVec 32 := Scalar.subi v58 c0_i32_24
  let c1_i32_25 : BitVec 32 := 1#32
  let v61 : BitVec 32 := Scalar.divsi v59 c1_i32_25
  let v62 : BitVec 32 := Scalar.muli v61 c1_i32_25
  let v63 : BitVec 32 := Scalar.addi c0_i32_24 v62
  let c1_i32_27 : BitVec 32 := 1#32
  let arg22 : BitVec 32 := Scf.iv v63 c1_i32_27 k1_t6
  let c4_i32_36 : BitVec 32 := 4#32
  let v76 : BitVec 32 := Scalar.muli arg22 c4_i32_36
  let c0_i32_37 : BitVec 32 := 0#32
  let v77 : BitVec 32 := Scalar.addi v76 c0_i32_37
  let c4_i32_61 : BitVec 32 := 4#32
  let v108 : BitVec 32 := Scalar.addi v77 c4_i32_61
  let c128_i32 : BitVec 32 := 128#32
  let v109 : BitVec 32 := Scalar.muli v108 c128_i32
  let v110 : BitVec 32 := Scalar.addi v26 v109
  ![v110.toNat]
def k1_cond20 (i : grid1.Coords) (k1_t6 : Fin (k1_t6_loop i).trips) : BitVec 1 :=
  let c0_i32_24 : BitVec 32 := 0#32
  let c25000_i32 : BitVec 32 := 25000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := Scalar.subi c25000_i32 v2
  let c784_i32_0 : BitVec 32 := 784#32
  let v4 : BitVec 32 := Scalar.minsi v3 c784_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v4 c8_i32
  let c0_i32_4 : BitVec 32 := 0#32
  let v18 : BitVec 1 := Scalar.cmpi .ne v17 c0_i32_4
  let v19 : BitVec 1 := Scalar.andi v16 v18
  let v5 : BitVec 32 := Scalar.divsi v4 c8_i32
  let c1_i32 : BitVec 32 := 1#32
  let v20 : BitVec 32 := Scalar.subi v5 c1_i32
  let v21 : BitVec 32 := Scalar.select v19 v20 v5
  let c4_i32 : BitVec 32 := 4#32
  let v40 : BitVec 32 := Scalar.addi v21 c4_i32
  let c1_i32_15 : BitVec 32 := 1#32
  let v41 : BitVec 32 := Scalar.subi v40 c1_i32_15
  let c0_i32_17 : BitVec 32 := 0#32
  let v43 : BitVec 1 := Scalar.cmpi .sgt v41 c0_i32_17
  let v44 : BitVec 32 := Scalar.extui v43
  let c0_i32_18 : BitVec 32 := 0#32
  let v45 : BitVec 1 := Scalar.cmpi .slt v41 c0_i32_18
  let v46 : BitVec 32 := Scalar.extui v45
  let v47 : BitVec 32 := Scalar.subi v44 v46
  let c4_i32_16 : BitVec 32 := 4#32
  let c0_i32_19 : BitVec 32 := 0#32
  let v48 : BitVec 1 := Scalar.cmpi .sgt c4_i32_16 c0_i32_19
  let v49 : BitVec 32 := Scalar.extui v48
  let c0_i32_20 : BitVec 32 := 0#32
  let v50 : BitVec 1 := Scalar.cmpi .slt c4_i32_16 c0_i32_20
  let v51 : BitVec 32 := Scalar.extui v50
  let v52 : BitVec 32 := Scalar.subi v49 v51
  let v53 : BitVec 1 := Scalar.cmpi .ne v47 v52
  let v54 : BitVec 32 := Scalar.remsi v41 c4_i32_16
  let c0_i32_21 : BitVec 32 := 0#32
  let v55 : BitVec 1 := Scalar.cmpi .ne v54 c0_i32_21
  let v56 : BitVec 1 := Scalar.andi v53 v55
  let v42 : BitVec 32 := Scalar.divsi v41 c4_i32_16
  let c1_i32_22 : BitVec 32 := 1#32
  let v57 : BitVec 32 := Scalar.subi v42 c1_i32_22
  let v58 : BitVec 32 := Scalar.select v56 v57 v42
  let v59 : BitVec 32 := Scalar.subi v58 c0_i32_24
  let c1_i32_25 : BitVec 32 := 1#32
  let v61 : BitVec 32 := Scalar.divsi v59 c1_i32_25
  let v62 : BitVec 32 := Scalar.muli v61 c1_i32_25
  let v63 : BitVec 32 := Scalar.addi c0_i32_24 v62
  let c1_i32_27 : BitVec 32 := 1#32
  let arg22 : BitVec 32 := Scf.iv v63 c1_i32_27 k1_t6
  let c4_i32_36 : BitVec 32 := 4#32
  let v76 : BitVec 32 := Scalar.muli arg22 c4_i32_36
  let c1_i32_39 : BitVec 32 := 1#32
  let v81 : BitVec 32 := Scalar.addi v76 c1_i32_39
  let v82 : BitVec 1 := Scalar.cmpi .slt v81 v21
  let v83 : BitVec 32 := Scalar.extui v82
  let c0_i32_40 : BitVec 32 := 0#32
  let v84 : BitVec 1 := Scalar.cmpi .ne v83 c0_i32_40
  v84

@[reducible] def k1_t8_loop : Scf.Loop 32 :=
  let c0_i32_51 : BitVec 32 := 0#32
  let c8_i32_52 : BitVec 32 := 8#32
  let v98 : BitVec 32 := Scalar.addi c0_i32_51 c8_i32_52
  let c1_i32_53 : BitVec 32 := 1#32
  ⟨c0_i32_51, v98, c1_i32_53⟩
def k1_off96 (k1_t8 : Fin k1_t8_loop.trips) (c0_i32_62 : BitVec 32) : Fin 2 → Nat :=
  let c0_i32_51 : BitVec 32 := 0#32
  let c1_i32_53 : BitVec 32 := 1#32
  let arg23 : BitVec 32 := Scf.iv c0_i32_51 c1_i32_53 k1_t8
  let c16_i32_61 : BitVec 32 := 16#32
  let v108 : BitVec 32 := Scalar.muli arg23 c16_i32_61
  let v109 : BitVec 32 := Scalar.addi v108 c0_i32_62
  let v110 : Index := Scalar.indexCast v109
  let c0 : Index := 0#32
  ![v110.toNat, 0]
def k1_off97 (k1_t8 : Fin k1_t8_loop.trips) : Fin 2 → Nat :=
  let c0_i32_51 : BitVec 32 := 0#32
  let c1_i32_53 : BitVec 32 := 1#32
  let arg23 : BitVec 32 := Scf.iv c0_i32_51 c1_i32_53 k1_t8
  let v203 : Index := Scalar.indexCast arg23
  let c0_98 : Index := 0#32
  ![v203.toNat, 0]
def k1_off98 (k1_t8 : Fin k1_t8_loop.trips) (c0_i32_100 : BitVec 32) : Fin 2 → Nat :=
  let c0_i32_51 : BitVec 32 := 0#32
  let c1_i32_53 : BitVec 32 := 1#32
  let arg23 : BitVec 32 := Scf.iv c0_i32_51 c1_i32_53 k1_t8
  let c16_i32_99 : BitVec 32 := 16#32
  let v207 : BitVec 32 := Scalar.muli arg23 c16_i32_99
  let v208 : BitVec 32 := Scalar.addi v207 c0_i32_100
  let v209 : Index := Scalar.indexCast v208
  let c16 : Index := 16#32
  ![v209.toNat, 16]
def k1_off99 (k1_t8 : Fin k1_t8_loop.trips) : Fin 2 → Nat :=
  let c0_i32_51 : BitVec 32 := 0#32
  let c1_i32_53 : BitVec 32 := 1#32
  let arg23 : BitVec 32 := Scf.iv c0_i32_51 c1_i32_53 k1_t8
  let v302 : Index := Scalar.indexCast arg23
  let c16_146 : Index := 16#32
  ![v302.toNat, 16]
def k1_off100 (k1_t8 : Fin k1_t8_loop.trips) (c0_i32_148 : BitVec 32) : Fin 2 → Nat :=
  let c0_i32_51 : BitVec 32 := 0#32
  let c1_i32_53 : BitVec 32 := 1#32
  let arg23 : BitVec 32 := Scf.iv c0_i32_51 c1_i32_53 k1_t8
  let c16_i32_147 : BitVec 32 := 16#32
  let v306 : BitVec 32 := Scalar.muli arg23 c16_i32_147
  let v307 : BitVec 32 := Scalar.addi v306 c0_i32_148
  let v308 : Index := Scalar.indexCast v307
  let c32 : Index := 32#32
  ![v308.toNat, 32]
def k1_off101 (k1_t8 : Fin k1_t8_loop.trips) : Fin 2 → Nat :=
  let c0_i32_51 : BitVec 32 := 0#32
  let c1_i32_53 : BitVec 32 := 1#32
  let arg23 : BitVec 32 := Scf.iv c0_i32_51 c1_i32_53 k1_t8
  let v401 : Index := Scalar.indexCast arg23
  let c32_194 : Index := 32#32
  ![v401.toNat, 32]
def k1_off102 (k1_t8 : Fin k1_t8_loop.trips) (c0_i32_196 : BitVec 32) : Fin 2 → Nat :=
  let c0_i32_51 : BitVec 32 := 0#32
  let c1_i32_53 : BitVec 32 := 1#32
  let arg23 : BitVec 32 := Scf.iv c0_i32_51 c1_i32_53 k1_t8
  let c16_i32_195 : BitVec 32 := 16#32
  let v405 : BitVec 32 := Scalar.muli arg23 c16_i32_195
  let v406 : BitVec 32 := Scalar.addi v405 c0_i32_196
  let v407 : Index := Scalar.indexCast v406
  let c48 : Index := 48#32
  ![v407.toNat, 48]
def k1_off103 (k1_t8 : Fin k1_t8_loop.trips) : Fin 2 → Nat :=
  let c0_i32_51 : BitVec 32 := 0#32
  let c1_i32_53 : BitVec 32 := 1#32
  let arg23 : BitVec 32 := Scf.iv c0_i32_51 c1_i32_53 k1_t8
  let v500 : Index := Scalar.indexCast arg23
  let c48_242 : Index := 48#32
  ![v500.toNat, 48]
def k1_off104 (k1_t8 : Fin k1_t8_loop.trips) (c0_i32_244 : BitVec 32) : Fin 2 → Nat :=
  let c0_i32_51 : BitVec 32 := 0#32
  let c1_i32_53 : BitVec 32 := 1#32
  let arg23 : BitVec 32 := Scf.iv c0_i32_51 c1_i32_53 k1_t8
  let c16_i32_243 : BitVec 32 := 16#32
  let v504 : BitVec 32 := Scalar.muli arg23 c16_i32_243
  let v505 : BitVec 32 := Scalar.addi v504 c0_i32_244
  let v506 : Index := Scalar.indexCast v505
  let c64 : Index := 64#32
  ![v506.toNat, 64]
def k1_off105 (k1_t8 : Fin k1_t8_loop.trips) : Fin 2 → Nat :=
  let c0_i32_51 : BitVec 32 := 0#32
  let c1_i32_53 : BitVec 32 := 1#32
  let arg23 : BitVec 32 := Scf.iv c0_i32_51 c1_i32_53 k1_t8
  let v599 : Index := Scalar.indexCast arg23
  let c64_290 : Index := 64#32
  ![v599.toNat, 64]
def k1_off106 (k1_t8 : Fin k1_t8_loop.trips) (c0_i32_292 : BitVec 32) : Fin 2 → Nat :=
  let c0_i32_51 : BitVec 32 := 0#32
  let c1_i32_53 : BitVec 32 := 1#32
  let arg23 : BitVec 32 := Scf.iv c0_i32_51 c1_i32_53 k1_t8
  let c16_i32_291 : BitVec 32 := 16#32
  let v603 : BitVec 32 := Scalar.muli arg23 c16_i32_291
  let v604 : BitVec 32 := Scalar.addi v603 c0_i32_292
  let v605 : Index := Scalar.indexCast v604
  let c80 : Index := 80#32
  ![v605.toNat, 80]
def k1_off107 (k1_t8 : Fin k1_t8_loop.trips) : Fin 2 → Nat :=
  let c0_i32_51 : BitVec 32 := 0#32
  let c1_i32_53 : BitVec 32 := 1#32
  let arg23 : BitVec 32 := Scf.iv c0_i32_51 c1_i32_53 k1_t8
  let v698 : Index := Scalar.indexCast arg23
  let c80_338 : Index := 80#32
  ![v698.toNat, 80]
def k1_off108 (k1_t8 : Fin k1_t8_loop.trips) (c0_i32_340 : BitVec 32) : Fin 2 → Nat :=
  let c0_i32_51 : BitVec 32 := 0#32
  let c1_i32_53 : BitVec 32 := 1#32
  let arg23 : BitVec 32 := Scf.iv c0_i32_51 c1_i32_53 k1_t8
  let c16_i32_339 : BitVec 32 := 16#32
  let v702 : BitVec 32 := Scalar.muli arg23 c16_i32_339
  let v703 : BitVec 32 := Scalar.addi v702 c0_i32_340
  let v704 : Index := Scalar.indexCast v703
  let c96 : Index := 96#32
  ![v704.toNat, 96]
def k1_off109 (k1_t8 : Fin k1_t8_loop.trips) : Fin 2 → Nat :=
  let c0_i32_51 : BitVec 32 := 0#32
  let c1_i32_53 : BitVec 32 := 1#32
  let arg23 : BitVec 32 := Scf.iv c0_i32_51 c1_i32_53 k1_t8
  let v797 : Index := Scalar.indexCast arg23
  let c96_386 : Index := 96#32
  ![v797.toNat, 96]
def k1_off110 (k1_t8 : Fin k1_t8_loop.trips) (c0_i32_388 : BitVec 32) : Fin 2 → Nat :=
  let c0_i32_51 : BitVec 32 := 0#32
  let c1_i32_53 : BitVec 32 := 1#32
  let arg23 : BitVec 32 := Scf.iv c0_i32_51 c1_i32_53 k1_t8
  let c16_i32_387 : BitVec 32 := 16#32
  let v801 : BitVec 32 := Scalar.muli arg23 c16_i32_387
  let v802 : BitVec 32 := Scalar.addi v801 c0_i32_388
  let v803 : Index := Scalar.indexCast v802
  let c112 : Index := 112#32
  ![v803.toNat, 112]
def k1_off111 (k1_t8 : Fin k1_t8_loop.trips) : Fin 2 → Nat :=
  let c0_i32_51 : BitVec 32 := 0#32
  let c1_i32_53 : BitVec 32 := 1#32
  let arg23 : BitVec 32 := Scf.iv c0_i32_51 c1_i32_53 k1_t8
  let v896 : Index := Scalar.indexCast arg23
  let c112_434 : Index := 112#32
  ![v896.toNat, 112]
def k1_off112 (i : grid1.Coords) (k1_t6 : Fin (k1_t6_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32_55 : BitVec 32 := 784#32
  let v99 : BitVec 32 := Scalar.muli v1 c784_i32_55
  let c0_i32_24 : BitVec 32 := 0#32
  let c25000_i32 : BitVec 32 := 25000#32
  let c784_i32 : BitVec 32 := 784#32
  let v2 : BitVec 32 := Scalar.muli v1 c784_i32
  let v3 : BitVec 32 := Scalar.subi c25000_i32 v2
  let c784_i32_0 : BitVec 32 := 784#32
  let v4 : BitVec 32 := Scalar.minsi v3 c784_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v4 c8_i32
  let c0_i32_4 : BitVec 32 := 0#32
  let v18 : BitVec 1 := Scalar.cmpi .ne v17 c0_i32_4
  let v19 : BitVec 1 := Scalar.andi v16 v18
  let v5 : BitVec 32 := Scalar.divsi v4 c8_i32
  let c1_i32 : BitVec 32 := 1#32
  let v20 : BitVec 32 := Scalar.subi v5 c1_i32
  let v21 : BitVec 32 := Scalar.select v19 v20 v5
  let c4_i32 : BitVec 32 := 4#32
  let v40 : BitVec 32 := Scalar.addi v21 c4_i32
  let c1_i32_15 : BitVec 32 := 1#32
  let v41 : BitVec 32 := Scalar.subi v40 c1_i32_15
  let c0_i32_17 : BitVec 32 := 0#32
  let v43 : BitVec 1 := Scalar.cmpi .sgt v41 c0_i32_17
  let v44 : BitVec 32 := Scalar.extui v43
  let c0_i32_18 : BitVec 32 := 0#32
  let v45 : BitVec 1 := Scalar.cmpi .slt v41 c0_i32_18
  let v46 : BitVec 32 := Scalar.extui v45
  let v47 : BitVec 32 := Scalar.subi v44 v46
  let c4_i32_16 : BitVec 32 := 4#32
  let c0_i32_19 : BitVec 32 := 0#32
  let v48 : BitVec 1 := Scalar.cmpi .sgt c4_i32_16 c0_i32_19
  let v49 : BitVec 32 := Scalar.extui v48
  let c0_i32_20 : BitVec 32 := 0#32
  let v50 : BitVec 1 := Scalar.cmpi .slt c4_i32_16 c0_i32_20
  let v51 : BitVec 32 := Scalar.extui v50
  let v52 : BitVec 32 := Scalar.subi v49 v51
  let v53 : BitVec 1 := Scalar.cmpi .ne v47 v52
  let v54 : BitVec 32 := Scalar.remsi v41 c4_i32_16
  let c0_i32_21 : BitVec 32 := 0#32
  let v55 : BitVec 1 := Scalar.cmpi .ne v54 c0_i32_21
  let v56 : BitVec 1 := Scalar.andi v53 v55
  let v42 : BitVec 32 := Scalar.divsi v41 c4_i32_16
  let c1_i32_22 : BitVec 32 := 1#32
  let v57 : BitVec 32 := Scalar.subi v42 c1_i32_22
  let v58 : BitVec 32 := Scalar.select v56 v57 v42
  let v59 : BitVec 32 := Scalar.subi v58 c0_i32_24
  let c1_i32_25 : BitVec 32 := 1#32
  let v61 : BitVec 32 := Scalar.divsi v59 c1_i32_25
  let v62 : BitVec 32 := Scalar.muli v61 c1_i32_25
  let v63 : BitVec 32 := Scalar.addi c0_i32_24 v62
  let c1_i32_27 : BitVec 32 := 1#32
  let arg22 : BitVec 32 := Scf.iv v63 c1_i32_27 k1_t6
  let c4_i32_36 : BitVec 32 := 4#32
  let v76 : BitVec 32 := Scalar.muli arg22 c4_i32_36
  let c1_i32_39 : BitVec 32 := 1#32
  let v81 : BitVec 32 := Scalar.addi v76 c1_i32_39
  let c8_i32_56 : BitVec 32 := 8#32
  let v100 : BitVec 32 := Scalar.muli v81 c8_i32_56
  let v101 : BitVec 32 := Scalar.addi v99 v100
  let c0_i32_57 : BitVec 32 := 0#32
  ![v101.toNat, 0]
def k1_cond22 (i : grid1.Coords) (k1_t6 : Fin (k1_t6_loop i).trips) : BitVec 1 :=
  let c0_i32_24 : BitVec 32 := 0#32
  let c25000_i32 : BitVec 32 := 25000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := Scalar.subi c25000_i32 v2
  let c784_i32_0 : BitVec 32 := 784#32
  let v4 : BitVec 32 := Scalar.minsi v3 c784_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v4 c8_i32
  let c0_i32_4 : BitVec 32 := 0#32
  let v18 : BitVec 1 := Scalar.cmpi .ne v17 c0_i32_4
  let v19 : BitVec 1 := Scalar.andi v16 v18
  let v5 : BitVec 32 := Scalar.divsi v4 c8_i32
  let c1_i32 : BitVec 32 := 1#32
  let v20 : BitVec 32 := Scalar.subi v5 c1_i32
  let v21 : BitVec 32 := Scalar.select v19 v20 v5
  let c4_i32 : BitVec 32 := 4#32
  let v40 : BitVec 32 := Scalar.addi v21 c4_i32
  let c1_i32_15 : BitVec 32 := 1#32
  let v41 : BitVec 32 := Scalar.subi v40 c1_i32_15
  let c0_i32_17 : BitVec 32 := 0#32
  let v43 : BitVec 1 := Scalar.cmpi .sgt v41 c0_i32_17
  let v44 : BitVec 32 := Scalar.extui v43
  let c0_i32_18 : BitVec 32 := 0#32
  let v45 : BitVec 1 := Scalar.cmpi .slt v41 c0_i32_18
  let v46 : BitVec 32 := Scalar.extui v45
  let v47 : BitVec 32 := Scalar.subi v44 v46
  let c4_i32_16 : BitVec 32 := 4#32
  let c0_i32_19 : BitVec 32 := 0#32
  let v48 : BitVec 1 := Scalar.cmpi .sgt c4_i32_16 c0_i32_19
  let v49 : BitVec 32 := Scalar.extui v48
  let c0_i32_20 : BitVec 32 := 0#32
  let v50 : BitVec 1 := Scalar.cmpi .slt c4_i32_16 c0_i32_20
  let v51 : BitVec 32 := Scalar.extui v50
  let v52 : BitVec 32 := Scalar.subi v49 v51
  let v53 : BitVec 1 := Scalar.cmpi .ne v47 v52
  let v54 : BitVec 32 := Scalar.remsi v41 c4_i32_16
  let c0_i32_21 : BitVec 32 := 0#32
  let v55 : BitVec 1 := Scalar.cmpi .ne v54 c0_i32_21
  let v56 : BitVec 1 := Scalar.andi v53 v55
  let v42 : BitVec 32 := Scalar.divsi v41 c4_i32_16
  let c1_i32_22 : BitVec 32 := 1#32
  let v57 : BitVec 32 := Scalar.subi v42 c1_i32_22
  let v58 : BitVec 32 := Scalar.select v56 v57 v42
  let v59 : BitVec 32 := Scalar.subi v58 c0_i32_24
  let c1_i32_25 : BitVec 32 := 1#32
  let v61 : BitVec 32 := Scalar.divsi v59 c1_i32_25
  let v62 : BitVec 32 := Scalar.muli v61 c1_i32_25
  let v63 : BitVec 32 := Scalar.addi c0_i32_24 v62
  let c1_i32_27 : BitVec 32 := 1#32
  let arg22 : BitVec 32 := Scf.iv v63 c1_i32_27 k1_t6
  let c4_i32_36 : BitVec 32 := 4#32
  let v76 : BitVec 32 := Scalar.muli arg22 c4_i32_36
  let c1_i32_39 : BitVec 32 := 1#32
  let v81 : BitVec 32 := Scalar.addi v76 c1_i32_39
  let c4_i32_59 : BitVec 32 := 4#32
  let v104 : BitVec 32 := Scalar.addi v81 c4_i32_59
  let v105 : BitVec 1 := Scalar.cmpi .slt v104 v21
  let v106 : BitVec 32 := Scalar.extui v105
  let c0_i32_60 : BitVec 32 := 0#32
  let v107 : BitVec 1 := Scalar.cmpi .ne v106 c0_i32_60
  v107

def k1_off113 (i : grid1.Coords) (k1_t6 : Fin (k1_t6_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32_6 : BitVec 32 := 784#32
  let v24 : BitVec 32 := Scalar.muli v1 c784_i32_6
  let c784_i32_5 : BitVec 32 := 784#32
  let v22 : BitVec 32 := Scalar.muli v1 c784_i32_5
  let c24216_i32 : BitVec 32 := 24216#32
  let v23 : BitVec 32 := Scalar.minsi v22 c24216_i32
  let v25 : BitVec 32 := Scalar.subi v24 v23
  let c16_i32 : BitVec 32 := 16#32
  let v26 : BitVec 32 := Scalar.muli v25 c16_i32
  let c0_i32_24 : BitVec 32 := 0#32
  let c25000_i32 : BitVec 32 := 25000#32
  let c784_i32 : BitVec 32 := 784#32
  let v2 : BitVec 32 := Scalar.muli v1 c784_i32
  let v3 : BitVec 32 := Scalar.subi c25000_i32 v2
  let c784_i32_0 : BitVec 32 := 784#32
  let v4 : BitVec 32 := Scalar.minsi v3 c784_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v4 c8_i32
  let c0_i32_4 : BitVec 32 := 0#32
  let v18 : BitVec 1 := Scalar.cmpi .ne v17 c0_i32_4
  let v19 : BitVec 1 := Scalar.andi v16 v18
  let v5 : BitVec 32 := Scalar.divsi v4 c8_i32
  let c1_i32 : BitVec 32 := 1#32
  let v20 : BitVec 32 := Scalar.subi v5 c1_i32
  let v21 : BitVec 32 := Scalar.select v19 v20 v5
  let c4_i32 : BitVec 32 := 4#32
  let v40 : BitVec 32 := Scalar.addi v21 c4_i32
  let c1_i32_15 : BitVec 32 := 1#32
  let v41 : BitVec 32 := Scalar.subi v40 c1_i32_15
  let c0_i32_17 : BitVec 32 := 0#32
  let v43 : BitVec 1 := Scalar.cmpi .sgt v41 c0_i32_17
  let v44 : BitVec 32 := Scalar.extui v43
  let c0_i32_18 : BitVec 32 := 0#32
  let v45 : BitVec 1 := Scalar.cmpi .slt v41 c0_i32_18
  let v46 : BitVec 32 := Scalar.extui v45
  let v47 : BitVec 32 := Scalar.subi v44 v46
  let c4_i32_16 : BitVec 32 := 4#32
  let c0_i32_19 : BitVec 32 := 0#32
  let v48 : BitVec 1 := Scalar.cmpi .sgt c4_i32_16 c0_i32_19
  let v49 : BitVec 32 := Scalar.extui v48
  let c0_i32_20 : BitVec 32 := 0#32
  let v50 : BitVec 1 := Scalar.cmpi .slt c4_i32_16 c0_i32_20
  let v51 : BitVec 32 := Scalar.extui v50
  let v52 : BitVec 32 := Scalar.subi v49 v51
  let v53 : BitVec 1 := Scalar.cmpi .ne v47 v52
  let v54 : BitVec 32 := Scalar.remsi v41 c4_i32_16
  let c0_i32_21 : BitVec 32 := 0#32
  let v55 : BitVec 1 := Scalar.cmpi .ne v54 c0_i32_21
  let v56 : BitVec 1 := Scalar.andi v53 v55
  let v42 : BitVec 32 := Scalar.divsi v41 c4_i32_16
  let c1_i32_22 : BitVec 32 := 1#32
  let v57 : BitVec 32 := Scalar.subi v42 c1_i32_22
  let v58 : BitVec 32 := Scalar.select v56 v57 v42
  let v59 : BitVec 32 := Scalar.subi v58 c0_i32_24
  let c1_i32_25 : BitVec 32 := 1#32
  let v61 : BitVec 32 := Scalar.divsi v59 c1_i32_25
  let v62 : BitVec 32 := Scalar.muli v61 c1_i32_25
  let v63 : BitVec 32 := Scalar.addi c0_i32_24 v62
  let c1_i32_27 : BitVec 32 := 1#32
  let arg22 : BitVec 32 := Scf.iv v63 c1_i32_27 k1_t6
  let c4_i32_36 : BitVec 32 := 4#32
  let v76 : BitVec 32 := Scalar.muli arg22 c4_i32_36
  let c1_i32_39 : BitVec 32 := 1#32
  let v81 : BitVec 32 := Scalar.addi v76 c1_i32_39
  let c4_i32_61 : BitVec 32 := 4#32
  let v108 : BitVec 32 := Scalar.addi v81 c4_i32_61
  let c128_i32 : BitVec 32 := 128#32
  let v109 : BitVec 32 := Scalar.muli v108 c128_i32
  let v110 : BitVec 32 := Scalar.addi v26 v109
  ![v110.toNat]
def k1_cond23 (i : grid1.Coords) (k1_t6 : Fin (k1_t6_loop i).trips) : BitVec 1 :=
  let c0_i32_24 : BitVec 32 := 0#32
  let c25000_i32 : BitVec 32 := 25000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := Scalar.subi c25000_i32 v2
  let c784_i32_0 : BitVec 32 := 784#32
  let v4 : BitVec 32 := Scalar.minsi v3 c784_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v4 c8_i32
  let c0_i32_4 : BitVec 32 := 0#32
  let v18 : BitVec 1 := Scalar.cmpi .ne v17 c0_i32_4
  let v19 : BitVec 1 := Scalar.andi v16 v18
  let v5 : BitVec 32 := Scalar.divsi v4 c8_i32
  let c1_i32 : BitVec 32 := 1#32
  let v20 : BitVec 32 := Scalar.subi v5 c1_i32
  let v21 : BitVec 32 := Scalar.select v19 v20 v5
  let c4_i32 : BitVec 32 := 4#32
  let v40 : BitVec 32 := Scalar.addi v21 c4_i32
  let c1_i32_15 : BitVec 32 := 1#32
  let v41 : BitVec 32 := Scalar.subi v40 c1_i32_15
  let c0_i32_17 : BitVec 32 := 0#32
  let v43 : BitVec 1 := Scalar.cmpi .sgt v41 c0_i32_17
  let v44 : BitVec 32 := Scalar.extui v43
  let c0_i32_18 : BitVec 32 := 0#32
  let v45 : BitVec 1 := Scalar.cmpi .slt v41 c0_i32_18
  let v46 : BitVec 32 := Scalar.extui v45
  let v47 : BitVec 32 := Scalar.subi v44 v46
  let c4_i32_16 : BitVec 32 := 4#32
  let c0_i32_19 : BitVec 32 := 0#32
  let v48 : BitVec 1 := Scalar.cmpi .sgt c4_i32_16 c0_i32_19
  let v49 : BitVec 32 := Scalar.extui v48
  let c0_i32_20 : BitVec 32 := 0#32
  let v50 : BitVec 1 := Scalar.cmpi .slt c4_i32_16 c0_i32_20
  let v51 : BitVec 32 := Scalar.extui v50
  let v52 : BitVec 32 := Scalar.subi v49 v51
  let v53 : BitVec 1 := Scalar.cmpi .ne v47 v52
  let v54 : BitVec 32 := Scalar.remsi v41 c4_i32_16
  let c0_i32_21 : BitVec 32 := 0#32
  let v55 : BitVec 1 := Scalar.cmpi .ne v54 c0_i32_21
  let v56 : BitVec 1 := Scalar.andi v53 v55
  let v42 : BitVec 32 := Scalar.divsi v41 c4_i32_16
  let c1_i32_22 : BitVec 32 := 1#32
  let v57 : BitVec 32 := Scalar.subi v42 c1_i32_22
  let v58 : BitVec 32 := Scalar.select v56 v57 v42
  let v59 : BitVec 32 := Scalar.subi v58 c0_i32_24
  let c1_i32_25 : BitVec 32 := 1#32
  let v61 : BitVec 32 := Scalar.divsi v59 c1_i32_25
  let v62 : BitVec 32 := Scalar.muli v61 c1_i32_25
  let v63 : BitVec 32 := Scalar.addi c0_i32_24 v62
  let c1_i32_27 : BitVec 32 := 1#32
  let arg22 : BitVec 32 := Scf.iv v63 c1_i32_27 k1_t6
  let c4_i32_36 : BitVec 32 := 4#32
  let v76 : BitVec 32 := Scalar.muli arg22 c4_i32_36
  let c2_i32_41 : BitVec 32 := 2#32
  let v85 : BitVec 32 := Scalar.addi v76 c2_i32_41
  let v86 : BitVec 1 := Scalar.cmpi .slt v85 v21
  let v87 : BitVec 32 := Scalar.extui v86
  let c0_i32_42 : BitVec 32 := 0#32
  let v88 : BitVec 1 := Scalar.cmpi .ne v87 c0_i32_42
  v88

@[reducible] def k1_t9_loop : Scf.Loop 32 :=
  let c0_i32_51 : BitVec 32 := 0#32
  let c8_i32_52 : BitVec 32 := 8#32
  let v98 : BitVec 32 := Scalar.addi c0_i32_51 c8_i32_52
  let c1_i32_53 : BitVec 32 := 1#32
  ⟨c0_i32_51, v98, c1_i32_53⟩
def k1_off114 (k1_t9 : Fin k1_t9_loop.trips) (c0_i32_62 : BitVec 32) : Fin 2 → Nat :=
  let c0_i32_51 : BitVec 32 := 0#32
  let c1_i32_53 : BitVec 32 := 1#32
  let arg23 : BitVec 32 := Scf.iv c0_i32_51 c1_i32_53 k1_t9
  let c16_i32_61 : BitVec 32 := 16#32
  let v108 : BitVec 32 := Scalar.muli arg23 c16_i32_61
  let v109 : BitVec 32 := Scalar.addi v108 c0_i32_62
  let v110 : Index := Scalar.indexCast v109
  let c0 : Index := 0#32
  ![v110.toNat, 0]
def k1_off115 (k1_t9 : Fin k1_t9_loop.trips) : Fin 2 → Nat :=
  let c0_i32_51 : BitVec 32 := 0#32
  let c1_i32_53 : BitVec 32 := 1#32
  let arg23 : BitVec 32 := Scf.iv c0_i32_51 c1_i32_53 k1_t9
  let v203 : Index := Scalar.indexCast arg23
  let c0_98 : Index := 0#32
  ![v203.toNat, 0]
def k1_off116 (k1_t9 : Fin k1_t9_loop.trips) (c0_i32_100 : BitVec 32) : Fin 2 → Nat :=
  let c0_i32_51 : BitVec 32 := 0#32
  let c1_i32_53 : BitVec 32 := 1#32
  let arg23 : BitVec 32 := Scf.iv c0_i32_51 c1_i32_53 k1_t9
  let c16_i32_99 : BitVec 32 := 16#32
  let v207 : BitVec 32 := Scalar.muli arg23 c16_i32_99
  let v208 : BitVec 32 := Scalar.addi v207 c0_i32_100
  let v209 : Index := Scalar.indexCast v208
  let c16 : Index := 16#32
  ![v209.toNat, 16]
def k1_off117 (k1_t9 : Fin k1_t9_loop.trips) : Fin 2 → Nat :=
  let c0_i32_51 : BitVec 32 := 0#32
  let c1_i32_53 : BitVec 32 := 1#32
  let arg23 : BitVec 32 := Scf.iv c0_i32_51 c1_i32_53 k1_t9
  let v302 : Index := Scalar.indexCast arg23
  let c16_146 : Index := 16#32
  ![v302.toNat, 16]
def k1_off118 (k1_t9 : Fin k1_t9_loop.trips) (c0_i32_148 : BitVec 32) : Fin 2 → Nat :=
  let c0_i32_51 : BitVec 32 := 0#32
  let c1_i32_53 : BitVec 32 := 1#32
  let arg23 : BitVec 32 := Scf.iv c0_i32_51 c1_i32_53 k1_t9
  let c16_i32_147 : BitVec 32 := 16#32
  let v306 : BitVec 32 := Scalar.muli arg23 c16_i32_147
  let v307 : BitVec 32 := Scalar.addi v306 c0_i32_148
  let v308 : Index := Scalar.indexCast v307
  let c32 : Index := 32#32
  ![v308.toNat, 32]
def k1_off119 (k1_t9 : Fin k1_t9_loop.trips) : Fin 2 → Nat :=
  let c0_i32_51 : BitVec 32 := 0#32
  let c1_i32_53 : BitVec 32 := 1#32
  let arg23 : BitVec 32 := Scf.iv c0_i32_51 c1_i32_53 k1_t9
  let v401 : Index := Scalar.indexCast arg23
  let c32_194 : Index := 32#32
  ![v401.toNat, 32]
def k1_off120 (k1_t9 : Fin k1_t9_loop.trips) (c0_i32_196 : BitVec 32) : Fin 2 → Nat :=
  let c0_i32_51 : BitVec 32 := 0#32
  let c1_i32_53 : BitVec 32 := 1#32
  let arg23 : BitVec 32 := Scf.iv c0_i32_51 c1_i32_53 k1_t9
  let c16_i32_195 : BitVec 32 := 16#32
  let v405 : BitVec 32 := Scalar.muli arg23 c16_i32_195
  let v406 : BitVec 32 := Scalar.addi v405 c0_i32_196
  let v407 : Index := Scalar.indexCast v406
  let c48 : Index := 48#32
  ![v407.toNat, 48]
def k1_off121 (k1_t9 : Fin k1_t9_loop.trips) : Fin 2 → Nat :=
  let c0_i32_51 : BitVec 32 := 0#32
  let c1_i32_53 : BitVec 32 := 1#32
  let arg23 : BitVec 32 := Scf.iv c0_i32_51 c1_i32_53 k1_t9
  let v500 : Index := Scalar.indexCast arg23
  let c48_242 : Index := 48#32
  ![v500.toNat, 48]
def k1_off122 (k1_t9 : Fin k1_t9_loop.trips) (c0_i32_244 : BitVec 32) : Fin 2 → Nat :=
  let c0_i32_51 : BitVec 32 := 0#32
  let c1_i32_53 : BitVec 32 := 1#32
  let arg23 : BitVec 32 := Scf.iv c0_i32_51 c1_i32_53 k1_t9
  let c16_i32_243 : BitVec 32 := 16#32
  let v504 : BitVec 32 := Scalar.muli arg23 c16_i32_243
  let v505 : BitVec 32 := Scalar.addi v504 c0_i32_244
  let v506 : Index := Scalar.indexCast v505
  let c64 : Index := 64#32
  ![v506.toNat, 64]
def k1_off123 (k1_t9 : Fin k1_t9_loop.trips) : Fin 2 → Nat :=
  let c0_i32_51 : BitVec 32 := 0#32
  let c1_i32_53 : BitVec 32 := 1#32
  let arg23 : BitVec 32 := Scf.iv c0_i32_51 c1_i32_53 k1_t9
  let v599 : Index := Scalar.indexCast arg23
  let c64_290 : Index := 64#32
  ![v599.toNat, 64]
def k1_off124 (k1_t9 : Fin k1_t9_loop.trips) (c0_i32_292 : BitVec 32) : Fin 2 → Nat :=
  let c0_i32_51 : BitVec 32 := 0#32
  let c1_i32_53 : BitVec 32 := 1#32
  let arg23 : BitVec 32 := Scf.iv c0_i32_51 c1_i32_53 k1_t9
  let c16_i32_291 : BitVec 32 := 16#32
  let v603 : BitVec 32 := Scalar.muli arg23 c16_i32_291
  let v604 : BitVec 32 := Scalar.addi v603 c0_i32_292
  let v605 : Index := Scalar.indexCast v604
  let c80 : Index := 80#32
  ![v605.toNat, 80]
def k1_off125 (k1_t9 : Fin k1_t9_loop.trips) : Fin 2 → Nat :=
  let c0_i32_51 : BitVec 32 := 0#32
  let c1_i32_53 : BitVec 32 := 1#32
  let arg23 : BitVec 32 := Scf.iv c0_i32_51 c1_i32_53 k1_t9
  let v698 : Index := Scalar.indexCast arg23
  let c80_338 : Index := 80#32
  ![v698.toNat, 80]
def k1_off126 (k1_t9 : Fin k1_t9_loop.trips) (c0_i32_340 : BitVec 32) : Fin 2 → Nat :=
  let c0_i32_51 : BitVec 32 := 0#32
  let c1_i32_53 : BitVec 32 := 1#32
  let arg23 : BitVec 32 := Scf.iv c0_i32_51 c1_i32_53 k1_t9
  let c16_i32_339 : BitVec 32 := 16#32
  let v702 : BitVec 32 := Scalar.muli arg23 c16_i32_339
  let v703 : BitVec 32 := Scalar.addi v702 c0_i32_340
  let v704 : Index := Scalar.indexCast v703
  let c96 : Index := 96#32
  ![v704.toNat, 96]
def k1_off127 (k1_t9 : Fin k1_t9_loop.trips) : Fin 2 → Nat :=
  let c0_i32_51 : BitVec 32 := 0#32
  let c1_i32_53 : BitVec 32 := 1#32
  let arg23 : BitVec 32 := Scf.iv c0_i32_51 c1_i32_53 k1_t9
  let v797 : Index := Scalar.indexCast arg23
  let c96_386 : Index := 96#32
  ![v797.toNat, 96]
def k1_off128 (k1_t9 : Fin k1_t9_loop.trips) (c0_i32_388 : BitVec 32) : Fin 2 → Nat :=
  let c0_i32_51 : BitVec 32 := 0#32
  let c1_i32_53 : BitVec 32 := 1#32
  let arg23 : BitVec 32 := Scf.iv c0_i32_51 c1_i32_53 k1_t9
  let c16_i32_387 : BitVec 32 := 16#32
  let v801 : BitVec 32 := Scalar.muli arg23 c16_i32_387
  let v802 : BitVec 32 := Scalar.addi v801 c0_i32_388
  let v803 : Index := Scalar.indexCast v802
  let c112 : Index := 112#32
  ![v803.toNat, 112]
def k1_off129 (k1_t9 : Fin k1_t9_loop.trips) : Fin 2 → Nat :=
  let c0_i32_51 : BitVec 32 := 0#32
  let c1_i32_53 : BitVec 32 := 1#32
  let arg23 : BitVec 32 := Scf.iv c0_i32_51 c1_i32_53 k1_t9
  let v896 : Index := Scalar.indexCast arg23
  let c112_434 : Index := 112#32
  ![v896.toNat, 112]
def k1_off130 (i : grid1.Coords) (k1_t6 : Fin (k1_t6_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32_55 : BitVec 32 := 784#32
  let v99 : BitVec 32 := Scalar.muli v1 c784_i32_55
  let c0_i32_24 : BitVec 32 := 0#32
  let c25000_i32 : BitVec 32 := 25000#32
  let c784_i32 : BitVec 32 := 784#32
  let v2 : BitVec 32 := Scalar.muli v1 c784_i32
  let v3 : BitVec 32 := Scalar.subi c25000_i32 v2
  let c784_i32_0 : BitVec 32 := 784#32
  let v4 : BitVec 32 := Scalar.minsi v3 c784_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v4 c8_i32
  let c0_i32_4 : BitVec 32 := 0#32
  let v18 : BitVec 1 := Scalar.cmpi .ne v17 c0_i32_4
  let v19 : BitVec 1 := Scalar.andi v16 v18
  let v5 : BitVec 32 := Scalar.divsi v4 c8_i32
  let c1_i32 : BitVec 32 := 1#32
  let v20 : BitVec 32 := Scalar.subi v5 c1_i32
  let v21 : BitVec 32 := Scalar.select v19 v20 v5
  let c4_i32 : BitVec 32 := 4#32
  let v40 : BitVec 32 := Scalar.addi v21 c4_i32
  let c1_i32_15 : BitVec 32 := 1#32
  let v41 : BitVec 32 := Scalar.subi v40 c1_i32_15
  let c0_i32_17 : BitVec 32 := 0#32
  let v43 : BitVec 1 := Scalar.cmpi .sgt v41 c0_i32_17
  let v44 : BitVec 32 := Scalar.extui v43
  let c0_i32_18 : BitVec 32 := 0#32
  let v45 : BitVec 1 := Scalar.cmpi .slt v41 c0_i32_18
  let v46 : BitVec 32 := Scalar.extui v45
  let v47 : BitVec 32 := Scalar.subi v44 v46
  let c4_i32_16 : BitVec 32 := 4#32
  let c0_i32_19 : BitVec 32 := 0#32
  let v48 : BitVec 1 := Scalar.cmpi .sgt c4_i32_16 c0_i32_19
  let v49 : BitVec 32 := Scalar.extui v48
  let c0_i32_20 : BitVec 32 := 0#32
  let v50 : BitVec 1 := Scalar.cmpi .slt c4_i32_16 c0_i32_20
  let v51 : BitVec 32 := Scalar.extui v50
  let v52 : BitVec 32 := Scalar.subi v49 v51
  let v53 : BitVec 1 := Scalar.cmpi .ne v47 v52
  let v54 : BitVec 32 := Scalar.remsi v41 c4_i32_16
  let c0_i32_21 : BitVec 32 := 0#32
  let v55 : BitVec 1 := Scalar.cmpi .ne v54 c0_i32_21
  let v56 : BitVec 1 := Scalar.andi v53 v55
  let v42 : BitVec 32 := Scalar.divsi v41 c4_i32_16
  let c1_i32_22 : BitVec 32 := 1#32
  let v57 : BitVec 32 := Scalar.subi v42 c1_i32_22
  let v58 : BitVec 32 := Scalar.select v56 v57 v42
  let v59 : BitVec 32 := Scalar.subi v58 c0_i32_24
  let c1_i32_25 : BitVec 32 := 1#32
  let v61 : BitVec 32 := Scalar.divsi v59 c1_i32_25
  let v62 : BitVec 32 := Scalar.muli v61 c1_i32_25
  let v63 : BitVec 32 := Scalar.addi c0_i32_24 v62
  let c1_i32_27 : BitVec 32 := 1#32
  let arg22 : BitVec 32 := Scf.iv v63 c1_i32_27 k1_t6
  let c4_i32_36 : BitVec 32 := 4#32
  let v76 : BitVec 32 := Scalar.muli arg22 c4_i32_36
  let c2_i32_41 : BitVec 32 := 2#32
  let v85 : BitVec 32 := Scalar.addi v76 c2_i32_41
  let c8_i32_56 : BitVec 32 := 8#32
  let v100 : BitVec 32 := Scalar.muli v85 c8_i32_56
  let v101 : BitVec 32 := Scalar.addi v99 v100
  let c0_i32_57 : BitVec 32 := 0#32
  ![v101.toNat, 0]
def k1_cond25 (i : grid1.Coords) (k1_t6 : Fin (k1_t6_loop i).trips) : BitVec 1 :=
  let c0_i32_24 : BitVec 32 := 0#32
  let c25000_i32 : BitVec 32 := 25000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := Scalar.subi c25000_i32 v2
  let c784_i32_0 : BitVec 32 := 784#32
  let v4 : BitVec 32 := Scalar.minsi v3 c784_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v4 c8_i32
  let c0_i32_4 : BitVec 32 := 0#32
  let v18 : BitVec 1 := Scalar.cmpi .ne v17 c0_i32_4
  let v19 : BitVec 1 := Scalar.andi v16 v18
  let v5 : BitVec 32 := Scalar.divsi v4 c8_i32
  let c1_i32 : BitVec 32 := 1#32
  let v20 : BitVec 32 := Scalar.subi v5 c1_i32
  let v21 : BitVec 32 := Scalar.select v19 v20 v5
  let c4_i32 : BitVec 32 := 4#32
  let v40 : BitVec 32 := Scalar.addi v21 c4_i32
  let c1_i32_15 : BitVec 32 := 1#32
  let v41 : BitVec 32 := Scalar.subi v40 c1_i32_15
  let c0_i32_17 : BitVec 32 := 0#32
  let v43 : BitVec 1 := Scalar.cmpi .sgt v41 c0_i32_17
  let v44 : BitVec 32 := Scalar.extui v43
  let c0_i32_18 : BitVec 32 := 0#32
  let v45 : BitVec 1 := Scalar.cmpi .slt v41 c0_i32_18
  let v46 : BitVec 32 := Scalar.extui v45
  let v47 : BitVec 32 := Scalar.subi v44 v46
  let c4_i32_16 : BitVec 32 := 4#32
  let c0_i32_19 : BitVec 32 := 0#32
  let v48 : BitVec 1 := Scalar.cmpi .sgt c4_i32_16 c0_i32_19
  let v49 : BitVec 32 := Scalar.extui v48
  let c0_i32_20 : BitVec 32 := 0#32
  let v50 : BitVec 1 := Scalar.cmpi .slt c4_i32_16 c0_i32_20
  let v51 : BitVec 32 := Scalar.extui v50
  let v52 : BitVec 32 := Scalar.subi v49 v51
  let v53 : BitVec 1 := Scalar.cmpi .ne v47 v52
  let v54 : BitVec 32 := Scalar.remsi v41 c4_i32_16
  let c0_i32_21 : BitVec 32 := 0#32
  let v55 : BitVec 1 := Scalar.cmpi .ne v54 c0_i32_21
  let v56 : BitVec 1 := Scalar.andi v53 v55
  let v42 : BitVec 32 := Scalar.divsi v41 c4_i32_16
  let c1_i32_22 : BitVec 32 := 1#32
  let v57 : BitVec 32 := Scalar.subi v42 c1_i32_22
  let v58 : BitVec 32 := Scalar.select v56 v57 v42
  let v59 : BitVec 32 := Scalar.subi v58 c0_i32_24
  let c1_i32_25 : BitVec 32 := 1#32
  let v61 : BitVec 32 := Scalar.divsi v59 c1_i32_25
  let v62 : BitVec 32 := Scalar.muli v61 c1_i32_25
  let v63 : BitVec 32 := Scalar.addi c0_i32_24 v62
  let c1_i32_27 : BitVec 32 := 1#32
  let arg22 : BitVec 32 := Scf.iv v63 c1_i32_27 k1_t6
  let c4_i32_36 : BitVec 32 := 4#32
  let v76 : BitVec 32 := Scalar.muli arg22 c4_i32_36
  let c2_i32_41 : BitVec 32 := 2#32
  let v85 : BitVec 32 := Scalar.addi v76 c2_i32_41
  let c4_i32_59 : BitVec 32 := 4#32
  let v104 : BitVec 32 := Scalar.addi v85 c4_i32_59
  let v105 : BitVec 1 := Scalar.cmpi .slt v104 v21
  let v106 : BitVec 32 := Scalar.extui v105
  let c0_i32_60 : BitVec 32 := 0#32
  let v107 : BitVec 1 := Scalar.cmpi .ne v106 c0_i32_60
  v107

def k1_off131 (i : grid1.Coords) (k1_t6 : Fin (k1_t6_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32_6 : BitVec 32 := 784#32
  let v24 : BitVec 32 := Scalar.muli v1 c784_i32_6
  let c784_i32_5 : BitVec 32 := 784#32
  let v22 : BitVec 32 := Scalar.muli v1 c784_i32_5
  let c24216_i32 : BitVec 32 := 24216#32
  let v23 : BitVec 32 := Scalar.minsi v22 c24216_i32
  let v25 : BitVec 32 := Scalar.subi v24 v23
  let c16_i32 : BitVec 32 := 16#32
  let v26 : BitVec 32 := Scalar.muli v25 c16_i32
  let c0_i32_24 : BitVec 32 := 0#32
  let c25000_i32 : BitVec 32 := 25000#32
  let c784_i32 : BitVec 32 := 784#32
  let v2 : BitVec 32 := Scalar.muli v1 c784_i32
  let v3 : BitVec 32 := Scalar.subi c25000_i32 v2
  let c784_i32_0 : BitVec 32 := 784#32
  let v4 : BitVec 32 := Scalar.minsi v3 c784_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v4 c8_i32
  let c0_i32_4 : BitVec 32 := 0#32
  let v18 : BitVec 1 := Scalar.cmpi .ne v17 c0_i32_4
  let v19 : BitVec 1 := Scalar.andi v16 v18
  let v5 : BitVec 32 := Scalar.divsi v4 c8_i32
  let c1_i32 : BitVec 32 := 1#32
  let v20 : BitVec 32 := Scalar.subi v5 c1_i32
  let v21 : BitVec 32 := Scalar.select v19 v20 v5
  let c4_i32 : BitVec 32 := 4#32
  let v40 : BitVec 32 := Scalar.addi v21 c4_i32
  let c1_i32_15 : BitVec 32 := 1#32
  let v41 : BitVec 32 := Scalar.subi v40 c1_i32_15
  let c0_i32_17 : BitVec 32 := 0#32
  let v43 : BitVec 1 := Scalar.cmpi .sgt v41 c0_i32_17
  let v44 : BitVec 32 := Scalar.extui v43
  let c0_i32_18 : BitVec 32 := 0#32
  let v45 : BitVec 1 := Scalar.cmpi .slt v41 c0_i32_18
  let v46 : BitVec 32 := Scalar.extui v45
  let v47 : BitVec 32 := Scalar.subi v44 v46
  let c4_i32_16 : BitVec 32 := 4#32
  let c0_i32_19 : BitVec 32 := 0#32
  let v48 : BitVec 1 := Scalar.cmpi .sgt c4_i32_16 c0_i32_19
  let v49 : BitVec 32 := Scalar.extui v48
  let c0_i32_20 : BitVec 32 := 0#32
  let v50 : BitVec 1 := Scalar.cmpi .slt c4_i32_16 c0_i32_20
  let v51 : BitVec 32 := Scalar.extui v50
  let v52 : BitVec 32 := Scalar.subi v49 v51
  let v53 : BitVec 1 := Scalar.cmpi .ne v47 v52
  let v54 : BitVec 32 := Scalar.remsi v41 c4_i32_16
  let c0_i32_21 : BitVec 32 := 0#32
  let v55 : BitVec 1 := Scalar.cmpi .ne v54 c0_i32_21
  let v56 : BitVec 1 := Scalar.andi v53 v55
  let v42 : BitVec 32 := Scalar.divsi v41 c4_i32_16
  let c1_i32_22 : BitVec 32 := 1#32
  let v57 : BitVec 32 := Scalar.subi v42 c1_i32_22
  let v58 : BitVec 32 := Scalar.select v56 v57 v42
  let v59 : BitVec 32 := Scalar.subi v58 c0_i32_24
  let c1_i32_25 : BitVec 32 := 1#32
  let v61 : BitVec 32 := Scalar.divsi v59 c1_i32_25
  let v62 : BitVec 32 := Scalar.muli v61 c1_i32_25
  let v63 : BitVec 32 := Scalar.addi c0_i32_24 v62
  let c1_i32_27 : BitVec 32 := 1#32
  let arg22 : BitVec 32 := Scf.iv v63 c1_i32_27 k1_t6
  let c4_i32_36 : BitVec 32 := 4#32
  let v76 : BitVec 32 := Scalar.muli arg22 c4_i32_36
  let c2_i32_41 : BitVec 32 := 2#32
  let v85 : BitVec 32 := Scalar.addi v76 c2_i32_41
  let c4_i32_61 : BitVec 32 := 4#32
  let v108 : BitVec 32 := Scalar.addi v85 c4_i32_61
  let c128_i32 : BitVec 32 := 128#32
  let v109 : BitVec 32 := Scalar.muli v108 c128_i32
  let v110 : BitVec 32 := Scalar.addi v26 v109
  ![v110.toNat]
def k1_cond26 (i : grid1.Coords) (k1_t6 : Fin (k1_t6_loop i).trips) : BitVec 1 :=
  let c0_i32_24 : BitVec 32 := 0#32
  let c25000_i32 : BitVec 32 := 25000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := Scalar.subi c25000_i32 v2
  let c784_i32_0 : BitVec 32 := 784#32
  let v4 : BitVec 32 := Scalar.minsi v3 c784_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v4 c8_i32
  let c0_i32_4 : BitVec 32 := 0#32
  let v18 : BitVec 1 := Scalar.cmpi .ne v17 c0_i32_4
  let v19 : BitVec 1 := Scalar.andi v16 v18
  let v5 : BitVec 32 := Scalar.divsi v4 c8_i32
  let c1_i32 : BitVec 32 := 1#32
  let v20 : BitVec 32 := Scalar.subi v5 c1_i32
  let v21 : BitVec 32 := Scalar.select v19 v20 v5
  let c4_i32 : BitVec 32 := 4#32
  let v40 : BitVec 32 := Scalar.addi v21 c4_i32
  let c1_i32_15 : BitVec 32 := 1#32
  let v41 : BitVec 32 := Scalar.subi v40 c1_i32_15
  let c0_i32_17 : BitVec 32 := 0#32
  let v43 : BitVec 1 := Scalar.cmpi .sgt v41 c0_i32_17
  let v44 : BitVec 32 := Scalar.extui v43
  let c0_i32_18 : BitVec 32 := 0#32
  let v45 : BitVec 1 := Scalar.cmpi .slt v41 c0_i32_18
  let v46 : BitVec 32 := Scalar.extui v45
  let v47 : BitVec 32 := Scalar.subi v44 v46
  let c4_i32_16 : BitVec 32 := 4#32
  let c0_i32_19 : BitVec 32 := 0#32
  let v48 : BitVec 1 := Scalar.cmpi .sgt c4_i32_16 c0_i32_19
  let v49 : BitVec 32 := Scalar.extui v48
  let c0_i32_20 : BitVec 32 := 0#32
  let v50 : BitVec 1 := Scalar.cmpi .slt c4_i32_16 c0_i32_20
  let v51 : BitVec 32 := Scalar.extui v50
  let v52 : BitVec 32 := Scalar.subi v49 v51
  let v53 : BitVec 1 := Scalar.cmpi .ne v47 v52
  let v54 : BitVec 32 := Scalar.remsi v41 c4_i32_16
  let c0_i32_21 : BitVec 32 := 0#32
  let v55 : BitVec 1 := Scalar.cmpi .ne v54 c0_i32_21
  let v56 : BitVec 1 := Scalar.andi v53 v55
  let v42 : BitVec 32 := Scalar.divsi v41 c4_i32_16
  let c1_i32_22 : BitVec 32 := 1#32
  let v57 : BitVec 32 := Scalar.subi v42 c1_i32_22
  let v58 : BitVec 32 := Scalar.select v56 v57 v42
  let v59 : BitVec 32 := Scalar.subi v58 c0_i32_24
  let c1_i32_25 : BitVec 32 := 1#32
  let v61 : BitVec 32 := Scalar.divsi v59 c1_i32_25
  let v62 : BitVec 32 := Scalar.muli v61 c1_i32_25
  let v63 : BitVec 32 := Scalar.addi c0_i32_24 v62
  let c1_i32_27 : BitVec 32 := 1#32
  let arg22 : BitVec 32 := Scf.iv v63 c1_i32_27 k1_t6
  let c4_i32_36 : BitVec 32 := 4#32
  let v76 : BitVec 32 := Scalar.muli arg22 c4_i32_36
  let c3_i32_43 : BitVec 32 := 3#32
  let v89 : BitVec 32 := Scalar.addi v76 c3_i32_43
  let v90 : BitVec 1 := Scalar.cmpi .slt v89 v21
  let v91 : BitVec 32 := Scalar.extui v90
  let c0_i32_44 : BitVec 32 := 0#32
  let v92 : BitVec 1 := Scalar.cmpi .ne v91 c0_i32_44
  v92

@[reducible] def k1_t10_loop : Scf.Loop 32 :=
  let c0_i32_51 : BitVec 32 := 0#32
  let c8_i32_52 : BitVec 32 := 8#32
  let v98 : BitVec 32 := Scalar.addi c0_i32_51 c8_i32_52
  let c1_i32_53 : BitVec 32 := 1#32
  ⟨c0_i32_51, v98, c1_i32_53⟩
def k1_off132 (k1_t10 : Fin k1_t10_loop.trips) (c0_i32_62 : BitVec 32) : Fin 2 → Nat :=
  let c0_i32_51 : BitVec 32 := 0#32
  let c1_i32_53 : BitVec 32 := 1#32
  let arg23 : BitVec 32 := Scf.iv c0_i32_51 c1_i32_53 k1_t10
  let c16_i32_61 : BitVec 32 := 16#32
  let v108 : BitVec 32 := Scalar.muli arg23 c16_i32_61
  let v109 : BitVec 32 := Scalar.addi v108 c0_i32_62
  let v110 : Index := Scalar.indexCast v109
  let c0 : Index := 0#32
  ![v110.toNat, 0]
def k1_off133 (k1_t10 : Fin k1_t10_loop.trips) : Fin 2 → Nat :=
  let c0_i32_51 : BitVec 32 := 0#32
  let c1_i32_53 : BitVec 32 := 1#32
  let arg23 : BitVec 32 := Scf.iv c0_i32_51 c1_i32_53 k1_t10
  let v203 : Index := Scalar.indexCast arg23
  let c0_98 : Index := 0#32
  ![v203.toNat, 0]
def k1_off134 (k1_t10 : Fin k1_t10_loop.trips) (c0_i32_100 : BitVec 32) : Fin 2 → Nat :=
  let c0_i32_51 : BitVec 32 := 0#32
  let c1_i32_53 : BitVec 32 := 1#32
  let arg23 : BitVec 32 := Scf.iv c0_i32_51 c1_i32_53 k1_t10
  let c16_i32_99 : BitVec 32 := 16#32
  let v207 : BitVec 32 := Scalar.muli arg23 c16_i32_99
  let v208 : BitVec 32 := Scalar.addi v207 c0_i32_100
  let v209 : Index := Scalar.indexCast v208
  let c16 : Index := 16#32
  ![v209.toNat, 16]
def k1_off135 (k1_t10 : Fin k1_t10_loop.trips) : Fin 2 → Nat :=
  let c0_i32_51 : BitVec 32 := 0#32
  let c1_i32_53 : BitVec 32 := 1#32
  let arg23 : BitVec 32 := Scf.iv c0_i32_51 c1_i32_53 k1_t10
  let v302 : Index := Scalar.indexCast arg23
  let c16_146 : Index := 16#32
  ![v302.toNat, 16]
def k1_off136 (k1_t10 : Fin k1_t10_loop.trips) (c0_i32_148 : BitVec 32) : Fin 2 → Nat :=
  let c0_i32_51 : BitVec 32 := 0#32
  let c1_i32_53 : BitVec 32 := 1#32
  let arg23 : BitVec 32 := Scf.iv c0_i32_51 c1_i32_53 k1_t10
  let c16_i32_147 : BitVec 32 := 16#32
  let v306 : BitVec 32 := Scalar.muli arg23 c16_i32_147
  let v307 : BitVec 32 := Scalar.addi v306 c0_i32_148
  let v308 : Index := Scalar.indexCast v307
  let c32 : Index := 32#32
  ![v308.toNat, 32]
def k1_off137 (k1_t10 : Fin k1_t10_loop.trips) : Fin 2 → Nat :=
  let c0_i32_51 : BitVec 32 := 0#32
  let c1_i32_53 : BitVec 32 := 1#32
  let arg23 : BitVec 32 := Scf.iv c0_i32_51 c1_i32_53 k1_t10
  let v401 : Index := Scalar.indexCast arg23
  let c32_194 : Index := 32#32
  ![v401.toNat, 32]
def k1_off138 (k1_t10 : Fin k1_t10_loop.trips) (c0_i32_196 : BitVec 32) : Fin 2 → Nat :=
  let c0_i32_51 : BitVec 32 := 0#32
  let c1_i32_53 : BitVec 32 := 1#32
  let arg23 : BitVec 32 := Scf.iv c0_i32_51 c1_i32_53 k1_t10
  let c16_i32_195 : BitVec 32 := 16#32
  let v405 : BitVec 32 := Scalar.muli arg23 c16_i32_195
  let v406 : BitVec 32 := Scalar.addi v405 c0_i32_196
  let v407 : Index := Scalar.indexCast v406
  let c48 : Index := 48#32
  ![v407.toNat, 48]
def k1_off139 (k1_t10 : Fin k1_t10_loop.trips) : Fin 2 → Nat :=
  let c0_i32_51 : BitVec 32 := 0#32
  let c1_i32_53 : BitVec 32 := 1#32
  let arg23 : BitVec 32 := Scf.iv c0_i32_51 c1_i32_53 k1_t10
  let v500 : Index := Scalar.indexCast arg23
  let c48_242 : Index := 48#32
  ![v500.toNat, 48]
def k1_off140 (k1_t10 : Fin k1_t10_loop.trips) (c0_i32_244 : BitVec 32) : Fin 2 → Nat :=
  let c0_i32_51 : BitVec 32 := 0#32
  let c1_i32_53 : BitVec 32 := 1#32
  let arg23 : BitVec 32 := Scf.iv c0_i32_51 c1_i32_53 k1_t10
  let c16_i32_243 : BitVec 32 := 16#32
  let v504 : BitVec 32 := Scalar.muli arg23 c16_i32_243
  let v505 : BitVec 32 := Scalar.addi v504 c0_i32_244
  let v506 : Index := Scalar.indexCast v505
  let c64 : Index := 64#32
  ![v506.toNat, 64]
def k1_off141 (k1_t10 : Fin k1_t10_loop.trips) : Fin 2 → Nat :=
  let c0_i32_51 : BitVec 32 := 0#32
  let c1_i32_53 : BitVec 32 := 1#32
  let arg23 : BitVec 32 := Scf.iv c0_i32_51 c1_i32_53 k1_t10
  let v599 : Index := Scalar.indexCast arg23
  let c64_290 : Index := 64#32
  ![v599.toNat, 64]
def k1_off142 (k1_t10 : Fin k1_t10_loop.trips) (c0_i32_292 : BitVec 32) : Fin 2 → Nat :=
  let c0_i32_51 : BitVec 32 := 0#32
  let c1_i32_53 : BitVec 32 := 1#32
  let arg23 : BitVec 32 := Scf.iv c0_i32_51 c1_i32_53 k1_t10
  let c16_i32_291 : BitVec 32 := 16#32
  let v603 : BitVec 32 := Scalar.muli arg23 c16_i32_291
  let v604 : BitVec 32 := Scalar.addi v603 c0_i32_292
  let v605 : Index := Scalar.indexCast v604
  let c80 : Index := 80#32
  ![v605.toNat, 80]
def k1_off143 (k1_t10 : Fin k1_t10_loop.trips) : Fin 2 → Nat :=
  let c0_i32_51 : BitVec 32 := 0#32
  let c1_i32_53 : BitVec 32 := 1#32
  let arg23 : BitVec 32 := Scf.iv c0_i32_51 c1_i32_53 k1_t10
  let v698 : Index := Scalar.indexCast arg23
  let c80_338 : Index := 80#32
  ![v698.toNat, 80]
def k1_off144 (k1_t10 : Fin k1_t10_loop.trips) (c0_i32_340 : BitVec 32) : Fin 2 → Nat :=
  let c0_i32_51 : BitVec 32 := 0#32
  let c1_i32_53 : BitVec 32 := 1#32
  let arg23 : BitVec 32 := Scf.iv c0_i32_51 c1_i32_53 k1_t10
  let c16_i32_339 : BitVec 32 := 16#32
  let v702 : BitVec 32 := Scalar.muli arg23 c16_i32_339
  let v703 : BitVec 32 := Scalar.addi v702 c0_i32_340
  let v704 : Index := Scalar.indexCast v703
  let c96 : Index := 96#32
  ![v704.toNat, 96]
def k1_off145 (k1_t10 : Fin k1_t10_loop.trips) : Fin 2 → Nat :=
  let c0_i32_51 : BitVec 32 := 0#32
  let c1_i32_53 : BitVec 32 := 1#32
  let arg23 : BitVec 32 := Scf.iv c0_i32_51 c1_i32_53 k1_t10
  let v797 : Index := Scalar.indexCast arg23
  let c96_386 : Index := 96#32
  ![v797.toNat, 96]
def k1_off146 (k1_t10 : Fin k1_t10_loop.trips) (c0_i32_388 : BitVec 32) : Fin 2 → Nat :=
  let c0_i32_51 : BitVec 32 := 0#32
  let c1_i32_53 : BitVec 32 := 1#32
  let arg23 : BitVec 32 := Scf.iv c0_i32_51 c1_i32_53 k1_t10
  let c16_i32_387 : BitVec 32 := 16#32
  let v801 : BitVec 32 := Scalar.muli arg23 c16_i32_387
  let v802 : BitVec 32 := Scalar.addi v801 c0_i32_388
  let v803 : Index := Scalar.indexCast v802
  let c112 : Index := 112#32
  ![v803.toNat, 112]
def k1_off147 (k1_t10 : Fin k1_t10_loop.trips) : Fin 2 → Nat :=
  let c0_i32_51 : BitVec 32 := 0#32
  let c1_i32_53 : BitVec 32 := 1#32
  let arg23 : BitVec 32 := Scf.iv c0_i32_51 c1_i32_53 k1_t10
  let v896 : Index := Scalar.indexCast arg23
  let c112_434 : Index := 112#32
  ![v896.toNat, 112]
def k1_off148 (i : grid1.Coords) (k1_t6 : Fin (k1_t6_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32_55 : BitVec 32 := 784#32
  let v99 : BitVec 32 := Scalar.muli v1 c784_i32_55
  let c0_i32_24 : BitVec 32 := 0#32
  let c25000_i32 : BitVec 32 := 25000#32
  let c784_i32 : BitVec 32 := 784#32
  let v2 : BitVec 32 := Scalar.muli v1 c784_i32
  let v3 : BitVec 32 := Scalar.subi c25000_i32 v2
  let c784_i32_0 : BitVec 32 := 784#32
  let v4 : BitVec 32 := Scalar.minsi v3 c784_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v4 c8_i32
  let c0_i32_4 : BitVec 32 := 0#32
  let v18 : BitVec 1 := Scalar.cmpi .ne v17 c0_i32_4
  let v19 : BitVec 1 := Scalar.andi v16 v18
  let v5 : BitVec 32 := Scalar.divsi v4 c8_i32
  let c1_i32 : BitVec 32 := 1#32
  let v20 : BitVec 32 := Scalar.subi v5 c1_i32
  let v21 : BitVec 32 := Scalar.select v19 v20 v5
  let c4_i32 : BitVec 32 := 4#32
  let v40 : BitVec 32 := Scalar.addi v21 c4_i32
  let c1_i32_15 : BitVec 32 := 1#32
  let v41 : BitVec 32 := Scalar.subi v40 c1_i32_15
  let c0_i32_17 : BitVec 32 := 0#32
  let v43 : BitVec 1 := Scalar.cmpi .sgt v41 c0_i32_17
  let v44 : BitVec 32 := Scalar.extui v43
  let c0_i32_18 : BitVec 32 := 0#32
  let v45 : BitVec 1 := Scalar.cmpi .slt v41 c0_i32_18
  let v46 : BitVec 32 := Scalar.extui v45
  let v47 : BitVec 32 := Scalar.subi v44 v46
  let c4_i32_16 : BitVec 32 := 4#32
  let c0_i32_19 : BitVec 32 := 0#32
  let v48 : BitVec 1 := Scalar.cmpi .sgt c4_i32_16 c0_i32_19
  let v49 : BitVec 32 := Scalar.extui v48
  let c0_i32_20 : BitVec 32 := 0#32
  let v50 : BitVec 1 := Scalar.cmpi .slt c4_i32_16 c0_i32_20
  let v51 : BitVec 32 := Scalar.extui v50
  let v52 : BitVec 32 := Scalar.subi v49 v51
  let v53 : BitVec 1 := Scalar.cmpi .ne v47 v52
  let v54 : BitVec 32 := Scalar.remsi v41 c4_i32_16
  let c0_i32_21 : BitVec 32 := 0#32
  let v55 : BitVec 1 := Scalar.cmpi .ne v54 c0_i32_21
  let v56 : BitVec 1 := Scalar.andi v53 v55
  let v42 : BitVec 32 := Scalar.divsi v41 c4_i32_16
  let c1_i32_22 : BitVec 32 := 1#32
  let v57 : BitVec 32 := Scalar.subi v42 c1_i32_22
  let v58 : BitVec 32 := Scalar.select v56 v57 v42
  let v59 : BitVec 32 := Scalar.subi v58 c0_i32_24
  let c1_i32_25 : BitVec 32 := 1#32
  let v61 : BitVec 32 := Scalar.divsi v59 c1_i32_25
  let v62 : BitVec 32 := Scalar.muli v61 c1_i32_25
  let v63 : BitVec 32 := Scalar.addi c0_i32_24 v62
  let c1_i32_27 : BitVec 32 := 1#32
  let arg22 : BitVec 32 := Scf.iv v63 c1_i32_27 k1_t6
  let c4_i32_36 : BitVec 32 := 4#32
  let v76 : BitVec 32 := Scalar.muli arg22 c4_i32_36
  let c3_i32_43 : BitVec 32 := 3#32
  let v89 : BitVec 32 := Scalar.addi v76 c3_i32_43
  let c8_i32_56 : BitVec 32 := 8#32
  let v100 : BitVec 32 := Scalar.muli v89 c8_i32_56
  let v101 : BitVec 32 := Scalar.addi v99 v100
  let c0_i32_57 : BitVec 32 := 0#32
  ![v101.toNat, 0]
def k1_cond28 (i : grid1.Coords) (k1_t6 : Fin (k1_t6_loop i).trips) : BitVec 1 :=
  let c0_i32_24 : BitVec 32 := 0#32
  let c25000_i32 : BitVec 32 := 25000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := Scalar.subi c25000_i32 v2
  let c784_i32_0 : BitVec 32 := 784#32
  let v4 : BitVec 32 := Scalar.minsi v3 c784_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v4 c8_i32
  let c0_i32_4 : BitVec 32 := 0#32
  let v18 : BitVec 1 := Scalar.cmpi .ne v17 c0_i32_4
  let v19 : BitVec 1 := Scalar.andi v16 v18
  let v5 : BitVec 32 := Scalar.divsi v4 c8_i32
  let c1_i32 : BitVec 32 := 1#32
  let v20 : BitVec 32 := Scalar.subi v5 c1_i32
  let v21 : BitVec 32 := Scalar.select v19 v20 v5
  let c4_i32 : BitVec 32 := 4#32
  let v40 : BitVec 32 := Scalar.addi v21 c4_i32
  let c1_i32_15 : BitVec 32 := 1#32
  let v41 : BitVec 32 := Scalar.subi v40 c1_i32_15
  let c0_i32_17 : BitVec 32 := 0#32
  let v43 : BitVec 1 := Scalar.cmpi .sgt v41 c0_i32_17
  let v44 : BitVec 32 := Scalar.extui v43
  let c0_i32_18 : BitVec 32 := 0#32
  let v45 : BitVec 1 := Scalar.cmpi .slt v41 c0_i32_18
  let v46 : BitVec 32 := Scalar.extui v45
  let v47 : BitVec 32 := Scalar.subi v44 v46
  let c4_i32_16 : BitVec 32 := 4#32
  let c0_i32_19 : BitVec 32 := 0#32
  let v48 : BitVec 1 := Scalar.cmpi .sgt c4_i32_16 c0_i32_19
  let v49 : BitVec 32 := Scalar.extui v48
  let c0_i32_20 : BitVec 32 := 0#32
  let v50 : BitVec 1 := Scalar.cmpi .slt c4_i32_16 c0_i32_20
  let v51 : BitVec 32 := Scalar.extui v50
  let v52 : BitVec 32 := Scalar.subi v49 v51
  let v53 : BitVec 1 := Scalar.cmpi .ne v47 v52
  let v54 : BitVec 32 := Scalar.remsi v41 c4_i32_16
  let c0_i32_21 : BitVec 32 := 0#32
  let v55 : BitVec 1 := Scalar.cmpi .ne v54 c0_i32_21
  let v56 : BitVec 1 := Scalar.andi v53 v55
  let v42 : BitVec 32 := Scalar.divsi v41 c4_i32_16
  let c1_i32_22 : BitVec 32 := 1#32
  let v57 : BitVec 32 := Scalar.subi v42 c1_i32_22
  let v58 : BitVec 32 := Scalar.select v56 v57 v42
  let v59 : BitVec 32 := Scalar.subi v58 c0_i32_24
  let c1_i32_25 : BitVec 32 := 1#32
  let v61 : BitVec 32 := Scalar.divsi v59 c1_i32_25
  let v62 : BitVec 32 := Scalar.muli v61 c1_i32_25
  let v63 : BitVec 32 := Scalar.addi c0_i32_24 v62
  let c1_i32_27 : BitVec 32 := 1#32
  let arg22 : BitVec 32 := Scf.iv v63 c1_i32_27 k1_t6
  let c4_i32_36 : BitVec 32 := 4#32
  let v76 : BitVec 32 := Scalar.muli arg22 c4_i32_36
  let c3_i32_43 : BitVec 32 := 3#32
  let v89 : BitVec 32 := Scalar.addi v76 c3_i32_43
  let c4_i32_59 : BitVec 32 := 4#32
  let v104 : BitVec 32 := Scalar.addi v89 c4_i32_59
  let v105 : BitVec 1 := Scalar.cmpi .slt v104 v21
  let v106 : BitVec 32 := Scalar.extui v105
  let c0_i32_60 : BitVec 32 := 0#32
  let v107 : BitVec 1 := Scalar.cmpi .ne v106 c0_i32_60
  v107

def k1_off149 (i : grid1.Coords) (k1_t6 : Fin (k1_t6_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32_6 : BitVec 32 := 784#32
  let v24 : BitVec 32 := Scalar.muli v1 c784_i32_6
  let c784_i32_5 : BitVec 32 := 784#32
  let v22 : BitVec 32 := Scalar.muli v1 c784_i32_5
  let c24216_i32 : BitVec 32 := 24216#32
  let v23 : BitVec 32 := Scalar.minsi v22 c24216_i32
  let v25 : BitVec 32 := Scalar.subi v24 v23
  let c16_i32 : BitVec 32 := 16#32
  let v26 : BitVec 32 := Scalar.muli v25 c16_i32
  let c0_i32_24 : BitVec 32 := 0#32
  let c25000_i32 : BitVec 32 := 25000#32
  let c784_i32 : BitVec 32 := 784#32
  let v2 : BitVec 32 := Scalar.muli v1 c784_i32
  let v3 : BitVec 32 := Scalar.subi c25000_i32 v2
  let c784_i32_0 : BitVec 32 := 784#32
  let v4 : BitVec 32 := Scalar.minsi v3 c784_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v4 c8_i32
  let c0_i32_4 : BitVec 32 := 0#32
  let v18 : BitVec 1 := Scalar.cmpi .ne v17 c0_i32_4
  let v19 : BitVec 1 := Scalar.andi v16 v18
  let v5 : BitVec 32 := Scalar.divsi v4 c8_i32
  let c1_i32 : BitVec 32 := 1#32
  let v20 : BitVec 32 := Scalar.subi v5 c1_i32
  let v21 : BitVec 32 := Scalar.select v19 v20 v5
  let c4_i32 : BitVec 32 := 4#32
  let v40 : BitVec 32 := Scalar.addi v21 c4_i32
  let c1_i32_15 : BitVec 32 := 1#32
  let v41 : BitVec 32 := Scalar.subi v40 c1_i32_15
  let c0_i32_17 : BitVec 32 := 0#32
  let v43 : BitVec 1 := Scalar.cmpi .sgt v41 c0_i32_17
  let v44 : BitVec 32 := Scalar.extui v43
  let c0_i32_18 : BitVec 32 := 0#32
  let v45 : BitVec 1 := Scalar.cmpi .slt v41 c0_i32_18
  let v46 : BitVec 32 := Scalar.extui v45
  let v47 : BitVec 32 := Scalar.subi v44 v46
  let c4_i32_16 : BitVec 32 := 4#32
  let c0_i32_19 : BitVec 32 := 0#32
  let v48 : BitVec 1 := Scalar.cmpi .sgt c4_i32_16 c0_i32_19
  let v49 : BitVec 32 := Scalar.extui v48
  let c0_i32_20 : BitVec 32 := 0#32
  let v50 : BitVec 1 := Scalar.cmpi .slt c4_i32_16 c0_i32_20
  let v51 : BitVec 32 := Scalar.extui v50
  let v52 : BitVec 32 := Scalar.subi v49 v51
  let v53 : BitVec 1 := Scalar.cmpi .ne v47 v52
  let v54 : BitVec 32 := Scalar.remsi v41 c4_i32_16
  let c0_i32_21 : BitVec 32 := 0#32
  let v55 : BitVec 1 := Scalar.cmpi .ne v54 c0_i32_21
  let v56 : BitVec 1 := Scalar.andi v53 v55
  let v42 : BitVec 32 := Scalar.divsi v41 c4_i32_16
  let c1_i32_22 : BitVec 32 := 1#32
  let v57 : BitVec 32 := Scalar.subi v42 c1_i32_22
  let v58 : BitVec 32 := Scalar.select v56 v57 v42
  let v59 : BitVec 32 := Scalar.subi v58 c0_i32_24
  let c1_i32_25 : BitVec 32 := 1#32
  let v61 : BitVec 32 := Scalar.divsi v59 c1_i32_25
  let v62 : BitVec 32 := Scalar.muli v61 c1_i32_25
  let v63 : BitVec 32 := Scalar.addi c0_i32_24 v62
  let c1_i32_27 : BitVec 32 := 1#32
  let arg22 : BitVec 32 := Scf.iv v63 c1_i32_27 k1_t6
  let c4_i32_36 : BitVec 32 := 4#32
  let v76 : BitVec 32 := Scalar.muli arg22 c4_i32_36
  let c3_i32_43 : BitVec 32 := 3#32
  let v89 : BitVec 32 := Scalar.addi v76 c3_i32_43
  let c4_i32_61 : BitVec 32 := 4#32
  let v108 : BitVec 32 := Scalar.addi v89 c4_i32_61
  let c128_i32 : BitVec 32 := 128#32
  let v109 : BitVec 32 := Scalar.muli v108 c128_i32
  let v110 : BitVec 32 := Scalar.addi v26 v109
  ![v110.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  reduces_S10000x128_S10000 : S10000x128.Reduces [1] S10000
  shapeCasts_S10000_S10000x1 : S10000.ShapeCasts S10000x1
  broadcasts_S10000x1_S10000x128 : S10000x1.Broadcasts S10000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S128x128 : S1x128.Broadcasts S128x128
  broadcasts_S1x128_S10000x128 : S1x128.Broadcasts S10000x128
  shapeCasts_S25000x16_S400000 : S25000x16.ShapeCasts S400000
  inb_S100000x128_S100000x128_0_0 : ∀ a, (![0, 0] : Fin 2 → Nat) a + S100000x128.size a ≤ S100000x128.size a
  gathers_S100000x128_S128x128 : S100000x128.Gathers 0 S128x128
  inb_S12544_S128_0 : ∀ a, (![0] : Fin 1 → Nat) a + S128.size a ≤ S12544.size a
  inb_S25000x128_S8x128_0_0 : ∀ a, (![0, 0] : Fin 2 → Nat) a + S8x128.size a ≤ S25000x128.size a
  h_S1x16 : 0 < S1x16.numel
  shapeCasts_S1x16_S16 : S1x16.ShapeCasts S16
  shapeCasts_S16_S1x16 : S16.ShapeCasts S1x16
  dot_S10000x128_S128x128_S10000x128_1_1_0_0_n_n_wf : DotDims.WF S10000x128 S128x128 S10000x128 [1] [1] [0] [0] [] []
  dot_S1x128_S128x128_S1x128_1_1_0_0_n_n_wf : DotDims.WF S1x128 S128x128 S1x128 [1] [1] [0] [0] [] []
  hcc1_scratch9 : 7 + S_.numel ≤ 16
  hcc1_scratch10 : 8 + S_.numel ≤ 16
  hcc1_scratch11 : 9 + S_.numel ≤ 16
  hcc1_scratch12 : 10 + S_.numel ≤ 16
  hcc1_scratch13 : 11 + S_.numel ≤ 16
  hcc1_scratch14 : 12 + S_.numel ≤ 16
  hcc1_scratch15 : 13 + S_.numel ≤ 16
  hcc1_scratch16 : 14 + S_.numel ≤ 16
  hcc1_scoped0 : 15 + S_.numel ≤ 16
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x128.size a ≤ S100000x128.size a
  hwx0_4 : ∀ i : grid0.Coords, EltTy.bits .f32 = 32 ∨ (Rect.block (s := S100000x128) S10000x128.size (cc0_transform_4 i) (hinb0_4 i)).WholeWords (EltTy.packing .f32)
  hcore1 : grid1.bound 0 ≤ τ.nSC
  hsub1 : grid1.bound 1 ≤ τ.nSub
  k1_off1_inb : ∀ i : grid1.Coords, ∀ a, (k1_off1 i) a + S12544.size a ≤ S400000.size a
  k1_off2_inb : ∀ i : grid1.Coords, ∀ (k1_h1 : k1_cond1 i = 1#1), ∀ a, (k1_off2 i) a + S128.size a ≤ S12544.size a
  k1_off3_inb : ∀ i : grid1.Coords, ∀ (k1_h2 : k1_cond2 i = 1#1), ∀ a, (k1_off3 i) a + S128.size a ≤ S12544.size a
  k1_off4_inb : ∀ i : grid1.Coords, ∀ (k1_h3 : k1_cond3 i = 1#1), ∀ a, (k1_off4 i) a + S128.size a ≤ S12544.size a
  k1_off5_inb : ∀ i : grid1.Coords, ∀ (k1_h4 : k1_cond4 i = 1#1), ∀ a, (k1_off5 i) a + S128.size a ≤ S12544.size a
  k1_t1_ok : ∀ i : grid1.Coords, (k1_t1_loop i).OK
  k1_t2_ok : ∀ (i : grid1.Coords) (k1_t1 : Fin (k1_t1_loop i).trips), ∀ (k1_h5 : k1_cond5 i k1_t1 = 1#1), k1_t2_loop.OK
  k1_off6_inb : ∀ (i : grid1.Coords) (k1_t1 : Fin (k1_t1_loop i).trips) (k1_t2 : Fin k1_t2_loop.trips), ∀ (k1_h5 : k1_cond5 i k1_t1 = 1#1), ∀ (r : Fin 16), ∀ a, (k1_off6 k1_t2 (BitVec.ofNat 32 r.val)) a + S1x16.size a ≤ S128x128.size a
  k1_off7_inb : ∀ (i : grid1.Coords) (k1_t1 : Fin (k1_t1_loop i).trips) (k1_t2 : Fin k1_t2_loop.trips), ∀ (k1_h5 : k1_cond5 i k1_t1 = 1#1), ∀ a, (k1_off7 k1_t2) a + S1x16.size a ≤ S8x128.size a
  k1_off8_inb : ∀ (i : grid1.Coords) (k1_t1 : Fin (k1_t1_loop i).trips) (k1_t2 : Fin k1_t2_loop.trips), ∀ (k1_h5 : k1_cond5 i k1_t1 = 1#1), ∀ (r : Fin 16), ∀ a, (k1_off8 k1_t2 (BitVec.ofNat 32 r.val)) a + S1x16.size a ≤ S128x128.size a
  k1_off9_inb : ∀ (i : grid1.Coords) (k1_t1 : Fin (k1_t1_loop i).trips) (k1_t2 : Fin k1_t2_loop.trips), ∀ (k1_h5 : k1_cond5 i k1_t1 = 1#1), ∀ a, (k1_off9 k1_t2) a + S1x16.size a ≤ S8x128.size a
  k1_off10_inb : ∀ (i : grid1.Coords) (k1_t1 : Fin (k1_t1_loop i).trips) (k1_t2 : Fin k1_t2_loop.trips), ∀ (k1_h5 : k1_cond5 i k1_t1 = 1#1), ∀ (r : Fin 16), ∀ a, (k1_off10 k1_t2 (BitVec.ofNat 32 r.val)) a + S1x16.size a ≤ S128x128.size a
  k1_off11_inb : ∀ (i : grid1.Coords) (k1_t1 : Fin (k1_t1_loop i).trips) (k1_t2 : Fin k1_t2_loop.trips), ∀ (k1_h5 : k1_cond5 i k1_t1 = 1#1), ∀ a, (k1_off11 k1_t2) a + S1x16.size a ≤ S8x128.size a
  k1_off12_inb : ∀ (i : grid1.Coords) (k1_t1 : Fin (k1_t1_loop i).trips) (k1_t2 : Fin k1_t2_loop.trips), ∀ (k1_h5 : k1_cond5 i k1_t1 = 1#1), ∀ (r : Fin 16), ∀ a, (k1_off12 k1_t2 (BitVec.ofNat 32 r.val)) a + S1x16.size a ≤ S128x128.size a
  k1_off13_inb : ∀ (i : grid1.Coords) (k1_t1 : Fin (k1_t1_loop i).trips) (k1_t2 : Fin k1_t2_loop.trips), ∀ (k1_h5 : k1_cond5 i k1_t1 = 1#1), ∀ a, (k1_off13 k1_t2) a + S1x16.size a ≤ S8x128.size a
  k1_off14_inb : ∀ (i : grid1.Coords) (k1_t1 : Fin (k1_t1_loop i).trips) (k1_t2 : Fin k1_t2_loop.trips), ∀ (k1_h5 : k1_cond5 i k1_t1 = 1#1), ∀ (r : Fin 16), ∀ a, (k1_off14 k1_t2 (BitVec.ofNat 32 r.val)) a + S1x16.size a ≤ S128x128.size a
  k1_off15_inb : ∀ (i : grid1.Coords) (k1_t1 : Fin (k1_t1_loop i).trips) (k1_t2 : Fin k1_t2_loop.trips), ∀ (k1_h5 : k1_cond5 i k1_t1 = 1#1), ∀ a, (k1_off15 k1_t2) a + S1x16.size a ≤ S8x128.size a
  k1_off16_inb : ∀ (i : grid1.Coords) (k1_t1 : Fin (k1_t1_loop i).trips) (k1_t2 : Fin k1_t2_loop.trips), ∀ (k1_h5 : k1_cond5 i k1_t1 = 1#1), ∀ (r : Fin 16), ∀ a, (k1_off16 k1_t2 (BitVec.ofNat 32 r.val)) a + S1x16.size a ≤ S128x128.size a
  k1_off17_inb : ∀ (i : grid1.Coords) (k1_t1 : Fin (k1_t1_loop i).trips) (k1_t2 : Fin k1_t2_loop.trips), ∀ (k1_h5 : k1_cond5 i k1_t1 = 1#1), ∀ a, (k1_off17 k1_t2) a + S1x16.size a ≤ S8x128.size a
  k1_off18_inb : ∀ (i : grid1.Coords) (k1_t1 : Fin (k1_t1_loop i).trips) (k1_t2 : Fin k1_t2_loop.trips), ∀ (k1_h5 : k1_cond5 i k1_t1 = 1#1), ∀ (r : Fin 16), ∀ a, (k1_off18 k1_t2 (BitVec.ofNat 32 r.val)) a + S1x16.size a ≤ S128x128.size a
  k1_off19_inb : ∀ (i : grid1.Coords) (k1_t1 : Fin (k1_t1_loop i).trips) (k1_t2 : Fin k1_t2_loop.trips), ∀ (k1_h5 : k1_cond5 i k1_t1 = 1#1), ∀ a, (k1_off19 k1_t2) a + S1x16.size a ≤ S8x128.size a
  k1_off20_inb : ∀ (i : grid1.Coords) (k1_t1 : Fin (k1_t1_loop i).trips) (k1_t2 : Fin k1_t2_loop.trips), ∀ (k1_h5 : k1_cond5 i k1_t1 = 1#1), ∀ (r : Fin 16), ∀ a, (k1_off20 k1_t2 (BitVec.ofNat 32 r.val)) a + S1x16.size a ≤ S128x128.size a
  k1_off21_inb : ∀ (i : grid1.Coords) (k1_t1 : Fin (k1_t1_loop i).trips) (k1_t2 : Fin k1_t2_loop.trips), ∀ (k1_h5 : k1_cond5 i k1_t1 = 1#1), ∀ a, (k1_off21 k1_t2) a + S1x16.size a ≤ S8x128.size a
  k1_off22_inb : ∀ (i : grid1.Coords) (k1_t1 : Fin (k1_t1_loop i).trips), ∀ (k1_h5 : k1_cond5 i k1_t1 = 1#1), ∀ a, (k1_off22 i k1_t1) a + S8x128.size a ≤ S25000x128.size a
  k1_off23_inb : ∀ (i : grid1.Coords) (k1_t1 : Fin (k1_t1_loop i).trips), ∀ (k1_h5 : k1_cond5 i k1_t1 = 1#1), ∀ (k1_h7 : k1_cond7 i k1_t1 = 1#1), ∀ a, (k1_off23 i k1_t1) a + S128.size a ≤ S12544.size a
  k1_t3_ok : ∀ (i : grid1.Coords) (k1_t1 : Fin (k1_t1_loop i).trips), ∀ (k1_h8 : k1_cond8 i k1_t1 = 1#1), k1_t3_loop.OK
  k1_off24_inb : ∀ (i : grid1.Coords) (k1_t1 : Fin (k1_t1_loop i).trips) (k1_t3 : Fin k1_t3_loop.trips), ∀ (k1_h8 : k1_cond8 i k1_t1 = 1#1), ∀ (r : Fin 16), ∀ a, (k1_off24 k1_t3 (BitVec.ofNat 32 r.val)) a + S1x16.size a ≤ S128x128.size a
  k1_off25_inb : ∀ (i : grid1.Coords) (k1_t1 : Fin (k1_t1_loop i).trips) (k1_t3 : Fin k1_t3_loop.trips), ∀ (k1_h8 : k1_cond8 i k1_t1 = 1#1), ∀ a, (k1_off25 k1_t3) a + S1x16.size a ≤ S8x128.size a
  k1_off26_inb : ∀ (i : grid1.Coords) (k1_t1 : Fin (k1_t1_loop i).trips) (k1_t3 : Fin k1_t3_loop.trips), ∀ (k1_h8 : k1_cond8 i k1_t1 = 1#1), ∀ (r : Fin 16), ∀ a, (k1_off26 k1_t3 (BitVec.ofNat 32 r.val)) a + S1x16.size a ≤ S128x128.size a
  k1_off27_inb : ∀ (i : grid1.Coords) (k1_t1 : Fin (k1_t1_loop i).trips) (k1_t3 : Fin k1_t3_loop.trips), ∀ (k1_h8 : k1_cond8 i k1_t1 = 1#1), ∀ a, (k1_off27 k1_t3) a + S1x16.size a ≤ S8x128.size a
  k1_off28_inb : ∀ (i : grid1.Coords) (k1_t1 : Fin (k1_t1_loop i).trips) (k1_t3 : Fin k1_t3_loop.trips), ∀ (k1_h8 : k1_cond8 i k1_t1 = 1#1), ∀ (r : Fin 16), ∀ a, (k1_off28 k1_t3 (BitVec.ofNat 32 r.val)) a + S1x16.size a ≤ S128x128.size a
  k1_off29_inb : ∀ (i : grid1.Coords) (k1_t1 : Fin (k1_t1_loop i).trips) (k1_t3 : Fin k1_t3_loop.trips), ∀ (k1_h8 : k1_cond8 i k1_t1 = 1#1), ∀ a, (k1_off29 k1_t3) a + S1x16.size a ≤ S8x128.size a
  k1_off30_inb : ∀ (i : grid1.Coords) (k1_t1 : Fin (k1_t1_loop i).trips) (k1_t3 : Fin k1_t3_loop.trips), ∀ (k1_h8 : k1_cond8 i k1_t1 = 1#1), ∀ (r : Fin 16), ∀ a, (k1_off30 k1_t3 (BitVec.ofNat 32 r.val)) a + S1x16.size a ≤ S128x128.size a
  k1_off31_inb : ∀ (i : grid1.Coords) (k1_t1 : Fin (k1_t1_loop i).trips) (k1_t3 : Fin k1_t3_loop.trips), ∀ (k1_h8 : k1_cond8 i k1_t1 = 1#1), ∀ a, (k1_off31 k1_t3) a + S1x16.size a ≤ S8x128.size a
  k1_off32_inb : ∀ (i : grid1.Coords) (k1_t1 : Fin (k1_t1_loop i).trips) (k1_t3 : Fin k1_t3_loop.trips), ∀ (k1_h8 : k1_cond8 i k1_t1 = 1#1), ∀ (r : Fin 16), ∀ a, (k1_off32 k1_t3 (BitVec.ofNat 32 r.val)) a + S1x16.size a ≤ S128x128.size a
  k1_off33_inb : ∀ (i : grid1.Coords) (k1_t1 : Fin (k1_t1_loop i).trips) (k1_t3 : Fin k1_t3_loop.trips), ∀ (k1_h8 : k1_cond8 i k1_t1 = 1#1), ∀ a, (k1_off33 k1_t3) a + S1x16.size a ≤ S8x128.size a
  k1_off34_inb : ∀ (i : grid1.Coords) (k1_t1 : Fin (k1_t1_loop i).trips) (k1_t3 : Fin k1_t3_loop.trips), ∀ (k1_h8 : k1_cond8 i k1_t1 = 1#1), ∀ (r : Fin 16), ∀ a, (k1_off34 k1_t3 (BitVec.ofNat 32 r.val)) a + S1x16.size a ≤ S128x128.size a
  k1_off35_inb : ∀ (i : grid1.Coords) (k1_t1 : Fin (k1_t1_loop i).trips) (k1_t3 : Fin k1_t3_loop.trips), ∀ (k1_h8 : k1_cond8 i k1_t1 = 1#1), ∀ a, (k1_off35 k1_t3) a + S1x16.size a ≤ S8x128.size a
  k1_off36_inb : ∀ (i : grid1.Coords) (k1_t1 : Fin (k1_t1_loop i).trips) (k1_t3 : Fin k1_t3_loop.trips), ∀ (k1_h8 : k1_cond8 i k1_t1 = 1#1), ∀ (r : Fin 16), ∀ a, (k1_off36 k1_t3 (BitVec.ofNat 32 r.val)) a + S1x16.size a ≤ S128x128.size a
  k1_off37_inb : ∀ (i : grid1.Coords) (k1_t1 : Fin (k1_t1_loop i).trips) (k1_t3 : Fin k1_t3_loop.trips), ∀ (k1_h8 : k1_cond8 i k1_t1 = 1#1), ∀ a, (k1_off37 k1_t3) a + S1x16.size a ≤ S8x128.size a
  k1_off38_inb : ∀ (i : grid1.Coords) (k1_t1 : Fin (k1_t1_loop i).trips) (k1_t3 : Fin k1_t3_loop.trips), ∀ (k1_h8 : k1_cond8 i k1_t1 = 1#1), ∀ (r : Fin 16), ∀ a, (k1_off38 k1_t3 (BitVec.ofNat 32 r.val)) a + S1x16.size a ≤ S128x128.size a
  k1_off39_inb : ∀ (i : grid1.Coords) (k1_t1 : Fin (k1_t1_loop i).trips) (k1_t3 : Fin k1_t3_loop.trips), ∀ (k1_h8 : k1_cond8 i k1_t1 = 1#1), ∀ a, (k1_off39 k1_t3) a + S1x16.size a ≤ S8x128.size a
  k1_off40_inb : ∀ (i : grid1.Coords) (k1_t1 : Fin (k1_t1_loop i).trips), ∀ (k1_h8 : k1_cond8 i k1_t1 = 1#1), ∀ a, (k1_off40 i k1_t1) a + S8x128.size a ≤ S25000x128.size a
  k1_off41_inb : ∀ (i : grid1.Coords) (k1_t1 : Fin (k1_t1_loop i).trips), ∀ (k1_h8 : k1_cond8 i k1_t1 = 1#1), ∀ (k1_h10 : k1_cond10 i k1_t1 = 1#1), ∀ a, (k1_off41 i k1_t1) a + S128.size a ≤ S12544.size a
  k1_t4_ok : ∀ (i : grid1.Coords) (k1_t1 : Fin (k1_t1_loop i).trips), ∀ (k1_h11 : k1_cond11 i k1_t1 = 1#1), k1_t4_loop.OK
  k1_off42_inb : ∀ (i : grid1.Coords) (k1_t1 : Fin (k1_t1_loop i).trips) (k1_t4 : Fin k1_t4_loop.trips), ∀ (k1_h11 : k1_cond11 i k1_t1 = 1#1), ∀ (r : Fin 16), ∀ a, (k1_off42 k1_t4 (BitVec.ofNat 32 r.val)) a + S1x16.size a ≤ S128x128.size a
  k1_off43_inb : ∀ (i : grid1.Coords) (k1_t1 : Fin (k1_t1_loop i).trips) (k1_t4 : Fin k1_t4_loop.trips), ∀ (k1_h11 : k1_cond11 i k1_t1 = 1#1), ∀ a, (k1_off43 k1_t4) a + S1x16.size a ≤ S8x128.size a
  k1_off44_inb : ∀ (i : grid1.Coords) (k1_t1 : Fin (k1_t1_loop i).trips) (k1_t4 : Fin k1_t4_loop.trips), ∀ (k1_h11 : k1_cond11 i k1_t1 = 1#1), ∀ (r : Fin 16), ∀ a, (k1_off44 k1_t4 (BitVec.ofNat 32 r.val)) a + S1x16.size a ≤ S128x128.size a
  k1_off45_inb : ∀ (i : grid1.Coords) (k1_t1 : Fin (k1_t1_loop i).trips) (k1_t4 : Fin k1_t4_loop.trips), ∀ (k1_h11 : k1_cond11 i k1_t1 = 1#1), ∀ a, (k1_off45 k1_t4) a + S1x16.size a ≤ S8x128.size a
  k1_off46_inb : ∀ (i : grid1.Coords) (k1_t1 : Fin (k1_t1_loop i).trips) (k1_t4 : Fin k1_t4_loop.trips), ∀ (k1_h11 : k1_cond11 i k1_t1 = 1#1), ∀ (r : Fin 16), ∀ a, (k1_off46 k1_t4 (BitVec.ofNat 32 r.val)) a + S1x16.size a ≤ S128x128.size a
  k1_off47_inb : ∀ (i : grid1.Coords) (k1_t1 : Fin (k1_t1_loop i).trips) (k1_t4 : Fin k1_t4_loop.trips), ∀ (k1_h11 : k1_cond11 i k1_t1 = 1#1), ∀ a, (k1_off47 k1_t4) a + S1x16.size a ≤ S8x128.size a
  k1_off48_inb : ∀ (i : grid1.Coords) (k1_t1 : Fin (k1_t1_loop i).trips) (k1_t4 : Fin k1_t4_loop.trips), ∀ (k1_h11 : k1_cond11 i k1_t1 = 1#1), ∀ (r : Fin 16), ∀ a, (k1_off48 k1_t4 (BitVec.ofNat 32 r.val)) a + S1x16.size a ≤ S128x128.size a
  k1_off49_inb : ∀ (i : grid1.Coords) (k1_t1 : Fin (k1_t1_loop i).trips) (k1_t4 : Fin k1_t4_loop.trips), ∀ (k1_h11 : k1_cond11 i k1_t1 = 1#1), ∀ a, (k1_off49 k1_t4) a + S1x16.size a ≤ S8x128.size a
  k1_off50_inb : ∀ (i : grid1.Coords) (k1_t1 : Fin (k1_t1_loop i).trips) (k1_t4 : Fin k1_t4_loop.trips), ∀ (k1_h11 : k1_cond11 i k1_t1 = 1#1), ∀ (r : Fin 16), ∀ a, (k1_off50 k1_t4 (BitVec.ofNat 32 r.val)) a + S1x16.size a ≤ S128x128.size a
  k1_off51_inb : ∀ (i : grid1.Coords) (k1_t1 : Fin (k1_t1_loop i).trips) (k1_t4 : Fin k1_t4_loop.trips), ∀ (k1_h11 : k1_cond11 i k1_t1 = 1#1), ∀ a, (k1_off51 k1_t4) a + S1x16.size a ≤ S8x128.size a
  k1_off52_inb : ∀ (i : grid1.Coords) (k1_t1 : Fin (k1_t1_loop i).trips) (k1_t4 : Fin k1_t4_loop.trips), ∀ (k1_h11 : k1_cond11 i k1_t1 = 1#1), ∀ (r : Fin 16), ∀ a, (k1_off52 k1_t4 (BitVec.ofNat 32 r.val)) a + S1x16.size a ≤ S128x128.size a
  k1_off53_inb : ∀ (i : grid1.Coords) (k1_t1 : Fin (k1_t1_loop i).trips) (k1_t4 : Fin k1_t4_loop.trips), ∀ (k1_h11 : k1_cond11 i k1_t1 = 1#1), ∀ a, (k1_off53 k1_t4) a + S1x16.size a ≤ S8x128.size a
  k1_off54_inb : ∀ (i : grid1.Coords) (k1_t1 : Fin (k1_t1_loop i).trips) (k1_t4 : Fin k1_t4_loop.trips), ∀ (k1_h11 : k1_cond11 i k1_t1 = 1#1), ∀ (r : Fin 16), ∀ a, (k1_off54 k1_t4 (BitVec.ofNat 32 r.val)) a + S1x16.size a ≤ S128x128.size a
  k1_off55_inb : ∀ (i : grid1.Coords) (k1_t1 : Fin (k1_t1_loop i).trips) (k1_t4 : Fin k1_t4_loop.trips), ∀ (k1_h11 : k1_cond11 i k1_t1 = 1#1), ∀ a, (k1_off55 k1_t4) a + S1x16.size a ≤ S8x128.size a
  k1_off56_inb : ∀ (i : grid1.Coords) (k1_t1 : Fin (k1_t1_loop i).trips) (k1_t4 : Fin k1_t4_loop.trips), ∀ (k1_h11 : k1_cond11 i k1_t1 = 1#1), ∀ (r : Fin 16), ∀ a, (k1_off56 k1_t4 (BitVec.ofNat 32 r.val)) a + S1x16.size a ≤ S128x128.size a
  k1_off57_inb : ∀ (i : grid1.Coords) (k1_t1 : Fin (k1_t1_loop i).trips) (k1_t4 : Fin k1_t4_loop.trips), ∀ (k1_h11 : k1_cond11 i k1_t1 = 1#1), ∀ a, (k1_off57 k1_t4) a + S1x16.size a ≤ S8x128.size a
  k1_off58_inb : ∀ (i : grid1.Coords) (k1_t1 : Fin (k1_t1_loop i).trips), ∀ (k1_h11 : k1_cond11 i k1_t1 = 1#1), ∀ a, (k1_off58 i k1_t1) a + S8x128.size a ≤ S25000x128.size a
  k1_off59_inb : ∀ (i : grid1.Coords) (k1_t1 : Fin (k1_t1_loop i).trips), ∀ (k1_h11 : k1_cond11 i k1_t1 = 1#1), ∀ (k1_h13 : k1_cond13 i k1_t1 = 1#1), ∀ a, (k1_off59 i k1_t1) a + S128.size a ≤ S12544.size a
  k1_t5_ok : ∀ (i : grid1.Coords) (k1_t1 : Fin (k1_t1_loop i).trips), ∀ (k1_h14 : k1_cond14 i k1_t1 = 1#1), k1_t5_loop.OK
  k1_off60_inb : ∀ (i : grid1.Coords) (k1_t1 : Fin (k1_t1_loop i).trips) (k1_t5 : Fin k1_t5_loop.trips), ∀ (k1_h14 : k1_cond14 i k1_t1 = 1#1), ∀ (r : Fin 16), ∀ a, (k1_off60 k1_t5 (BitVec.ofNat 32 r.val)) a + S1x16.size a ≤ S128x128.size a
  k1_off61_inb : ∀ (i : grid1.Coords) (k1_t1 : Fin (k1_t1_loop i).trips) (k1_t5 : Fin k1_t5_loop.trips), ∀ (k1_h14 : k1_cond14 i k1_t1 = 1#1), ∀ a, (k1_off61 k1_t5) a + S1x16.size a ≤ S8x128.size a
  k1_off62_inb : ∀ (i : grid1.Coords) (k1_t1 : Fin (k1_t1_loop i).trips) (k1_t5 : Fin k1_t5_loop.trips), ∀ (k1_h14 : k1_cond14 i k1_t1 = 1#1), ∀ (r : Fin 16), ∀ a, (k1_off62 k1_t5 (BitVec.ofNat 32 r.val)) a + S1x16.size a ≤ S128x128.size a
  k1_off63_inb : ∀ (i : grid1.Coords) (k1_t1 : Fin (k1_t1_loop i).trips) (k1_t5 : Fin k1_t5_loop.trips), ∀ (k1_h14 : k1_cond14 i k1_t1 = 1#1), ∀ a, (k1_off63 k1_t5) a + S1x16.size a ≤ S8x128.size a
  k1_off64_inb : ∀ (i : grid1.Coords) (k1_t1 : Fin (k1_t1_loop i).trips) (k1_t5 : Fin k1_t5_loop.trips), ∀ (k1_h14 : k1_cond14 i k1_t1 = 1#1), ∀ (r : Fin 16), ∀ a, (k1_off64 k1_t5 (BitVec.ofNat 32 r.val)) a + S1x16.size a ≤ S128x128.size a
  k1_off65_inb : ∀ (i : grid1.Coords) (k1_t1 : Fin (k1_t1_loop i).trips) (k1_t5 : Fin k1_t5_loop.trips), ∀ (k1_h14 : k1_cond14 i k1_t1 = 1#1), ∀ a, (k1_off65 k1_t5) a + S1x16.size a ≤ S8x128.size a
  k1_off66_inb : ∀ (i : grid1.Coords) (k1_t1 : Fin (k1_t1_loop i).trips) (k1_t5 : Fin k1_t5_loop.trips), ∀ (k1_h14 : k1_cond14 i k1_t1 = 1#1), ∀ (r : Fin 16), ∀ a, (k1_off66 k1_t5 (BitVec.ofNat 32 r.val)) a + S1x16.size a ≤ S128x128.size a
  k1_off67_inb : ∀ (i : grid1.Coords) (k1_t1 : Fin (k1_t1_loop i).trips) (k1_t5 : Fin k1_t5_loop.trips), ∀ (k1_h14 : k1_cond14 i k1_t1 = 1#1), ∀ a, (k1_off67 k1_t5) a + S1x16.size a ≤ S8x128.size a
  k1_off68_inb : ∀ (i : grid1.Coords) (k1_t1 : Fin (k1_t1_loop i).trips) (k1_t5 : Fin k1_t5_loop.trips), ∀ (k1_h14 : k1_cond14 i k1_t1 = 1#1), ∀ (r : Fin 16), ∀ a, (k1_off68 k1_t5 (BitVec.ofNat 32 r.val)) a + S1x16.size a ≤ S128x128.size a
  k1_off69_inb : ∀ (i : grid1.Coords) (k1_t1 : Fin (k1_t1_loop i).trips) (k1_t5 : Fin k1_t5_loop.trips), ∀ (k1_h14 : k1_cond14 i k1_t1 = 1#1), ∀ a, (k1_off69 k1_t5) a + S1x16.size a ≤ S8x128.size a
  k1_off70_inb : ∀ (i : grid1.Coords) (k1_t1 : Fin (k1_t1_loop i).trips) (k1_t5 : Fin k1_t5_loop.trips), ∀ (k1_h14 : k1_cond14 i k1_t1 = 1#1), ∀ (r : Fin 16), ∀ a, (k1_off70 k1_t5 (BitVec.ofNat 32 r.val)) a + S1x16.size a ≤ S128x128.size a
  k1_off71_inb : ∀ (i : grid1.Coords) (k1_t1 : Fin (k1_t1_loop i).trips) (k1_t5 : Fin k1_t5_loop.trips), ∀ (k1_h14 : k1_cond14 i k1_t1 = 1#1), ∀ a, (k1_off71 k1_t5) a + S1x16.size a ≤ S8x128.size a
  k1_off72_inb : ∀ (i : grid1.Coords) (k1_t1 : Fin (k1_t1_loop i).trips) (k1_t5 : Fin k1_t5_loop.trips), ∀ (k1_h14 : k1_cond14 i k1_t1 = 1#1), ∀ (r : Fin 16), ∀ a, (k1_off72 k1_t5 (BitVec.ofNat 32 r.val)) a + S1x16.size a ≤ S128x128.size a
  k1_off73_inb : ∀ (i : grid1.Coords) (k1_t1 : Fin (k1_t1_loop i).trips) (k1_t5 : Fin k1_t5_loop.trips), ∀ (k1_h14 : k1_cond14 i k1_t1 = 1#1), ∀ a, (k1_off73 k1_t5) a + S1x16.size a ≤ S8x128.size a
  k1_off74_inb : ∀ (i : grid1.Coords) (k1_t1 : Fin (k1_t1_loop i).trips) (k1_t5 : Fin k1_t5_loop.trips), ∀ (k1_h14 : k1_cond14 i k1_t1 = 1#1), ∀ (r : Fin 16), ∀ a, (k1_off74 k1_t5 (BitVec.ofNat 32 r.val)) a + S1x16.size a ≤ S128x128.size a
  k1_off75_inb : ∀ (i : grid1.Coords) (k1_t1 : Fin (k1_t1_loop i).trips) (k1_t5 : Fin k1_t5_loop.trips), ∀ (k1_h14 : k1_cond14 i k1_t1 = 1#1), ∀ a, (k1_off75 k1_t5) a + S1x16.size a ≤ S8x128.size a
  k1_off76_inb : ∀ (i : grid1.Coords) (k1_t1 : Fin (k1_t1_loop i).trips), ∀ (k1_h14 : k1_cond14 i k1_t1 = 1#1), ∀ a, (k1_off76 i k1_t1) a + S8x128.size a ≤ S25000x128.size a
  k1_off77_inb : ∀ (i : grid1.Coords) (k1_t1 : Fin (k1_t1_loop i).trips), ∀ (k1_h14 : k1_cond14 i k1_t1 = 1#1), ∀ (k1_h16 : k1_cond16 i k1_t1 = 1#1), ∀ a, (k1_off77 i k1_t1) a + S128.size a ≤ S12544.size a
  k1_t6_ok : ∀ i : grid1.Coords, (k1_t6_loop i).OK
  k1_t7_ok : ∀ (i : grid1.Coords) (k1_t6 : Fin (k1_t6_loop i).trips), ∀ (k1_h17 : k1_cond17 i k1_t6 = 1#1), k1_t7_loop.OK
  k1_off78_inb : ∀ (i : grid1.Coords) (k1_t6 : Fin (k1_t6_loop i).trips) (k1_t7 : Fin k1_t7_loop.trips), ∀ (k1_h17 : k1_cond17 i k1_t6 = 1#1), ∀ (r : Fin 16), ∀ a, (k1_off78 k1_t7 (BitVec.ofNat 32 r.val)) a + S1x16.size a ≤ S128x128.size a
  k1_off79_inb : ∀ (i : grid1.Coords) (k1_t6 : Fin (k1_t6_loop i).trips) (k1_t7 : Fin k1_t7_loop.trips), ∀ (k1_h17 : k1_cond17 i k1_t6 = 1#1), ∀ a, (k1_off79 k1_t7) a + S1x16.size a ≤ S8x128.size a
  k1_off80_inb : ∀ (i : grid1.Coords) (k1_t6 : Fin (k1_t6_loop i).trips) (k1_t7 : Fin k1_t7_loop.trips), ∀ (k1_h17 : k1_cond17 i k1_t6 = 1#1), ∀ (r : Fin 16), ∀ a, (k1_off80 k1_t7 (BitVec.ofNat 32 r.val)) a + S1x16.size a ≤ S128x128.size a
  k1_off81_inb : ∀ (i : grid1.Coords) (k1_t6 : Fin (k1_t6_loop i).trips) (k1_t7 : Fin k1_t7_loop.trips), ∀ (k1_h17 : k1_cond17 i k1_t6 = 1#1), ∀ a, (k1_off81 k1_t7) a + S1x16.size a ≤ S8x128.size a
  k1_off82_inb : ∀ (i : grid1.Coords) (k1_t6 : Fin (k1_t6_loop i).trips) (k1_t7 : Fin k1_t7_loop.trips), ∀ (k1_h17 : k1_cond17 i k1_t6 = 1#1), ∀ (r : Fin 16), ∀ a, (k1_off82 k1_t7 (BitVec.ofNat 32 r.val)) a + S1x16.size a ≤ S128x128.size a
  k1_off83_inb : ∀ (i : grid1.Coords) (k1_t6 : Fin (k1_t6_loop i).trips) (k1_t7 : Fin k1_t7_loop.trips), ∀ (k1_h17 : k1_cond17 i k1_t6 = 1#1), ∀ a, (k1_off83 k1_t7) a + S1x16.size a ≤ S8x128.size a
  k1_off84_inb : ∀ (i : grid1.Coords) (k1_t6 : Fin (k1_t6_loop i).trips) (k1_t7 : Fin k1_t7_loop.trips), ∀ (k1_h17 : k1_cond17 i k1_t6 = 1#1), ∀ (r : Fin 16), ∀ a, (k1_off84 k1_t7 (BitVec.ofNat 32 r.val)) a + S1x16.size a ≤ S128x128.size a
  k1_off85_inb : ∀ (i : grid1.Coords) (k1_t6 : Fin (k1_t6_loop i).trips) (k1_t7 : Fin k1_t7_loop.trips), ∀ (k1_h17 : k1_cond17 i k1_t6 = 1#1), ∀ a, (k1_off85 k1_t7) a + S1x16.size a ≤ S8x128.size a
  k1_off86_inb : ∀ (i : grid1.Coords) (k1_t6 : Fin (k1_t6_loop i).trips) (k1_t7 : Fin k1_t7_loop.trips), ∀ (k1_h17 : k1_cond17 i k1_t6 = 1#1), ∀ (r : Fin 16), ∀ a, (k1_off86 k1_t7 (BitVec.ofNat 32 r.val)) a + S1x16.size a ≤ S128x128.size a
  k1_off87_inb : ∀ (i : grid1.Coords) (k1_t6 : Fin (k1_t6_loop i).trips) (k1_t7 : Fin k1_t7_loop.trips), ∀ (k1_h17 : k1_cond17 i k1_t6 = 1#1), ∀ a, (k1_off87 k1_t7) a + S1x16.size a ≤ S8x128.size a
  k1_off88_inb : ∀ (i : grid1.Coords) (k1_t6 : Fin (k1_t6_loop i).trips) (k1_t7 : Fin k1_t7_loop.trips), ∀ (k1_h17 : k1_cond17 i k1_t6 = 1#1), ∀ (r : Fin 16), ∀ a, (k1_off88 k1_t7 (BitVec.ofNat 32 r.val)) a + S1x16.size a ≤ S128x128.size a
  k1_off89_inb : ∀ (i : grid1.Coords) (k1_t6 : Fin (k1_t6_loop i).trips) (k1_t7 : Fin k1_t7_loop.trips), ∀ (k1_h17 : k1_cond17 i k1_t6 = 1#1), ∀ a, (k1_off89 k1_t7) a + S1x16.size a ≤ S8x128.size a
  k1_off90_inb : ∀ (i : grid1.Coords) (k1_t6 : Fin (k1_t6_loop i).trips) (k1_t7 : Fin k1_t7_loop.trips), ∀ (k1_h17 : k1_cond17 i k1_t6 = 1#1), ∀ (r : Fin 16), ∀ a, (k1_off90 k1_t7 (BitVec.ofNat 32 r.val)) a + S1x16.size a ≤ S128x128.size a
  k1_off91_inb : ∀ (i : grid1.Coords) (k1_t6 : Fin (k1_t6_loop i).trips) (k1_t7 : Fin k1_t7_loop.trips), ∀ (k1_h17 : k1_cond17 i k1_t6 = 1#1), ∀ a, (k1_off91 k1_t7) a + S1x16.size a ≤ S8x128.size a
  k1_off92_inb : ∀ (i : grid1.Coords) (k1_t6 : Fin (k1_t6_loop i).trips) (k1_t7 : Fin k1_t7_loop.trips), ∀ (k1_h17 : k1_cond17 i k1_t6 = 1#1), ∀ (r : Fin 16), ∀ a, (k1_off92 k1_t7 (BitVec.ofNat 32 r.val)) a + S1x16.size a ≤ S128x128.size a
  k1_off93_inb : ∀ (i : grid1.Coords) (k1_t6 : Fin (k1_t6_loop i).trips) (k1_t7 : Fin k1_t7_loop.trips), ∀ (k1_h17 : k1_cond17 i k1_t6 = 1#1), ∀ a, (k1_off93 k1_t7) a + S1x16.size a ≤ S8x128.size a
  k1_off94_inb : ∀ (i : grid1.Coords) (k1_t6 : Fin (k1_t6_loop i).trips), ∀ (k1_h17 : k1_cond17 i k1_t6 = 1#1), ∀ a, (k1_off94 i k1_t6) a + S8x128.size a ≤ S25000x128.size a
  k1_off95_inb : ∀ (i : grid1.Coords) (k1_t6 : Fin (k1_t6_loop i).trips), ∀ (k1_h17 : k1_cond17 i k1_t6 = 1#1), ∀ (k1_h19 : k1_cond19 i k1_t6 = 1#1), ∀ a, (k1_off95 i k1_t6) a + S128.size a ≤ S12544.size a
  k1_t8_ok : ∀ (i : grid1.Coords) (k1_t6 : Fin (k1_t6_loop i).trips), ∀ (k1_h20 : k1_cond20 i k1_t6 = 1#1), k1_t8_loop.OK
  k1_off96_inb : ∀ (i : grid1.Coords) (k1_t6 : Fin (k1_t6_loop i).trips) (k1_t8 : Fin k1_t8_loop.trips), ∀ (k1_h20 : k1_cond20 i k1_t6 = 1#1), ∀ (r : Fin 16), ∀ a, (k1_off96 k1_t8 (BitVec.ofNat 32 r.val)) a + S1x16.size a ≤ S128x128.size a
  k1_off97_inb : ∀ (i : grid1.Coords) (k1_t6 : Fin (k1_t6_loop i).trips) (k1_t8 : Fin k1_t8_loop.trips), ∀ (k1_h20 : k1_cond20 i k1_t6 = 1#1), ∀ a, (k1_off97 k1_t8) a + S1x16.size a ≤ S8x128.size a
  k1_off98_inb : ∀ (i : grid1.Coords) (k1_t6 : Fin (k1_t6_loop i).trips) (k1_t8 : Fin k1_t8_loop.trips), ∀ (k1_h20 : k1_cond20 i k1_t6 = 1#1), ∀ (r : Fin 16), ∀ a, (k1_off98 k1_t8 (BitVec.ofNat 32 r.val)) a + S1x16.size a ≤ S128x128.size a
  k1_off99_inb : ∀ (i : grid1.Coords) (k1_t6 : Fin (k1_t6_loop i).trips) (k1_t8 : Fin k1_t8_loop.trips), ∀ (k1_h20 : k1_cond20 i k1_t6 = 1#1), ∀ a, (k1_off99 k1_t8) a + S1x16.size a ≤ S8x128.size a
  k1_off100_inb : ∀ (i : grid1.Coords) (k1_t6 : Fin (k1_t6_loop i).trips) (k1_t8 : Fin k1_t8_loop.trips), ∀ (k1_h20 : k1_cond20 i k1_t6 = 1#1), ∀ (r : Fin 16), ∀ a, (k1_off100 k1_t8 (BitVec.ofNat 32 r.val)) a + S1x16.size a ≤ S128x128.size a
  k1_off101_inb : ∀ (i : grid1.Coords) (k1_t6 : Fin (k1_t6_loop i).trips) (k1_t8 : Fin k1_t8_loop.trips), ∀ (k1_h20 : k1_cond20 i k1_t6 = 1#1), ∀ a, (k1_off101 k1_t8) a + S1x16.size a ≤ S8x128.size a
  k1_off102_inb : ∀ (i : grid1.Coords) (k1_t6 : Fin (k1_t6_loop i).trips) (k1_t8 : Fin k1_t8_loop.trips), ∀ (k1_h20 : k1_cond20 i k1_t6 = 1#1), ∀ (r : Fin 16), ∀ a, (k1_off102 k1_t8 (BitVec.ofNat 32 r.val)) a + S1x16.size a ≤ S128x128.size a
  k1_off103_inb : ∀ (i : grid1.Coords) (k1_t6 : Fin (k1_t6_loop i).trips) (k1_t8 : Fin k1_t8_loop.trips), ∀ (k1_h20 : k1_cond20 i k1_t6 = 1#1), ∀ a, (k1_off103 k1_t8) a + S1x16.size a ≤ S8x128.size a
  k1_off104_inb : ∀ (i : grid1.Coords) (k1_t6 : Fin (k1_t6_loop i).trips) (k1_t8 : Fin k1_t8_loop.trips), ∀ (k1_h20 : k1_cond20 i k1_t6 = 1#1), ∀ (r : Fin 16), ∀ a, (k1_off104 k1_t8 (BitVec.ofNat 32 r.val)) a + S1x16.size a ≤ S128x128.size a
  k1_off105_inb : ∀ (i : grid1.Coords) (k1_t6 : Fin (k1_t6_loop i).trips) (k1_t8 : Fin k1_t8_loop.trips), ∀ (k1_h20 : k1_cond20 i k1_t6 = 1#1), ∀ a, (k1_off105 k1_t8) a + S1x16.size a ≤ S8x128.size a
  k1_off106_inb : ∀ (i : grid1.Coords) (k1_t6 : Fin (k1_t6_loop i).trips) (k1_t8 : Fin k1_t8_loop.trips), ∀ (k1_h20 : k1_cond20 i k1_t6 = 1#1), ∀ (r : Fin 16), ∀ a, (k1_off106 k1_t8 (BitVec.ofNat 32 r.val)) a + S1x16.size a ≤ S128x128.size a
  k1_off107_inb : ∀ (i : grid1.Coords) (k1_t6 : Fin (k1_t6_loop i).trips) (k1_t8 : Fin k1_t8_loop.trips), ∀ (k1_h20 : k1_cond20 i k1_t6 = 1#1), ∀ a, (k1_off107 k1_t8) a + S1x16.size a ≤ S8x128.size a
  k1_off108_inb : ∀ (i : grid1.Coords) (k1_t6 : Fin (k1_t6_loop i).trips) (k1_t8 : Fin k1_t8_loop.trips), ∀ (k1_h20 : k1_cond20 i k1_t6 = 1#1), ∀ (r : Fin 16), ∀ a, (k1_off108 k1_t8 (BitVec.ofNat 32 r.val)) a + S1x16.size a ≤ S128x128.size a
  k1_off109_inb : ∀ (i : grid1.Coords) (k1_t6 : Fin (k1_t6_loop i).trips) (k1_t8 : Fin k1_t8_loop.trips), ∀ (k1_h20 : k1_cond20 i k1_t6 = 1#1), ∀ a, (k1_off109 k1_t8) a + S1x16.size a ≤ S8x128.size a
  k1_off110_inb : ∀ (i : grid1.Coords) (k1_t6 : Fin (k1_t6_loop i).trips) (k1_t8 : Fin k1_t8_loop.trips), ∀ (k1_h20 : k1_cond20 i k1_t6 = 1#1), ∀ (r : Fin 16), ∀ a, (k1_off110 k1_t8 (BitVec.ofNat 32 r.val)) a + S1x16.size a ≤ S128x128.size a
  k1_off111_inb : ∀ (i : grid1.Coords) (k1_t6 : Fin (k1_t6_loop i).trips) (k1_t8 : Fin k1_t8_loop.trips), ∀ (k1_h20 : k1_cond20 i k1_t6 = 1#1), ∀ a, (k1_off111 k1_t8) a + S1x16.size a ≤ S8x128.size a
  k1_off112_inb : ∀ (i : grid1.Coords) (k1_t6 : Fin (k1_t6_loop i).trips), ∀ (k1_h20 : k1_cond20 i k1_t6 = 1#1), ∀ a, (k1_off112 i k1_t6) a + S8x128.size a ≤ S25000x128.size a
  k1_off113_inb : ∀ (i : grid1.Coords) (k1_t6 : Fin (k1_t6_loop i).trips), ∀ (k1_h20 : k1_cond20 i k1_t6 = 1#1), ∀ (k1_h22 : k1_cond22 i k1_t6 = 1#1), ∀ a, (k1_off113 i k1_t6) a + S128.size a ≤ S12544.size a
  k1_t9_ok : ∀ (i : grid1.Coords) (k1_t6 : Fin (k1_t6_loop i).trips), ∀ (k1_h23 : k1_cond23 i k1_t6 = 1#1), k1_t9_loop.OK
  k1_off114_inb : ∀ (i : grid1.Coords) (k1_t6 : Fin (k1_t6_loop i).trips) (k1_t9 : Fin k1_t9_loop.trips), ∀ (k1_h23 : k1_cond23 i k1_t6 = 1#1), ∀ (r : Fin 16), ∀ a, (k1_off114 k1_t9 (BitVec.ofNat 32 r.val)) a + S1x16.size a ≤ S128x128.size a
  k1_off115_inb : ∀ (i : grid1.Coords) (k1_t6 : Fin (k1_t6_loop i).trips) (k1_t9 : Fin k1_t9_loop.trips), ∀ (k1_h23 : k1_cond23 i k1_t6 = 1#1), ∀ a, (k1_off115 k1_t9) a + S1x16.size a ≤ S8x128.size a
  k1_off116_inb : ∀ (i : grid1.Coords) (k1_t6 : Fin (k1_t6_loop i).trips) (k1_t9 : Fin k1_t9_loop.trips), ∀ (k1_h23 : k1_cond23 i k1_t6 = 1#1), ∀ (r : Fin 16), ∀ a, (k1_off116 k1_t9 (BitVec.ofNat 32 r.val)) a + S1x16.size a ≤ S128x128.size a
  k1_off117_inb : ∀ (i : grid1.Coords) (k1_t6 : Fin (k1_t6_loop i).trips) (k1_t9 : Fin k1_t9_loop.trips), ∀ (k1_h23 : k1_cond23 i k1_t6 = 1#1), ∀ a, (k1_off117 k1_t9) a + S1x16.size a ≤ S8x128.size a
  k1_off118_inb : ∀ (i : grid1.Coords) (k1_t6 : Fin (k1_t6_loop i).trips) (k1_t9 : Fin k1_t9_loop.trips), ∀ (k1_h23 : k1_cond23 i k1_t6 = 1#1), ∀ (r : Fin 16), ∀ a, (k1_off118 k1_t9 (BitVec.ofNat 32 r.val)) a + S1x16.size a ≤ S128x128.size a
  k1_off119_inb : ∀ (i : grid1.Coords) (k1_t6 : Fin (k1_t6_loop i).trips) (k1_t9 : Fin k1_t9_loop.trips), ∀ (k1_h23 : k1_cond23 i k1_t6 = 1#1), ∀ a, (k1_off119 k1_t9) a + S1x16.size a ≤ S8x128.size a
  k1_off120_inb : ∀ (i : grid1.Coords) (k1_t6 : Fin (k1_t6_loop i).trips) (k1_t9 : Fin k1_t9_loop.trips), ∀ (k1_h23 : k1_cond23 i k1_t6 = 1#1), ∀ (r : Fin 16), ∀ a, (k1_off120 k1_t9 (BitVec.ofNat 32 r.val)) a + S1x16.size a ≤ S128x128.size a
  k1_off121_inb : ∀ (i : grid1.Coords) (k1_t6 : Fin (k1_t6_loop i).trips) (k1_t9 : Fin k1_t9_loop.trips), ∀ (k1_h23 : k1_cond23 i k1_t6 = 1#1), ∀ a, (k1_off121 k1_t9) a + S1x16.size a ≤ S8x128.size a
  k1_off122_inb : ∀ (i : grid1.Coords) (k1_t6 : Fin (k1_t6_loop i).trips) (k1_t9 : Fin k1_t9_loop.trips), ∀ (k1_h23 : k1_cond23 i k1_t6 = 1#1), ∀ (r : Fin 16), ∀ a, (k1_off122 k1_t9 (BitVec.ofNat 32 r.val)) a + S1x16.size a ≤ S128x128.size a
  k1_off123_inb : ∀ (i : grid1.Coords) (k1_t6 : Fin (k1_t6_loop i).trips) (k1_t9 : Fin k1_t9_loop.trips), ∀ (k1_h23 : k1_cond23 i k1_t6 = 1#1), ∀ a, (k1_off123 k1_t9) a + S1x16.size a ≤ S8x128.size a
  k1_off124_inb : ∀ (i : grid1.Coords) (k1_t6 : Fin (k1_t6_loop i).trips) (k1_t9 : Fin k1_t9_loop.trips), ∀ (k1_h23 : k1_cond23 i k1_t6 = 1#1), ∀ (r : Fin 16), ∀ a, (k1_off124 k1_t9 (BitVec.ofNat 32 r.val)) a + S1x16.size a ≤ S128x128.size a
  k1_off125_inb : ∀ (i : grid1.Coords) (k1_t6 : Fin (k1_t6_loop i).trips) (k1_t9 : Fin k1_t9_loop.trips), ∀ (k1_h23 : k1_cond23 i k1_t6 = 1#1), ∀ a, (k1_off125 k1_t9) a + S1x16.size a ≤ S8x128.size a
  k1_off126_inb : ∀ (i : grid1.Coords) (k1_t6 : Fin (k1_t6_loop i).trips) (k1_t9 : Fin k1_t9_loop.trips), ∀ (k1_h23 : k1_cond23 i k1_t6 = 1#1), ∀ (r : Fin 16), ∀ a, (k1_off126 k1_t9 (BitVec.ofNat 32 r.val)) a + S1x16.size a ≤ S128x128.size a
  k1_off127_inb : ∀ (i : grid1.Coords) (k1_t6 : Fin (k1_t6_loop i).trips) (k1_t9 : Fin k1_t9_loop.trips), ∀ (k1_h23 : k1_cond23 i k1_t6 = 1#1), ∀ a, (k1_off127 k1_t9) a + S1x16.size a ≤ S8x128.size a
  k1_off128_inb : ∀ (i : grid1.Coords) (k1_t6 : Fin (k1_t6_loop i).trips) (k1_t9 : Fin k1_t9_loop.trips), ∀ (k1_h23 : k1_cond23 i k1_t6 = 1#1), ∀ (r : Fin 16), ∀ a, (k1_off128 k1_t9 (BitVec.ofNat 32 r.val)) a + S1x16.size a ≤ S128x128.size a
  k1_off129_inb : ∀ (i : grid1.Coords) (k1_t6 : Fin (k1_t6_loop i).trips) (k1_t9 : Fin k1_t9_loop.trips), ∀ (k1_h23 : k1_cond23 i k1_t6 = 1#1), ∀ a, (k1_off129 k1_t9) a + S1x16.size a ≤ S8x128.size a
  k1_off130_inb : ∀ (i : grid1.Coords) (k1_t6 : Fin (k1_t6_loop i).trips), ∀ (k1_h23 : k1_cond23 i k1_t6 = 1#1), ∀ a, (k1_off130 i k1_t6) a + S8x128.size a ≤ S25000x128.size a
  k1_off131_inb : ∀ (i : grid1.Coords) (k1_t6 : Fin (k1_t6_loop i).trips), ∀ (k1_h23 : k1_cond23 i k1_t6 = 1#1), ∀ (k1_h25 : k1_cond25 i k1_t6 = 1#1), ∀ a, (k1_off131 i k1_t6) a + S128.size a ≤ S12544.size a
  k1_t10_ok : ∀ (i : grid1.Coords) (k1_t6 : Fin (k1_t6_loop i).trips), ∀ (k1_h26 : k1_cond26 i k1_t6 = 1#1), k1_t10_loop.OK
  k1_off132_inb : ∀ (i : grid1.Coords) (k1_t6 : Fin (k1_t6_loop i).trips) (k1_t10 : Fin k1_t10_loop.trips), ∀ (k1_h26 : k1_cond26 i k1_t6 = 1#1), ∀ (r : Fin 16), ∀ a, (k1_off132 k1_t10 (BitVec.ofNat 32 r.val)) a + S1x16.size a ≤ S128x128.size a
  k1_off133_inb : ∀ (i : grid1.Coords) (k1_t6 : Fin (k1_t6_loop i).trips) (k1_t10 : Fin k1_t10_loop.trips), ∀ (k1_h26 : k1_cond26 i k1_t6 = 1#1), ∀ a, (k1_off133 k1_t10) a + S1x16.size a ≤ S8x128.size a
  k1_off134_inb : ∀ (i : grid1.Coords) (k1_t6 : Fin (k1_t6_loop i).trips) (k1_t10 : Fin k1_t10_loop.trips), ∀ (k1_h26 : k1_cond26 i k1_t6 = 1#1), ∀ (r : Fin 16), ∀ a, (k1_off134 k1_t10 (BitVec.ofNat 32 r.val)) a + S1x16.size a ≤ S128x128.size a
  k1_off135_inb : ∀ (i : grid1.Coords) (k1_t6 : Fin (k1_t6_loop i).trips) (k1_t10 : Fin k1_t10_loop.trips), ∀ (k1_h26 : k1_cond26 i k1_t6 = 1#1), ∀ a, (k1_off135 k1_t10) a + S1x16.size a ≤ S8x128.size a
  k1_off136_inb : ∀ (i : grid1.Coords) (k1_t6 : Fin (k1_t6_loop i).trips) (k1_t10 : Fin k1_t10_loop.trips), ∀ (k1_h26 : k1_cond26 i k1_t6 = 1#1), ∀ (r : Fin 16), ∀ a, (k1_off136 k1_t10 (BitVec.ofNat 32 r.val)) a + S1x16.size a ≤ S128x128.size a
  k1_off137_inb : ∀ (i : grid1.Coords) (k1_t6 : Fin (k1_t6_loop i).trips) (k1_t10 : Fin k1_t10_loop.trips), ∀ (k1_h26 : k1_cond26 i k1_t6 = 1#1), ∀ a, (k1_off137 k1_t10) a + S1x16.size a ≤ S8x128.size a
  k1_off138_inb : ∀ (i : grid1.Coords) (k1_t6 : Fin (k1_t6_loop i).trips) (k1_t10 : Fin k1_t10_loop.trips), ∀ (k1_h26 : k1_cond26 i k1_t6 = 1#1), ∀ (r : Fin 16), ∀ a, (k1_off138 k1_t10 (BitVec.ofNat 32 r.val)) a + S1x16.size a ≤ S128x128.size a
  k1_off139_inb : ∀ (i : grid1.Coords) (k1_t6 : Fin (k1_t6_loop i).trips) (k1_t10 : Fin k1_t10_loop.trips), ∀ (k1_h26 : k1_cond26 i k1_t6 = 1#1), ∀ a, (k1_off139 k1_t10) a + S1x16.size a ≤ S8x128.size a
  k1_off140_inb : ∀ (i : grid1.Coords) (k1_t6 : Fin (k1_t6_loop i).trips) (k1_t10 : Fin k1_t10_loop.trips), ∀ (k1_h26 : k1_cond26 i k1_t6 = 1#1), ∀ (r : Fin 16), ∀ a, (k1_off140 k1_t10 (BitVec.ofNat 32 r.val)) a + S1x16.size a ≤ S128x128.size a
  k1_off141_inb : ∀ (i : grid1.Coords) (k1_t6 : Fin (k1_t6_loop i).trips) (k1_t10 : Fin k1_t10_loop.trips), ∀ (k1_h26 : k1_cond26 i k1_t6 = 1#1), ∀ a, (k1_off141 k1_t10) a + S1x16.size a ≤ S8x128.size a
  k1_off142_inb : ∀ (i : grid1.Coords) (k1_t6 : Fin (k1_t6_loop i).trips) (k1_t10 : Fin k1_t10_loop.trips), ∀ (k1_h26 : k1_cond26 i k1_t6 = 1#1), ∀ (r : Fin 16), ∀ a, (k1_off142 k1_t10 (BitVec.ofNat 32 r.val)) a + S1x16.size a ≤ S128x128.size a
  k1_off143_inb : ∀ (i : grid1.Coords) (k1_t6 : Fin (k1_t6_loop i).trips) (k1_t10 : Fin k1_t10_loop.trips), ∀ (k1_h26 : k1_cond26 i k1_t6 = 1#1), ∀ a, (k1_off143 k1_t10) a + S1x16.size a ≤ S8x128.size a
  k1_off144_inb : ∀ (i : grid1.Coords) (k1_t6 : Fin (k1_t6_loop i).trips) (k1_t10 : Fin k1_t10_loop.trips), ∀ (k1_h26 : k1_cond26 i k1_t6 = 1#1), ∀ (r : Fin 16), ∀ a, (k1_off144 k1_t10 (BitVec.ofNat 32 r.val)) a + S1x16.size a ≤ S128x128.size a
  k1_off145_inb : ∀ (i : grid1.Coords) (k1_t6 : Fin (k1_t6_loop i).trips) (k1_t10 : Fin k1_t10_loop.trips), ∀ (k1_h26 : k1_cond26 i k1_t6 = 1#1), ∀ a, (k1_off145 k1_t10) a + S1x16.size a ≤ S8x128.size a
  k1_off146_inb : ∀ (i : grid1.Coords) (k1_t6 : Fin (k1_t6_loop i).trips) (k1_t10 : Fin k1_t10_loop.trips), ∀ (k1_h26 : k1_cond26 i k1_t6 = 1#1), ∀ (r : Fin 16), ∀ a, (k1_off146 k1_t10 (BitVec.ofNat 32 r.val)) a + S1x16.size a ≤ S128x128.size a
  k1_off147_inb : ∀ (i : grid1.Coords) (k1_t6 : Fin (k1_t6_loop i).trips) (k1_t10 : Fin k1_t10_loop.trips), ∀ (k1_h26 : k1_cond26 i k1_t6 = 1#1), ∀ a, (k1_off147 k1_t10) a + S1x16.size a ≤ S8x128.size a
  k1_off148_inb : ∀ (i : grid1.Coords) (k1_t6 : Fin (k1_t6_loop i).trips), ∀ (k1_h26 : k1_cond26 i k1_t6 = 1#1), ∀ a, (k1_off148 i k1_t6) a + S8x128.size a ≤ S25000x128.size a
  k1_off149_inb : ∀ (i : grid1.Coords) (k1_t6 : Fin (k1_t6_loop i).trips), ∀ (k1_h26 : k1_cond26 i k1_t6 = 1#1), ∀ (k1_h28 : k1_cond28 i k1_t6 = 1#1), ∀ a, (k1_off149 i k1_t6) a + S128.size a ≤ S12544.size a

variable [Facts₀]

abbrev cc1_scratch9 : DmaSems sig S_ := SemArray.consecutive 7 S_ hcc1_scratch9
abbrev cc1_scratch10 : DmaSems sig S_ := SemArray.consecutive 8 S_ hcc1_scratch10
abbrev cc1_scratch11 : DmaSems sig S_ := SemArray.consecutive 9 S_ hcc1_scratch11
abbrev cc1_scratch12 : DmaSems sig S_ := SemArray.consecutive 10 S_ hcc1_scratch12
abbrev cc1_scratch13 : DmaSems sig S_ := SemArray.consecutive 11 S_ hcc1_scratch13
abbrev cc1_scratch14 : DmaSems sig S_ := SemArray.consecutive 12 S_ hcc1_scratch14
abbrev cc1_scratch15 : DmaSems sig S_ := SemArray.consecutive 13 S_ hcc1_scratch15
abbrev cc1_scratch16 : DmaSems sig S_ := SemArray.consecutive 14 S_ hcc1_scratch16
abbrev cc1_scoped0 : DmaSems sig S_ := SemArray.consecutive 15 S_ hcc1_scoped0
def dot_S10000x128_S128x128_S10000x128_1_1_0_0_n_n : DotDims S10000x128 S128x128 S10000x128 where
  lhsContracting := [1]
  rhsContracting := [1]
  lhsNonContracting := [0]
  rhsNonContracting := [0]
  lhsBatch := []
  rhsBatch := []
  wf := dot_S10000x128_S128x128_S10000x128_1_1_0_0_n_n_wf
def dot_S1x128_S128x128_S1x128_1_1_0_0_n_n : DotDims S1x128 S128x128 S1x128 where
  lhsContracting := [1]
  rhsContracting := [1]
  lhsNonContracting := [0]
  rhsNonContracting := [0]
  lhsBatch := []
  rhsBatch := []
  wf := dot_S1x128_S128x128_S1x128_1_1_0_0_n_n_wf

abbrev win0_0 : Pipeline.Window sig grid0 :=
  Pipeline.Window.ofSpec (Memref.whole main_arg1) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S10000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x3 : Shape := ⟨2, ![100000, 3]⟩
abbrev S100000x128 : Shape := ⟨2, ![100000, 128]⟩
abbrev S25000x3 : Shape := ⟨2, ![25000, 3]⟩
abbrev S128x128 : Shape := ⟨2, ![128, 128]⟩
abbrev S128 : Shape := ⟨1, ![128]⟩
abbrev S1 : Shape := ⟨1, ![1]⟩
abbrev S25000x16 : Shape := ⟨2, ![25000, 16]⟩
abbrev S400000 : Shape := ⟨1, ![400000]⟩
abbrev S_ : Shape := ⟨0, ![]⟩
abbrev S400000x1 : Shape := ⟨2, ![400000, 1]⟩
abbrev S1x1 : Shape := ⟨2, ![1, 1]⟩
abbrev S400000x128 : Shape := ⟨2, ![400000, 128]⟩
abbrev S25000x16x128 : Shape := ⟨3, ![25000, 16, 128]⟩
abbrev S25000x16x1 : Shape := ⟨3, ![25000, 16, 1]⟩
abbrev S1x1x128 : Shape := ⟨3, ![1, 1, 128]⟩
abbrev S25000x128 : Shape := ⟨2, ![25000, 128]⟩

abbrev nBuf : Space → Nat
  | .hbm => 82
  | .vmem => 0
  | .smem => 0
  | _ => 0

abbrev bufTy : (tb : Table) → Fin (tcTables nBuf tb) → BufTy
  | .hbm, ⟨0, _⟩ => ⟨S100000x3, .f32⟩
  | .hbm, ⟨1, _⟩ => ⟨S100000x128, .f32⟩
  | .hbm, ⟨2, _⟩ => ⟨S25000x3, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S1, .i32⟩
  | .hbm, ⟨7, _⟩ => ⟨S1, .i32⟩
  | .hbm, ⟨8, _⟩ => ⟨S25000x16, .i32⟩
  | .hbm, ⟨9, _⟩ => ⟨S400000, .i32⟩
  | .hbm, ⟨10, _⟩ => ⟨S_, .i32⟩
  | .hbm, ⟨11, _⟩ => ⟨S400000, .i32⟩
  | .hbm, ⟨12, _⟩ => ⟨S400000, .i1⟩
  | .hbm, ⟨13, _⟩ => ⟨S_, .i32⟩
  | .hbm, ⟨14, _⟩ => ⟨S400000, .i32⟩
  | .hbm, ⟨15, _⟩ => ⟨S400000, .i32⟩
  | .hbm, ⟨16, _⟩ => ⟨S400000, .i32⟩
  | .hbm, ⟨17, _⟩ => ⟨S400000x1, .i32⟩
  | .hbm, ⟨18, _⟩ => ⟨S1, .i32⟩
  | .hbm, ⟨19, _⟩ => ⟨S_, .i32⟩
  | .hbm, ⟨20, _⟩ => ⟨S400000x1, .i32⟩
  | .hbm, ⟨21, _⟩ => ⟨S400000x1, .i1⟩
  | .hbm, ⟨22, _⟩ => ⟨S1x1, .i32⟩
  | .hbm, ⟨23, _⟩ => ⟨S400000x1, .i32⟩
  | .hbm, ⟨24, _⟩ => ⟨S400000x1, .i1⟩
  | .hbm, ⟨25, _⟩ => ⟨S400000x1, .i1⟩
  | .hbm, ⟨26, _⟩ => ⟨S_, .i1⟩
  | .hbm, ⟨27, _⟩ => ⟨S400000, .i1⟩
  | .hbm, ⟨28, _⟩ => ⟨S400000x128, .f32⟩
  | .hbm, ⟨29, _⟩ => ⟨S400000x128, .i1⟩
  | .hbm, ⟨30, _⟩ => ⟨S_, .f32⟩
  | .hbm, ⟨31, _⟩ => ⟨S400000x128, .f32⟩
  | .hbm, ⟨32, _⟩ => ⟨S400000x128, .f32⟩
  | .hbm, ⟨33, _⟩ => ⟨S25000x16x128, .f32⟩
  | .hbm, ⟨34, _⟩ => ⟨S_, .f32⟩
  | .hbm, ⟨35, _⟩ => ⟨S25000x16, .f32⟩
  | .hbm, ⟨36, _⟩ => ⟨S25000x16x1, .f32⟩
  | .hbm, ⟨37, _⟩ => ⟨S_, .f32⟩
  | .hbm, ⟨38, _⟩ => ⟨S25000x16x1, .f32⟩
  | .hbm, ⟨39, _⟩ => ⟨S25000x16x1, .f32⟩
  | .hbm, ⟨40, _⟩ => ⟨S_, .i32⟩
  | .hbm, ⟨41, _⟩ => ⟨S_, .f32⟩
  | .hbm, ⟨42, _⟩ => ⟨S25000x16, .f32⟩
  | .hbm, ⟨43, _⟩ => ⟨S25000x16x1, .f32⟩
  | .hbm, ⟨44, _⟩ => ⟨S_, .f32⟩
  | .hbm, ⟨45, _⟩ => ⟨S25000x16x1, .f32⟩
  | .hbm, ⟨46, _⟩ => ⟨S25000x16x1, .f32⟩
  | .hbm, ⟨47, _⟩ => ⟨S25000x16x128, .f32⟩
  | .hbm, ⟨48, _⟩ => ⟨S25000x16x128, .f32⟩
  | .hbm, ⟨49, _⟩ => ⟨S25000x16x128, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S25000x16, .f32⟩
  | .hbm, ⟨55, _⟩ => ⟨S25000x16x1, .f32⟩
  | .hbm, ⟨56, _⟩ => ⟨S25000x16x1, .f32⟩
  | .hbm, ⟨57, _⟩ => ⟨S25000x16x1, .f32⟩
  | .hbm, ⟨58, _⟩ => ⟨S_, .f32⟩
  | .hbm, ⟨59, _⟩ => ⟨S_, .i1⟩
  | .hbm, ⟨60, _⟩ => ⟨S_, .f32⟩
  | .hbm, ⟨61, _⟩ => ⟨S_, .f32⟩
  | .hbm, ⟨62, _⟩ => ⟨S25000x16x1, .f32⟩
  | .hbm, ⟨63, _⟩ => ⟨S25000x16x1, .f32⟩
  | .hbm, ⟨64, _⟩ => ⟨S25000x16x128, .f32⟩
  | .hbm, ⟨65, _⟩ => ⟨S25000x16x128, .f32⟩
  | .hbm, ⟨66, _⟩ => ⟨S_, .f32⟩
  | .hbm, ⟨67, _⟩ => ⟨S25000x16x1, .f32⟩
  | .hbm, ⟨68, _⟩ => ⟨S25000x16x1, .f32⟩
  | .hbm, ⟨69, _⟩ => ⟨S25000x16x1, .f32⟩
  | .hbm, ⟨70, _⟩ => ⟨S25000x16x128, .f32⟩
  | .hbm, ⟨71, _⟩ => ⟨S25000x16x128, .f32⟩
  | .hbm, ⟨72, _⟩ => ⟨S1x1x128, .f32⟩
  | .hbm, ⟨73, _⟩ => ⟨S25000x16x128, .f32⟩
  | .hbm, ⟨74, _⟩ => ⟨S25000x16x128, .f32⟩
  | .hbm, ⟨75, _⟩ => ⟨S1x1x128, .f32⟩
  | .hbm, ⟨76, _⟩ => ⟨S25000x16x128, .f32⟩
  | .hbm, ⟨77, _⟩ => ⟨S25000x16x128, .f32⟩
  | .hbm, ⟨78, _⟩ => ⟨S128x128, .f32⟩
  | .hbm, ⟨79, _⟩ => ⟨S25000x16x128, .f32⟩
  | .hbm, ⟨80, _⟩ => ⟨S_, .f32⟩
  | .hbm, ⟨81, _⟩ => ⟨S25000x128, .f32⟩
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v1 : Ref sig .tc := ⟨.hbm, 32, rfl⟩
abbrev main_v2 : Ref sig .tc := ⟨.hbm, 33, rfl⟩
abbrev main_cst : Ref sig .tc := ⟨.hbm, 34, rfl⟩
abbrev main_v3 : Ref sig .tc := ⟨.hbm, 35, rfl⟩
abbrev main_v4 : Ref sig .tc := ⟨.hbm, 36, rfl⟩
abbrev main_cst_0 : Ref sig .tc := ⟨.hbm, 37, rfl⟩
abbrev main_v5 : Ref sig .tc := ⟨.hbm, 38, rfl⟩
abbrev main_v6 : Ref sig .tc := ⟨.hbm, 39, rfl⟩
abbrev main_c : Ref sig .tc := ⟨.hbm, 40, rfl⟩
abbrev main_call1_cst : Ref sig .tc := ⟨.hbm, 41, rfl⟩
abbrev main_call1_v0 : Ref sig .tc := ⟨.hbm, 42, rfl⟩
abbrev main_call1_v1 : Ref sig .tc := ⟨.hbm, 43, rfl⟩
abbrev main_call1_cst_0 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_v6 : Ref sig .tc := ⟨.hbm, 49, rfl⟩
abbrev main_call1_v7 : Ref sig .tc := ⟨.hbm, 50, rfl⟩
abbrev main_call1_cst_1 : Ref sig .tc := ⟨.hbm, 51, rfl⟩
abbrev main_call1_v8 : Ref sig .tc := ⟨.hbm, 52, rfl⟩
abbrev main_call1_cst_2 : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_v12 : Ref sig .tc := ⟨.hbm, 57, rfl⟩
abbrev main_call1_cst_3 : Ref sig .tc := ⟨.hbm, 58, rfl⟩
abbrev main_call1_v13 : Ref sig .tc := ⟨.hbm, 59, rfl⟩
abbrev main_call1_cst_4 : Ref sig .tc := ⟨.hbm, 60, rfl⟩
abbrev main_call1_call0_v0 : Ref sig .tc := ⟨.hbm, 61, rfl⟩
abbrev main_call1_call0_v1 : Ref sig .tc := ⟨.hbm, 62, rfl⟩
abbrev main_v7 : Ref sig .tc := ⟨.hbm, 63, rfl⟩
abbrev main_v8 : Ref sig .tc := ⟨.hbm, 64, rfl⟩
abbrev main_v9 : Ref sig .tc := ⟨.hbm, 65, rfl⟩
abbrev main_cst_1 : Ref sig .tc := ⟨.hbm, 66, rfl⟩
abbrev main_v10 : Ref sig .tc := ⟨.hbm, 67, rfl⟩
abbrev main_v11 : Ref sig .tc := ⟨.hbm, 68, rfl⟩
abbrev main_v12 : Ref sig .tc := ⟨.hbm, 69, rfl⟩
abbrev main_v13 : Ref sig .tc := ⟨.hbm, 70, rfl⟩
abbrev main_v14 : Ref sig .tc := ⟨.hbm, 71, rfl⟩
abbrev main_v15 : Ref sig .tc := ⟨.hbm, 72, rfl⟩
abbrev main_v16 : Ref sig .tc := ⟨.hbm, 73, rfl⟩
abbrev main_v17 : Ref sig .tc := ⟨.hbm, 74, rfl⟩
abbrev main_v18 : Ref sig .tc := ⟨.hbm, 75, rfl⟩
abbrev main_v19 : Ref sig .tc := ⟨.hbm, 76, rfl⟩
abbrev main_v20 : Ref sig .tc := ⟨.hbm, 77, rfl⟩
abbrev main_v21 : Ref sig .tc := ⟨.hbm, 78, rfl⟩
abbrev main_v22 : Ref sig .tc := ⟨.hbm, 79, rfl⟩
abbrev main_cst_2 : Ref sig .tc := ⟨.hbm, 80, rfl⟩
abbrev main_v23 : Ref sig .tc := ⟨.hbm, 81, rfl⟩

abbrev nD : Nat := 1
abbrev τ : Topo := Topo.v7x

variable {F : FTy → Type} [FloatOps F]

class Facts₀ : Prop where
  shapeCasts_S25000x16_S400000 : S25000x16.ShapeCasts S400000
  bcast_S_S400000 : S_.BroadcastsInDim S400000 (![] : Fin 0 → Fin S400000.rank)
  bcast_S400000_S400000x1_0 : S400000.BroadcastsInDim S400000x1 (![0] : Fin 1 → Fin S400000x1.rank)
  bcast_S_S400000x1 : S_.BroadcastsInDim S400000x1 (![] : Fin 0 → Fin S400000x1.rank)
  bcast_S1_S1x1_1 : S1.BroadcastsInDim S1x1 (![1] : Fin 1 → Fin S1x1.rank)
  bcast_S1x1_S400000x1_0_1 : S1x1.BroadcastsInDim S400000x1 (![0, 1] : Fin 2 → Fin S400000x1.rank)
  reducesTo_S400000x1_S400000_d1 : S400000x1.ReducesTo [1] S400000
  h_S_ : 0 < S_.numel
  bcast_S400000_S400000x128_0 : S400000.BroadcastsInDim S400000x128 (![0] : Fin 1 → Fin S400000x128.rank)
  bcast_S_S400000x128 : S_.BroadcastsInDim S400000x128 (![] : Fin 0 → Fin S400000x128.rank)
  shapeCasts_S400000x128_S25000x16x128 : S400000x128.ShapeCasts S25000x16x128
  reducesTo_S25000x16x128_S25000x16_d2 : S25000x16x128.ReducesTo [2] S25000x16
  bcast_S25000x16_S25000x16x1_0_1 : S25000x16.BroadcastsInDim S25000x16x1 (![0, 1] : Fin 2 → Fin S25000x16x1.rank)
  bcast_S_S25000x16x1 : S_.BroadcastsInDim S25000x16x1 (![] : Fin 0 → Fin S25000x16x1.rank)
  bcast_S25000x16x1_S25000x16x128_0_1_2 : S25000x16x1.BroadcastsInDim S25000x16x128 (![0, 1, 2] : Fin 3 → Fin S25000x16x128.rank)
  bcast_S128_S1x1x128_2 : S128.BroadcastsInDim S1x1x128 (![2] : Fin 1 → Fin S1x1x128.rank)
  bcast_S1x1x128_S25000x16x128_0_1_2 : S1x1x128.BroadcastsInDim S25000x16x128 (![0, 1, 2] : Fin 3 → Fin S25000x16x128.rank)
  transposes_S128x128_S128x128_1_0 : S128x128.Transposes [1, 0] S128x128
  reducesTo_S25000x16x128_S25000x128_d1 : S25000x16x128.ReducesTo [1] S25000x128
  gather_S100000x128_S400000x1_S400000x128_1_0_n_n_0_1_1128_wf : GatherDims.WF S100000x128 S400000x1 S400000x128 [1] [0] [] [0] [] 1 ![1, 128]
  dot_S25000x16x128_S128x128_S25000x16x128_2_0_01_1_n_n_wf : DotDims.WF S25000x16x128 S128x128 S25000x16x128 [2] [0] [0, 1] [1] [] []

variable [Facts₀]

def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def dot_S25000x16x128_S128x128_S25000x16x128_2_0_01_1_n_n : DotDims S25000x16x128 S128x128 S25000x16x128 where
  lhsContracting := [2]
  rhsContracting := [0]
  lhsNonContracting := [0, 1]
  rhsNonContracting := [1]
  lhsBatch := []
  rhsBatch := []
  wf := dot_S25000x16x128_S128x128_S25000x16x128_2_0_01_1_n_n_wf

class Facts : Prop extends Facts₀ where

variable [Facts]
-- ==== Proof.KI.Setup.lean ====
import proofs.«205778_g32538672235162_cont_8to1_b_712_45_alg».proof.Defs
import proofs.«205778_g32538672235162_cont_8to1_b_712_45_alg».proof.Proof.Gen.KernelIdeal
import proofs.«205778_g32538672235162_cont_8to1_b_712_45_alg».proof.Proof.Gen.KernelIdeal.Skeleton
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Transfers
import Idealize.ShloMosaic.Lib.ValueIdx
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UR : Type := URounds (GSem nD τ sig) Unit
abbrev UU : Type := UH × (UR × Counters)

local notation "𝕄" => MT nD τ sig (HIx 1) (Elt F) ℕ UU ℕ

abbrev EH : Emb UH (MT nD τ sig (HIx 1) (Elt F) ℕ UU ℕ) := embL
abbrev EP : Emb UR (MT nD τ sig (HIx 1) (Elt F) ℕ UU ℕ) := (Emb.inl : Emb UR (UR × Counters)).trans embR

variable (m : (ℓ : Loc nD τ sig) → Buf (Elt F) ℓ) (ρ : Dev nD → PrngReg)

abbrev xLoc (d : Dev nD) : Loc nD τ sig := (SparseCore.T d).loc main_arg1
abbrev wLoc (d : Dev nD) : Loc nD τ sig := (SparseCore.T d).loc main_arg3
abbrev gLoc (d : Dev nD) : Loc nD τ sig := (SparseCore.T d).loc main_arg4
abbrev bLoc (d : Dev nD) : Loc nD τ sig := (SparseCore.T d).loc main_arg5
abbrev nLoc (d : Dev nD) : Loc nD τ sig := (SparseCore.T d).loc main_arg8
abbrev yLoc (d : Dev nD) : Loc nD τ sig := (SparseCore.T d).loc main_v2
abbrev iLoc (d : Dev nD) : Loc nD τ sig := (SparseCore.T d).loc main_v3
abbrev oLoc (d : Dev nD) : Loc nD τ sig := (SparseCore.T d).loc main_v4

def PreOK : Prop := ∀ (d : Dev nD) (j : S25000x16.Idx), (m (nLoc d) j).toNat < 100000

section Values

variable [FloatOps F]

def Iv (d : Dev nD) : Buf (Elt F) (iLoc d) :=
  fun j => m (nLoc d) (ix2 ⟨(j 0).val / 16, by have h : (j 0).val < 400000 := (j 0).isLt; omega⟩ ⟨(j 0).val % 16, Nat.mod_lt _ (by norm_num)⟩)

def xBlk (d : Dev nD) (t : Fin 10) : Vec F S10000x128 .f32 :=
  fun y => m (xLoc d) (ix2 ⟨10000 * t.val + (y 0).val, by have h : (y 0).val < 10000 := (y 0).isLt; have := t.isLt; omega⟩ (y 1))
def gRow (d : Dev nD) : Vec F S1x128 .f32 := fun y => m (gLoc d) (ix1 (y 1))
def bRow (d : Dev nD) : Vec F S1x128 .f32 := fun y => m (bLoc d) (ix1 (y 1))

def Ytc (d : Dev nD) : Buf (Elt F) (yLoc d) :=
  fun j => k0_pay1 (F := F) (xBlk m d ⟨(j 0).val / 10000, by have h : (j 0).val < 100000 := (j 0).isLt; omega⟩) (m (wLoc d)) (gRow m d) (bRow m d) (m (wLoc d))
    (ix2 ⟨(j 0).val % 10000, Nat.mod_lt _ (by norm_num)⟩ (j 1))

def tree16F (v : Fin 16 → F .f32) : F .f32 :=
  FloatOps.maximumf
    (FloatOps.maximumf (FloatOps.maximumf (FloatOps.maximumf (v 0) (v 1)) (FloatOps.maximumf (v 2) (v 3)))
      (FloatOps.maximumf (FloatOps.maximumf (v 4) (v 5)) (FloatOps.maximumf (v 6) (v 7))))
    (FloatOps.maximumf (FloatOps.maximumf (FloatOps.maximumf (v 8) (v 9)) (FloatOps.maximumf (v 10) (v 11)))
      (FloatOps.maximumf (FloatOps.maximumf (v 12) (v 13)) (FloatOps.maximumf (v 14) (v 15))))

def Gout (d : Dev nD) (Y : Buf (Elt F) (yLoc d)) (I : Buf (Elt F) (iLoc d)) : Buf (Elt F) (oLoc d) :=
  fun j => tree16F fun k : Fin 16 =>
    Y (ix2 ⟨(I (ix1 ⟨16 * (j 0).val + k.val, by have h : (j 0).val < 25000 := (j 0).isLt; have := k.isLt; omega⟩)).toNat % 100000, Nat.mod_lt _ (by norm_num)⟩ (j 1))

def Out (d : Dev nD) : Buf (Elt F) (oLoc d) := Gout d (Ytc m d) (Iv m d)

end Values

def wid (c : Fin 2) (s : Fin 16) : Fin 32 := ⟨2 * s.val + c.val, by have := c.isLt; have := s.isLt; omega⟩

def outSet (w : Fin 32) : Finset S25000x128.Idx := Finset.univ.filter fun j => 784 * w.val ≤ (j 0).val ∧ (j 0).val < 784 * (w.val + 1)

def tok (c : Fin 2) (s : Fin 16) : Fin 32 := ⟨16 * c.val + s.val, by have := c.isLt; have := s.isLt; omega⟩
abbrev rq (c : Fin 2) (s : Fin 16) : PosShare TreeShare := Transfers.shareTok fullShare 32 (tok c s)

variable [FloatOps F]

def tileRes (d : Dev nD) (c : Fin 2) (s : Fin 16) (f : Buf (Elt F) (oLoc d)) : sProp 𝕄 :=
  iprop((yLoc d ↦{rq c s} Ytc m d) ∗ (iLoc d ↦{rq c s} Iv m d) ∗ oLoc d ↦[outSet (wid c s)]{fullShare} f)

def P : (K (F := F)).Pay (nD := nD) (Val := Elt F) (Name := ℕ) (U := UU) where
  st := fun q d c => match q with | 0 => bigSep Finset.univ fun s : Fin 16 => tileRes m d (Fin.cast nCore_zero c) s (m (oLoc d))
  dn := fun q d c => match q with | 0 => bigSep Finset.univ fun s : Fin 16 => tileRes m d (Fin.cast nCore_zero c) s (Out m d)
  go := fun q d c i => match q with | 0 => tileRes m d (Fin.cast nCore_zero c) (Fin.cast nSub_zero i) (m (oLoc d))
  td := fun q d c i => match q with | 0 => tileRes m d (Fin.cast nCore_zero c) (Fin.cast nSub_zero i) (Out m d)
  x := fun _ _ => iprop(emp)

instance tileRes_storable (d : Dev nD) (c : Fin 2) (s : Fin 16) (f : Buf (Elt F) (oLoc d)) :
    BI.Storable (upEmb : UEmb _ 𝕄) (tileRes m d c s f) := by unfold tileRes; infer_instance

instance P_storable : (P (F := F) m).IsStorable where
  st q d c := match q with | 0 => (inferInstance : BI.Storable (upEmb : UEmb _ 𝕄) (bigSep Finset.univ fun s : Fin 16 => tileRes m d (Fin.cast nCore_zero c) s (m (oLoc d))))
  dn q d c := match q with | 0 => (inferInstance : BI.Storable (upEmb : UEmb _ 𝕄) (bigSep Finset.univ fun s : Fin 16 => tileRes m d (Fin.cast nCore_zero c) s (Out m d)))
  go q d c i := match q with | 0 => (inferInstance : BI.Storable (upEmb : UEmb _ 𝕄) (tileRes m d (Fin.cast nCore_zero c) (Fin.cast nSub_zero i) (m (oLoc d))))
  td q d c i := match q with | 0 => (inferInstance : BI.Storable (upEmb : UEmb _ 𝕄) (tileRes m d (Fin.cast nCore_zero c) (Fin.cast nSub_zero i) (Out m d)))

end Cert.Proof.KI

end
-- ==== Proof.KI.Main.lean ====
import proofs.«205778_g32538672235162_cont_8to1_b_712_45_alg».proof.Proof.KI.Setup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

variable (m : (ℓ : Loc nD τ sig) → Buf (Elt F) ℓ) (ρ : Dev nD → PrngReg)

open Idealize.ShloMosaic.StableHlo (held held_split held_sdiff_result wp_hlo_within)

variable [FloatOps F]

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show (bigSep Finset.univ fun s : Fin 16 => tileRes m d (Fin.cast nCore_zero c) s (m (oLoc d)))
    ⊢ |={Set.univ}=> iprop((bigSep Finset.univ fun i : Fin ((K (F := F)).nSub 0) => tileRes m d (Fin.cast nCore_zero c) (Fin.cast nSub_zero i) (m (oLoc d)))
        ∗ ((bigSep Finset.univ fun i : Fin ((K (F := F)).nSub 0) => tileRes m d (Fin.cast nCore_zero c) (Fin.cast nSub_zero i) (Out m d))
            -∗ bigSep Finset.univ fun s : Fin 16 => tileRes m d (Fin.cast nCore_zero c) s (Out m d)))
  rw [bigSep_tasks (F := F) (fun s => tileRes m d (Fin.cast nCore_zero c) s (m (oLoc d))),
    bigSep_tasks (F := F) (fun s => tileRes m d (Fin.cast nCore_zero c) s (Out m d))]
  iintro H; imodintro
  isplitl [H]; · iexact H
  iintro H; iexact H

abbrev v0Loc' (d : Dev nD) : Loc nD τ sig := (SparseCore.T d).loc main_v0
abbrev v1Loc' (d : Dev nD) : Loc nD τ sig := (SparseCore.T d).loc main_v1

def regIn (d : Dev nD) : sProp 𝕄 :=
  iprop((xLoc d ↦{fullShare} m (xLoc d)) ∗ (wLoc d ↦{fullShare} m (wLoc d)) ∗ (v0Loc' d ↦{fullShare} (gRow m d : Buf (Elt F) (v0Loc' d)))
    ∗ (v1Loc' d ↦{fullShare} (bRow m d : Buf (Elt F) (v1Loc' d))) ∗ ∃ f, yLoc d ↦{fullShare} f)
def regOut (d : Dev nD) : sProp 𝕄 :=
  iprop((xLoc d ↦{fullShare} m (xLoc d)) ∗ (wLoc d ↦{fullShare} m (wLoc d)) ∗ (v0Loc' d ↦{fullShare} (gRow m d : Buf (Elt F) (v0Loc' d)))
    ∗ (v1Loc' d ↦{fullShare} (bRow m d : Buf (Elt F) (v1Loc' d))) ∗ yLoc d ↦{fullShare} Ytc m d)

def RegionStep (RG : Dev nD → sProp 𝕄) : Prop :=
  ∀ (κ : GSem nD τ sig → ℕ) (d : Dev nD) {α : Type}
    (k : PUnit → Prog (TpuEff nD τ sig (Elt F) (SparseCore.Sig (ΛP (F := F)) 1) .tc) α) (Φ : α → sProp 𝕄),
    iprop((K (F := F)).ctx EH (P m) κ ∗ (K (F := F)).tcSt EH d 0 ∗ boundary (SparseCore.T d) ∗ RG d ∗ regIn m d
        ∗ (iprop((K (F := F)).tcSt EH d 0 ∗ boundary (SparseCore.T d) ∗ regOut m d)
            -∗ wp frame (wpE ((K (F := F)).defs (D (F := F))) 𝒱 (SparseCore.T d) none) Set.univ (k ⟨⟩) Φ))
      ⊢ wp frame (wpE ((K (F := F)).defs (D (F := F))) 𝒱 (SparseCore.T d) none) Set.univ
          (.op (.customCall (SparseCore.inner (Pipeline.entry 0)) ()) k) Φ

def CallSplit : Prop :=
  ∀ (d : Dev nD) (fo : Buf (Elt F) (oLoc d)),
    iprop((yLoc d ↦{fullShare} Ytc m d) ∗ (iLoc d ↦{fullShare} Iv m d) ∗ (oLoc d ↦{fullShare} fo))
      ⊣⊢ (iprop((yLoc d ↦{Transfers.shareDrop fullShare 32} Ytc m d) ∗ (iLoc d ↦{Transfers.shareDrop fullShare 32} Iv m d)
          ∗ bigSep Finset.univ fun c : Fin 2 => bigSep Finset.univ fun s : Fin 16 => tileRes m d c s fo) : sProp 𝕄)

def ReshapeRow : Prop := ∀ a : FVec F S128 .f32,
  (shapeCast S1x128 a shapeCasts_S128_S1x128 : FVec F S1x128 .f32) = fun y => a (ix1 (y 1))
def ReshapeFlat : Prop := ∀ a : IVec S25000x16 32,
  (shapeCast S400000 a shapeCasts_S25000x16_S400000 : IVec S400000 32)
    = fun j => a (ix2 ⟨(j 0).val / 16, by have h : (j 0).val < 400000 := (j 0).isLt; omega⟩ ⟨(j 0).val % 16, Nat.mod_lt _ (by norm_num)⟩)

def u₀ (uR₀ : UR) : UU := (initOf (K (F := F)).hsCells (K (F := F)).hsToks, (uR₀, (1 : Counters)))

omit [FloatOps F] in
theorem bigSep_emp' {I : Type} (s : Finset I) : (bigSep s fun _ => iprop(emp)) = (iprop(emp) : sProp 𝕄) := bigSep_emp_const s

theorem hu₀ (uR₀ : UR) (RG : Dev nD → sProp 𝕄)
    (hfund : (BI.own (EP (F := F) uR₀) : sProp 𝕄) ⊢ |={Set.univ}=> bigSep Finset.univ fun d : Dev nD => RG d) :
    (ownU (u₀ (F := F) uR₀) : sProp 𝕄)
    ⊢ |={Set.univ}=> iprop(BI.own (EH (initOf (K (F := F)).hsCells (K (F := F)).hsToks)) ∗ (bigSep Finset.univ fun d : Dev nD => RG d)
        ∗ bigSep Finset.univ fun thr : Thread nD τ => bigSep Finset.univ fun q : Fin 1 => (P m).x q thr) := by
  unfold u₀
  iintro Hu
  ihave H := (ownU_pair (initOf (K (F := F)).hsCells (K (F := F)).hsToks) ((uR₀, (1 : Counters)) : UR × Counters)) $$ Hu
  icases H with ⟨HH, HR⟩
  ihave HR' := (Entails.of_eq (show (BI.own (embR ((uR₀, (1 : Counters)) : UR × Counters)) : sProp 𝕄) = BI.own (EP (F := F) uR₀) from rfl)) $$ HR
  imod hfund $$ HR' with HRG
  imodintro
  isplitl [HH]; · iexact HH
  isplitl [HRG]; · iexact HRG
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

def FIN (d : Dev nD) : sProp 𝕄 :=
  iprop((((SparseCore.T d).loc main_arg0) ↦{fullShare} m ((SparseCore.T d).loc main_arg0))
    ∗ (((SparseCore.T d).loc main_arg1) ↦{fullShare} m ((SparseCore.T d).loc main_arg1))
    ∗ (((SparseCore.T d).loc main_arg2) ↦{fullShare} m ((SparseCore.T d).loc main_arg2))
    ∗ (((SparseCore.T d).loc main_arg3) ↦{fullShare} m ((SparseCore.T d).loc main_arg3))
    ∗ (((SparseCore.T d).loc main_arg4) ↦{fullShare} m ((SparseCore.T d).loc main_arg4))
    ∗ (((SparseCore.T d).loc main_arg5) ↦{fullShare} m ((SparseCore.T d).loc main_arg5))
    ∗ (((SparseCore.T d).loc main_arg6) ↦{fullShare} m ((SparseCore.T d).loc main_arg6))
    ∗ (((SparseCore.T d).loc main_arg7) ↦{fullShare} m ((SparseCore.T d).loc main_arg7))
    ∗ (((SparseCore.T d).loc main_arg8) ↦{fullShare} m ((SparseCore.T d).loc main_arg8))
    ∗ oLoc d ↦{fullShare} Out m d)

omit [FloatOps F] in
theorem unscopedBufs_eq (d : Dev nD) (W : (b : Ref sig .tc) → Buf (Elt F) ((d.tc : Thread nD τ).loc b)) :
    (unscopedBufs d W : sProp 𝕄) = iprop((((SparseCore.T d).loc main_arg0) ↦{fullShare} W main_arg0)
      ∗ (((SparseCore.T d).loc main_arg1) ↦{fullShare} W main_arg1)
      ∗ (((SparseCore.T d).loc main_arg2) ↦{fullShare} W main_arg2)
      ∗ (((SparseCore.T d).loc main_arg3) ↦{fullShare} W main_arg3)
      ∗ (((SparseCore.T d).loc main_arg4) ↦{fullShare} W main_arg4)
      ∗ (((SparseCore.T d).loc main_arg5) ↦{fullShare} W main_arg5)
      ∗ (((SparseCore.T d).loc main_arg6) ↦{fullShare} W main_arg6)
      ∗ (((SparseCore.T d).loc main_arg7) ↦{fullShare} W main_arg7)
      ∗ (((SparseCore.T d).loc main_arg8) ↦{fullShare} W main_arg8)
      ∗ (((SparseCore.T d).loc main_v0) ↦{fullShare} W main_v0)
      ∗ (((SparseCore.T d).loc main_v1) ↦{fullShare} W main_v1)
      ∗ (((SparseCore.T d).loc main_v2) ↦{fullShare} W main_v2)
      ∗ (((SparseCore.T d).loc main_v3) ↦{fullShare} W main_v3)
      ∗ (((SparseCore.T d).loc main_v4) ↦{fullShare} W main_v4)) := by
  unfold unscopedBufs
  rw [show (Finset.univ.filter fun b : Ref sig .tc => ¬ b.isScoped) = {main_arg0, main_arg1, main_arg2, main_arg3, main_arg4, main_arg5, main_arg6, main_arg7, main_arg8, main_v0, main_v1, main_v2, main_v3, main_v4} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

abbrev opG : HloOp τ sig (Elt F) := StableHlo.reshape main_arg4 main_v0 rfl shapeCasts_S128_S1x128
abbrev opB : HloOp τ sig (Elt F) := StableHlo.reshape main_arg5 main_v1 rfl shapeCasts_S128_S1x128
abbrev opI : HloOp τ sig (Elt F) := StableHlo.reshape main_arg8 main_v3 rfl shapeCasts_S25000x16_S400000

def V0 (d : Dev nD) : Valuation τ sig (Elt F) := fun b => m (d, b)

omit [FloatOps F] in
theorem held_pair (d : Dev nD) (x y : Ref sig .tc) (hne : (Proc.devRef .tc x : DevRef τ sig) ≠ Proc.devRef .tc y) (W : Valuation τ sig (Elt F)) :
    (held (SparseCore.T d) ({(Proc.devRef .tc x : DevRef τ sig), Proc.devRef .tc y} : Finset (DevRef τ sig)) W : sProp 𝕄)
      = iprop(((SparseCore.T d).loc x ↦{fullShare} W (Proc.devRef .tc x)) ∗ ((SparseCore.T d).loc y ↦{fullShare} W (Proc.devRef .tc y))) := by
  unfold held
  rw [SparseCore.bigSep_insert' (by simpa using hne), bigSep_singleton]

omit [FloatOps F] in
theorem V0_apply (d : Dev nD) (x : Ref sig .tc) : V0 m d (Proc.devRef .tc x) = m ((SparseCore.T d).loc x) := rfl

theorem held_reshape (d : Dev nD) (x y : Ref sig .tc) (he : x.ty.elt = y.ty.elt) (hn : x.ty.shape.ShapeCasts y.ty.shape)
    (hx : x.space ≠ .host ∧ (Proc.devRef .tc x : DevRef τ sig).isScoped = false) (hy : y.space ≠ .host ∧ (Proc.devRef .tc y : DevRef τ sig).isScoped = false)
    (hne : (Proc.devRef .tc x : DevRef τ sig) ≠ Proc.devRef .tc y) (hne' : x ≠ y) (W : Valuation τ sig (Elt F))
    (g : Buf (Elt F) ((SparseCore.T d).loc y)) (hg : (fun i => he ▸ shapeCast y.ty.shape (W (Proc.devRef .tc x)) hn i) = g) :
    (held (SparseCore.T d) (StableHlo.reshape (τ := τ) (Val := Elt F) x y he hn hx hy).bufs ((StableHlo.reshape (τ := τ) (Val := Elt F) x y he hn hx hy).result W) : sProp 𝕄)
      = iprop(((SparseCore.T d).loc x ↦{fullShare} W (Proc.devRef .tc x)) ∗ ((SparseCore.T d).loc y ↦{fullShare} g)) := by
  subst hg
  rw [show (StableHlo.reshape (τ := τ) (Val := Elt F) x y he hn hx hy).bufs = ({(Proc.devRef .tc x : DevRef τ sig), Proc.devRef .tc y} : Finset (DevRef τ sig)) from rfl,
    held_pair d x y hne, StableHlo.reshape_result_ne' he hn hx hy W hne', StableHlo.reshape_result' he hn hx hy W]

theorem gRow_val (hrow : ReshapeRow (F := F)) (d : Dev nD) :
    (shapeCast S1x128 (m (gLoc d)) shapeCasts_S128_S1x128 : FVec F S1x128 .f32) = gRow m d := by
  rw [hrow]; rfl
theorem bRow_val (hrow : ReshapeRow (F := F)) (d : Dev nD) :
    (shapeCast S1x128 (m (bLoc d)) shapeCasts_S128_S1x128 : FVec F S1x128 .f32) = bRow m d := by
  rw [hrow]; rfl
theorem Iv_val (hflat : ReshapeFlat) (d : Dev nD) :
    (shapeCast S400000 (m (nLoc d)) shapeCasts_S25000x16_S400000 : IVec S400000 32) = Iv m d := by
  rw [hflat]; rfl

theorem st0_eq (d : Dev nD) :
    (bigSep Finset.univ fun c : Fin ((K (F := F)).nCore 0) => (P m).st 0 d c)
      = bigSep Finset.univ fun c : Fin 2 => bigSep Finset.univ fun s : Fin 16 => tileRes m d c s (m (oLoc d)) :=
  bigSep_congr fun c _ => by
    show (bigSep Finset.univ fun s : Fin 16 => tileRes m d (Fin.cast nCore_zero c) s (m (oLoc d))) = _
    rw [show Fin.cast nCore_zero c = c from Fin.ext rfl]
theorem dn0_eq (d : Dev nD) :
    (bigSep Finset.univ fun c : Fin ((K (F := F)).nCore 0) => (P m).dn 0 d c)
      = bigSep Finset.univ fun c : Fin 2 => bigSep Finset.univ fun s : Fin 16 => tileRes m d c s (Out m d) :=
  bigSep_congr fun c _ => by
    show (bigSep Finset.univ fun s : Fin 16 => tileRes m d (Fin.cast nCore_zero c) s (Out m d)) = _
    rw [show Fin.cast nCore_zero c = c from Fin.ext rfl]

theorem hmain (RG : Dev nD → sProp 𝕄) (hregion : RegionStep m RG) (hcall : CallSplit m)
    (hrow : ReshapeRow (F := F)) (hflat : ReshapeFlat) (κ : GSem nD τ sig → ℕ) (d : Dev nD) :
    iprop((K (F := F)).ctx EH (P m) κ ∗ (K (F := F)).tcSt EH d 0 ∗ (K (F := F)).tcRes m ρ d ∗ RG d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha0, Ha1, Ha2, Ha3, Ha4, Ha5, Ha6, Ha7, Ha8, Hv0, Hv1, Hv2, Hv3, Hv4⟩, -, -⟩, HRG⟩
  iapply (wp_hlo_within 𝒱 (SparseCore.T d) none Set.univ (op := opG (F := F)) (S := (opG (F := F)).bufs) (Finset.Subset.refl _) (V := V0 m d)) $$ [Hb Ha4 Hv0]
  · isplitl [Hb]; · iexact Hb
    rw [show (opG (F := F)).bufs = ({(Proc.devRef .tc main_arg4 : DevRef τ sig), Proc.devRef .tc main_v0} : Finset (DevRef τ sig)) from rfl,
      held_pair d main_arg4 main_v0 (by decide)]
    rw [V0_apply, V0_apply]
    isplitl [Ha4]; · iexact Ha4
    iexact Hv0
  iintro ⟨Hb, Hheld⟩
  ihave Hh := (Entails.of_eq (held_reshape (F := F) d main_arg4 main_v0 rfl shapeCasts_S128_S1x128 ⟨by decide, rfl⟩ ⟨by decide, rfl⟩ (by decide) (by decide) (V0 m d)
    (gRow m d) (gRow_val m hrow d))) $$ Hheld
  icases Hh with ⟨Ha4, Hv0'⟩
  rw [wp_ret]; imodintro
  iapply (wp_hlo_within 𝒱 (SparseCore.T d) none Set.univ (op := opB (F := F)) (S := (opB (F := F)).bufs) (Finset.Subset.refl _) (V := V0 m d)) $$ [Hb Ha5 Hv1]
  · isplitl [Hb]; · iexact Hb
    rw [show (opB (F := F)).bufs = ({(Proc.devRef .tc main_arg5 : DevRef τ sig), Proc.devRef .tc main_v1} : Finset (DevRef τ sig)) from rfl,
      held_pair d main_arg5 main_v1 (by decide)]
    rw [V0_apply, V0_apply]
    isplitl [Ha5]; · iexact Ha5
    iexact Hv1
  iintro ⟨Hb, Hheld⟩
  ihave Hh := (Entails.of_eq (held_reshape (F := F) d main_arg5 main_v1 rfl shapeCasts_S128_S1x128 ⟨by decide, rfl⟩ ⟨by decide, rfl⟩ (by decide) (by decide) (V0 m d)
    (bRow m d) (bRow_val m hrow d))) $$ Hheld
  icases Hh with ⟨Ha5, Hv1'⟩
  rw [wp_ret]; imodintro
  iapply (hregion κ d (fun r => .ret r) _) $$ [Hst Hb HRG Ha1 Ha3 Hv0' Hv1' Hv2 Ha0 Ha2 Ha4 Ha5 Ha6 Ha7 Ha8 Hv3 Hv4]
  isplitr; · iexact Hctx
  isplitl [Hst]; · iexact Hst
  isplitl [Hb]; · iexact Hb
  isplitl [HRG]; · iexact HRG
  isplitl [Ha1 Ha3 Hv0' Hv1' Hv2]
  · unfold regIn
    isplitl [Ha1]; · iexact Ha1
    isplitl [Ha3]; · iexact Ha3
    isplitl [Hv0']; · iexact Hv0'
    isplitl [Hv1']; · iexact Hv1'
    iexists _; iexact Hv2
  iintro ⟨Hst, Hb, Hout⟩
  unfold regOut
  icases Hout with ⟨Ha1, Ha3, Hv0', Hv1', Hv2⟩
  rw [wp_ret]; imodintro
  iapply (wp_hlo_within 𝒱 (SparseCore.T d) none Set.univ (op := opI (F := F)) (S := (opI (F := F)).bufs) (Finset.Subset.refl _) (V := V0 m d)) $$ [Hb Ha8 Hv3]
  · isplitl [Hb]; · iexact Hb
    rw [show (opI (F := F)).bufs = ({(Proc.devRef .tc main_arg8 : DevRef τ sig), Proc.devRef .tc main_v3} : Finset (DevRef τ sig)) from rfl,
      held_pair d main_arg8 main_v3 (by decide)]
    rw [V0_apply, V0_apply]
    isplitl [Ha8]; · iexact Ha8
    iexact Hv3
  iintro ⟨Hb, Hheld⟩
  ihave Hh := (Entails.of_eq (held_reshape (F := F) d main_arg8 main_v3 rfl shapeCasts_S25000x16_S400000 ⟨by decide, rfl⟩ ⟨by decide, rfl⟩ (by decide) (by decide) (V0 m d)
    (Iv m d) (Iv_val m hflat d))) $$ Hheld
  icases Hh with ⟨Ha8, Hv3'⟩
  rw [wp_ret]; imodintro
  ihave Hs := (hcall d (m (oLoc d))).1 $$ [Hv2 Hv3' Hv4]
  · isplitl [Hv2]; · iexact Hv2
    isplitl [Hv3']; · iexact Hv3'
    iexact Hv4
  icases Hs with ⟨Hyd, Hid, Htiles⟩
  iapply ((K (F := F)).wp_run (D (F := F)) 𝒱 (EH := EH) (P := P m) κ d 0) $$ [Hst Htiles Hyd Hid Ha0 Ha1 Ha2 Ha3 Ha4 Ha5 Ha6 Ha7 Ha8]
  isplitr; · iexact Hctx
  isplitl [Hst]; · iexact Hst
  isplitl [Htiles]
  · rw [st0_eq]; iexact Htiles
  iintro ⟨Hst, Hdn⟩
  ihave Hdn' := (Entails.of_eq (dn0_eq m d)) $$ Hdn
  ihave Hj := (hcall d (Out m d)).2 $$ [Hyd Hid Hdn']
  · isplitl [Hyd]; · iexact Hyd
    isplitl [Hid]; · iexact Hid
    iexact Hdn'
  icases Hj with ⟨-, -, Ho⟩
  imodintro
  isplitl [Hst]; · iexact Hst
  unfold FIN
  isplitl [Ha0]; · iexact Ha0
  isplitl [Ha1]; · iexact Ha1
  isplitl [Ha2]; · iexact Ha2
  isplitl [Ha3]; · iexact Ha3
  isplitl [Ha4]; · iexact Ha4
  isplitl [Ha5]; · iexact Ha5
  isplitl [Ha6]; · iexact Ha6
  isplitl [Ha7]; · iexact Ha7
  isplitl [Ha8]; · iexact Ha8
  iexact Ho

def fq (d : Dev nD) (s' : Phys nD τ sig (Elt F)) : Prop :=
  s'.mem.mem ((SparseCore.T d).loc main_arg0) = m ((SparseCore.T d).loc main_arg0)
    ∧ s'.mem.mem ((SparseCore.T d).loc main_arg1) = m ((SparseCore.T d).loc main_arg1)
    ∧ s'.mem.mem ((SparseCore.T d).loc main_arg2) = m ((SparseCore.T d).loc main_arg2)
    ∧ s'.mem.mem ((SparseCore.T d).loc main_arg3) = m ((SparseCore.T d).loc main_arg3)
    ∧ s'.mem.mem ((SparseCore.T d).loc main_arg4) = m ((SparseCore.T d).loc main_arg4)
    ∧ s'.mem.mem ((SparseCore.T d).loc main_arg5) = m ((SparseCore.T d).loc main_arg5)
    ∧ s'.mem.mem ((SparseCore.T d).loc main_arg6) = m ((SparseCore.T d).loc main_arg6)
    ∧ s'.mem.mem ((SparseCore.T d).loc main_arg7) = m ((SparseCore.T d).loc main_arg7)
    ∧ s'.mem.mem ((SparseCore.T d).loc main_arg8) = m ((SparseCore.T d).loc main_arg8)
    ∧ s'.mem.mem (oLoc d) = Out m d

omit [FloatOps F] in
theorem agree_keep (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  iintro ⟨Hp, HSI⟩
  ihave H := (persistent_entails_right (SI_pointsTo_agree (st := s') (ℓ := ℓ) (I := Finset.univ) (q := fullShare) (f := f))) $$ [HSI Hp]
  · isplitl [HSI] <;> iassumption
  icases H with ⟨%h, HSI, -⟩
  isplitr
  · ipureintro; exact funext fun i => h i (Finset.mem_univ i)
  · iexact HSI

theorem hfin (d : Dev nD) (s' : Phys nD τ sig (Elt F)) : iprop(FIN m d ∗ SI s') ⊢ (⌜fq m d s'⌝ : sProp 𝕄) := by
  unfold FIN
  iintro ⟨⟨H0, H1, H2, H3, H4, H5, H6, H7, H8, Ho⟩, HSI⟩
  ihave H := (agree_keep (F := F) _ _ s') $$ [H0 HSI]; · isplitl [H0] <;> iassumption
  icases H with ⟨%e0, HSI⟩
  ihave H := (agree_keep (F := F) _ _ s') $$ [H1 HSI]; · isplitl [H1] <;> iassumption
  icases H with ⟨%e1, HSI⟩
  ihave H := (agree_keep (F := F) _ _ s') $$ [H2 HSI]; · isplitl [H2] <;> iassumption
  icases H with ⟨%e2, HSI⟩
  ihave H := (agree_keep (F := F) _ _ s') $$ [H3 HSI]; · isplitl [H3] <;> iassumption
  icases H with ⟨%e3, HSI⟩
  ihave H := (agree_keep (F := F) _ _ s') $$ [H4 HSI]; · isplitl [H4] <;> iassumption
  icases H with ⟨%e4, HSI⟩
  ihave H := (agree_keep (F := F) _ _ s') $$ [H5 HSI]; · isplitl [H5] <;> iassumption
  icases H with ⟨%e5, HSI⟩
  ihave H := (agree_keep (F := F) _ _ s') $$ [H6 HSI]; · isplitl [H6] <;> iassumption
  icases H with ⟨%e6, HSI⟩
  ihave H := (agree_keep (F := F) _ _ s') $$ [H7 HSI]; · isplitl [H7] <;> iassumption
  icases H with ⟨%e7, HSI⟩
  ihave H := (agree_keep (F := F) _ _ s') $$ [H8 HSI]; · isplitl [H8] <;> iassumption
  icases H with ⟨%e8, HSI⟩
  ihave H := (agree_keep (F := F) _ _ s') $$ [Ho HSI]; · isplitl [Ho] <;> iassumption
  icases H with ⟨%eo, -⟩
  ipureintro; exact ⟨e0, e1, e2, e3, e4, e5, e6, e7, e8, eo⟩

def QC : PUnit × MemSt nD τ sig (Elt F) → Prop := fun r => ∀ d : Dev nD,
  r.2.mem ((SparseCore.T d).loc main_arg0) = m ((SparseCore.T d).loc main_arg0)
    ∧ r.2.mem ((SparseCore.T d).loc main_arg1) = m ((SparseCore.T d).loc main_arg1)
    ∧ r.2.mem ((SparseCore.T d).loc main_arg2) = m ((SparseCore.T d).loc main_arg2)
    ∧ r.2.mem ((SparseCore.T d).loc main_arg3) = m ((SparseCore.T d).loc main_arg3)
    ∧ r.2.mem ((SparseCore.T d).loc main_arg4) = m ((SparseCore.T d).loc main_arg4)
    ∧ r.2.mem ((SparseCore.T d).loc main_arg5) = m ((SparseCore.T d).loc main_arg5)
    ∧ r.2.mem ((SparseCore.T d).loc main_arg6) = m ((SparseCore.T d).loc main_arg6)
    ∧ r.2.mem ((SparseCore.T d).loc main_arg7) = m ((SparseCore.T d).loc main_arg7)
    ∧ r.2.mem ((SparseCore.T d).loc main_arg8) = m ((SparseCore.T d).loc main_arg8)
    ∧ r.2.mem (oLoc d) = Out m d

theorem run_main [∀ e, Nonempty (Elt F e)]
    (htile : (K (F := F)).TileObl (D (F := F)) 𝒱 (P m) v₀ 0)
    (uR₀ : UR) (RG : Dev nD → sProp 𝕄)
    (hfund : (BI.own (EP (F := F) uR₀) : sProp 𝕄) ⊢ |={Set.univ}=> bigSep Finset.univ fun d : Dev nD => RG d)
    (hregion : RegionStep m RG) (hcall : CallSplit m) (hrow : ReshapeRow (F := F)) (hflat : ReshapeFlat) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main RG (FIN m) (u₀ (F := F) uR₀) (sep_elim_left.trans (hu₀ m uR₀ RG hfund)) (hmain m ρ RG hregion hcall hrow hflat) (fq m) (hfin m) (QC m) (fun _ h => h)

end Cert.Proof.KI

end
-- ==== Proof.KI.TileDefs.lean ====
import proofs.«205778_g32538672235162_cont_8to1_b_712_45_alg».proof.Proof.KI.Setup

noncomputable section

namespace Cert.Proof.KI

open Cert.KernelIdeal Cert.KernelIdeal.Gen

open Idealize.ShloMosaic
open Idealize.ShloMosaic.SparseCore (S V T)
open Idealize.SL Idealize.SL.RA Idealize.SL.BI
open scoped Idealize.SL.BI
open Idealize.ShloMosaic.ValueIdx

variable {F : FTy → Type}

abbrev cV (L : grid1.Coords) : Fin τ.nSC := (L 0).castLE hcore1
abbrev jV (L : grid1.Coords) : Fin τ.nSub := (L 1).castLE hsub1
abbrev tV (d : Dev nD) (L : grid1.Coords) : Thread nD τ := V d (cV L) (jV L)

abbrev yV : Memref sig .scVector .hbm S100000x128 .f32 := Memref.whole main_v2_scv
abbrev iV : Memref sig .scVector .hbm S400000 .i32 := Memref.whole main_v3_scv
abbrev oV : Memref sig .scVector .hbm S25000x128 .f32 := Memref.whole main_v4_scv
abbrev xV : Memref sig .scVector .vmem S12544 .i32 := Memref.whole cc1_scratch0
abbrev rV0 : Memref sig .scVector .vmem S128x128 .f32 := Memref.whole cc1_scratch1
abbrev rV1 : Memref sig .scVector .vmem S128x128 .f32 := Memref.whole cc1_scratch2
abbrev rV2 : Memref sig .scVector .vmem S128x128 .f32 := Memref.whole cc1_scratch3
abbrev rV3 : Memref sig .scVector .vmem S128x128 .f32 := Memref.whole cc1_scratch4
abbrev bV0 : Memref sig .scVector .vmem S8x128 .f32 := Memref.whole cc1_scratch5
abbrev bV1 : Memref sig .scVector .vmem S8x128 .f32 := Memref.whole cc1_scratch6
abbrev bV2 : Memref sig .scVector .vmem S8x128 .f32 := Memref.whole cc1_scratch7
abbrev bV3 : Memref sig .scVector .vmem S8x128 .f32 := Memref.whole cc1_scratch8

variable [FloatOps F]

def maxBlk (R : S128x128.Idx → F .f32) : S8x128.Idx → F .f32 :=
  fun j => tree16F fun k : Fin 16 =>
    R (ix2 ⟨16 * (j 0).val + k.val, by have h : (j 0).val < 8 := (j 0).isLt; have := k.isLt; omega⟩ (j 1))

end Cert.Proof.KI

end
-- ==== Proof.KI.TileNums.lean ====
import proofs.«205778_g32538672235162_cont_8to1_b_712_45_alg».proof.Proof.KI.TileDefs

noncomputable section

namespace Cert.Proof.KI

open Cert.KernelIdeal Cert.KernelIdeal.Gen

open Idealize.ShloMosaic
open Idealize.ShloMosaic.SparseCore (S V T)
open Idealize.ShloMosaic.ValueIdx

variable {F : FTy → Type}

theorem bound_zero : grid1.bound 0 = 2 := rfl
theorem bound_one : grid1.bound 1 = 16 := rfl
abbrev cL (L : grid1.Coords) : Fin 2 := Fin.cast bound_zero (L 0)
abbrev sL (L : grid1.Coords) : Fin 16 := Fin.cast bound_one (L 1)

def wN (L : grid1.Coords) : ℕ := 2 * (L 1).val + (L 0).val
def stg (L : grid1.Coords) : ℕ := min (784 * wN L) 24216
def loff (L : grid1.Coords) : ℕ := 16 * (784 * wN L - stg L)
def nCh (L : grid1.Coords) : ℕ := if 2 * (L 1).val + (L 0).val = 31 then 87 else 98

theorem t6_trips : ∀ L : grid1.Coords, (k1_t6_loop L).trips = 0 := by decide +kernel
theorem t1_trips : ∀ L : grid1.Coords, (k1_t1_loop L).trips = (nCh L + 3) / 4 := by decide +kernel
theorem cond1_true : ∀ L : grid1.Coords, k1_cond1 L = 1#1 ∧ k1_cond2 L = 1#1 ∧ k1_cond3 L = 1#1 ∧ k1_cond4 L = 1#1 := by decide +kernel

theorem nCh_cases (L : grid1.Coords) : nCh L = 87 ∨ nCh L = 98 := by unfold nCh; split <;> simp
theorem cond5_iff : ∀ (L : grid1.Coords) (t : Fin (k1_t1_loop L).trips), (k1_cond5 L t = 1#1 ↔ 4 * t.val + 0 < nCh L) := by decide +kernel
theorem cond8_iff : ∀ (L : grid1.Coords) (t : Fin (k1_t1_loop L).trips), (k1_cond8 L t = 1#1 ↔ 4 * t.val + 1 < nCh L) := by decide +kernel
theorem cond11_iff : ∀ (L : grid1.Coords) (t : Fin (k1_t1_loop L).trips), (k1_cond11 L t = 1#1 ↔ 4 * t.val + 2 < nCh L) := by decide +kernel
theorem cond14_iff : ∀ (L : grid1.Coords) (t : Fin (k1_t1_loop L).trips), (k1_cond14 L t = 1#1 ↔ 4 * t.val + 3 < nCh L) := by decide +kernel
theorem cond7_iff : ∀ (L : grid1.Coords) (t : Fin (k1_t1_loop L).trips), (k1_cond7 L t = 1#1 ↔ 4 * t.val + 0 + 4 < nCh L) := by decide +kernel
theorem cond10_iff : ∀ (L : grid1.Coords) (t : Fin (k1_t1_loop L).trips), (k1_cond10 L t = 1#1 ↔ 4 * t.val + 1 + 4 < nCh L) := by decide +kernel
theorem cond13_iff : ∀ (L : grid1.Coords) (t : Fin (k1_t1_loop L).trips), (k1_cond13 L t = 1#1 ↔ 4 * t.val + 2 + 4 < nCh L) := by decide +kernel
theorem cond16_iff : ∀ (L : grid1.Coords) (t : Fin (k1_t1_loop L).trips), (k1_cond16 L t = 1#1 ↔ 4 * t.val + 3 + 4 < nCh L) := by decide +kernel
theorem sge0_iff : ∀ (L : grid1.Coords) (t : Fin (k1_t1_loop L).trips),
    (Scalar.cmpi .ne (Scalar.extui (Scalar.cmpi .sge (Scalar.addi (Scalar.muli (Scf.iv 0#32 1#32 t.val) 4#32) 0#32) 4#32)) 0#32 = 1#1 ↔ 1 ≤ t.val) := by decide +kernel
theorem sge1_iff : ∀ (L : grid1.Coords) (t : Fin (k1_t1_loop L).trips),
    (Scalar.cmpi .ne (Scalar.extui (Scalar.cmpi .sge (Scalar.addi (Scalar.muli (Scf.iv 0#32 1#32 t.val) 4#32) 1#32) 4#32)) 0#32 = 1#1 ↔ 1 ≤ t.val) := by decide +kernel
theorem sge2_iff : ∀ (L : grid1.Coords) (t : Fin (k1_t1_loop L).trips),
    (Scalar.cmpi .ne (Scalar.extui (Scalar.cmpi .sge (Scalar.addi (Scalar.muli (Scf.iv 0#32 1#32 t.val) 4#32) 2#32) 4#32)) 0#32 = 1#1 ↔ 1 ≤ t.val) := by decide +kernel
theorem sge3_iff : ∀ (L : grid1.Coords) (t : Fin (k1_t1_loop L).trips),
    (Scalar.cmpi .ne (Scalar.extui (Scalar.cmpi .sge (Scalar.addi (Scalar.muli (Scf.iv 0#32 1#32 t.val) 4#32) 3#32) 4#32)) 0#32 = 1#1 ↔ 1 ≤ t.val) := by decide +kernel

def rowsOf (L : grid1.Coords) (p : ℕ → Prop) [DecidablePred p] : Finset S25000x128.Idx :=
  Finset.univ.filter fun j => 784 * wN L ≤ (j 0).val ∧ p (((j 0).val - 784 * wN L) / 8)
def chunkSet (L : grid1.Coords) (g : ℕ) : Finset S25000x128.Idx := rowsOf L (fun c => c = g)
def futSet (L : grid1.Coords) (b a : ℕ) : Finset S25000x128.Idx := rowsOf L (fun c => c % 4 = b ∧ a ≤ c / 4 ∧ c < nCh L)
def landSet (L : grid1.Coords) (b a : ℕ) : Finset S25000x128.Idx := rowsOf L (fun c => c % 4 = b ∧ c / 4 < a ∧ c < nCh L)
def Nb (L : grid1.Coords) (b : ℕ) : ℕ := (nCh L + 3 - b) / 4

theorem chunk_sub_fut (L : grid1.Coords) {b a : ℕ} (hb : b < 4) (h : 4 * a + b < nCh L) : chunkSet L (4 * a + b) ⊆ futSet L b a := by
  intro j; simp only [chunkSet, futSet, rowsOf, Finset.mem_filter, Finset.mem_univ, true_and]; omega
theorem fut_sdiff (L : grid1.Coords) {b a : ℕ} (hb : b < 4) : futSet L b a \ chunkSet L (4 * a + b) = futSet L b (a + 1) := by
  ext j; simp only [chunkSet, futSet, rowsOf, Finset.mem_sdiff, Finset.mem_filter, Finset.mem_univ, true_and]; omega
theorem land_disj (L : grid1.Coords) {b a : ℕ} (hb : b < 4) : Disjoint (landSet L b a) (chunkSet L (4 * a + b)) := by
  rw [Finset.disjoint_left]; intro j; simp only [chunkSet, landSet, rowsOf, Finset.mem_filter, Finset.mem_univ, true_and]; omega
theorem land_union (L : grid1.Coords) {b a : ℕ} (hb : b < 4) (h : 4 * a + b < nCh L) : landSet L b a ∪ chunkSet L (4 * a + b) = landSet L b (a + 1) := by
  ext j; simp only [chunkSet, landSet, rowsOf, Finset.mem_union, Finset.mem_filter, Finset.mem_univ, true_and]; omega

end Cert.Proof.KI

end
-- ==== Proof.KI.TileVals.lean ====
import proofs.«205778_g32538672235162_cont_8to1_b_712_45_alg».proof.Proof.KI.TileNums

noncomputable section

namespace Cert.Proof.KI

open Cert.KernelIdeal Cert.KernelIdeal.Gen

open Idealize.ShloMosaic
open Idealize.ShloMosaic.SparseCore (S V T)
open Idealize.ShloMosaic.ValueIdx

variable {F : FTy → Type}

variable [FloatOps F]

variable (m : (ℓ : Loc nD τ sig) → Buf (Elt F) ℓ) (d : Dev nD) (L : grid1.Coords)

def Xw (L : grid1.Coords) : Buf (Elt F) ((tV d L).loc cc1_scratch0) :=
  fun j => Iv m d (ix1 ⟨16 * stg L + (j 0).val, by have h : (j 0).val < 12544 := (j 0).isLt; unfold stg; omega⟩)

def Rg (g : ℕ) : S128x128.Idx → F .f32 :=
  fun j => Ytc m d (ix2 ⟨(Xw m d L (ix1 ⟨(loff L + 128 * g + (j 0).val) % 12544, Nat.mod_lt _ (by norm_num)⟩)).toNat % 100000,
    Nat.mod_lt _ (by norm_num)⟩ (j 1))

theorem hin_of_pre (hpre : PreOK m) (off : Fin 1 → ℕ) (hinb : ∀ a, off a + S128.size a ≤ S12544.size a)
    (x : (Rect.unit (s := S12544) off S128.size hinb).shape.Idx) :
    ((xV.slice (Rect.unit (s := S12544) off S128.size hinb) (fun _ => rfl)).view.read (Elt F) (Xw m d L) x).toNat
      < S100000x128.size gathers_S100000x128_S128x128.axis := by
  rw [show (xV.slice (Rect.unit (s := S12544) off S128.size hinb) (fun _ => rfl)).view.read (Elt F) (Xw m d L) x
      = Xw m d L ((xV.slice (Rect.unit (s := S12544) off S128.size hinb) (fun _ => rfl)).view.emb x) from (View.read_apply _ _).trans (cast_eq _ _)]
  unfold Xw Iv
  exact hpre d _

theorem fetch_eq :
    ReadAs.same.apply ((iV.slice (Rect.unit (s := S400000) (k1_off1 L) S12544.size (k1_off1_inb L)) (fun _ => rfl)).view.read (Elt F) (Iv m d))
      = Xw m d L := by
  funext j
  unfold Xw
  refine (show _ = Iv m d ((iV.slice (Rect.unit (s := S400000) (k1_off1 L) S12544.size (k1_off1_inb L)) (fun _ => rfl)).view.emb j) from
    (View.read_apply _ _).trans (cast_eq _ _)).trans (congrArg (Iv m d) ?_)
  funext a
  apply Fin.ext
  obtain ⟨av, hav⟩ := a
  have h0 : av = 0 := by have : av < 1 := hav; omega
  subst h0
  show k1_off1 L 0 + 1 * (j 0 : ℕ) = 16 * stg L + (j 0 : ℕ)
  have e : k1_off1 L 0 = 16 * min (1568 * (L 1).val + 784 * (L 0).val) 24216 := by rw [k1_off1_eq L]; rfl
  simp only [stg, wN]
  omega

theorem rows_rank1 {dsz : Fin 1 → ℕ} {o z : ℕ} (idx : (⟨1, dsz⟩ : Shape).Idx → Elt F .i32) (hn : (⟨1, dsz⟩ : Shape).numel = o)
    (h : ∀ x, (idx x).toNat < z) (k : Fin o) :
    ∃ y : (⟨1, dsz⟩ : Shape).Idx, (y 0).val = k.val ∧ (SparseCore.rows idx hn h k).val = (idx y).toNat :=
  ⟨(⟨1, dsz⟩ : Shape).rowMajor.symm (k.cast hn.symm), by
    have e := Shape.rowMajor_val_one ((⟨1, dsz⟩ : Shape).rowMajor.symm (k.cast hn.symm))
    rw [Equiv.apply_symm_apply] at e
    exact e.symm, rfl⟩

theorem window_word (g i k : ℕ) (hg : g < nCh L) (hi : i < 8) (hk : k < 16) :
    loff L + 128 * g + (16 * i + k) < 12544 ∧
      16 * stg L + (loff L + 128 * g + (16 * i + k)) = 16 * (784 * wN L + 8 * g + i) + k := by
  have h0 : (L 0).val < 2 := (L 0).isLt
  have h1 : (L 1).val < 16 := (L 1).isLt
  unfold loff stg nCh wN at *
  split at hg <;> omega

theorem gather_val (hpre : PreOK m) (g : ℕ) (hg : g < nCh L) (off : Fin 1 → ℕ) (hinb : ∀ a, off a + S128.size a ≤ S12544.size a)
    (hoff : off 0 = loff L + 128 * g)
    (hn : (Rect.unit (s := S12544) off S128.size hinb).shape.numel = S128x128.size gathers_S100000x128_S128x128.axis')
    (hin' : ∀ x, ((xV.slice (Rect.unit (s := S12544) off S128.size hinb) (fun _ => rfl)).view.read (Elt F) (Xw m d L) x).toNat
      < S100000x128.size gathers_S100000x128_S128x128.axis) :
    SparseCore.gatherPayload gathers_S100000x128_S128x128
        ((yV.slice (Rect.unit (s := S100000x128) ![0, 0] S100000x128.size inb_S100000x128_S100000x128_0_0) (fun _ => rfl)).view.read (Elt F) (Ytc m d))
        (SparseCore.rows ((xV.slice (Rect.unit (s := S12544) off S128.size hinb) (fun _ => rfl)).view.read (Elt F) (Xw m d L)) hn hin')
      = Rg m d L g := by
  funext x
  obtain ⟨p, q, rfl⟩ : ∃ (p : Fin 128) (q : Fin 128), x = ix2 p q := ⟨x 0, x 1, eq_ix2 x⟩
  unfold SparseCore.gatherPayload Rg
  refine (show _ = Ytc m d ((yV.slice (Rect.unit (s := S100000x128) ![0, 0] S100000x128.size inb_S100000x128_S100000x128_0_0) (fun _ => rfl)).view.emb _) from
    (View.read_apply _ _).trans (cast_eq _ _)).trans (congrArg (Ytc m d) ?_)
  funext a
  apply Fin.ext
  match a with
  | ⟨0, _⟩ =>
    obtain ⟨y, hy0, hyR⟩ := rows_rank1 _ hn hin' ((ix2 p q) gathers_S100000x128_S128x128.axis')
    have hp : (y 0).val = p.val := hy0
    have hw : View.read (Elt F) (xV.slice (Rect.unit (s := S12544) off S128.size hinb) (fun _ => rfl)).view (Xw m d L) y
        = Xw m d L (ix1 ⟨(loff L + 128 * g + p.val) % 12544, Nat.mod_lt _ (by norm_num)⟩) := by
      refine ((View.read_apply _ _).trans (cast_eq _ _)).trans (congrArg (Xw m d L) (funext fun a => Fin.ext ?_))
      obtain ⟨av, hav⟩ := a
      have h0 : av = 0 := by have : av < 1 := hav; omega
      subst h0
      show off 0 + 1 * (y 0).val = (loff L + 128 * g + p.val) % 12544
      have hb : off 0 + 128 ≤ 12544 := hinb 0
      have := p.isLt
      rw [hp, hoff]; omega
    have hlt : (Xw m d L (ix1 ⟨(loff L + 128 * g + p.val) % 12544, Nat.mod_lt _ (by norm_num)⟩)).toNat < 100000 := by
      rw [← hw]; exact hin' y
    have e1 : (gathers_S100000x128_S128x128.idx
        (SparseCore.rows (View.read (Elt F) (xV.slice (Rect.unit (s := S12544) off S128.size hinb) (fun _ => rfl)).view (Xw m d L)) hn hin')
        (ix2 p q) gathers_S100000x128_S128x128.axis).val
        = (View.read (Elt F) (xV.slice (Rect.unit (s := S12544) off S128.size hinb) (fun _ => rfl)).view (Xw m d L) y).toNat :=
      (congrArg Fin.val (Shape.Gathers.idx_axis _ _ _)).trans hyR
    show 0 + 1 * (gathers_S100000x128_S128x128.idx _ (ix2 p q) gathers_S100000x128_S128x128.axis).val
      = (Xw m d L (ix1 ⟨(loff L + 128 * g + p.val) % 12544, Nat.mod_lt _ (by norm_num)⟩)).toNat % 100000
    rw [e1, hw, Nat.mod_eq_of_lt hlt, Nat.zero_add, Nat.one_mul]
  | ⟨1, _⟩ =>
    show 0 + 1 * (gathers_S100000x128_S128x128.idx _ (ix2 p q) (1 : Fin 2)).val = q.val
    exact (Nat.zero_add _).trans ((Nat.one_mul _).trans (Shape.Gathers.idx_of_ne gathers_S100000x128_S128x128 _ (ix2 p q) (1 : Fin 2) (show ((1 : Fin 2) : ℕ) ≠ 0 by decide)))

-- On the eight rows of chunk g the block of tree maxima of the chunk's 128 gathered rows is the kernel's result.
theorem chunk_val (hpre : PreOK m) (g : ℕ) (hg : g < nCh L) (j : S25000x128.Idx) (hj : j ∈ chunkSet L g) :
    maxBlk (Rg m d L g) (ix2 ⟨((j 0).val - 784 * wN L) % 8, Nat.mod_lt _ (by norm_num)⟩ (j 1)) = Out m d j := by
  obtain ⟨r, o, rfl⟩ : ∃ (r : Fin 25000) (o : Fin 128), j = ix2 r o := ⟨j 0, j 1, eq_ix2 j⟩
  have hmem : 784 * wN L ≤ r.val ∧ (r.val - 784 * wN L) / 8 = g := by
    have h := hj
    simp only [chunkSet, rowsOf, Finset.mem_filter, Finset.mem_univ, true_and] at h
    exact h
  have hr : 784 * wN L + 8 * g + (r.val - 784 * wN L) % 8 = r.val := by omega
  unfold maxBlk Out Gout
  refine congrArg tree16F (funext fun k => ?_)
  obtain ⟨hlt, hsum⟩ := window_word L g ((r.val - 784 * wN L) % 8) k.val hg (Nat.mod_lt _ (by norm_num)) k.isLt
  have hX : Xw m d L (ix1 ⟨(loff L + 128 * g + (16 * ((r.val - 784 * wN L) % 8) + k.val)) % 12544, Nat.mod_lt _ (by norm_num)⟩)
      = Iv m d (ix1 ⟨16 * r.val + k.val, by have := r.isLt; have := k.isLt; omega⟩) :=
    congrArg (fun n : Fin 400000 => Iv m d (ix1 n)) (Fin.ext (by
      show 16 * stg L + (loff L + 128 * g + (16 * ((r.val - 784 * wN L) % 8) + k.val)) % 12544 = 16 * r.val + k.val
      rw [Nat.mod_eq_of_lt hlt, hsum, hr]))
  have key : ∀ a b : BitVec 32, a = b → ∀ ha hb,
      Ytc m d (ix2 (⟨a.toNat % 100000, ha⟩ : Fin 100000) o) = Ytc m d (ix2 (⟨b.toNat % 100000, hb⟩ : Fin 100000) o) := by
    rintro a _ rfl _ _; rfl
  unfold Rg
  exact key _ _ hX _ _

end Cert.Proof.KI

end
-- ==== Proof.KI.TileInnerLib.lean ====
import proofs.«205778_g32538672235162_cont_8to1_b_712_45_alg».proof.Proof.KI.TileDefs
import Idealize.ShloMosaic.Lib.Writes
import Idealize.ShloMosaic.Lib.Pipeline.Value

noncomputable section

namespace Cert.Proof.KI

open Cert.KernelIdeal Cert.KernelIdeal.Gen

open Idealize.ShloMosaic
open Idealize.ShloMosaic.ValueIdx

variable {F : FTy → Type}

theorem cast16_apply {α : Type} (w : S1x16.Idx → α) (y : S16.Idx) :
    shapeCast S16 w shapeCasts_S1x16_S16 y = w (ix2 (0 : Fin 1) (y 0)) :=
  shapeCast_apply w shapeCasts_S1x16_S16 y (ix2 (0 : Fin 1) (y 0))
    (by rw [Shape.rowMajor_val_two, Shape.rowMajor_val_one]; simp)

theorem cast1x16_apply {α : Type} (g : S16.Idx → α) (x : S1x16.Idx) :
    shapeCast S1x16 g shapeCasts_S16_S1x16 x = g (ix1 (x 1)) :=
  shapeCast_apply g shapeCasts_S16_S1x16 x (ix1 (x 1))
    (by rw [Shape.rowMajor_val_two, Shape.rowMajor_val_one]
        have h0 : (x 0).val = 0 := by have h : (x 0).val < 1 := (x 0).isLt; omega
        simp [h0])

variable [FloatOps F]

def treeVec (w : Fin 16 → Vec F S1x16 .f32) : FVec F S1x16 .f32 :=
  shapeCast S1x16
    (maximumf
      (maximumf
        (maximumf (maximumf (shapeCast S16 (w 0) shapeCasts_S1x16_S16) (shapeCast S16 (w 1) shapeCasts_S1x16_S16))
          (maximumf (shapeCast S16 (w 2) shapeCasts_S1x16_S16) (shapeCast S16 (w 3) shapeCasts_S1x16_S16)))
        (maximumf (maximumf (shapeCast S16 (w 4) shapeCasts_S1x16_S16) (shapeCast S16 (w 5) shapeCasts_S1x16_S16))
          (maximumf (shapeCast S16 (w 6) shapeCasts_S1x16_S16) (shapeCast S16 (w 7) shapeCasts_S1x16_S16))))
      (maximumf
        (maximumf (maximumf (shapeCast S16 (w 8) shapeCasts_S1x16_S16) (shapeCast S16 (w 9) shapeCasts_S1x16_S16))
          (maximumf (shapeCast S16 (w 10) shapeCasts_S1x16_S16) (shapeCast S16 (w 11) shapeCasts_S1x16_S16)))
        (maximumf (maximumf (shapeCast S16 (w 12) shapeCasts_S1x16_S16) (shapeCast S16 (w 13) shapeCasts_S1x16_S16))
          (maximumf (shapeCast S16 (w 14) shapeCasts_S1x16_S16) (shapeCast S16 (w 15) shapeCasts_S1x16_S16)))))
    shapeCasts_S16_S1x16

theorem treeVec_apply (w : Fin 16 → Vec F S1x16 .f32) (x : S1x16.Idx) :
    treeVec w x = tree16F fun r : Fin 16 => w r (ix2 (0 : Fin 1) (x 1)) := by
  unfold treeVec tree16F
  rw [cast1x16_apply]
  simp only [Idealize.ShloMosaic.maximumf, cast16_apply]

theorem lanes_value (R : S128x128.Idx → F .f32) (t c : ℕ) (w : Fin 16 → Vec F S1x16 .f32)
    (offL : Fin 16 → Fin 2 → ℕ) (hL : ∀ r a, offL r a + S1x16.size a ≤ S128x128.size a)
    (hw : ∀ r x, w r x = R ((Rect.unit (s := S128x128) (offL r) S1x16.size (hL r)).toLoadRect.idx x))
    (eL : ∀ r : Fin 16, offL r = ![16 * t + r.val, 16 * c])
    (offS : Fin 2 → ℕ) (hS : ∀ a, offS a + S1x16.size a ≤ S8x128.size a) (eS : offS = ![t, 16 * c])
    (x : S1x16.Idx) :
    treeVec w x = maxBlk R ((Rect.unit (s := S8x128) offS S1x16.size hS).emb x) := by
  rw [treeVec_apply]
  unfold maxBlk
  refine congrArg tree16F (funext fun r => ?_)
  rw [hw]
  refine congrArg R (funext fun a => Fin.ext ?_)
  have h0 : (x 0).val = 0 := by have h : (x 0).val < 1 := (x 0).isLt; omega
  match a with
  | ⟨0, _⟩ => simp [eL r, eS, h0]
  | ⟨1, _⟩ => simp [eL r, eS]

theorem mem_lanes (o : Fin 2 → ℕ) (h : ∀ a, o a + S1x16.size a ≤ S8x128.size a) (j : S8x128.Idx) :
    j ∈ (Rect.unit (s := S8x128) o S1x16.size h).set ↔ (j 0).val = o 0 ∧ o 1 ≤ (j 1).val ∧ (j 1).val < o 1 + 16 := by
  rw [LoadRect.mem_set]
  constructor
  · intro H
    obtain ⟨i0, hi0, e0⟩ := H (0 : Fin 2)
    obtain ⟨i1, hi1, e1⟩ := H (1 : Fin 2)
    have hi0' : i0 < 1 := hi0
    have hi1' : i1 < 16 := hi1
    have e0' : (j 0).val = o 0 + 1 * i0 := e0
    have e1' : (j 1).val = o 1 + 1 * i1 := e1
    omega
  · rintro ⟨e0, l1, u1⟩ a
    match a with
    | ⟨0, _⟩ => exact ⟨0, Nat.one_pos, show (j 0).val = o 0 + 1 * 0 by omega⟩
    | ⟨1, _⟩ => exact ⟨(j 1).val - o 1, show (j 1).val - o 1 < 16 by omega, show (j 1).val = o 1 + 1 * ((j 1).val - o 1) by omega⟩

theorem mem_lanes_at (t c : ℕ) (h : ∀ a, (![t, c] : Fin 2 → ℕ) a + S1x16.size a ≤ S8x128.size a) (j : S8x128.Idx) :
    j ∈ (Rect.unit (s := S8x128) ![t, c] S1x16.size h).set ↔ (j 0).val = t ∧ c ≤ (j 1).val ∧ (j 1).val < c + 16 :=
  mem_lanes _ h j

def blkAt (R : S128x128.Idx → F .f32) (f0 : S8x128.Idx → F .f32) (t : ℕ) : S8x128.Idx → F .f32 :=
  fun j => if (j 0).val < t then maxBlk R j else f0 j

theorem blkAt_zero (R : S128x128.Idx → F .f32) (f0 : S8x128.Idx → F .f32) : blkAt R f0 0 = f0 :=
  funext fun _ => if_neg (Nat.not_lt_zero _)

theorem blkAt_eight (R : S128x128.Idx → F .f32) (f0 : S8x128.Idx → F .f32) : blkAt R f0 8 = maxBlk R :=
  funext fun j => if_pos (show (j 0).val < 8 from (j 0).isLt)

theorem blkAt_succ (R : S128x128.Idx → F .f32) (f0 : S8x128.Idx → F .f32) (t : ℕ) (j : S8x128.Idx) :
    (if (j 0).val = t then maxBlk R j else blkAt R f0 t j) = blkAt R f0 (t + 1) j := by
  unfold blkAt
  by_cases h : (j 0).val = t
  · rw [if_pos h, if_pos (by omega)]
  · rw [if_neg h]
    by_cases h' : (j 0).val < t
    · rw [if_pos h', if_pos (by omega)]
    · rw [if_neg h', if_neg (by omega)]

-- Eight stores of sixteen lanes each fill row t with its maxima; every other row reads as before.
theorem row_writes {κ : Kind} {sp : Space} (v : View sig κ sp S8x128 .f32) (g : v.ty.Contents (Elt F))
    (R : S128x128.Idx → F .f32) (t : ℕ) (o0 o1 o2 o3 o4 o5 o6 o7 : Fin 2 → ℕ)
    (h0 : ∀ a, o0 a + S1x16.size a ≤ S8x128.size a) (h1 : ∀ a, o1 a + S1x16.size a ≤ S8x128.size a)
    (h2 : ∀ a, o2 a + S1x16.size a ≤ S8x128.size a) (h3 : ∀ a, o3 a + S1x16.size a ≤ S8x128.size a)
    (h4 : ∀ a, o4 a + S1x16.size a ≤ S8x128.size a) (h5 : ∀ a, o5 a + S1x16.size a ≤ S8x128.size a)
    (h6 : ∀ a, o6 a + S1x16.size a ≤ S8x128.size a) (h7 : ∀ a, o7 a + S1x16.size a ≤ S8x128.size a)
    (e0 : o0 = ![t, 0]) (e1 : o1 = ![t, 16]) (e2 : o2 = ![t, 32]) (e3 : o3 = ![t, 48])
    (e4 : o4 = ![t, 64]) (e5 : o5 = ![t, 80]) (e6 : o6 = ![t, 96]) (e7 : o7 = ![t, 112])
    (p0 p1 p2 p3 p4 p5 p6 p7 : S1x16.Idx → F .f32)
    (q0 : ∀ x, p0 x = maxBlk R ((Rect.unit (s := S8x128) o0 S1x16.size h0).emb x))
    (q1 : ∀ x, p1 x = maxBlk R ((Rect.unit (s := S8x128) o1 S1x16.size h1).emb x))
    (q2 : ∀ x, p2 x = maxBlk R ((Rect.unit (s := S8x128) o2 S1x16.size h2).emb x))
    (q3 : ∀ x, p3 x = maxBlk R ((Rect.unit (s := S8x128) o3 S1x16.size h3).emb x))
    (q4 : ∀ x, p4 x = maxBlk R ((Rect.unit (s := S8x128) o4 S1x16.size h4).emb x))
    (q5 : ∀ x, p5 x = maxBlk R ((Rect.unit (s := S8x128) o5 S1x16.size h5).emb x))
    (q6 : ∀ x, p6 x = maxBlk R ((Rect.unit (s := S8x128) o6 S1x16.size h6).emb x))
    (q7 : ∀ x, p7 x = maxBlk R ((Rect.unit (s := S8x128) o7 S1x16.size h7).emb x))
    (j : S8x128.Idx) :
    v.read (Elt F) (v.writes (Elt F) g
        [⟨Rect.unit (s := S8x128) o7 S1x16.size h7, p7⟩, ⟨Rect.unit (s := S8x128) o6 S1x16.size h6, p6⟩,
         ⟨Rect.unit (s := S8x128) o5 S1x16.size h5, p5⟩, ⟨Rect.unit (s := S8x128) o4 S1x16.size h4, p4⟩,
         ⟨Rect.unit (s := S8x128) o3 S1x16.size h3, p3⟩, ⟨Rect.unit (s := S8x128) o2 S1x16.size h2, p2⟩,
         ⟨Rect.unit (s := S8x128) o1 S1x16.size h1, p1⟩, ⟨Rect.unit (s := S8x128) o0 S1x16.size h0, p0⟩]) j
      = if (j 0).val = t then maxBlk R j else v.read (Elt F) g j := by
  have hj1 : (j 1).val < 128 := (j 1).isLt
  subst e0 e1 e2 e3 e4 e5 e6 e7
  have m0 := mem_lanes_at t 0 h0 j
  have m1 := mem_lanes_at t 16 h1 j
  have m2 := mem_lanes_at t 32 h2 j
  have m3 := mem_lanes_at t 48 h3 j
  have m4 := mem_lanes_at t 64 h4 j
  have m5 := mem_lanes_at t 80 h5 j
  have m6 := mem_lanes_at t 96 h6 j
  have m7 := mem_lanes_at t 112 h7 j
  by_cases hj : (j 0).val = t
  · rw [if_pos hj]
    refine View.read_writes_apply_of_pieces v g (maxBlk R) _ ?_ j ?_
    · intro p hp x
      simp only [List.mem_cons, List.not_mem_nil, or_false] at hp
      rcases hp with rfl | rfl | rfl | rfl | rfl | rfl | rfl | rfl
      · exact q7 x
      · exact q6 x
      · exact q5 x
      · exact q4 x
      · exact q3 x
      · exact q2 x
      · exact q1 x
      · exact q0 x
    · have hc : (j 1).val < 16 ∨ (16 ≤ (j 1).val ∧ (j 1).val < 32) ∨ (32 ≤ (j 1).val ∧ (j 1).val < 48)
          ∨ (48 ≤ (j 1).val ∧ (j 1).val < 64) ∨ (64 ≤ (j 1).val ∧ (j 1).val < 80) ∨ (80 ≤ (j 1).val ∧ (j 1).val < 96)
          ∨ (96 ≤ (j 1).val ∧ (j 1).val < 112) ∨ 112 ≤ (j 1).val := by omega
      rcases hc with hc | hc | hc | hc | hc | hc | hc | hc
      · exact ⟨⟨Rect.unit (s := S8x128) ![t, 0] S1x16.size h0, p0⟩, by simp, m0.mpr ⟨hj, by omega, by omega⟩⟩
      · exact ⟨⟨Rect.unit (s := S8x128) ![t, 16] S1x16.size h1, p1⟩, by simp, m1.mpr ⟨hj, by omega, by omega⟩⟩
      · exact ⟨⟨Rect.unit (s := S8x128) ![t, 32] S1x16.size h2, p2⟩, by simp, m2.mpr ⟨hj, by omega, by omega⟩⟩
      · exact ⟨⟨Rect.unit (s := S8x128) ![t, 48] S1x16.size h3, p3⟩, by simp, m3.mpr ⟨hj, by omega, by omega⟩⟩
      · exact ⟨⟨Rect.unit (s := S8x128) ![t, 64] S1x16.size h4, p4⟩, by simp, m4.mpr ⟨hj, by omega, by omega⟩⟩
      · exact ⟨⟨Rect.unit (s := S8x128) ![t, 80] S1x16.size h5, p5⟩, by simp, m5.mpr ⟨hj, by omega, by omega⟩⟩
      · exact ⟨⟨Rect.unit (s := S8x128) ![t, 96] S1x16.size h6, p6⟩, by simp, m6.mpr ⟨hj, by omega, by omega⟩⟩
      · exact ⟨⟨Rect.unit (s := S8x128) ![t, 112] S1x16.size h7, p7⟩, by simp, m7.mpr ⟨hj, by omega, by omega⟩⟩
  · rw [if_neg hj]
    refine View.read_writes_apply_of_forall_not_mem v g j _ ?_
    intro p hp
    simp only [List.mem_cons, List.not_mem_nil, or_false] at hp
    rcases hp with rfl | rfl | rfl | rfl | rfl | rfl | rfl | rfl
    · exact fun hm => hj (m7.mp hm).1
    · exact fun hm => hj (m6.mp hm).1
    · exact fun hm => hj (m5.mp hm).1
    · exact fun hm => hj (m4.mp hm).1
    · exact fun hm => hj (m3.mp hm).1
    · exact fun hm => hj (m2.mp hm).1
    · exact fun hm => hj (m1.mp hm).1
    · exact fun hm => hj (m0.mp hm).1

end Cert.Proof.KI

end
-- ==== Proof.KI.TileInner.lean ====
import proofs.«205778_g32538672235162_cont_8to1_b_712_45_alg».proof.Proof.KI.TileInnerLib

noncomputable section

namespace Cert.Proof.KI

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type}

local notation "𝕄" => MT nD τ sig (HIx 1) (Elt F) ℕ UU ℕ

variable [FloatOps F]

def inv0 (d : Dev nD) (L : grid1.Coords) (R : Buf (Elt F) ((tV d L).loc cc1_scratch1)) (f0 : Buf (Elt F) ((tV d L).loc cc1_scratch5))
    (t : Nat) (_ : Unit) : sProp 𝕄 :=
  iprop(((rV0).view.loc (tV d L) ↦{fullShare} R) ∗ ((bV0).view.loc (tV d L) ↦{fullShare} blkAt R f0 t))

theorem inner0 (d : Dev nD) (L : grid1.Coords) (v1 v21 v26 : BitVec 32) (v31 : BitVec 1)
    (k1_t1 : Fin (k1_t1_loop L).trips) (k1_h5 : k1_cond5 L k1_t1 = 1#1)
    (R : Buf (Elt F) ((tV d L).loc cc1_scratch1)) (f0 : Buf (Elt F) ((tV d L).loc cc1_scratch5)) :
    (iprop(((rV0).view.loc (tV d L) ↦{fullShare} R) ∗ ((bV0).view.loc (tV d L) ↦{fullShare} f0)) : sProp 𝕄)
      ⊢ wp frame (wpE (defs₀ (F := F)) 𝒱₀ (tV d L) none) Set.univ
          (Scf.Loop.for k1_t2_loop (k1_t2_ok L k1_t1 k1_h5) ⟨⟩
            (k1_t2_body L yV (Memref.isWhole_whole _) iV (Memref.isWhole_whole _) oV (Memref.isWhole_whole _) xV (Memref.isWhole_whole _)
              rV0 (Memref.isWhole_whole _) rV1 (Memref.isWhole_whole _) rV2 (Memref.isWhole_whole _) rV3 (Memref.isWhole_whole _)
              bV0 (Memref.isWhole_whole _) bV1 (Memref.isWhole_whole _) bV2 (Memref.isWhole_whole _) bV3 (Memref.isWhole_whole _)
              cc1_scratch9 cc1_scratch10 cc1_scratch11 cc1_scratch12 cc1_scratch13 cc1_scratch14 cc1_scratch15 cc1_scratch16 cc1_scoped0 v1 v21 v26 v31 k1_t1 k1_h5))
          fun _ => iprop(((rV0).view.loc (tV d L) ↦{fullShare} R) ∗ ((bV0).view.loc (tV d L) ↦{fullShare} maxBlk R)) := by
  have htr : Scf.trips k1_t2_loop.lb k1_t2_loop.ub k1_t2_loop.st = 8 := by decide
  iintro ⟨HR, HB⟩
  sl_for (inv0 d L R f0) $$ [HR HB]
  case region =>
    intro k _
    unfold inv0
    iintro ⟨HR, HB⟩
    sl_exec_parts
    sl_step
    isplitl [HR]; · iexact HR
    istop
    refine Entails.of_eq (pointsTo_congr ?_)
    intro j _
    sl_unfold_run_names
    rw [← blkAt_succ R f0 k.val j]
    exact row_writes (bV0).view (blkAt R f0 k.val) R k.val _ _ _ _ _ _ _ _ _ _ _ _ _ _ _ _
      (k1_off7_eq k) (k1_off9_eq k) (k1_off11_eq k) (k1_off13_eq k) (k1_off15_eq k) (k1_off17_eq k) (k1_off19_eq k) (k1_off21_eq k)
      _ _ _ _ _ _ _ _
      (fun x => lanes_value R k.val 0
          (fun r => View.readAt (Elt F) (rV0).view
            (Rect.unit (s := S128x128) (k1_off6 k (BitVec.ofNat 32 r.val)) S1x16.size (k1_off6_inb L k1_t1 k k1_h5 r)).toLoadRect R)
          (fun r => k1_off6 k (BitVec.ofNat 32 r.val)) (fun r => k1_off6_inb L k1_t1 k k1_h5 r) (fun _ _ => rfl) (k1_off6_eq k)
          (k1_off7 k) (k1_off7_inb L k1_t1 k k1_h5) (k1_off7_eq k) x)
      (fun x => lanes_value R k.val 1
          (fun r => View.readAt (Elt F) (rV0).view
            (Rect.unit (s := S128x128) (k1_off8 k (BitVec.ofNat 32 r.val)) S1x16.size (k1_off8_inb L k1_t1 k k1_h5 r)).toLoadRect R)
          (fun r => k1_off8 k (BitVec.ofNat 32 r.val)) (fun r => k1_off8_inb L k1_t1 k k1_h5 r) (fun _ _ => rfl) (k1_off8_eq k)
          (k1_off9 k) (k1_off9_inb L k1_t1 k k1_h5) (k1_off9_eq k) x)
      (fun x => lanes_value R k.val 2
          (fun r => View.readAt (Elt F) (rV0).view
            (Rect.unit (s := S128x128) (k1_off10 k (BitVec.ofNat 32 r.val)) S1x16.size (k1_off10_inb L k1_t1 k k1_h5 r)).toLoadRect R)
          (fun r => k1_off10 k (BitVec.ofNat 32 r.val)) (fun r => k1_off10_inb L k1_t1 k k1_h5 r) (fun _ _ => rfl) (k1_off10_eq k)
          (k1_off11 k) (k1_off11_inb L k1_t1 k k1_h5) (k1_off11_eq k) x)
      (fun x => lanes_value R k.val 3
          (fun r => View.readAt (Elt F) (rV0).view
            (Rect.unit (s := S128x128) (k1_off12 k (BitVec.ofNat 32 r.val)) S1x16.size (k1_off12_inb L k1_t1 k k1_h5 r)).toLoadRect R)
          (fun r => k1_off12 k (BitVec.ofNat 32 r.val)) (fun r => k1_off12_inb L k1_t1 k k1_h5 r) (fun _ _ => rfl) (k1_off12_eq k)
          (k1_off13 k) (k1_off13_inb L k1_t1 k k1_h5) (k1_off13_eq k) x)
      (fun x => lanes_value R k.val 4
          (fun r => View.readAt (Elt F) (rV0).view
            (Rect.unit (s := S128x128) (k1_off14 k (BitVec.ofNat 32 r.val)) S1x16.size (k1_off14_inb L k1_t1 k k1_h5 r)).toLoadRect R)
          (fun r => k1_off14 k (BitVec.ofNat 32 r.val)) (fun r => k1_off14_inb L k1_t1 k k1_h5 r) (fun _ _ => rfl) (k1_off14_eq k)
          (k1_off15 k) (k1_off15_inb L k1_t1 k k1_h5) (k1_off15_eq k) x)
      (fun x => lanes_value R k.val 5
          (fun r => View.readAt (Elt F) (rV0).view
            (Rect.unit (s := S128x128) (k1_off16 k (BitVec.ofNat 32 r.val)) S1x16.size (k1_off16_inb L k1_t1 k k1_h5 r)).toLoadRect R)
          (fun r => k1_off16 k (BitVec.ofNat 32 r.val)) (fun r => k1_off16_inb L k1_t1 k k1_h5 r) (fun _ _ => rfl) (k1_off16_eq k)
          (k1_off17 k) (k1_off17_inb L k1_t1 k k1_h5) (k1_off17_eq k) x)
      (fun x => lanes_value R k.val 6
          (fun r => View.readAt (Elt F) (rV0).view
            (Rect.unit (s := S128x128) (k1_off18 k (BitVec.ofNat 32 r.val)) S1x16.size (k1_off18_inb L k1_t1 k k1_h5 r)).toLoadRect R)
          (fun r => k1_off18 k (BitVec.ofNat 32 r.val)) (fun r => k1_off18_inb L k1_t1 k k1_h5 r) (fun _ _ => rfl) (k1_off18_eq k)
          (k1_off19 k) (k1_off19_inb L k1_t1 k k1_h5) (k1_off19_eq k) x)
      (fun x => lanes_value R k.val 7
          (fun r => View.readAt (Elt F) (rV0).view
            (Rect.unit (s := S128x128) (k1_off20 k (BitVec.ofNat 32 r.val)) S1x16.size (k1_off20_inb L k1_t1 k k1_h5 r)).toLoadRect R)
          (fun r => k1_off20 k (BitVec.ofNat 32 r.val)) (fun r => k1_off20_inb L k1_t1 k k1_h5 r) (fun _ _ => rfl) (k1_off20_eq k)
          (k1_off21 k) (k1_off21_inb L k1_t1 k k1_h5) (k1_off21_eq k) x)
      j
  · unfold inv0
    rw [blkAt_zero, htr, blkAt_eight]
    isplitl [HR HB]
    · isplitl [HR]
      · iexact HR
      · iexact HB
    · iintro %_ H
      iexact H

end Cert.Proof.KI

end
-- ==== Proof.KI.TileInner1.lean ====
import proofs.«205778_g32538672235162_cont_8to1_b_712_45_alg».proof.Proof.KI.TileInnerLib

noncomputable section

namespace Cert.Proof.KI

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type}

local notation "𝕄" => MT nD τ sig (HIx 1) (Elt F) ℕ UU ℕ

variable [FloatOps F]

def inv1 (d : Dev nD) (L : grid1.Coords) (R : Buf (Elt F) ((tV d L).loc cc1_scratch2)) (f0 : Buf (Elt F) ((tV d L).loc cc1_scratch6))
    (t : Nat) (_ : Unit) : sProp 𝕄 :=
  iprop(((rV1).view.loc (tV d L) ↦{fullShare} R) ∗ ((bV1).view.loc (tV d L) ↦{fullShare} blkAt R f0 t))

theorem inner1 (d : Dev nD) (L : grid1.Coords) (v1 v21 v26 : BitVec 32) (v31 : BitVec 1)
    (k1_t1 : Fin (k1_t1_loop L).trips) (k1_h8 : k1_cond8 L k1_t1 = 1#1)
    (R : Buf (Elt F) ((tV d L).loc cc1_scratch2)) (f0 : Buf (Elt F) ((tV d L).loc cc1_scratch6)) :
    (iprop(((rV1).view.loc (tV d L) ↦{fullShare} R) ∗ ((bV1).view.loc (tV d L) ↦{fullShare} f0)) : sProp 𝕄)
      ⊢ wp frame (wpE (defs₀ (F := F)) 𝒱₀ (tV d L) none) Set.univ
          (Scf.Loop.for k1_t3_loop (k1_t3_ok L k1_t1 k1_h8) ⟨⟩
            (k1_t3_body L yV (Memref.isWhole_whole _) iV (Memref.isWhole_whole _) oV (Memref.isWhole_whole _) xV (Memref.isWhole_whole _)
              rV0 (Memref.isWhole_whole _) rV1 (Memref.isWhole_whole _) rV2 (Memref.isWhole_whole _) rV3 (Memref.isWhole_whole _)
              bV0 (Memref.isWhole_whole _) bV1 (Memref.isWhole_whole _) bV2 (Memref.isWhole_whole _) bV3 (Memref.isWhole_whole _)
              cc1_scratch9 cc1_scratch10 cc1_scratch11 cc1_scratch12 cc1_scratch13 cc1_scratch14 cc1_scratch15 cc1_scratch16 cc1_scoped0 v1 v21 v26 v31 k1_t1 k1_h8))
          fun _ => iprop(((rV1).view.loc (tV d L) ↦{fullShare} R) ∗ ((bV1).view.loc (tV d L) ↦{fullShare} maxBlk R)) := by
  have htr : Scf.trips k1_t3_loop.lb k1_t3_loop.ub k1_t3_loop.st = 8 := by decide
  iintro ⟨HR, HB⟩
  sl_for (inv1 d L R f0) $$ [HR HB]
  case region =>
    intro k _
    unfold inv1
    iintro ⟨HR, HB⟩
    sl_exec_parts
    sl_step
    isplitl [HR]; · iexact HR
    istop
    refine Entails.of_eq (pointsTo_congr ?_)
    intro j _
    sl_unfold_run_names
    rw [← blkAt_succ R f0 k.val j]
    exact row_writes (bV1).view (blkAt R f0 k.val) R k.val _ _ _ _ _ _ _ _ _ _ _ _ _ _ _ _
      (k1_off25_eq k) (k1_off27_eq k) (k1_off29_eq k) (k1_off31_eq k) (k1_off33_eq k) (k1_off35_eq k) (k1_off37_eq k) (k1_off39_eq k)
      _ _ _ _ _ _ _ _
      (fun x => lanes_value R k.val 0
          (fun r => View.readAt (Elt F) (rV1).view
            (Rect.unit (s := S128x128) (k1_off24 k (BitVec.ofNat 32 r.val)) S1x16.size (k1_off24_inb L k1_t1 k k1_h8 r)).toLoadRect R)
          (fun r => k1_off24 k (BitVec.ofNat 32 r.val)) (fun r => k1_off24_inb L k1_t1 k k1_h8 r) (fun _ _ => rfl) (k1_off24_eq k)
          (k1_off25 k) (k1_off25_inb L k1_t1 k k1_h8) (k1_off25_eq k) x)
      (fun x => lanes_value R k.val 1
          (fun r => View.readAt (Elt F) (rV1).view
            (Rect.unit (s := S128x128) (k1_off26 k (BitVec.ofNat 32 r.val)) S1x16.size (k1_off26_inb L k1_t1 k k1_h8 r)).toLoadRect R)
          (fun r => k1_off26 k (BitVec.ofNat 32 r.val)) (fun r => k1_off26_inb L k1_t1 k k1_h8 r) (fun _ _ => rfl) (k1_off26_eq k)
          (k1_off27 k) (k1_off27_inb L k1_t1 k k1_h8) (k1_off27_eq k) x)
      (fun x => lanes_value R k.val 2
          (fun r => View.readAt (Elt F) (rV1).view
            (Rect.unit (s := S128x128) (k1_off28 k (BitVec.ofNat 32 r.val)) S1x16.size (k1_off28_inb L k1_t1 k k1_h8 r)).toLoadRect R)
          (fun r => k1_off28 k (BitVec.ofNat 32 r.val)) (fun r => k1_off28_inb L k1_t1 k k1_h8 r) (fun _ _ => rfl) (k1_off28_eq k)
          (k1_off29 k) (k1_off29_inb L k1_t1 k k1_h8) (k1_off29_eq k) x)
      (fun x => lanes_value R k.val 3
          (fun r => View.readAt (Elt F) (rV1).view
            (Rect.unit (s := S128x128) (k1_off30 k (BitVec.ofNat 32 r.val)) S1x16.size (k1_off30_inb L k1_t1 k k1_h8 r)).toLoadRect R)
          (fun r => k1_off30 k (BitVec.ofNat 32 r.val)) (fun r => k1_off30_inb L k1_t1 k k1_h8 r) (fun _ _ => rfl) (k1_off30_eq k)
          (k1_off31 k) (k1_off31_inb L k1_t1 k k1_h8) (k1_off31_eq k) x)
      (fun x => lanes_value R k.val 4
          (fun r => View.readAt (Elt F) (rV1).view
            (Rect.unit (s := S128x128) (k1_off32 k (BitVec.ofNat 32 r.val)) S1x16.size (k1_off32_inb L k1_t1 k k1_h8 r)).toLoadRect R)
          (fun r => k1_off32 k (BitVec.ofNat 32 r.val)) (fun r => k1_off32_inb L k1_t1 k k1_h8 r) (fun _ _ => rfl) (k1_off32_eq k)
          (k1_off33 k) (k1_off33_inb L k1_t1 k k1_h8) (k1_off33_eq k) x)
      (fun x => lanes_value R k.val 5
          (fun r => View.readAt (Elt F) (rV1).view
            (Rect.unit (s := S128x128) (k1_off34 k (BitVec.ofNat 32 r.val)) S1x16.size (k1_off34_inb L k1_t1 k k1_h8 r)).toLoadRect R)
          (fun r => k1_off34 k (BitVec.ofNat 32 r.val)) (fun r => k1_off34_inb L k1_t1 k k1_h8 r) (fun _ _ => rfl) (k1_off34_eq k)
          (k1_off35 k) (k1_off35_inb L k1_t1 k k1_h8) (k1_off35_eq k) x)
      (fun x => lanes_value R k.val 6
          (fun r => View.readAt (Elt F) (rV1).view
            (Rect.unit (s := S128x128) (k1_off36 k (BitVec.ofNat 32 r.val)) S1x16.size (k1_off36_inb L k1_t1 k k1_h8 r)).toLoadRect R)
          (fun r => k1_off36 k (BitVec.ofNat 32 r.val)) (fun r => k1_off36_inb L k1_t1 k k1_h8 r) (fun _ _ => rfl) (k1_off36_eq k)
          (k1_off37 k) (k1_off37_inb L k1_t1 k k1_h8) (k1_off37_eq k) x)
      (fun x => lanes_value R k.val 7
          (fun r => View.readAt (Elt F) (rV1).view
            (Rect.unit (s := S128x128) (k1_off38 k (BitVec.ofNat 32 r.val)) S1x16.size (k1_off38_inb L k1_t1 k k1_h8 r)).toLoadRect R)
          (fun r => k1_off38 k (BitVec.ofNat 32 r.val)) (fun r => k1_off38_inb L k1_t1 k k1_h8 r) (fun _ _ => rfl) (k1_off38_eq k)
          (k1_off39 k) (k1_off39_inb L k1_t1 k k1_h8) (k1_off39_eq k) x)
      j
  · unfold inv1
    rw [blkAt_zero, htr, blkAt_eight]
    isplitl [HR HB]
    · isplitl [HR]
      · iexact HR
      · iexact HB
    · iintro %_ H
      iexact H

end Cert.Proof.KI

end
-- ==== Proof.KI.TileInner2.lean ====
import proofs.«205778_g32538672235162_cont_8to1_b_712_45_alg».proof.Proof.KI.TileInnerLib

noncomputable section

namespace Cert.Proof.KI

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type}

local notation "𝕄" => MT nD τ sig (HIx 1) (Elt F) ℕ UU ℕ

variable [FloatOps F]

def inv2 (d : Dev nD) (L : grid1.Coords) (R : Buf (Elt F) ((tV d L).loc cc1_scratch3)) (f0 : Buf (Elt F) ((tV d L).loc cc1_scratch7))
    (t : Nat) (_ : Unit) : sProp 𝕄 :=
  iprop(((rV2).view.loc (tV d L) ↦{fullShare} R) ∗ ((bV2).view.loc (tV d L) ↦{fullShare} blkAt R f0 t))

theorem inner2 (d : Dev nD) (L : grid1.Coords) (v1 v21 v26 : BitVec 32) (v31 : BitVec 1)
    (k1_t1 : Fin (k1_t1_loop L).trips) (k1_h11 : k1_cond11 L k1_t1 = 1#1)
    (R : Buf (Elt F) ((tV d L).loc cc1_scratch3)) (f0 : Buf (Elt F) ((tV d L).loc cc1_scratch7)) :
    (iprop(((rV2).view.loc (tV d L) ↦{fullShare} R) ∗ ((bV2).view.loc (tV d L) ↦{fullShare} f0)) : sProp 𝕄)
      ⊢ wp frame (wpE (defs₀ (F := F)) 𝒱₀ (tV d L) none) Set.univ
          (Scf.Loop.for k1_t4_loop (k1_t4_ok L k1_t1 k1_h11) ⟨⟩
            (k1_t4_body L yV (Memref.isWhole_whole _) iV (Memref.isWhole_whole _) oV (Memref.isWhole_whole _) xV (Memref.isWhole_whole _)
              rV0 (Memref.isWhole_whole _) rV1 (Memref.isWhole_whole _) rV2 (Memref.isWhole_whole _) rV3 (Memref.isWhole_whole _)
              bV0 (Memref.isWhole_whole _) bV1 (Memref.isWhole_whole _) bV2 (Memref.isWhole_whole _) bV3 (Memref.isWhole_whole _)
              cc1_scratch9 cc1_scratch10 cc1_scratch11 cc1_scratch12 cc1_scratch13 cc1_scratch14 cc1_scratch15 cc1_scratch16 cc1_scoped0 v1 v21 v26 v31 k1_t1 k1_h11))
          fun _ => iprop(((rV2).view.loc (tV d L) ↦{fullShare} R) ∗ ((bV2).view.loc (tV d L) ↦{fullShare} maxBlk R)) := by
  have htr : Scf.trips k1_t4_loop.lb k1_t4_loop.ub k1_t4_loop.st = 8 := by decide
  iintro ⟨HR, HB⟩
  sl_for (inv2 d L R f0) $$ [HR HB]
  case region =>
    intro k _
    unfold inv2
    iintro ⟨HR, HB⟩
    sl_exec_parts
    sl_step
    isplitl [HR]; · iexact HR
    istop
    refine Entails.of_eq (pointsTo_congr ?_)
    intro j _
    sl_unfold_run_names
    rw [← blkAt_succ R f0 k.val j]
    exact row_writes (bV2).view (blkAt R f0 k.val) R k.val _ _ _ _ _ _ _ _ _ _ _ _ _ _ _ _
      (k1_off43_eq k) (k1_off45_eq k) (k1_off47_eq k) (k1_off49_eq k) (k1_off51_eq k) (k1_off53_eq k) (k1_off55_eq k) (k1_off57_eq k)
      _ _ _ _ _ _ _ _
      (fun x => lanes_value R k.val 0
          (fun r => View.readAt (Elt F) (rV2).view
            (Rect.unit (s := S128x128) (k1_off42 k (BitVec.ofNat 32 r.val)) S1x16.size (k1_off42_inb L k1_t1 k k1_h11 r)).toLoadRect R)
          (fun r => k1_off42 k (BitVec.ofNat 32 r.val)) (fun r => k1_off42_inb L k1_t1 k k1_h11 r) (fun _ _ => rfl) (k1_off42_eq k)
          (k1_off43 k) (k1_off43_inb L k1_t1 k k1_h11) (k1_off43_eq k) x)
      (fun x => lanes_value R k.val 1
          (fun r => View.readAt (Elt F) (rV2).view
            (Rect.unit (s := S128x128) (k1_off44 k (BitVec.ofNat 32 r.val)) S1x16.size (k1_off44_inb L k1_t1 k k1_h11 r)).toLoadRect R)
          (fun r => k1_off44 k (BitVec.ofNat 32 r.val)) (fun r => k1_off44_inb L k1_t1 k k1_h11 r) (fun _ _ => rfl) (k1_off44_eq k)
          (k1_off45 k) (k1_off45_inb L k1_t1 k k1_h11) (k1_off45_eq k) x)
      (fun x => lanes_value R k.val 2
          (fun r => View.readAt (Elt F) (rV2).view
            (Rect.unit (s := S128x128) (k1_off46 k (BitVec.ofNat 32 r.val)) S1x16.size (k1_off46_inb L k1_t1 k k1_h11 r)).toLoadRect R)
          (fun r => k1_off46 k (BitVec.ofNat 32 r.val)) (fun r => k1_off46_inb L k1_t1 k k1_h11 r) (fun _ _ => rfl) (k1_off46_eq k)
          (k1_off47 k) (k1_off47_inb L k1_t1 k k1_h11) (k1_off47_eq k) x)
      (fun x => lanes_value R k.val 3
          (fun r => View.readAt (Elt F) (rV2).view
            (Rect.unit (s := S128x128) (k1_off48 k (BitVec.ofNat 32 r.val)) S1x16.size (k1_off48_inb L k1_t1 k k1_h11 r)).toLoadRect R)
          (fun r => k1_off48 k (BitVec.ofNat 32 r.val)) (fun r => k1_off48_inb L k1_t1 k k1_h11 r) (fun _ _ => rfl) (k1_off48_eq k)
          (k1_off49 k) (k1_off49_inb L k1_t1 k k1_h11) (k1_off49_eq k) x)
      (fun x => lanes_value R k.val 4
          (fun r => View.readAt (Elt F) (rV2).view
            (Rect.unit (s := S128x128) (k1_off50 k (BitVec.ofNat 32 r.val)) S1x16.size (k1_off50_inb L k1_t1 k k1_h11 r)).toLoadRect R)
          (fun r => k1_off50 k (BitVec.ofNat 32 r.val)) (fun r => k1_off50_inb L k1_t1 k k1_h11 r) (fun _ _ => rfl) (k1_off50_eq k)
          (k1_off51 k) (k1_off51_inb L k1_t1 k k1_h11) (k1_off51_eq k) x)
      (fun x => lanes_value R k.val 5
          (fun r => View.readAt (Elt F) (rV2).view
            (Rect.unit (s := S128x128) (k1_off52 k (BitVec.ofNat 32 r.val)) S1x16.size (k1_off52_inb L k1_t1 k k1_h11 r)).toLoadRect R)
          (fun r => k1_off52 k (BitVec.ofNat 32 r.val)) (fun r => k1_off52_inb L k1_t1 k k1_h11 r) (fun _ _ => rfl) (k1_off52_eq k)
          (k1_off53 k) (k1_off53_inb L k1_t1 k k1_h11) (k1_off53_eq k) x)
      (fun x => lanes_value R k.val 6
          (fun r => View.readAt (Elt F) (rV2).view
            (Rect.unit (s := S128x128) (k1_off54 k (BitVec.ofNat 32 r.val)) S1x16.size (k1_off54_inb L k1_t1 k k1_h11 r)).toLoadRect R)
          (fun r => k1_off54 k (BitVec.ofNat 32 r.val)) (fun r => k1_off54_inb L k1_t1 k k1_h11 r) (fun _ _ => rfl) (k1_off54_eq k)
          (k1_off55 k) (k1_off55_inb L k1_t1 k k1_h11) (k1_off55_eq k) x)
      (fun x => lanes_value R k.val 7
          (fun r => View.readAt (Elt F) (rV2).view
            (Rect.unit (s := S128x128) (k1_off56 k (BitVec.ofNat 32 r.val)) S1x16.size (k1_off56_inb L k1_t1 k k1_h11 r)).toLoadRect R)
          (fun r => k1_off56 k (BitVec.ofNat 32 r.val)) (fun r => k1_off56_inb L k1_t1 k k1_h11 r) (fun _ _ => rfl) (k1_off56_eq k)
          (k1_off57 k) (k1_off57_inb L k1_t1 k k1_h11) (k1_off57_eq k) x)
      j
  · unfold inv2
    rw [blkAt_zero, htr, blkAt_eight]
    isplitl [HR HB]
    · isplitl [HR]
      · iexact HR
      · iexact HB
    · iintro %_ H
      iexact H

end Cert.Proof.KI

end
-- ==== Proof.KI.TileInner3.lean ====
import proofs.«205778_g32538672235162_cont_8to1_b_712_45_alg».proof.Proof.KI.TileInnerLib

noncomputable section

namespace Cert.Proof.KI

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type}

local notation "𝕄" => MT nD τ sig (HIx 1) (Elt F) ℕ UU ℕ

variable [FloatOps F]

def inv3 (d : Dev nD) (L : grid1.Coords) (R : Buf (Elt F) ((tV d L).loc cc1_scratch4)) (f0 : Buf (Elt F) ((tV d L).loc cc1_scratch8))
    (t : Nat) (_ : Unit) : sProp 𝕄 :=
  iprop(((rV3).view.loc (tV d L) ↦{fullShare} R) ∗ ((bV3).view.loc (tV d L) ↦{fullShare} blkAt R f0 t))

theorem inner3 (d : Dev nD) (L : grid1.Coords) (v1 v21 v26 : BitVec 32) (v31 : BitVec 1)
    (k1_t1 : Fin (k1_t1_loop L).trips) (k1_h14 : k1_cond14 L k1_t1 = 1#1)
    (R : Buf (Elt F) ((tV d L).loc cc1_scratch4)) (f0 : Buf (Elt F) ((tV d L).loc cc1_scratch8)) :
    (iprop(((rV3).view.loc (tV d L) ↦{fullShare} R) ∗ ((bV3).view.loc (tV d L) ↦{fullShare} f0)) : sProp 𝕄)
      ⊢ wp frame (wpE (defs₀ (F := F)) 𝒱₀ (tV d L) none) Set.univ
          (Scf.Loop.for k1_t5_loop (k1_t5_ok L k1_t1 k1_h14) ⟨⟩
            (k1_t5_body L yV (Memref.isWhole_whole _) iV (Memref.isWhole_whole _) oV (Memref.isWhole_whole _) xV (Memref.isWhole_whole _)
              rV0 (Memref.isWhole_whole _) rV1 (Memref.isWhole_whole _) rV2 (Memref.isWhole_whole _) rV3 (Memref.isWhole_whole _)
              bV0 (Memref.isWhole_whole _) bV1 (Memref.isWhole_whole _) bV2 (Memref.isWhole_whole _) bV3 (Memref.isWhole_whole _)
              cc1_scratch9 cc1_scratch10 cc1_scratch11 cc1_scratch12 cc1_scratch13 cc1_scratch14 cc1_scratch15 cc1_scratch16 cc1_scoped0 v1 v21 v26 v31 k1_t1 k1_h14))
          fun _ => iprop(((rV3).view.loc (tV d L) ↦{fullShare} R) ∗ ((bV3).view.loc (tV d L) ↦{fullShare} maxBlk R)) := by
  have htr : Scf.trips k1_t5_loop.lb k1_t5_loop.ub k1_t5_loop.st = 8 := by decide
  iintro ⟨HR, HB⟩
  sl_for (inv3 d L R f0) $$ [HR HB]
  case region =>
    intro k _
    unfold inv3
    iintro ⟨HR, HB⟩
    sl_exec_parts
    sl_step
    isplitl [HR]; · iexact HR
    istop
    refine Entails.of_eq (pointsTo_congr ?_)
    intro j _
    sl_unfold_run_names
    rw [← blkAt_succ R f0 k.val j]
    exact row_writes (bV3).view (blkAt R f0 k.val) R k.val _ _ _ _ _ _ _ _ _ _ _ _ _ _ _ _
      (k1_off61_eq k) (k1_off63_eq k) (k1_off65_eq k) (k1_off67_eq k) (k1_off69_eq k) (k1_off71_eq k) (k1_off73_eq k) (k1_off75_eq k)
      _ _ _ _ _ _ _ _
      (fun x => lanes_value R k.val 0
          (fun r => View.readAt (Elt F) (rV3).view
            (Rect.unit (s := S128x128) (k1_off60 k (BitVec.ofNat 32 r.val)) S1x16.size (k1_off60_inb L k1_t1 k k1_h14 r)).toLoadRect R)
          (fun r => k1_off60 k (BitVec.ofNat 32 r.val)) (fun r => k1_off60_inb L k1_t1 k k1_h14 r) (fun _ _ => rfl) (k1_off60_eq k)
          (k1_off61 k) (k1_off61_inb L k1_t1 k k1_h14) (k1_off61_eq k) x)
      (fun x => lanes_value R k.val 1
          (fun r => View.readAt (Elt F) (rV3).view
            (Rect.unit (s := S128x128) (k1_off62 k (BitVec.ofNat 32 r.val)) S1x16.size (k1_off62_inb L k1_t1 k k1_h14 r)).toLoadRect R)
          (fun r => k1_off62 k (BitVec.ofNat 32 r.val)) (fun r => k1_off62_inb L k1_t1 k k1_h14 r) (fun _ _ => rfl) (k1_off62_eq k)
          (k1_off63 k) (k1_off63_inb L k1_t1 k k1_h14) (k1_off63_eq k) x)
      (fun x => lanes_value R k.val 2
          (fun r => View.readAt (Elt F) (rV3).view
            (Rect.unit (s := S128x128) (k1_off64 k (BitVec.ofNat 32 r.val)) S1x16.size (k1_off64_inb L k1_t1 k k1_h14 r)).toLoadRect R)
          (fun r => k1_off64 k (BitVec.ofNat 32 r.val)) (fun r => k1_off64_inb L k1_t1 k k1_h14 r) (fun _ _ => rfl) (k1_off64_eq k)
          (k1_off65 k) (k1_off65_inb L k1_t1 k k1_h14) (k1_off65_eq k) x)
      (fun x => lanes_value R k.val 3
          (fun r => View.readAt (Elt F) (rV3).view
            (Rect.unit (s := S128x128) (k1_off66 k (BitVec.ofNat 32 r.val)) S1x16.size (k1_off66_inb L k1_t1 k k1_h14 r)).toLoadRect R)
          (fun r => k1_off66 k (BitVec.ofNat 32 r.val)) (fun r => k1_off66_inb L k1_t1 k k1_h14 r) (fun _ _ => rfl) (k1_off66_eq k)
          (k1_off67 k) (k1_off67_inb L k1_t1 k k1_h14) (k1_off67_eq k) x)
      (fun x => lanes_value R k.val 4
          (fun r => View.readAt (Elt F) (rV3).view
            (Rect.unit (s := S128x128) (k1_off68 k (BitVec.ofNat 32 r.val)) S1x16.size (k1_off68_inb L k1_t1 k k1_h14 r)).toLoadRect R)
          (fun r => k1_off68 k (BitVec.ofNat 32 r.val)) (fun r => k1_off68_inb L k1_t1 k k1_h14 r) (fun _ _ => rfl) (k1_off68_eq k)
          (k1_off69 k) (k1_off69_inb L k1_t1 k k1_h14) (k1_off69_eq k) x)
      (fun x => lanes_value R k.val 5
          (fun r => View.readAt (Elt F) (rV3).view
            (Rect.unit (s := S128x128) (k1_off70 k (BitVec.ofNat 32 r.val)) S1x16.size (k1_off70_inb L k1_t1 k k1_h14 r)).toLoadRect R)
          (fun r => k1_off70 k (BitVec.ofNat 32 r.val)) (fun r => k1_off70_inb L k1_t1 k k1_h14 r) (fun _ _ => rfl) (k1_off70_eq k)
          (k1_off71 k) (k1_off71_inb L k1_t1 k k1_h14) (k1_off71_eq k) x)
      (fun x => lanes_value R k.val 6
          (fun r => View.readAt (Elt F) (rV3).view
            (Rect.unit (s := S128x128) (k1_off72 k (BitVec.ofNat 32 r.val)) S1x16.size (k1_off72_inb L k1_t1 k k1_h14 r)).toLoadRect R)
          (fun r => k1_off72 k (BitVec.ofNat 32 r.val)) (fun r => k1_off72_inb L k1_t1 k k1_h14 r) (fun _ _ => rfl) (k1_off72_eq k)
          (k1_off73 k) (k1_off73_inb L k1_t1 k k1_h14) (k1_off73_eq k) x)
      (fun x => lanes_value R k.val 7
          (fun r => View.readAt (Elt F) (rV3).view
            (Rect.unit (s := S128x128) (k1_off74 k (BitVec.ofNat 32 r.val)) S1x16.size (k1_off74_inb L k1_t1 k k1_h14 r)).toLoadRect R)
          (fun r => k1_off74 k (BitVec.ofNat 32 r.val)) (fun r => k1_off74_inb L k1_t1 k k1_h14 r) (fun _ _ => rfl) (k1_off74_eq k)
          (k1_off75 k) (k1_off75_inb L k1_t1 k k1_h14) (k1_off75_eq k) x)
      j
  · unfold inv3
    rw [blkAt_zero, htr, blkAt_eight]
    isplitl [HR HB]
    · isplitl [HR]
      · iexact HR
      · iexact HB
    · iintro %_ H
      iexact H

end Cert.Proof.KI

end
-- ==== Proof.KI.TileInv.lean ====
import proofs.«205778_g32538672235162_cont_8to1_b_712_45_alg».proof.Proof.KI.TileNums
import proofs.«205778_g32538672235162_cont_8to1_b_712_45_alg».proof.Proof.KI.TileVals
import proofs.«205778_g32538672235162_cont_8to1_b_712_45_alg».proof.Proof.KI.TileInner
import proofs.«205778_g32538672235162_cont_8to1_b_712_45_alg».proof.Proof.KI.TileInner1
import proofs.«205778_g32538672235162_cont_8to1_b_712_45_alg».proof.Proof.KI.TileInner2
import proofs.«205778_g32538672235162_cont_8to1_b_712_45_alg».proof.Proof.KI.TileInner3

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

section Peel
variable {M : Type} [URA M] {I : Type} [DecidableEq I]

def sepList (Φ : I → sProp M) (rest : sProp M) : List I → sProp M
  | [] => rest
  | a :: l => iprop(Φ a ∗ sepList Φ rest l)

theorem bigSep_takeList (Φ : I → sProp M) : ∀ (l : List I) (s : Finset I), l.Nodup → (∀ x ∈ l, x ∈ s) →
    bigSep s Φ = sepList Φ (bigSep (s \ l.toFinset) Φ) l
  | [], s, _, _ => by simp [sepList]
  | a :: l, s, hnd, hsub => by
    have ha : a ∈ s := hsub a (List.mem_cons_self)
    have hal : a ∉ l := (List.nodup_cons.mp hnd).1
    rw [SparseCore.bigSep_erase' ha, bigSep_takeList Φ l (s.erase a) (List.nodup_cons.mp hnd).2
      (fun x hx => Finset.mem_erase.mpr ⟨fun e => hal (e ▸ hx), hsub x (List.mem_cons_of_mem _ hx)⟩)]
    have : s.erase a \ l.toFinset = s \ (a :: l).toFinset := by
      ext x; simp only [Finset.mem_sdiff, Finset.mem_erase, List.mem_toFinset, List.mem_cons]; tauto
    rw [this]; rfl
end Peel

section Rules
universe u1 u2 u3
variable {E : Type → Type u2} {M : Type u1} [URA M] {Mask : Sort u3}

theorem wp_dite_else (Fr : Mask → sProp M) (wpE : Mask → ⦃β : Type⦄ → E β → sWPT M β) (Es : Mask) {β : Type}
    {c : Prop} [Decidable c] {B : c → Prog E β} {J : Prog E β} {P Mid : sProp M} {Q : β → sProp M}
    (h1 : ∀ h : c, (Mid ⊢ wp Fr wpE Es J Q) → (P ⊢ wp Fr wpE Es (B h) Q))
    (h2 : ¬c → (P ⊢ Mid)) (hK : Mid ⊢ wp Fr wpE Es J Q) :
    P ⊢ wp Fr wpE Es (if h : c then B h else J) Q := by
  by_cases h : c
  · rw [dif_pos h]; exact h1 h hK
  · rw [dif_neg h]; exact (h2 h).trans hK
end Rules

section Rules2
universe u1 u2 u3
variable {E : Type → Type u2} {M : Type u1} [URA M] {Mask : Sort u3}
  (Fr : Mask → sProp M) (wpE : Mask → ⦃β : Type⦄ → E β → sWPT M β) (Es : Mask) [∀ ⦃β : Type⦄ (e : E β), sWPT.Frameable (wpE Es e)]

theorem wp_use {α : Type} {p : Prog E α} {P : sProp M} {R Q' : α → sProp M} (hp : P ⊢ wp Fr wpE Es p R) :
    P ⊢ iprop((∀ a, R a -∗ Q' a) -∗ wp Fr wpE Es p Q') := hp.trans (wp_wand Fr wpE Es)
theorem wp_use_bind {α β : Type} {p : Prog E α} {kk : α → Prog E β} {P : sProp M} {R : α → sProp M} {Q : β → sProp M}
    (hp : P ⊢ wp Fr wpE Es p R) :
    P ⊢ iprop((∀ a, R a -∗ wp Fr wpE Es (kk a) Q) -∗ wp Fr wpE Es (p >>= kk) Q) := by
  rw [wp_bind]; exact wp_use Fr wpE Es hp
end Rules2

variable [FloatOps F]

variable (m : (ℓ : Loc nD τ sig) → Buf (Elt F) ℓ) (d : Dev nD) (L : grid1.Coords)

def bufList : List (Ref sig .scVector) := [cc1_scratch0, cc1_scratch1, cc1_scratch2, cc1_scratch3, cc1_scratch4, cc1_scratch5, cc1_scratch6, cc1_scratch7, cc1_scratch8]
def semList : List (DmaSem sig) := [cc1_scoped0.sem, cc1_scratch9.sem, cc1_scratch10.sem, cc1_scratch11.sem, cc1_scratch12.sem, cc1_scratch13.sem, cc1_scratch14.sem, cc1_scratch15.sem, cc1_scratch16.sem]
theorem bufList_nodup : bufList.Nodup := by decide
theorem semList_nodup : semList.Nodup := by decide

omit [FloatOps F] in
theorem ownBufs_V :
    (ownBufs (tV d L) : sProp 𝕄)
      = sepList (fun b => iprop(∃ f, ((d, b) : Loc nD τ sig) ↦{fullShare} f))
          (bigSep (ownRefs (τ := τ) (.scVector (cV L) (jV L)) \ (bufList.map (Proc.scVector (cV L) (jV L)).devRef).toFinset)
            fun b => iprop(∃ f, ((d, b) : Loc nD τ sig) ↦{fullShare} f))
          (bufList.map (Proc.scVector (cV L) (jV L)).devRef) := by
  unfold SparseCore.Cfg.ownBufs
  exact bigSep_takeList _ _ _ (List.Nodup.map (Proc.devRef_injective _) bufList_nodup)
    (fun x hx => by
      obtain ⟨r, hr, rfl⟩ := List.mem_map.mp hx
      refine SparseCore.Cfg.mem_ownRefs_of_owner (p := Proc.scVector (cV L) (jV L)) ?_
      simp only [bufList, List.mem_cons, List.mem_nil_iff, or_false] at hr
      rcases hr with rfl | rfl | rfl | rfl | rfl | rfl | rfl | rfl | rfl <;> rfl)

omit [FloatOps F] in
theorem ownSems0_V :
    (ownSems0 (tV d L) : sProp 𝕄)
      = sepList (fun g => semVal g 0)
          (bigSep (ownCells (tV d L) \ (semList.map fun sm => ((tV d L, SemLoc.dma sm) : GSem nD τ sig)).toFinset) fun g => semVal g 0)
          (semList.map fun sm => ((tV d L, SemLoc.dma sm) : GSem nD τ sig)) := by
  unfold SparseCore.Cfg.ownSems0
  exact bigSep_takeList _ _ _ (List.Nodup.map (fun a b e => by simpa using e) semList_nodup)
    (fun x hx => by
      obtain ⟨sm, hr, rfl⟩ := List.mem_map.mp hx
      refine (mem_ownCells (g := (tV d L, SemLoc.dma sm))).mpr ⟨rfl, ?_⟩
      simp only [semList, List.mem_cons, List.mem_nil_iff, or_false] at hr
      rcases hr with rfl | rfl | rfl | rfl | rfl | rfl | rfl | rfl | rfl <;> rfl)

omit [FloatOps F] in
theorem pts_yV (q : PosShare TreeShare) (f : Buf (Elt F) (yLoc d)) :
    ((yV).view.loc (tV d L) ↦{q} f : sProp 𝕄) = yLoc d ↦{q} f := rfl
omit [FloatOps F] in
theorem pts_iV (q : PosShare TreeShare) (f : Buf (Elt F) (iLoc d)) :
    ((iV).view.loc (tV d L) ↦{q} f : sProp 𝕄) = iLoc d ↦{q} f := rfl
omit [FloatOps F] in
theorem pts_oV (S : Finset S25000x128.Idx) (f : Buf (Elt F) (oLoc d)) :
    ((oV).view.loc (tV d L) ↦[S]{fullShare} f : sProp 𝕄) = oLoc d ↦[S]{fullShare} f := rfl
omit [FloatOps F] in
theorem pts_scr (r : Ref sig .scVector) (f : Buf (Elt F) (d, (Proc.scVector (cV L) (jV L)).devRef r)) :
    ((Memref.whole r).view.loc (tV d L) ↦{fullShare} f : sProp 𝕄) = ((d, (Proc.scVector (cV L) (jV L)).devRef r) : Loc nD τ sig) ↦{fullShare} f := rfl

def WN : ℕ := 32768

abbrev qy0 : PosShare TreeShare := (rq (cL L) (sL L)).right
abbrev qy1 : PosShare TreeShare := (rq (cL L) (sL L)).left.right
abbrev qy2 : PosShare TreeShare := (rq (cL L) (sL L)).left.left.left
abbrev qy3 : PosShare TreeShare := (rq (cL L) (sL L)).left.left.right
abbrev qx0 : PosShare TreeShare := fullShare.right
abbrev qx1 : PosShare TreeShare := fullShare.left.right
abbrev qx2 : PosShare TreeShare := fullShare.left.left.left
abbrev qx3 : PosShare TreeShare := fullShare.left.left.right

def Slot0 (k : ℕ) : sProp 𝕄 :=
  iprop((if k < Nb L 0 then iprop(∃ D, Transfers.Flight countersEmb (tV d L) (.dma cc1_scratch9.sem) default 524288 D
            ∗ (D -∗ iprop(((rV0).view.loc (tV d L) ↦{fullShare} Rg m d L (4 * k + 0)) ∗ ((xV).view.loc (tV d L) ↦{qx0} Xw m d L) ∗ ((yV).view.loc (tV d L) ↦{(qy0 L)} Ytc m d))))
          else iprop(((∃ R, (rV0).view.loc (tV d L) ↦{fullShare} R) ∗ ((xV).view.loc (tV d L) ↦{qx0} Xw m d L) ∗ ((yV).view.loc (tV d L) ↦{(qy0 L)} Ytc m d))
            ∗ semVal (tV d L, .dma cc1_scratch9.sem) 0))
      ∗ (if min k (Nb L 0) = 0 then iprop((∃ f, (bV0).view.loc (tV d L) ↦{fullShare} f) ∗ semVal (tV d L, .dma cc1_scratch13.sem) 0)
          else iprop(∃ D, Transfers.Flight countersEmb (tV d L) (.dma cc1_scratch13.sem) default WN D
            ∗ (D -∗ iprop((∃ f, (bV0).view.loc (tV d L) ↦{fullShare} f) ∗ ((oV).view.loc (tV d L) ↦[chunkSet L (4 * (min k (Nb L 0) - 1) + 0)]{fullShare} Out m d)))))
      ∗ ((oV).view.loc (tV d L) ↦[futSet L 0 (min k (Nb L 0))]{fullShare} m (oLoc d))
      ∗ ((oV).view.loc (tV d L) ↦[landSet L 0 (min k (Nb L 0) - 1)]{fullShare} Out m d))

def Slot1 (k : ℕ) : sProp 𝕄 :=
  iprop((if k < Nb L 1 then iprop(∃ D, Transfers.Flight countersEmb (tV d L) (.dma cc1_scratch10.sem) default 524288 D
            ∗ (D -∗ iprop(((rV1).view.loc (tV d L) ↦{fullShare} Rg m d L (4 * k + 1)) ∗ ((xV).view.loc (tV d L) ↦{qx1} Xw m d L) ∗ ((yV).view.loc (tV d L) ↦{(qy1 L)} Ytc m d))))
          else iprop(((∃ R, (rV1).view.loc (tV d L) ↦{fullShare} R) ∗ ((xV).view.loc (tV d L) ↦{qx1} Xw m d L) ∗ ((yV).view.loc (tV d L) ↦{(qy1 L)} Ytc m d))
            ∗ semVal (tV d L, .dma cc1_scratch10.sem) 0))
      ∗ (if min k (Nb L 1) = 0 then iprop((∃ f, (bV1).view.loc (tV d L) ↦{fullShare} f) ∗ semVal (tV d L, .dma cc1_scratch14.sem) 0)
          else iprop(∃ D, Transfers.Flight countersEmb (tV d L) (.dma cc1_scratch14.sem) default WN D
            ∗ (D -∗ iprop((∃ f, (bV1).view.loc (tV d L) ↦{fullShare} f) ∗ ((oV).view.loc (tV d L) ↦[chunkSet L (4 * (min k (Nb L 1) - 1) + 1)]{fullShare} Out m d)))))
      ∗ ((oV).view.loc (tV d L) ↦[futSet L 1 (min k (Nb L 1))]{fullShare} m (oLoc d))
      ∗ ((oV).view.loc (tV d L) ↦[landSet L 1 (min k (Nb L 1) - 1)]{fullShare} Out m d))

def Slot2 (k : ℕ) : sProp 𝕄 :=
  iprop((if k < Nb L 2 then iprop(∃ D, Transfers.Flight countersEmb (tV d L) (.dma cc1_scratch11.sem) default 524288 D
            ∗ (D -∗ iprop(((rV2).view.loc (tV d L) ↦{fullShare} Rg m d L (4 * k + 2)) ∗ ((xV).view.loc (tV d L) ↦{qx2} Xw m d L) ∗ ((yV).view.loc (tV d L) ↦{(qy2 L)} Ytc m d))))
          else iprop(((∃ R, (rV2).view.loc (tV d L) ↦{fullShare} R) ∗ ((xV).view.loc (tV d L) ↦{qx2} Xw m d L) ∗ ((yV).view.loc (tV d L) ↦{(qy2 L)} Ytc m d))
            ∗ semVal (tV d L, .dma cc1_scratch11.sem) 0))
      ∗ (if min k (Nb L 2) = 0 then iprop((∃ f, (bV2).view.loc (tV d L) ↦{fullShare} f) ∗ semVal (tV d L, .dma cc1_scratch15.sem) 0)
          else iprop(∃ D, Transfers.Flight countersEmb (tV d L) (.dma cc1_scratch15.sem) default WN D
            ∗ (D -∗ iprop((∃ f, (bV2).view.loc (tV d L) ↦{fullShare} f) ∗ ((oV).view.loc (tV d L) ↦[chunkSet L (4 * (min k (Nb L 2) - 1) + 2)]{fullShare} Out m d)))))
      ∗ ((oV).view.loc (tV d L) ↦[futSet L 2 (min k (Nb L 2))]{fullShare} m (oLoc d))
      ∗ ((oV).view.loc (tV d L) ↦[landSet L 2 (min k (Nb L 2) - 1)]{fullShare} Out m d))

def Slot3 (k : ℕ) : sProp 𝕄 :=
  iprop((if k < Nb L 3 then iprop(∃ D, Transfers.Flight countersEmb (tV d L) (.dma cc1_scratch12.sem) default 524288 D
            ∗ (D -∗ iprop(((rV3).view.loc (tV d L) ↦{fullShare} Rg m d L (4 * k + 3)) ∗ ((xV).view.loc (tV d L) ↦{qx3} Xw m d L) ∗ ((yV).view.loc (tV d L) ↦{(qy3 L)} Ytc m d))))
          else iprop(((∃ R, (rV3).view.loc (tV d L) ↦{fullShare} R) ∗ ((xV).view.loc (tV d L) ↦{qx3} Xw m d L) ∗ ((yV).view.loc (tV d L) ↦{(qy3 L)} Ytc m d))
            ∗ semVal (tV d L, .dma cc1_scratch12.sem) 0))
      ∗ (if min k (Nb L 3) = 0 then iprop((∃ f, (bV3).view.loc (tV d L) ↦{fullShare} f) ∗ semVal (tV d L, .dma cc1_scratch16.sem) 0)
          else iprop(∃ D, Transfers.Flight countersEmb (tV d L) (.dma cc1_scratch16.sem) default WN D
            ∗ (D -∗ iprop((∃ f, (bV3).view.loc (tV d L) ↦{fullShare} f) ∗ ((oV).view.loc (tV d L) ↦[chunkSet L (4 * (min k (Nb L 3) - 1) + 3)]{fullShare} Out m d)))))
      ∗ ((oV).view.loc (tV d L) ↦[futSet L 3 (min k (Nb L 3))]{fullShare} m (oLoc d))
      ∗ ((oV).view.loc (tV d L) ↦[landSet L 3 (min k (Nb L 3) - 1)]{fullShare} Out m d))

def OW (O : CellTallies nD τ sig (HIx 1)) (W : Waits sig (HIx 1)) : sProp 𝕄 :=
  iprop(Transfers.MayWaits (tV d L) (default : HIx 1) O ∗ ∃ W', ⌜∀ p ∈ W', p ∈ W ∨ p.2 = none⌝ ∗ owes (tV d L) O W')

end Cert.Proof.KI

end
-- ==== Proof.KI.TileSets.lean ====
import proofs.«205778_g32538672235162_cont_8to1_b_712_45_alg».proof.Proof.KI.TileNums

noncomputable section

namespace Cert.Proof.KI

open Cert.KernelIdeal Cert.KernelIdeal.Gen

open Idealize.ShloMosaic
open Idealize.ShloMosaic.SparseCore (S V T)
open Idealize.ShloMosaic.ValueIdx

variable {F : FTy → Type}

theorem nCh_wN (L : grid1.Coords) : (wN L = 31 ∧ nCh L = 87) ∨ (wN L < 31 ∧ nCh L = 98) := by
  have h0 : (L 0).val < 2 := (L 0).isLt
  have h1 : (L 1).val < 16 := (L 1).isLt
  unfold nCh wN
  split <;> omega
theorem wid_val (L : grid1.Coords) : (wid (cL L) (sL L)).val = wN L := rfl

theorem mem_rowsOf (L : grid1.Coords) (p : ℕ → Prop) [DecidablePred p] (j : S25000x128.Idx) :
    j ∈ rowsOf L p ↔ 784 * wN L ≤ (j 0).val ∧ p (((j 0).val - 784 * wN L) / 8) := by
  unfold rowsOf
  rw [Finset.mem_filter]
  exact and_iff_right (Finset.mem_univ _)
theorem mem_outSet (w : Fin 32) (j : S25000x128.Idx) :
    j ∈ outSet w ↔ 784 * w.val ≤ (j 0).val ∧ (j 0).val < 784 * (w.val + 1) := by
  unfold outSet
  rw [Finset.mem_filter]
  exact and_iff_right (Finset.mem_univ _)

-- A tile's rows are its chunks of eight rows (98 of them, 87 for the last tile), sorted by chunk number mod 4.
theorem out_start (L : grid1.Coords) :
    outSet (wid (cL L) (sL L)) = futSet L 0 0 ∪ (futSet L 1 0 ∪ (futSet L 2 0 ∪ futSet L 3 0)) := by
  ext j
  have hj : (j 0).val < 25000 := (j 0).isLt
  simp only [futSet, Finset.mem_union, mem_rowsOf, mem_outSet, wid_val]
  rcases nCh_wN L with ⟨hw, hn⟩ | ⟨hw, hn⟩ <;> omega
theorem fut_disj (L : grid1.Coords) {b b' : ℕ} (h : b ≠ b') (a a' : ℕ) : Disjoint (futSet L b a) (futSet L b' a') := by
  rw [Finset.disjoint_left]
  intro j
  simp only [futSet, mem_rowsOf]
  omega
theorem out_end (L : grid1.Coords) :
    landSet L 0 (Nb L 0) ∪ (landSet L 1 (Nb L 1) ∪ (landSet L 2 (Nb L 2) ∪ landSet L 3 (Nb L 3))) = outSet (wid (cL L) (sL L)) := by
  ext j
  have hj : (j 0).val < 25000 := (j 0).isLt
  simp only [landSet, Finset.mem_union, mem_rowsOf, mem_outSet, wid_val]
  unfold Nb
  rcases nCh_wN L with ⟨hw, hn⟩ | ⟨hw, hn⟩ <;> omega
theorem land_disj' (L : grid1.Coords) {b b' : ℕ} (h : b ≠ b') (a a' : ℕ) : Disjoint (landSet L b a) (landSet L b' a') := by
  rw [Finset.disjoint_left]
  intro j
  simp only [landSet, mem_rowsOf]
  omega
theorem land_zero (L : grid1.Coords) (b : ℕ) : landSet L b 0 = ∅ := by
  refine Finset.eq_empty_of_forall_notMem fun j => ?_
  simp only [landSet, mem_rowsOf]
  omega

theorem set_oslice_of (L : grid1.Coords) (g r : ℕ) (hr : r = 784 * wN L + 8 * g) {off : Fin 2 → ℕ} (hoff : off = ![r, 0])
    (h : ∀ a, off a + S8x128.size a ≤ S25000x128.size a) :
    (oV.slice (Rect.unit (s := S25000x128) off S8x128.size h) (fun _ => rfl)).view.set = chunkSet L g := by
  subst hoff
  have e : (oV.slice (Rect.unit (s := S25000x128) ![r, 0] S8x128.size h) (fun _ => rfl)).view.set
      = (Rect.unit (s := S25000x128) ![r, 0] S8x128.size h).set := View.set_slice_whole main_v4_scv _
  rw [e]
  ext j
  have h1 : (j 1).val < 128 := (j 1).isLt
  rw [Rect.mem_set_unit, Fin.forall_fin_two, chunkSet, mem_rowsOf]
  show (r ≤ (j 0).val ∧ (j 0).val < r + 8) ∧ (0 ≤ (j 1).val ∧ (j 1).val < 0 + 128) ↔ _
  omega

theorem set_oslice0 (L : grid1.Coords) (t : Fin (k1_t1_loop L).trips) (h : ∀ a, (k1_off22 L t) a + S8x128.size a ≤ S25000x128.size a) :
    (oV.slice (Rect.unit (s := S25000x128) (k1_off22 L t) S8x128.size h) (fun _ => rfl)).view.set = chunkSet L (4 * t.val + 0) :=
  set_oslice_of L (4 * t.val + 0) _ (by unfold wN; omega) (k1_off22_eq L t) h
theorem set_oslice1 (L : grid1.Coords) (t : Fin (k1_t1_loop L).trips) (h : ∀ a, (k1_off40 L t) a + S8x128.size a ≤ S25000x128.size a) :
    (oV.slice (Rect.unit (s := S25000x128) (k1_off40 L t) S8x128.size h) (fun _ => rfl)).view.set = chunkSet L (4 * t.val + 1) :=
  set_oslice_of L (4 * t.val + 1) _ (by unfold wN; omega) (k1_off40_eq L t) h
theorem set_oslice2 (L : grid1.Coords) (t : Fin (k1_t1_loop L).trips) (h : ∀ a, (k1_off58 L t) a + S8x128.size a ≤ S25000x128.size a) :
    (oV.slice (Rect.unit (s := S25000x128) (k1_off58 L t) S8x128.size h) (fun _ => rfl)).view.set = chunkSet L (4 * t.val + 2) :=
  set_oslice_of L (4 * t.val + 2) _ (by unfold wN; omega) (k1_off58_eq L t) h
theorem set_oslice3 (L : grid1.Coords) (t : Fin (k1_t1_loop L).trips) (h : ∀ a, (k1_off76 L t) a + S8x128.size a ≤ S25000x128.size a) :
    (oV.slice (Rect.unit (s := S25000x128) (k1_off76 L t) S8x128.size h) (fun _ => rfl)).view.set = chunkSet L (4 * t.val + 3) :=
  set_oslice_of L (4 * t.val + 3) _ (by unfold wN; omega) (k1_off76_eq L t) h

theorem off2_eq (L : grid1.Coords) : k1_off2 L = ![loff L + 128 * 0] :=
  (by decide +kernel : ∀ L : grid1.Coords, k1_off2 L = ![loff L + 128 * 0]) L
theorem off3_eq (L : grid1.Coords) : k1_off3 L = ![loff L + 128 * 1] :=
  (by decide +kernel : ∀ L : grid1.Coords, k1_off3 L = ![loff L + 128 * 1]) L
theorem off4_eq (L : grid1.Coords) : k1_off4 L = ![loff L + 128 * 2] :=
  (by decide +kernel : ∀ L : grid1.Coords, k1_off4 L = ![loff L + 128 * 2]) L
theorem off5_eq (L : grid1.Coords) : k1_off5 L = ![loff L + 128 * 3] :=
  (by decide +kernel : ∀ L : grid1.Coords, k1_off5 L = ![loff L + 128 * 3]) L
theorem off23_eq (L : grid1.Coords) (t : Fin (k1_t1_loop L).trips) (h5 : k1_cond5 L t = 1#1) (h7 : k1_cond7 L t = 1#1) :
    k1_off23 L t = ![loff L + 128 * (4 * t.val + 0 + 4)] :=
  (by decide +kernel : ∀ (L : grid1.Coords) (t : Fin (k1_t1_loop L).trips), k1_off23 L t = ![loff L + 128 * (4 * t.val + 0 + 4)]) L t
theorem off41_eq (L : grid1.Coords) (t : Fin (k1_t1_loop L).trips) (h8 : k1_cond8 L t = 1#1) (h10 : k1_cond10 L t = 1#1) :
    k1_off41 L t = ![loff L + 128 * (4 * t.val + 1 + 4)] :=
  (by decide +kernel : ∀ (L : grid1.Coords) (t : Fin (k1_t1_loop L).trips), k1_off41 L t = ![loff L + 128 * (4 * t.val + 1 + 4)]) L t
theorem off59_eq (L : grid1.Coords) (t : Fin (k1_t1_loop L).trips) (h11 : k1_cond11 L t = 1#1) (h13 : k1_cond13 L t = 1#1) :
    k1_off59 L t = ![loff L + 128 * (4 * t.val + 2 + 4)] :=
  (by decide +kernel : ∀ (L : grid1.Coords) (t : Fin (k1_t1_loop L).trips), k1_off59 L t = ![loff L + 128 * (4 * t.val + 2 + 4)]) L t
theorem off77_eq (L : grid1.Coords) (t : Fin (k1_t1_loop L).trips) (h14 : k1_cond14 L t = 1#1) (h16 : k1_cond16 L t = 1#1) :
    k1_off77 L t = ![loff L + 128 * (4 * t.val + 3 + 4)] :=
  (by decide +kernel : ∀ (L : grid1.Coords) (t : Fin (k1_t1_loop L).trips), k1_off77 L t = ![loff L + 128 * (4 * t.val + 3 + 4)]) L t

end Cert.Proof.KI

end
-- ==== Proof.KI.TileWrite.lean ====
import proofs.«205778_g32538672235162_cont_8to1_b_712_45_alg».proof.Proof.KI.TileVals
import proofs.«205778_g32538672235162_cont_8to1_b_712_45_alg».proof.Proof.KI.TileSets

noncomputable section

namespace Cert.Proof.KI

open Cert.KernelIdeal Cert.KernelIdeal.Gen

open Idealize.ShloMosaic
open Idealize.ShloMosaic.SparseCore (S V T)
open Idealize.ShloMosaic.ValueIdx

variable {F : FTy → Type}

variable [FloatOps F]

variable (m : (ℓ : Loc nD τ sig) → Buf (Elt F) ℓ) (d : Dev nD) (L : grid1.Coords)

theorem write_val_of (hpre : PreOK m) (g r : ℕ) (hg : g < nCh L) (hr : r = 784 * wN L + 8 * g) {off : Fin 2 → ℕ} (hoff : off = ![r, 0])
    (h : ∀ a, off a + S8x128.size a ≤ S25000x128.size a) (fd : Buf (Elt F) ((oV).view.loc (tV d L)))
    (j : Idx ((oV).view.loc (tV d L))) (hj : j ∈ (oV.slice (Rect.unit (s := S25000x128) off S8x128.size h) (fun _ => rfl)).view.set) :
    (oV.slice (Rect.unit (s := S25000x128) off S8x128.size h) (fun _ => rfl)).view.write (Elt F) fd (maxBlk (Rg m d L g)) Finset.univ j
      = Out m d j := by
  have hc : j ∈ chunkSet L g := by rw [← set_oslice_of L g r hr hoff h]; exact hj
  subst hoff
  obtain ⟨x, -, rfl⟩ := Finset.mem_map.mp hj
  have hw := View.write_emb_of_mem (v := (oV.slice (Rect.unit (s := S25000x128) ![r, 0] S8x128.size h) (fun _ => rfl)).view)
    (Val := Elt F) fd (maxBlk (Rg m d L g)) (Finset.mem_univ x)
  refine (hw.trans (cast_eq _ _)).trans ?_
  obtain ⟨p, q, rfl⟩ : ∃ (p : Fin 8) (q : Fin 128), x = ix2 p q := ⟨x 0, x 1, eq_ix2 x⟩
  refine Eq.trans (congrArg (maxBlk (Rg m d L g)) ?_) (chunk_val m d L hpre g hg _ hc)
  refine congrArg₂ (fun (a : Fin 8) (b : Fin 128) => ix2 a b) (Fin.ext ?_) (Fin.ext ?_)
  · show p.val = (r + 1 * p.val - 784 * wN L) % 8
    have := p.isLt
    omega
  · show q.val = 0 + 1 * q.val
    omega

theorem write_val0 (hpre : PreOK m) (t : Fin (k1_t1_loop L).trips) (h : ∀ a, (k1_off22 L t) a + S8x128.size a ≤ S25000x128.size a)
    (hg : 4 * t.val + 0 < nCh L) (fd : Buf (Elt F) ((oV).view.loc (tV d L)))
    (j : Idx ((oV).view.loc (tV d L))) (hj : j ∈ (oV.slice (Rect.unit (s := S25000x128) (k1_off22 L t) S8x128.size h) (fun _ => rfl)).view.set) :
    (oV.slice (Rect.unit (s := S25000x128) (k1_off22 L t) S8x128.size h) (fun _ => rfl)).view.write (Elt F) fd
        (ReadAs.same.apply ((bV0).view.read (Elt F) (maxBlk (Rg m d L (4 * t.val + 0))))) Finset.univ j
      = Out m d j :=
  write_val_of m d L hpre (4 * t.val + 0) _ hg (by unfold wN; omega) (k1_off22_eq L t) h fd j hj

theorem write_val1 (hpre : PreOK m) (t : Fin (k1_t1_loop L).trips) (h : ∀ a, (k1_off40 L t) a + S8x128.size a ≤ S25000x128.size a)
    (hg : 4 * t.val + 1 < nCh L) (fd : Buf (Elt F) ((oV).view.loc (tV d L)))
    (j : Idx ((oV).view.loc (tV d L))) (hj : j ∈ (oV.slice (Rect.unit (s := S25000x128) (k1_off40 L t) S8x128.size h) (fun _ => rfl)).view.set) :
    (oV.slice (Rect.unit (s := S25000x128) (k1_off40 L t) S8x128.size h) (fun _ => rfl)).view.write (Elt F) fd
        (ReadAs.same.apply ((bV1).view.read (Elt F) (maxBlk (Rg m d L (4 * t.val + 1))))) Finset.univ j
      = Out m d j :=
  write_val_of m d L hpre (4 * t.val + 1) _ hg (by unfold wN; omega) (k1_off40_eq L t) h fd j hj

theorem write_val2 (hpre : PreOK m) (t : Fin (k1_t1_loop L).trips) (h : ∀ a, (k1_off58 L t) a + S8x128.size a ≤ S25000x128.size a)
    (hg : 4 * t.val + 2 < nCh L) (fd : Buf (Elt F) ((oV).view.loc (tV d L)))
    (j : Idx ((oV).view.loc (tV d L))) (hj : j ∈ (oV.slice (Rect.unit (s := S25000x128) (k1_off58 L t) S8x128.size h) (fun _ => rfl)).view.set) :
    (oV.slice (Rect.unit (s := S25000x128) (k1_off58 L t) S8x128.size h) (fun _ => rfl)).view.write (Elt F) fd
        (ReadAs.same.apply ((bV2).view.read (Elt F) (maxBlk (Rg m d L (4 * t.val + 2))))) Finset.univ j
      = Out m d j :=
  write_val_of m d L hpre (4 * t.val + 2) _ hg (by unfold wN; omega) (k1_off58_eq L t) h fd j hj

theorem write_val3 (hpre : PreOK m) (t : Fin (k1_t1_loop L).trips) (h : ∀ a, (k1_off76 L t) a + S8x128.size a ≤ S25000x128.size a)
    (hg : 4 * t.val + 3 < nCh L) (fd : Buf (Elt F) ((oV).view.loc (tV d L)))
    (j : Idx ((oV).view.loc (tV d L))) (hj : j ∈ (oV.slice (Rect.unit (s := S25000x128) (k1_off76 L t) S8x128.size h) (fun _ => rfl)).view.set) :
    (oV.slice (Rect.unit (s := S25000x128) (k1_off76 L t) S8x128.size h) (fun _ => rfl)).view.write (Elt F) fd
        (ReadAs.same.apply ((bV3).view.read (Elt F) (maxBlk (Rg m d L (4 * t.val + 3))))) Finset.univ j
      = Out m d j :=
  write_val_of m d L hpre (4 * t.val + 3) _ hg (by unfold wN; omega) (k1_off76_eq L t) h fd j hj

end Cert.Proof.KI

end
-- ==== Proof.KI.TileGather.lean ====
import proofs.«205778_g32538672235162_cont_8to1_b_712_45_alg».proof.Proof.KI.TileVals

noncomputable section

namespace Cert.Proof.KI

open Cert.KernelIdeal Cert.KernelIdeal.Gen

open Idealize.ShloMosaic
open Idealize.ShloMosaic.SparseCore (S V T)
open Idealize.ShloMosaic.ValueIdx

variable {F : FTy → Type}

variable [FloatOps F]

variable (m : (ℓ : Loc nD τ sig) → Buf (Elt F) ℓ) (d : Dev nD) (L : grid1.Coords)

-- A write of a whole buffer through its whole rectangle leaves exactly what was written.
theorem writes_whole {sig : RefSig} {κ : Kind} (b : Ref sig κ) {Val : EltTy → Type} (f : b.ty.Contents Val)
    (w : (Rect.whole b.ty.shape).shape.Idx → Val b.ty.elt) :
    (View.whole b).writes Val f [⟨Rect.whole b.ty.shape, w⟩] = w := by
  funext j
  show ((View.whole b).slice (Rect.whole b.ty.shape)).write Val f w Finset.univ j = w j
  have e : ((View.whole b).slice (Rect.whole b.ty.shape)).emb j = j := Rect.emb_whole_apply _ j
  have hw := View.write_emb_of_mem (v := (View.whole b).slice (Rect.whole b.ty.shape)) (Val := Val) f w (Finset.mem_univ j)
  rw [e] at hw
  exact hw.trans (cast_eq _ _)

theorem gather_land0 (hpre : PreOK m) (g : ℕ) (hg : g < nCh L) (off : Fin 1 → ℕ) (hinb : ∀ a, off a + S128.size a ≤ S12544.size a)
    (hoff : off 0 = loff L + 128 * g)
    (hn : (Rect.unit (s := S12544) off S128.size hinb).shape.numel = S128x128.size gathers_S100000x128_S128x128.axis')
    (hin' : ∀ x, ((xV.slice (Rect.unit (s := S12544) off S128.size hinb) (fun _ => rfl)).view.read (Elt F) (Xw m d L) x).toNat
      < S100000x128.size gathers_S100000x128_S128x128.axis)
    (f0 : Buf (Elt F) ((rV0).view.loc (tV d L))) :
    (rV0).view.writes (Elt F) f0 [⟨Rect.whole S128x128, SparseCore.gatherPayload gathers_S100000x128_S128x128
        ((yV.slice (Rect.unit (s := S100000x128) ![0, 0] S100000x128.size inb_S100000x128_S100000x128_0_0) (fun _ => rfl)).view.read (Elt F) (Ytc m d))
        (SparseCore.rows ((xV.slice (Rect.unit (s := S12544) off S128.size hinb) (fun _ => rfl)).view.read (Elt F) (Xw m d L)) hn hin')⟩]
      = Rg m d L g :=
  (writes_whole cc1_scratch1 f0 _).trans (gather_val m d L hpre g hg off hinb hoff hn hin')

theorem gather_land1 (hpre : PreOK m) (g : ℕ) (hg : g < nCh L) (off : Fin 1 → ℕ) (hinb : ∀ a, off a + S128.size a ≤ S12544.size a)
    (hoff : off 0 = loff L + 128 * g)
    (hn : (Rect.unit (s := S12544) off S128.size hinb).shape.numel = S128x128.size gathers_S100000x128_S128x128.axis')
    (hin' : ∀ x, ((xV.slice (Rect.unit (s := S12544) off S128.size hinb) (fun _ => rfl)).view.read (Elt F) (Xw m d L) x).toNat
      < S100000x128.size gathers_S100000x128_S128x128.axis)
    (f0 : Buf (Elt F) ((rV1).view.loc (tV d L))) :
    (rV1).view.writes (Elt F) f0 [⟨Rect.whole S128x128, SparseCore.gatherPayload gathers_S100000x128_S128x128
        ((yV.slice (Rect.unit (s := S100000x128) ![0, 0] S100000x128.size inb_S100000x128_S100000x128_0_0) (fun _ => rfl)).view.read (Elt F) (Ytc m d))
        (SparseCore.rows ((xV.slice (Rect.unit (s := S12544) off S128.size hinb) (fun _ => rfl)).view.read (Elt F) (Xw m d L)) hn hin')⟩]
      = Rg m d L g :=
  (writes_whole cc1_scratch2 f0 _).trans (gather_val m d L hpre g hg off hinb hoff hn hin')

theorem gather_land2 (hpre : PreOK m) (g : ℕ) (hg : g < nCh L) (off : Fin 1 → ℕ) (hinb : ∀ a, off a + S128.size a ≤ S12544.size a)
    (hoff : off 0 = loff L + 128 * g)
    (hn : (Rect.unit (s := S12544) off S128.size hinb).shape.numel = S128x128.size gathers_S100000x128_S128x128.axis')
    (hin' : ∀ x, ((xV.slice (Rect.unit (s := S12544) off S128.size hinb) (fun _ => rfl)).view.read (Elt F) (Xw m d L) x).toNat
      < S100000x128.size gathers_S100000x128_S128x128.axis)
    (f0 : Buf (Elt F) ((rV2).view.loc (tV d L))) :
    (rV2).view.writes (Elt F) f0 [⟨Rect.whole S128x128, SparseCore.gatherPayload gathers_S100000x128_S128x128
        ((yV.slice (Rect.unit (s := S100000x128) ![0, 0] S100000x128.size inb_S100000x128_S100000x128_0_0) (fun _ => rfl)).view.read (Elt F) (Ytc m d))
        (SparseCore.rows ((xV.slice (Rect.unit (s := S12544) off S128.size hinb) (fun _ => rfl)).view.read (Elt F) (Xw m d L)) hn hin')⟩]
      = Rg m d L g :=
  (writes_whole cc1_scratch3 f0 _).trans (gather_val m d L hpre g hg off hinb hoff hn hin')

theorem gather_land3 (hpre : PreOK m) (g : ℕ) (hg : g < nCh L) (off : Fin 1 → ℕ) (hinb : ∀ a, off a + S128.size a ≤ S12544.size a)
    (hoff : off 0 = loff L + 128 * g)
    (hn : (Rect.unit (s := S12544) off S128.size hinb).shape.numel = S128x128.size gathers_S100000x128_S128x128.axis')
    (hin' : ∀ x, ((xV.slice (Rect.unit (s := S12544) off S128.size hinb) (fun _ => rfl)).view.read (Elt F) (Xw m d L) x).toNat
      < S100000x128.size gathers_S100000x128_S128x128.axis)
    (f0 : Buf (Elt F) ((rV3).view.loc (tV d L))) :
    (rV3).view.writes (Elt F) f0 [⟨Rect.whole S128x128, SparseCore.gatherPayload gathers_S100000x128_S128x128
        ((yV.slice (Rect.unit (s := S100000x128) ![0, 0] S100000x128.size inb_S100000x128_S100000x128_0_0) (fun _ => rfl)).view.read (Elt F) (Ytc m d))
        (SparseCore.rows ((xV.slice (Rect.unit (s := S12544) off S128.size hinb) (fun _ => rfl)).view.read (Elt F) (Xw m d L)) hn hin')⟩]
      = Rg m d L g :=
  (writes_whole cc1_scratch4 f0 _).trans (gather_val m d L hpre g hg off hinb hoff hn hin')

end Cert.Proof.KI

end
-- ==== Proof.KI.TileBody.lean ====
import proofs.«205778_g32538672235162_cont_8to1_b_712_45_alg».proof.Proof.KI.TileInv
import proofs.«205778_g32538672235162_cont_8to1_b_712_45_alg».proof.Proof.KI.TileSets
import proofs.«205778_g32538672235162_cont_8to1_b_712_45_alg».proof.Proof.KI.TileWrite
import proofs.«205778_g32538672235162_cont_8to1_b_712_45_alg».proof.Proof.KI.TileGather

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

variable [FloatOps F]

variable (m : (ℓ : Loc nD τ sig) → Buf (Elt F) ℓ) (d : Dev nD) (L : grid1.Coords)

theorem slot0_pp {k' : ℕ} (h1 : k' < Nb L 0) (h2 : k' ≠ 0) :
    (iprop(iprop(∃ D, Transfers.Flight countersEmb (tV d L) (.dma cc1_scratch9.sem) default 524288 D
            ∗ (D -∗ iprop(((rV0).view.loc (tV d L) ↦{fullShare} Rg m d L (4 * k' + 0)) ∗ ((xV).view.loc (tV d L) ↦{qx0} Xw m d L) ∗ ((yV).view.loc (tV d L) ↦{(qy0 L)} Ytc m d))))
      ∗ iprop(∃ D, Transfers.Flight countersEmb (tV d L) (.dma cc1_scratch13.sem) default WN D
            ∗ (D -∗ iprop((∃ f, (bV0).view.loc (tV d L) ↦{fullShare} f) ∗ ((oV).view.loc (tV d L) ↦[chunkSet L (4 * (k' - 1) + 0)]{fullShare} Out m d))))
      ∗ ((oV).view.loc (tV d L) ↦[futSet L 0 (k')]{fullShare} m (oLoc d)) ∗ ((oV).view.loc (tV d L) ↦[landSet L 0 (k' - 1)]{fullShare} Out m d)) : sProp 𝕄) ⊢ Slot0 m d L k' := by
  unfold Slot0; rw [if_pos h1, Nat.min_eq_left (Nat.le_of_lt h1), if_neg h2]
theorem slot0_ip {k' : ℕ} (h1 : ¬ k' < Nb L 0) (h2 : Nb L 0 ≠ 0) :
    (iprop(iprop(((∃ R, (rV0).view.loc (tV d L) ↦{fullShare} R) ∗ ((xV).view.loc (tV d L) ↦{qx0} Xw m d L) ∗ ((yV).view.loc (tV d L) ↦{(qy0 L)} Ytc m d))
            ∗ semVal (tV d L, .dma cc1_scratch9.sem) 0)
      ∗ iprop(∃ D, Transfers.Flight countersEmb (tV d L) (.dma cc1_scratch13.sem) default WN D
            ∗ (D -∗ iprop((∃ f, (bV0).view.loc (tV d L) ↦{fullShare} f) ∗ ((oV).view.loc (tV d L) ↦[chunkSet L (4 * (Nb L 0 - 1) + 0)]{fullShare} Out m d))))
      ∗ ((oV).view.loc (tV d L) ↦[futSet L 0 (Nb L 0)]{fullShare} m (oLoc d)) ∗ ((oV).view.loc (tV d L) ↦[landSet L 0 (Nb L 0 - 1)]{fullShare} Out m d)) : sProp 𝕄) ⊢ Slot0 m d L k' := by
  unfold Slot0; rw [if_neg h1, Nat.min_eq_right (Nat.le_of_not_lt h1), if_neg h2]
theorem slot0_stay {k' : ℕ} (h1 : ¬ k' < Nb L 0) : (Slot0 m d L k' : sProp 𝕄) ⊢ Slot0 m d L (k' + 1) := by
  have h1' : ¬ k' + 1 < Nb L 0 := by omega
  unfold Slot0; rw [if_neg h1, if_neg h1', Nat.min_eq_right (Nat.le_of_not_lt h1), Nat.min_eq_right (Nat.le_of_not_lt h1')]

theorem slot1_pp {k' : ℕ} (h1 : k' < Nb L 1) (h2 : k' ≠ 0) :
    (iprop(iprop(∃ D, Transfers.Flight countersEmb (tV d L) (.dma cc1_scratch10.sem) default 524288 D
            ∗ (D -∗ iprop(((rV1).view.loc (tV d L) ↦{fullShare} Rg m d L (4 * k' + 1)) ∗ ((xV).view.loc (tV d L) ↦{qx1} Xw m d L) ∗ ((yV).view.loc (tV d L) ↦{(qy1 L)} Ytc m d))))
      ∗ iprop(∃ D, Transfers.Flight countersEmb (tV d L) (.dma cc1_scratch14.sem) default WN D
            ∗ (D -∗ iprop((∃ f, (bV1).view.loc (tV d L) ↦{fullShare} f) ∗ ((oV).view.loc (tV d L) ↦[chunkSet L (4 * (k' - 1) + 1)]{fullShare} Out m d))))
      ∗ ((oV).view.loc (tV d L) ↦[futSet L 1 (k')]{fullShare} m (oLoc d)) ∗ ((oV).view.loc (tV d L) ↦[landSet L 1 (k' - 1)]{fullShare} Out m d)) : sProp 𝕄) ⊢ Slot1 m d L k' := by
  unfold Slot1; rw [if_pos h1, Nat.min_eq_left (Nat.le_of_lt h1), if_neg h2]
theorem slot1_ip {k' : ℕ} (h1 : ¬ k' < Nb L 1) (h2 : Nb L 1 ≠ 0) :
    (iprop(iprop(((∃ R, (rV1).view.loc (tV d L) ↦{fullShare} R) ∗ ((xV).view.loc (tV d L) ↦{qx1} Xw m d L) ∗ ((yV).view.loc (tV d L) ↦{(qy1 L)} Ytc m d))
            ∗ semVal (tV d L, .dma cc1_scratch10.sem) 0)
      ∗ iprop(∃ D, Transfers.Flight countersEmb (tV d L) (.dma cc1_scratch14.sem) default WN D
            ∗ (D -∗ iprop((∃ f, (bV1).view.loc (tV d L) ↦{fullShare} f) ∗ ((oV).view.loc (tV d L) ↦[chunkSet L (4 * (Nb L 1 - 1) + 1)]{fullShare} Out m d))))
      ∗ ((oV).view.loc (tV d L) ↦[futSet L 1 (Nb L 1)]{fullShare} m (oLoc d)) ∗ ((oV).view.loc (tV d L) ↦[landSet L 1 (Nb L 1 - 1)]{fullShare} Out m d)) : sProp 𝕄) ⊢ Slot1 m d L k' := by
  unfold Slot1; rw [if_neg h1, Nat.min_eq_right (Nat.le_of_not_lt h1), if_neg h2]
theorem slot1_stay {k' : ℕ} (h1 : ¬ k' < Nb L 1) : (Slot1 m d L k' : sProp 𝕄) ⊢ Slot1 m d L (k' + 1) := by
  have h1' : ¬ k' + 1 < Nb L 1 := by omega
  unfold Slot1; rw [if_neg h1, if_neg h1', Nat.min_eq_right (Nat.le_of_not_lt h1), Nat.min_eq_right (Nat.le_of_not_lt h1')]

theorem slot2_pp {k' : ℕ} (h1 : k' < Nb L 2) (h2 : k' ≠ 0) :
    (iprop(iprop(∃ D, Transfers.Flight countersEmb (tV d L) (.dma cc1_scratch11.sem) default 524288 D
            ∗ (D -∗ iprop(((rV2).view.loc (tV d L) ↦{fullShare} Rg m d L (4 * k' + 2)) ∗ ((xV).view.loc (tV d L) ↦{qx2} Xw m d L) ∗ ((yV).view.loc (tV d L) ↦{(qy2 L)} Ytc m d))))
      ∗ iprop(∃ D, Transfers.Flight countersEmb (tV d L) (.dma cc1_scratch15.sem) default WN D
            ∗ (D -∗ iprop((∃ f, (bV2).view.loc (tV d L) ↦{fullShare} f) ∗ ((oV).view.loc (tV d L) ↦[chunkSet L (4 * (k' - 1) + 2)]{fullShare} Out m d))))
      ∗ ((oV).view.loc (tV d L) ↦[futSet L 2 (k')]{fullShare} m (oLoc d)) ∗ ((oV).view.loc (tV d L) ↦[landSet L 2 (k' - 1)]{fullShare} Out m d)) : sProp 𝕄) ⊢ Slot2 m d L k' := by
  unfold Slot2; rw [if_pos h1, Nat.min_eq_left (Nat.le_of_lt h1), if_neg h2]
theorem slot2_ip {k' : ℕ} (h1 : ¬ k' < Nb L 2) (h2 : Nb L 2 ≠ 0) :
    (iprop(iprop(((∃ R, (rV2).view.loc (tV d L) ↦{fullShare} R) ∗ ((xV).view.loc (tV d L) ↦{qx2} Xw m d L) ∗ ((yV).view.loc (tV d L) ↦{(qy2 L)} Ytc m d))
            ∗ semVal (tV d L, .dma cc1_scratch11.sem) 0)
      ∗ iprop(∃ D, Transfers.Flight countersEmb (tV d L) (.dma cc1_scratch15.sem) default WN D
            ∗ (D -∗ iprop((∃ f, (bV2).view.loc (tV d L) ↦{fullShare} f) ∗ ((oV).view.loc (tV d L) ↦[chunkSet L (4 * (Nb L 2 - 1) + 2)]{fullShare} Out m d))))
      ∗ ((oV).view.loc (tV d L) ↦[futSet L 2 (Nb L 2)]{fullShare} m (oLoc d)) ∗ ((oV).view.loc (tV d L) ↦[landSet L 2 (Nb L 2 - 1)]{fullShare} Out m d)) : sProp 𝕄) ⊢ Slot2 m d L k' := by
  unfold Slot2; rw [if_neg h1, Nat.min_eq_right (Nat.le_of_not_lt h1), if_neg h2]
theorem slot2_stay {k' : ℕ} (h1 : ¬ k' < Nb L 2) : (Slot2 m d L k' : sProp 𝕄) ⊢ Slot2 m d L (k' + 1) := by
  have h1' : ¬ k' + 1 < Nb L 2 := by omega
  unfold Slot2; rw [if_neg h1, if_neg h1', Nat.min_eq_right (Nat.le_of_not_lt h1), Nat.min_eq_right (Nat.le_of_not_lt h1')]

theorem slot3_pp {k' : ℕ} (h1 : k' < Nb L 3) (h2 : k' ≠ 0) :
    (iprop(iprop(∃ D, Transfers.Flight countersEmb (tV d L) (.dma cc1_scratch12.sem) default 524288 D
            ∗ (D -∗ iprop(((rV3).view.loc (tV d L) ↦{fullShare} Rg m d L (4 * k' + 3)) ∗ ((xV).view.loc (tV d L) ↦{qx3} Xw m d L) ∗ ((yV).view.loc (tV d L) ↦{(qy3 L)} Ytc m d))))
      ∗ iprop(∃ D, Transfers.Flight countersEmb (tV d L) (.dma cc1_scratch16.sem) default WN D
            ∗ (D -∗ iprop((∃ f, (bV3).view.loc (tV d L) ↦{fullShare} f) ∗ ((oV).view.loc (tV d L) ↦[chunkSet L (4 * (k' - 1) + 3)]{fullShare} Out m d))))
      ∗ ((oV).view.loc (tV d L) ↦[futSet L 3 (k')]{fullShare} m (oLoc d)) ∗ ((oV).view.loc (tV d L) ↦[landSet L 3 (k' - 1)]{fullShare} Out m d)) : sProp 𝕄) ⊢ Slot3 m d L k' := by
  unfold Slot3; rw [if_pos h1, Nat.min_eq_left (Nat.le_of_lt h1), if_neg h2]
theorem slot3_ip {k' : ℕ} (h1 : ¬ k' < Nb L 3) (h2 : Nb L 3 ≠ 0) :
    (iprop(iprop(((∃ R, (rV3).view.loc (tV d L) ↦{fullShare} R) ∗ ((xV).view.loc (tV d L) ↦{qx3} Xw m d L) ∗ ((yV).view.loc (tV d L) ↦{(qy3 L)} Ytc m d))
            ∗ semVal (tV d L, .dma cc1_scratch12.sem) 0)
      ∗ iprop(∃ D, Transfers.Flight countersEmb (tV d L) (.dma cc1_scratch16.sem) default WN D
            ∗ (D -∗ iprop((∃ f, (bV3).view.loc (tV d L) ↦{fullShare} f) ∗ ((oV).view.loc (tV d L) ↦[chunkSet L (4 * (Nb L 3 - 1) + 3)]{fullShare} Out m d))))
      ∗ ((oV).view.loc (tV d L) ↦[futSet L 3 (Nb L 3)]{fullShare} m (oLoc d)) ∗ ((oV).view.loc (tV d L) ↦[landSet L 3 (Nb L 3 - 1)]{fullShare} Out m d)) : sProp 𝕄) ⊢ Slot3 m d L k' := by
  unfold Slot3; rw [if_neg h1, Nat.min_eq_right (Nat.le_of_not_lt h1), if_neg h2]
theorem slot3_stay {k' : ℕ} (h1 : ¬ k' < Nb L 3) : (Slot3 m d L k' : sProp 𝕄) ⊢ Slot3 m d L (k' + 1) := by
  have h1' : ¬ k' + 1 < Nb L 3 := by omega
  unfold Slot3; rw [if_neg h1, if_neg h1', Nat.min_eq_right (Nat.le_of_not_lt h1), Nat.min_eq_right (Nat.le_of_not_lt h1')]

theorem ow_intro (O : CellTallies nD τ sig (HIx 1)) (W : Waits sig (HIx 1)) :
    (iprop(Transfers.MayWaits (tV d L) (default : HIx 1) O ∗ ∃ W', ⌜∀ p ∈ W', p ∈ W ∨ p.2 = none⌝ ∗ owes (tV d L) O W') : sProp 𝕄)
      ⊢ OW (F := F) d L O W := by
  unfold OW; exact .rfl

set_option maxHeartbeats 400000000 in
theorem trip_ok (hpre : PreOK m) (O : CellTallies nD τ sig (HIx 1)) (W : Waits sig (HIx 1))
    (v1 v21 v26 : BitVec 32) (v31 : BitVec 1) (k : Fin (k1_t1_loop L).trips) (acc : Unit) :
    (iprop(Slot0 m d L k.val ∗ Slot1 m d L k.val ∗ Slot2 m d L k.val ∗ Slot3 m d L k.val ∗ OW (F := F) d L O W) : sProp 𝕄)
      ⊢ wp frame (wpE (defs₀ (F := F)) 𝒱₀ (tV d L) none) Set.univ
          (k1_t1_body L yV (Memref.isWhole_whole _) iV (Memref.isWhole_whole _) oV (Memref.isWhole_whole _) xV (Memref.isWhole_whole _)
            rV0 (Memref.isWhole_whole _) rV1 (Memref.isWhole_whole _) rV2 (Memref.isWhole_whole _) rV3 (Memref.isWhole_whole _)
            bV0 (Memref.isWhole_whole _) bV1 (Memref.isWhole_whole _) bV2 (Memref.isWhole_whole _) bV3 (Memref.isWhole_whole _)
            cc1_scratch9 cc1_scratch10 cc1_scratch11 cc1_scratch12 cc1_scratch13 cc1_scratch14 cc1_scratch15 cc1_scratch16 cc1_scoped0 v1 v21 v26 v31 k acc)
          fun _ => iprop(Slot0 m d L (k.val + 1) ∗ Slot1 m d L (k.val + 1) ∗ Slot2 m d L (k.val + 1) ∗ Slot3 m d L (k.val + 1) ∗ OW (F := F) d L O W) := by
  have hin := hin_of_pre m d L hpre
  unfold k1_t1_body
  refine wp_dite_else _ _ _ (Mid := iprop(Slot0 m d L (k.val + 1) ∗ Slot1 m d L k.val ∗ Slot2 m d L k.val ∗ Slot3 m d L k.val ∗ OW (F := F) d L O W)) ?_ ?_ ?_
  · intro h5 hK
    have hN := nCh_cases L
    have hact : k.val < Nb L 0 := by have := (cond5_iff L k).mp h5; unfold Nb; omega
    have hlt : 4 * k.val + 0 < nCh L := (cond5_iff L k).mp h5
    unfold Slot0 OW
    rw [if_pos hact, Nat.min_eq_left (Nat.le_of_lt hact)]
    by_cases hk0 : k.val = 0
    · rw [if_pos hk0]
      have hv97 : ¬ (Scalar.cmpi .ne (Scalar.extui (Scalar.cmpi .sge (Scalar.addi (Scalar.muli (Scf.iv 0#32 1#32 k.val) 4#32) 0#32) 4#32)) 0#32 = 1#1) :=
        fun h => by have := (sge0_iff L k).mp h; omega
      iintro ⟨⟨⟨%D, HFl, HDw⟩, ⟨⟨%fb, Hb⟩, Hw⟩, Hfut, Hland⟩, HS1, HS2, HS3, ⟨#Hmw, %W', %hW', HO⟩⟩
      sl_exec
      ihave Hmw1 := (Transfers.MayWaits.elim (SemLoc.dma cc1_scratch9.sem)) $$ Hmw
      iapply (Transfers.wp_waitLocalO countersEmb 𝒱₀ (tV d L) none (default : HIx 1) rfl) $$ [HFl HO Hmw1]
      · isplitl [HFl]; · iexact HFl
        isplitl [HO]; · iexact HO
        iexact Hmw1
      iintro ⟨HD, Hg, HO⟩
      ihave HG := HDw $$ HD
      icases HG with ⟨Hr, Hx, Hy⟩
      sl_exec
      ihave Hland := (Entails.of_eq (congrArg (fun a => ((oV).view.loc (tV d L) ↦[landSet L 0 a]{fullShare} Out m d : sProp 𝕄)) (by omega : k.val - 1 = k.val))) $$ Hland
      first
      | (iapply (wp_use_bind _ _ _ (inner0 d L _ _ _ _ k h5 _ _)) $$ [Hr Hb])
      | (iapply (wp_use _ _ _ (inner0 d L _ _ _ _ k h5 _ _)) $$ [Hr Hb])
      · isplitl [Hr]; · iexact Hr
        iexact Hb
      iintro %a ⟨Hr, Hb⟩
      ihave Hfut := (pointsTo_split_subset (ℓ := (oV).view.loc (tV d L)) (chunk_sub_fut L (b := 0) (a := k.val) (by omega) hlt)).1 $$ Hfut
      icases Hfut with ⟨Hch, Hfut⟩
      ihave Hfut := (Entails.of_eq (congrArg (fun S => ((oV).view.loc (tV d L) ↦[S]{fullShare} m (oLoc d) : sProp 𝕄)) (fut_sdiff L (b := 0) (a := k.val) (by omega)))) $$ Hfut
      ihave Hch := (Entails.of_eq (congrArg (fun S => ((oV).view.loc (tV d L) ↦[S]{fullShare} m (oLoc d) : sProp 𝕄)) (set_oslice0 L k (k1_off22_inb L k h5)).symm)) $$ Hch
      sl_exec
      ihave Hb := (Entails.of_eq (show ((bV0).view.loc (tV d L) ↦{fullShare} maxBlk (Rg m d L (4 * k.val + 0)) : sProp 𝕄)
          = ((bV0).view.loc (tV d L) ↦[(bV0).view.set]{fullShare} maxBlk (Rg m d L (4 * k.val + 0))) from by
            rw [Memref.IsWhole.set_eq_univ (Memref.isWhole_whole _)])) $$ Hb
      iapply (Transfers.wp_dmaLocal countersEmb 𝒱₀ (tV d L) none (default : HIx 1) WN rfl (by decide) (Finset.Subset.refl _)) $$ [Hb Hch Hw]
      · isplitl [Hb]; · iexact Hb
        isplitl [Hch]; · iexact Hch
        iexact Hw
      iintro HflW
      by_cases hre : 4 * k.val + 0 + 4 < nCh L
      · have hc2 := (cond7_iff L k).mpr hre
        have h1' : k.val + 1 < Nb L 0 := by unfold Nb; omega
        have hoff : k1_off23 L k 0 = loff L + 128 * (4 * (k.val + 1) + 0) := by
          rw [off23_eq L k h5 hc2]; show loff L + 128 * (4 * k.val + 0 + 4) = _; omega
        have hfutE : k.val + 1 = k.val + 1 := rfl
        have hlandE : k.val = k.val + 1 - 1 := by omega
        have hsetW : (oV.slice (Rect.unit (s := S25000x128) (k1_off22 L k) S8x128.size (k1_off22_inb L k h5)) (fun _ => rfl)).view.set = chunkSet L (4 * (k.val + 1 - 1) + 0) := by
          rw [set_oslice0 L k _]; congr 1
        sl_exec
        have hR : (rV0).view.writes (Elt F) (Rg m d L (4 * k.val + 0)) [⟨Rect.whole S128x128, trip_ok.sl.gather0 m d L k hin h5 hc2⟩] = Rg m d L (4 * (k.val + 1) + 0) := by
          unfold trip_ok.sl.gather0
          exact gather_land0 m d L hpre (4 * (k.val + 1) + 0) (by omega) _ _ hoff _ _ _
        iapply hK
        isplitr [HS1 HS2 HS3 HO]
        · iapply (slot0_pp m d L (k' := k.val + 1) h1' (by omega))
          isplitl [Hg Hy Hr Hx]
          · iexists _
            isplitl [Hg]; · iexact Hg
            iintro ⟨⟨Hrs, Hxs⟩, Hys⟩
            ihave Hys := (pointsTo_split_subset (ℓ := (yV).view.loc (tV d L)) (Finset.subset_univ _)).2 $$ [Hys Hy]
            · isplitl [Hys]; · iexact Hys
              iexact Hy
            ihave Hxs := (pointsTo_split_subset (ℓ := (xV).view.loc (tV d L)) (Finset.subset_univ _)).2 $$ [Hxs Hx]
            · isplitl [Hxs]; · iexact Hxs
              iexact Hx
            ihave Hrs := (pointsTo_split_subset (ℓ := (rV0).view.loc (tV d L)) (Finset.subset_univ _)).2 $$ [Hrs Hr]
            · isplitl [Hrs]; · iexact Hrs
              iexact Hr
            ihave Hrs := (Entails.of_eq (congrArg (fun f => ((rV0).view.loc (tV d L) ↦{fullShare} f : sProp 𝕄)) hR)) $$ Hrs
            isplitl [Hrs]; · iexact Hrs
            isplitl [Hxs]; · iexact Hxs
            iexact Hys
          isplitl [HflW]
          · iexists _
            isplitl [HflW]; · iexact HflW
            iintro ⟨Hch, Hb⟩
            isplitl [Hb]
            · iexists _
              iapply (Entails.of_eq (show ((bV0).view.loc (tV d L) ↦[(bV0).view.set]{fullShare} maxBlk (Rg m d L (4 * k.val + 0)) : sProp 𝕄)
                = ((bV0).view.loc (tV d L) ↦{fullShare} maxBlk (Rg m d L (4 * k.val + 0))) from by
                  rw [Memref.IsWhole.set_eq_univ (Memref.isWhole_whole _)])) $$ Hb
            · iapply (Entails.of_eq ((pointsTo_congr (ℓ := (oV).view.loc (tV d L)) (fun j hj => write_val0 m d L hpre k (k1_off22_inb L k h5) hlt (m (oLoc d)) j hj)).trans
                (congrArg (fun S => ((oV).view.loc (tV d L) ↦[S]{fullShare} Out m d : sProp 𝕄)) hsetW))) $$ Hch
          isplitl [Hfut]
          · iapply (Entails.of_eq (congrArg (fun a => ((oV).view.loc (tV d L) ↦[futSet L 0 a]{fullShare} m (oLoc d) : sProp 𝕄)) hfutE)) $$ Hfut
          iapply (Entails.of_eq (congrArg (fun a => ((oV).view.loc (tV d L) ↦[landSet L 0 a]{fullShare} Out m d : sProp 𝕄)) hlandE)) $$ Hland
        isplitl [HS1]; · iexact HS1
        isplitl [HS2]; · iexact HS2
        isplitl [HS3]; · iexact HS3
        iapply (ow_intro d L O W)
        isplitr; · iexact Hmw
        iexists (insert (SemLoc.dma cc1_scratch9.sem, (default : HIx 1)) W')
        isplitr
        · ipureintro; intro p hp
          rcases Finset.mem_insert.mp hp with rfl | hp
          · exact Or.inr rfl
          · exact hW' p hp
        · iexact HO
      · have hc2 : ¬ (k1_cond7 L k = 1#1) := fun h => hre ((cond7_iff L k).mp h)
        have hNb : Nb L 0 = k.val + 1 := by unfold Nb at hact ⊢; omega
        have h1' : ¬ k.val + 1 < Nb L 0 := by omega
        have hfutE : k.val + 1 = Nb L 0 := hNb.symm
        have hlandE : k.val = Nb L 0 - 1 := by omega
        have hsetW : (oV.slice (Rect.unit (s := S25000x128) (k1_off22 L k) S8x128.size (k1_off22_inb L k h5)) (fun _ => rfl)).view.set = chunkSet L (4 * (Nb L 0 - 1) + 0) := by
          rw [set_oslice0 L k _, hNb]; congr 1
        sl_exec
        iapply hK
        isplitr [HS1 HS2 HS3 HO]
        · iapply (slot0_ip m d L (k' := k.val + 1) h1' (by omega))
          isplitl [Hg Hy Hr Hx]
          · isplitr [Hg]
            · isplitl [Hr]; · (iexists _; iexact Hr)
              isplitl [Hx]; · iexact Hx
              iexact Hy
            · iexact Hg
          isplitl [HflW]
          · iexists _
            isplitl [HflW]; · iexact HflW
            iintro ⟨Hch, Hb⟩
            isplitl [Hb]
            · iexists _
              iapply (Entails.of_eq (show ((bV0).view.loc (tV d L) ↦[(bV0).view.set]{fullShare} maxBlk (Rg m d L (4 * k.val + 0)) : sProp 𝕄)
                = ((bV0).view.loc (tV d L) ↦{fullShare} maxBlk (Rg m d L (4 * k.val + 0))) from by
                  rw [Memref.IsWhole.set_eq_univ (Memref.isWhole_whole _)])) $$ Hb
            · iapply (Entails.of_eq ((pointsTo_congr (ℓ := (oV).view.loc (tV d L)) (fun j hj => write_val0 m d L hpre k (k1_off22_inb L k h5) hlt (m (oLoc d)) j hj)).trans
                (congrArg (fun S => ((oV).view.loc (tV d L) ↦[S]{fullShare} Out m d : sProp 𝕄)) hsetW))) $$ Hch
          isplitl [Hfut]
          · iapply (Entails.of_eq (congrArg (fun a => ((oV).view.loc (tV d L) ↦[futSet L 0 a]{fullShare} m (oLoc d) : sProp 𝕄)) hfutE)) $$ Hfut
          iapply (Entails.of_eq (congrArg (fun a => ((oV).view.loc (tV d L) ↦[landSet L 0 a]{fullShare} Out m d : sProp 𝕄)) hlandE)) $$ Hland
        isplitl [HS1]; · iexact HS1
        isplitl [HS2]; · iexact HS2
        isplitl [HS3]; · iexact HS3
        iapply (ow_intro d L O W)
        isplitr; · iexact Hmw
        iexists (insert (SemLoc.dma cc1_scratch9.sem, (default : HIx 1)) W')
        isplitr
        · ipureintro; intro p hp
          rcases Finset.mem_insert.mp hp with rfl | hp
          · exact Or.inr rfl
          · exact hW' p hp
        · iexact HO
    · rw [if_neg hk0]
      have hv97 := (sge0_iff L k).mpr (by omega)
      have hk1 : k.val - 1 + 1 = k.val := by omega
      have hlt' : 4 * (k.val - 1) + 0 < nCh L := by omega
      have hland : landSet L 0 (k.val - 1) ∪ chunkSet L (4 * (k.val - 1) + 0) = landSet L 0 k.val := by
        rw [land_union L (by omega) hlt', hk1]
      iintro ⟨⟨⟨%D, HFl, HDw⟩, ⟨%D2, HFl2, HDw2⟩, Hfut, Hland⟩, HS1, HS2, HS3, ⟨#Hmw, %W', %hW', HO⟩⟩
      sl_exec
      ihave Hmw1 := (Transfers.MayWaits.elim (SemLoc.dma cc1_scratch9.sem)) $$ Hmw
      iapply (Transfers.wp_waitLocalO countersEmb 𝒱₀ (tV d L) none (default : HIx 1) rfl) $$ [HFl HO Hmw1]
      · isplitl [HFl]; · iexact HFl
        isplitl [HO]; · iexact HO
        iexact Hmw1
      iintro ⟨HD, Hg, HO⟩
      ihave HG := HDw $$ HD
      icases HG with ⟨Hr, Hx, Hy⟩
      sl_exec
      ihave Hmw1 := (Transfers.MayWaits.elim (SemLoc.dma cc1_scratch13.sem)) $$ Hmw
      iapply (Transfers.wp_waitLocalO countersEmb 𝒱₀ (tV d L) none (default : HIx 1) rfl) $$ [HFl2 HO Hmw1]
      · isplitl [HFl2]; · iexact HFl2
        isplitl [HO]; · iexact HO
        iexact Hmw1
      iintro ⟨HD2, Hw, HO⟩
      ihave HW := HDw2 $$ HD2
      icases HW with ⟨⟨%fb, Hb⟩, Hrows⟩
      ihave Hland := (pointsTo_union (ℓ := (oV).view.loc (tV d L)) (land_disj L (b := 0) (a := k.val - 1) (by omega))).2 $$ [Hland Hrows]
      · isplitl [Hland]; · iexact Hland
        iexact Hrows
      ihave Hland := (Entails.of_eq (congrArg (fun S => ((oV).view.loc (tV d L) ↦[S]{fullShare} Out m d : sProp 𝕄)) hland)) $$ Hland
      sl_exec
      first
      | (iapply (wp_use_bind _ _ _ (inner0 d L _ _ _ _ k h5 _ _)) $$ [Hr Hb])
      | (iapply (wp_use _ _ _ (inner0 d L _ _ _ _ k h5 _ _)) $$ [Hr Hb])
      · isplitl [Hr]; · iexact Hr
        iexact Hb
      iintro %a ⟨Hr, Hb⟩
      ihave Hfut := (pointsTo_split_subset (ℓ := (oV).view.loc (tV d L)) (chunk_sub_fut L (b := 0) (a := k.val) (by omega) hlt)).1 $$ Hfut
      icases Hfut with ⟨Hch, Hfut⟩
      ihave Hfut := (Entails.of_eq (congrArg (fun S => ((oV).view.loc (tV d L) ↦[S]{fullShare} m (oLoc d) : sProp 𝕄)) (fut_sdiff L (b := 0) (a := k.val) (by omega)))) $$ Hfut
      ihave Hch := (Entails.of_eq (congrArg (fun S => ((oV).view.loc (tV d L) ↦[S]{fullShare} m (oLoc d) : sProp 𝕄)) (set_oslice0 L k (k1_off22_inb L k h5)).symm)) $$ Hch
      sl_exec
      ihave Hb := (Entails.of_eq (show ((bV0).view.loc (tV d L) ↦{fullShare} maxBlk (Rg m d L (4 * k.val + 0)) : sProp 𝕄)
          = ((bV0).view.loc (tV d L) ↦[(bV0).view.set]{fullShare} maxBlk (Rg m d L (4 * k.val + 0))) from by
            rw [Memref.IsWhole.set_eq_univ (Memref.isWhole_whole _)])) $$ Hb
      iapply (Transfers.wp_dmaLocal countersEmb 𝒱₀ (tV d L) none (default : HIx 1) WN rfl (by decide) (Finset.Subset.refl _)) $$ [Hb Hch Hw]
      · isplitl [Hb]; · iexact Hb
        isplitl [Hch]; · iexact Hch
        iexact Hw
      iintro HflW
      by_cases hre : 4 * k.val + 0 + 4 < nCh L
      · have hc2 := (cond7_iff L k).mpr hre
        have h1' : k.val + 1 < Nb L 0 := by unfold Nb; omega
        have hoff : k1_off23 L k 0 = loff L + 128 * (4 * (k.val + 1) + 0) := by
          rw [off23_eq L k h5 hc2]; show loff L + 128 * (4 * k.val + 0 + 4) = _; omega
        have hfutE : k.val + 1 = k.val + 1 := rfl
        have hlandE : k.val = k.val + 1 - 1 := by omega
        have hsetW : (oV.slice (Rect.unit (s := S25000x128) (k1_off22 L k) S8x128.size (k1_off22_inb L k h5)) (fun _ => rfl)).view.set = chunkSet L (4 * (k.val + 1 - 1) + 0) := by
          rw [set_oslice0 L k _]; congr 1
        sl_exec
        have hR : (rV0).view.writes (Elt F) (Rg m d L (4 * k.val + 0)) [⟨Rect.whole S128x128, trip_ok.sl.gather0_1 m d L k hin h5 hc2⟩] = Rg m d L (4 * (k.val + 1) + 0) := by
          unfold trip_ok.sl.gather0_1
          exact gather_land0 m d L hpre (4 * (k.val + 1) + 0) (by omega) _ _ hoff _ _ _
        iapply hK
        isplitr [HS1 HS2 HS3 HO]
        · iapply (slot0_pp m d L (k' := k.val + 1) h1' (by omega))
          isplitl [Hg Hy Hr Hx]
          · iexists _
            isplitl [Hg]; · iexact Hg
            iintro ⟨⟨Hrs, Hxs⟩, Hys⟩
            ihave Hys := (pointsTo_split_subset (ℓ := (yV).view.loc (tV d L)) (Finset.subset_univ _)).2 $$ [Hys Hy]
            · isplitl [Hys]; · iexact Hys
              iexact Hy
            ihave Hxs := (pointsTo_split_subset (ℓ := (xV).view.loc (tV d L)) (Finset.subset_univ _)).2 $$ [Hxs Hx]
            · isplitl [Hxs]; · iexact Hxs
              iexact Hx
            ihave Hrs := (pointsTo_split_subset (ℓ := (rV0).view.loc (tV d L)) (Finset.subset_univ _)).2 $$ [Hrs Hr]
            · isplitl [Hrs]; · iexact Hrs
              iexact Hr
            ihave Hrs := (Entails.of_eq (congrArg (fun f => ((rV0).view.loc (tV d L) ↦{fullShare} f : sProp 𝕄)) hR)) $$ Hrs
            isplitl [Hrs]; · iexact Hrs
            isplitl [Hxs]; · iexact Hxs
            iexact Hys
          isplitl [HflW]
          · iexists _
            isplitl [HflW]; · iexact HflW
            iintro ⟨Hch, Hb⟩
            isplitl [Hb]
            · iexists _
              iapply (Entails.of_eq (show ((bV0).view.loc (tV d L) ↦[(bV0).view.set]{fullShare} maxBlk (Rg m d L (4 * k.val + 0)) : sProp 𝕄)
                = ((bV0).view.loc (tV d L) ↦{fullShare} maxBlk (Rg m d L (4 * k.val + 0))) from by
                  rw [Memref.IsWhole.set_eq_univ (Memref.isWhole_whole _)])) $$ Hb
            · iapply (Entails.of_eq ((pointsTo_congr (ℓ := (oV).view.loc (tV d L)) (fun j hj => write_val0 m d L hpre k (k1_off22_inb L k h5) hlt (m (oLoc d)) j hj)).trans
                (congrArg (fun S => ((oV).view.loc (tV d L) ↦[S]{fullShare} Out m d : sProp 𝕄)) hsetW))) $$ Hch
          isplitl [Hfut]
          · iapply (Entails.of_eq (congrArg (fun a => ((oV).view.loc (tV d L) ↦[futSet L 0 a]{fullShare} m (oLoc d) : sProp 𝕄)) hfutE)) $$ Hfut
          iapply (Entails.of_eq (congrArg (fun a => ((oV).view.loc (tV d L) ↦[landSet L 0 a]{fullShare} Out m d : sProp 𝕄)) hlandE)) $$ Hland
        isplitl [HS1]; · iexact HS1
        isplitl [HS2]; · iexact HS2
        isplitl [HS3]; · iexact HS3
        iapply (ow_intro d L O W)
        isplitr; · iexact Hmw
        iexists (insert (SemLoc.dma cc1_scratch13.sem, (default : HIx 1)) (insert (SemLoc.dma cc1_scratch9.sem, (default : HIx 1)) W'))
        isplitr
        · ipureintro; intro p hp
          rcases Finset.mem_insert.mp hp with rfl | hp
          · exact Or.inr rfl
          rcases Finset.mem_insert.mp hp with rfl | hp
          · exact Or.inr rfl
          · exact hW' p hp
        · iexact HO
      · have hc2 : ¬ (k1_cond7 L k = 1#1) := fun h => hre ((cond7_iff L k).mp h)
        have hNb : Nb L 0 = k.val + 1 := by unfold Nb at hact ⊢; omega
        have h1' : ¬ k.val + 1 < Nb L 0 := by omega
        have hfutE : k.val + 1 = Nb L 0 := hNb.symm
        have hlandE : k.val = Nb L 0 - 1 := by omega
        have hsetW : (oV.slice (Rect.unit (s := S25000x128) (k1_off22 L k) S8x128.size (k1_off22_inb L k h5)) (fun _ => rfl)).view.set = chunkSet L (4 * (Nb L 0 - 1) + 0) := by
          rw [set_oslice0 L k _, hNb]; congr 1
        sl_exec
        iapply hK
        isplitr [HS1 HS2 HS3 HO]
        · iapply (slot0_ip m d L (k' := k.val + 1) h1' (by omega))
          isplitl [Hg Hy Hr Hx]
          · isplitr [Hg]
            · isplitl [Hr]; · (iexists _; iexact Hr)
              isplitl [Hx]; · iexact Hx
              iexact Hy
            · iexact Hg
          isplitl [HflW]
          · iexists _
            isplitl [HflW]; · iexact HflW
            iintro ⟨Hch, Hb⟩
            isplitl [Hb]
            · iexists _
              iapply (Entails.of_eq (show ((bV0).view.loc (tV d L) ↦[(bV0).view.set]{fullShare} maxBlk (Rg m d L (4 * k.val + 0)) : sProp 𝕄)
                = ((bV0).view.loc (tV d L) ↦{fullShare} maxBlk (Rg m d L (4 * k.val + 0))) from by
                  rw [Memref.IsWhole.set_eq_univ (Memref.isWhole_whole _)])) $$ Hb
            · iapply (Entails.of_eq ((pointsTo_congr (ℓ := (oV).view.loc (tV d L)) (fun j hj => write_val0 m d L hpre k (k1_off22_inb L k h5) hlt (m (oLoc d)) j hj)).trans
                (congrArg (fun S => ((oV).view.loc (tV d L) ↦[S]{fullShare} Out m d : sProp 𝕄)) hsetW))) $$ Hch
          isplitl [Hfut]
          · iapply (Entails.of_eq (congrArg (fun a => ((oV).view.loc (tV d L) ↦[futSet L 0 a]{fullShare} m (oLoc d) : sProp 𝕄)) hfutE)) $$ Hfut
          iapply (Entails.of_eq (congrArg (fun a => ((oV).view.loc (tV d L) ↦[landSet L 0 a]{fullShare} Out m d : sProp 𝕄)) hlandE)) $$ Hland
        isplitl [HS1]; · iexact HS1
        isplitl [HS2]; · iexact HS2
        isplitl [HS3]; · iexact HS3
        iapply (ow_intro d L O W)
        isplitr; · iexact Hmw
        iexists (insert (SemLoc.dma cc1_scratch13.sem, (default : HIx 1)) (insert (SemLoc.dma cc1_scratch9.sem, (default : HIx 1)) W'))
        isplitr
        · ipureintro; intro p hp
          rcases Finset.mem_insert.mp hp with rfl | hp
          · exact Or.inr rfl
          rcases Finset.mem_insert.mp hp with rfl | hp
          · exact Or.inr rfl
          · exact hW' p hp
        · iexact HO
  · intro h5
    have hN := nCh_cases L
    have hna : ¬ k.val < Nb L 0 := fun h => h5 ((cond5_iff L k).mpr (by unfold Nb at h; omega))
    iintro ⟨HS0, HS1, HS2, HS3, HOW⟩
    isplitl [HS0]; · iapply (slot0_stay m d L (k' := k.val) hna) $$ HS0
    isplitl [HS1]; · iexact HS1
    isplitl [HS2]; · iexact HS2
    isplitl [HS3]; · iexact HS3
    iexact HOW
  · refine wp_dite_else _ _ _ (Mid := iprop(Slot0 m d L (k.val + 1) ∗ Slot1 m d L (k.val + 1) ∗ Slot2 m d L k.val ∗ Slot3 m d L k.val ∗ OW (F := F) d L O W)) ?_ ?_ ?_
    · intro h8 hK
      have hN := nCh_cases L
      have hact : k.val < Nb L 1 := by have := (cond8_iff L k).mp h8; unfold Nb; omega
      have hlt : 4 * k.val + 1 < nCh L := (cond8_iff L k).mp h8
      unfold Slot1 OW
      rw [if_pos hact, Nat.min_eq_left (Nat.le_of_lt hact)]
      by_cases hk0 : k.val = 0
      · rw [if_pos hk0]
        have hv97 : ¬ (Scalar.cmpi .ne (Scalar.extui (Scalar.cmpi .sge (Scalar.addi (Scalar.muli (Scf.iv 0#32 1#32 k.val) 4#32) 1#32) 4#32)) 0#32 = 1#1) :=
          fun h => by have := (sge1_iff L k).mp h; omega
        iintro ⟨HS0, ⟨⟨%D, HFl, HDw⟩, ⟨⟨%fb, Hb⟩, Hw⟩, Hfut, Hland⟩, HS2, HS3, ⟨#Hmw, %W', %hW', HO⟩⟩
        sl_exec
        ihave Hmw1 := (Transfers.MayWaits.elim (SemLoc.dma cc1_scratch10.sem)) $$ Hmw
        iapply (Transfers.wp_waitLocalO countersEmb 𝒱₀ (tV d L) none (default : HIx 1) rfl) $$ [HFl HO Hmw1]
        · isplitl [HFl]; · iexact HFl
          isplitl [HO]; · iexact HO
          iexact Hmw1
        iintro ⟨HD, Hg, HO⟩
        ihave HG := HDw $$ HD
        icases HG with ⟨Hr, Hx, Hy⟩
        sl_exec
        ihave Hland := (Entails.of_eq (congrArg (fun a => ((oV).view.loc (tV d L) ↦[landSet L 1 a]{fullShare} Out m d : sProp 𝕄)) (by omega : k.val - 1 = k.val))) $$ Hland
        first
        | (iapply (wp_use_bind _ _ _ (inner1 d L _ _ _ _ k h8 _ _)) $$ [Hr Hb])
        | (iapply (wp_use _ _ _ (inner1 d L _ _ _ _ k h8 _ _)) $$ [Hr Hb])
        · isplitl [Hr]; · iexact Hr
          iexact Hb
        iintro %a ⟨Hr, Hb⟩
        ihave Hfut := (pointsTo_split_subset (ℓ := (oV).view.loc (tV d L)) (chunk_sub_fut L (b := 1) (a := k.val) (by omega) hlt)).1 $$ Hfut
        icases Hfut with ⟨Hch, Hfut⟩
        ihave Hfut := (Entails.of_eq (congrArg (fun S => ((oV).view.loc (tV d L) ↦[S]{fullShare} m (oLoc d) : sProp 𝕄)) (fut_sdiff L (b := 1) (a := k.val) (by omega)))) $$ Hfut
        ihave Hch := (Entails.of_eq (congrArg (fun S => ((oV).view.loc (tV d L) ↦[S]{fullShare} m (oLoc d) : sProp 𝕄)) (set_oslice1 L k (k1_off40_inb L k h8)).symm)) $$ Hch
        sl_exec
        ihave Hb := (Entails.of_eq (show ((bV1).view.loc (tV d L) ↦{fullShare} maxBlk (Rg m d L (4 * k.val + 1)) : sProp 𝕄)
            = ((bV1).view.loc (tV d L) ↦[(bV1).view.set]{fullShare} maxBlk (Rg m d L (4 * k.val + 1))) from by
              rw [Memref.IsWhole.set_eq_univ (Memref.isWhole_whole _)])) $$ Hb
        iapply (Transfers.wp_dmaLocal countersEmb 𝒱₀ (tV d L) none (default : HIx 1) WN rfl (by decide) (Finset.Subset.refl _)) $$ [Hb Hch Hw]
        · isplitl [Hb]; · iexact Hb
          isplitl [Hch]; · iexact Hch
          iexact Hw
        iintro HflW
        by_cases hre : 4 * k.val + 1 + 4 < nCh L
        · have hc2 := (cond10_iff L k).mpr hre
          have h1' : k.val + 1 < Nb L 1 := by unfold Nb; omega
          have hoff : k1_off41 L k 0 = loff L + 128 * (4 * (k.val + 1) + 1) := by
            rw [off41_eq L k h8 hc2]; show loff L + 128 * (4 * k.val + 1 + 4) = _; omega
          have hfutE : k.val + 1 = k.val + 1 := rfl
          have hlandE : k.val = k.val + 1 - 1 := by omega
          have hsetW : (oV.slice (Rect.unit (s := S25000x128) (k1_off40 L k) S8x128.size (k1_off40_inb L k h8)) (fun _ => rfl)).view.set = chunkSet L (4 * (k.val + 1 - 1) + 1) := by
            rw [set_oslice1 L k _]; congr 1
          sl_exec
          have hR : (rV1).view.writes (Elt F) (Rg m d L (4 * k.val + 1)) [⟨Rect.whole S128x128, trip_ok.sl.gather0_2 m d L k hin h8 hc2⟩] = Rg m d L (4 * (k.val + 1) + 1) := by
            unfold trip_ok.sl.gather0_2
            exact gather_land1 m d L hpre (4 * (k.val + 1) + 1) (by omega) _ _ hoff _ _ _
          iapply hK
          isplitl [HS0]; · iexact HS0
          isplitr [HS2 HS3 HO]
          · iapply (slot1_pp m d L (k' := k.val + 1) h1' (by omega))
            isplitl [Hg Hy Hr Hx]
            · iexists _
              isplitl [Hg]; · iexact Hg
              iintro ⟨⟨Hrs, Hxs⟩, Hys⟩
              ihave Hys := (pointsTo_split_subset (ℓ := (yV).view.loc (tV d L)) (Finset.subset_univ _)).2 $$ [Hys Hy]
              · isplitl [Hys]; · iexact Hys
                iexact Hy
              ihave Hxs := (pointsTo_split_subset (ℓ := (xV).view.loc (tV d L)) (Finset.subset_univ _)).2 $$ [Hxs Hx]
              · isplitl [Hxs]; · iexact Hxs
                iexact Hx
              ihave Hrs := (pointsTo_split_subset (ℓ := (rV1).view.loc (tV d L)) (Finset.subset_univ _)).2 $$ [Hrs Hr]
              · isplitl [Hrs]; · iexact Hrs
                iexact Hr
              ihave Hrs := (Entails.of_eq (congrArg (fun f => ((rV1).view.loc (tV d L) ↦{fullShare} f : sProp 𝕄)) hR)) $$ Hrs
              isplitl [Hrs]; · iexact Hrs
              isplitl [Hxs]; · iexact Hxs
              iexact Hys
            isplitl [HflW]
            · iexists _
              isplitl [HflW]; · iexact HflW
              iintro ⟨Hch, Hb⟩
              isplitl [Hb]
              · iexists _
                iapply (Entails.of_eq (show ((bV1).view.loc (tV d L) ↦[(bV1).view.set]{fullShare} maxBlk (Rg m d L (4 * k.val + 1)) : sProp 𝕄)
                  = ((bV1).view.loc (tV d L) ↦{fullShare} maxBlk (Rg m d L (4 * k.val + 1))) from by
                    rw [Memref.IsWhole.set_eq_univ (Memref.isWhole_whole _)])) $$ Hb
              · iapply (Entails.of_eq ((pointsTo_congr (ℓ := (oV).view.loc (tV d L)) (fun j hj => write_val1 m d L hpre k (k1_off40_inb L k h8) hlt (m (oLoc d)) j hj)).trans
                  (congrArg (fun S => ((oV).view.loc (tV d L) ↦[S]{fullShare} Out m d : sProp 𝕄)) hsetW))) $$ Hch
            isplitl [Hfut]
            · iapply (Entails.of_eq (congrArg (fun a => ((oV).view.loc (tV d L) ↦[futSet L 1 a]{fullShare} m (oLoc d) : sProp 𝕄)) hfutE)) $$ Hfut
            iapply (Entails.of_eq (congrArg (fun a => ((oV).view.loc (tV d L) ↦[landSet L 1 a]{fullShare} Out m d : sProp 𝕄)) hlandE)) $$ Hland
          isplitl [HS2]; · iexact HS2
          isplitl [HS3]; · iexact HS3
          iapply (ow_intro d L O W)
          isplitr; · iexact Hmw
          iexists (insert (SemLoc.dma cc1_scratch10.sem, (default : HIx 1)) W')
          isplitr
          · ipureintro; intro p hp
            rcases Finset.mem_insert.mp hp with rfl | hp
            · exact Or.inr rfl
            · exact hW' p hp
          · iexact HO
        · have hc2 : ¬ (k1_cond10 L k = 1#1) := fun h => hre ((cond10_iff L k).mp h)
          have hNb : Nb L 1 = k.val + 1 := by unfold Nb at hact ⊢; omega
          have h1' : ¬ k.val + 1 < Nb L 1 := by omega
          have hfutE : k.val + 1 = Nb L 1 := hNb.symm
          have hlandE : k.val = Nb L 1 - 1 := by omega
          have hsetW : (oV.slice (Rect.unit (s := S25000x128) (k1_off40 L k) S8x128.size (k1_off40_inb L k h8)) (fun _ => rfl)).view.set = chunkSet L (4 * (Nb L 1 - 1) + 1) := by
            rw [set_oslice1 L k _, hNb]; congr 1
          sl_exec
          iapply hK
          isplitl [HS0]; · iexact HS0
          isplitr [HS2 HS3 HO]
          · iapply (slot1_ip m d L (k' := k.val + 1) h1' (by omega))
            isplitl [Hg Hy Hr Hx]
            · isplitr [Hg]
              · isplitl [Hr]; · (iexists _; iexact Hr)
                isplitl [Hx]; · iexact Hx
                iexact Hy
              · iexact Hg
            isplitl [HflW]
            · iexists _
              isplitl [HflW]; · iexact HflW
              iintro ⟨Hch, Hb⟩
              isplitl [Hb]
              · iexists _
                iapply (Entails.of_eq (show ((bV1).view.loc (tV d L) ↦[(bV1).view.set]{fullShare} maxBlk (Rg m d L (4 * k.val + 1)) : sProp 𝕄)
                  = ((bV1).view.loc (tV d L) ↦{fullShare} maxBlk (Rg m d L (4 * k.val + 1))) from by
                    rw [Memref.IsWhole.set_eq_univ (Memref.isWhole_whole _)])) $$ Hb
              · iapply (Entails.of_eq ((pointsTo_congr (ℓ := (oV).view.loc (tV d L)) (fun j hj => write_val1 m d L hpre k (k1_off40_inb L k h8) hlt (m (oLoc d)) j hj)).trans
                  (congrArg (fun S => ((oV).view.loc (tV d L) ↦[S]{fullShare} Out m d : sProp 𝕄)) hsetW))) $$ Hch
            isplitl [Hfut]
            · iapply (Entails.of_eq (congrArg (fun a => ((oV).view.loc (tV d L) ↦[futSet L 1 a]{fullShare} m (oLoc d) : sProp 𝕄)) hfutE)) $$ Hfut
            iapply (Entails.of_eq (congrArg (fun a => ((oV).view.loc (tV d L) ↦[landSet L 1 a]{fullShare} Out m d : sProp 𝕄)) hlandE)) $$ Hland
          isplitl [HS2]; · iexact HS2
          isplitl [HS3]; · iexact HS3
          iapply (ow_intro d L O W)
          isplitr; · iexact Hmw
          iexists (insert (SemLoc.dma cc1_scratch10.sem, (default : HIx 1)) W')
          isplitr
          · ipureintro; intro p hp
            rcases Finset.mem_insert.mp hp with rfl | hp
            · exact Or.inr rfl
            · exact hW' p hp
          · iexact HO
      · rw [if_neg hk0]
        have hv97 := (sge1_iff L k).mpr (by omega)
        have hk1 : k.val - 1 + 1 = k.val := by omega
        have hlt' : 4 * (k.val - 1) + 1 < nCh L := by omega
        have hland : landSet L 1 (k.val - 1) ∪ chunkSet L (4 * (k.val - 1) + 1) = landSet L 1 k.val := by
          rw [land_union L (by omega) hlt', hk1]
        iintro ⟨HS0, ⟨⟨%D, HFl, HDw⟩, ⟨%D2, HFl2, HDw2⟩, Hfut, Hland⟩, HS2, HS3, ⟨#Hmw, %W', %hW', HO⟩⟩
        sl_exec
        ihave Hmw1 := (Transfers.MayWaits.elim (SemLoc.dma cc1_scratch10.sem)) $$ Hmw
        iapply (Transfers.wp_waitLocalO countersEmb 𝒱₀ (tV d L) none (default : HIx 1) rfl) $$ [HFl HO Hmw1]
        · isplitl [HFl]; · iexact HFl
          isplitl [HO]; · iexact HO
          iexact Hmw1
        iintro ⟨HD, Hg, HO⟩
        ihave HG := HDw $$ HD
        icases HG with ⟨Hr, Hx, Hy⟩
        sl_exec
        ihave Hmw1 := (Transfers.MayWaits.elim (SemLoc.dma cc1_scratch14.sem)) $$ Hmw
        iapply (Transfers.wp_waitLocalO countersEmb 𝒱₀ (tV d L) none (default : HIx 1) rfl) $$ [HFl2 HO Hmw1]
        · isplitl [HFl2]; · iexact HFl2
          isplitl [HO]; · iexact HO
          iexact Hmw1
        iintro ⟨HD2, Hw, HO⟩
        ihave HW := HDw2 $$ HD2
        icases HW with ⟨⟨%fb, Hb⟩, Hrows⟩
        ihave Hland := (pointsTo_union (ℓ := (oV).view.loc (tV d L)) (land_disj L (b := 1) (a := k.val - 1) (by omega))).2 $$ [Hland Hrows]
        · isplitl [Hland]; · iexact Hland
          iexact Hrows
        ihave Hland := (Entails.of_eq (congrArg (fun S => ((oV).view.loc (tV d L) ↦[S]{fullShare} Out m d : sProp 𝕄)) hland)) $$ Hland
        sl_exec
        first
        | (iapply (wp_use_bind _ _ _ (inner1 d L _ _ _ _ k h8 _ _)) $$ [Hr Hb])
        | (iapply (wp_use _ _ _ (inner1 d L _ _ _ _ k h8 _ _)) $$ [Hr Hb])
        · isplitl [Hr]; · iexact Hr
          iexact Hb
        iintro %a ⟨Hr, Hb⟩
        ihave Hfut := (pointsTo_split_subset (ℓ := (oV).view.loc (tV d L)) (chunk_sub_fut L (b := 1) (a := k.val) (by omega) hlt)).1 $$ Hfut
        icases Hfut with ⟨Hch, Hfut⟩
        ihave Hfut := (Entails.of_eq (congrArg (fun S => ((oV).view.loc (tV d L) ↦[S]{fullShare} m (oLoc d) : sProp 𝕄)) (fut_sdiff L (b := 1) (a := k.val) (by omega)))) $$ Hfut
        ihave Hch := (Entails.of_eq (congrArg (fun S => ((oV).view.loc (tV d L) ↦[S]{fullShare} m (oLoc d) : sProp 𝕄)) (set_oslice1 L k (k1_off40_inb L k h8)).symm)) $$ Hch
        sl_exec
        ihave Hb := (Entails.of_eq (show ((bV1).view.loc (tV d L) ↦{fullShare} maxBlk (Rg m d L (4 * k.val + 1)) : sProp 𝕄)
            = ((bV1).view.loc (tV d L) ↦[(bV1).view.set]{fullShare} maxBlk (Rg m d L (4 * k.val + 1))) from by
              rw [Memref.IsWhole.set_eq_univ (Memref.isWhole_whole _)])) $$ Hb
        iapply (Transfers.wp_dmaLocal countersEmb 𝒱₀ (tV d L) none (default : HIx 1) WN rfl (by decide) (Finset.Subset.refl _)) $$ [Hb Hch Hw]
        · isplitl [Hb]; · iexact Hb
          isplitl [Hch]; · iexact Hch
          iexact Hw
        iintro HflW
        by_cases hre : 4 * k.val + 1 + 4 < nCh L
        · have hc2 := (cond10_iff L k).mpr hre
          have h1' : k.val + 1 < Nb L 1 := by unfold Nb; omega
          have hoff : k1_off41 L k 0 = loff L + 128 * (4 * (k.val + 1) + 1) := by
            rw [off41_eq L k h8 hc2]; show loff L + 128 * (4 * k.val + 1 + 4) = _; omega
          have hfutE : k.val + 1 = k.val + 1 := rfl
          have hlandE : k.val = k.val + 1 - 1 := by omega
          have hsetW : (oV.slice (Rect.unit (s := S25000x128) (k1_off40 L k) S8x128.size (k1_off40_inb L k h8)) (fun _ => rfl)).view.set = chunkSet L (4 * (k.val + 1 - 1) + 1) := by
            rw [set_oslice1 L k _]; congr 1
          sl_exec
          have hR : (rV1).view.writes (Elt F) (Rg m d L (4 * k.val + 1)) [⟨Rect.whole S128x128, trip_ok.sl.gather0_3 m d L k hin h8 hc2⟩] = Rg m d L (4 * (k.val + 1) + 1) := by
            unfold trip_ok.sl.gather0_3
            exact gather_land1 m d L hpre (4 * (k.val + 1) + 1) (by omega) _ _ hoff _ _ _
          iapply hK
          isplitl [HS0]; · iexact HS0
          isplitr [HS2 HS3 HO]
          · iapply (slot1_pp m d L (k' := k.val + 1) h1' (by omega))
            isplitl [Hg Hy Hr Hx]
            · iexists _
              isplitl [Hg]; · iexact Hg
              iintro ⟨⟨Hrs, Hxs⟩, Hys⟩
              ihave Hys := (pointsTo_split_subset (ℓ := (yV).view.loc (tV d L)) (Finset.subset_univ _)).2 $$ [Hys Hy]
              · isplitl [Hys]; · iexact Hys
                iexact Hy
              ihave Hxs := (pointsTo_split_subset (ℓ := (xV).view.loc (tV d L)) (Finset.subset_univ _)).2 $$ [Hxs Hx]
              · isplitl [Hxs]; · iexact Hxs
                iexact Hx
              ihave Hrs := (pointsTo_split_subset (ℓ := (rV1).view.loc (tV d L)) (Finset.subset_univ _)).2 $$ [Hrs Hr]
              · isplitl [Hrs]; · iexact Hrs
                iexact Hr
              ihave Hrs := (Entails.of_eq (congrArg (fun f => ((rV1).view.loc (tV d L) ↦{fullShare} f : sProp 𝕄)) hR)) $$ Hrs
              isplitl [Hrs]; · iexact Hrs
              isplitl [Hxs]; · iexact Hxs
              iexact Hys
            isplitl [HflW]
            · iexists _
              isplitl [HflW]; · iexact HflW
              iintro ⟨Hch, Hb⟩
              isplitl [Hb]
              · iexists _
                iapply (Entails.of_eq (show ((bV1).view.loc (tV d L) ↦[(bV1).view.set]{fullShare} maxBlk (Rg m d L (4 * k.val + 1)) : sProp 𝕄)
                  = ((bV1).view.loc (tV d L) ↦{fullShare} maxBlk (Rg m d L (4 * k.val + 1))) from by
                    rw [Memref.IsWhole.set_eq_univ (Memref.isWhole_whole _)])) $$ Hb
              · iapply (Entails.of_eq ((pointsTo_congr (ℓ := (oV).view.loc (tV d L)) (fun j hj => write_val1 m d L hpre k (k1_off40_inb L k h8) hlt (m (oLoc d)) j hj)).trans
                  (congrArg (fun S => ((oV).view.loc (tV d L) ↦[S]{fullShare} Out m d : sProp 𝕄)) hsetW))) $$ Hch
            isplitl [Hfut]
            · iapply (Entails.of_eq (congrArg (fun a => ((oV).view.loc (tV d L) ↦[futSet L 1 a]{fullShare} m (oLoc d) : sProp 𝕄)) hfutE)) $$ Hfut
            iapply (Entails.of_eq (congrArg (fun a => ((oV).view.loc (tV d L) ↦[landSet L 1 a]{fullShare} Out m d : sProp 𝕄)) hlandE)) $$ Hland
          isplitl [HS2]; · iexact HS2
          isplitl [HS3]; · iexact HS3
          iapply (ow_intro d L O W)
          isplitr; · iexact Hmw
          iexists (insert (SemLoc.dma cc1_scratch14.sem, (default : HIx 1)) (insert (SemLoc.dma cc1_scratch10.sem, (default : HIx 1)) W'))
          isplitr
          · ipureintro; intro p hp
            rcases Finset.mem_insert.mp hp with rfl | hp
            · exact Or.inr rfl
            rcases Finset.mem_insert.mp hp with rfl | hp
            · exact Or.inr rfl
            · exact hW' p hp
          · iexact HO
        · have hc2 : ¬ (k1_cond10 L k = 1#1) := fun h => hre ((cond10_iff L k).mp h)
          have hNb : Nb L 1 = k.val + 1 := by unfold Nb at hact ⊢; omega
          have h1' : ¬ k.val + 1 < Nb L 1 := by omega
          have hfutE : k.val + 1 = Nb L 1 := hNb.symm
          have hlandE : k.val = Nb L 1 - 1 := by omega
          have hsetW : (oV.slice (Rect.unit (s := S25000x128) (k1_off40 L k) S8x128.size (k1_off40_inb L k h8)) (fun _ => rfl)).view.set = chunkSet L (4 * (Nb L 1 - 1) + 1) := by
            rw [set_oslice1 L k _, hNb]; congr 1
          sl_exec
          iapply hK
          isplitl [HS0]; · iexact HS0
          isplitr [HS2 HS3 HO]
          · iapply (slot1_ip m d L (k' := k.val + 1) h1' (by omega))
            isplitl [Hg Hy Hr Hx]
            · isplitr [Hg]
              · isplitl [Hr]; · (iexists _; iexact Hr)
                isplitl [Hx]; · iexact Hx
                iexact Hy
              · iexact Hg
            isplitl [HflW]
            · iexists _
              isplitl [HflW]; · iexact HflW
              iintro ⟨Hch, Hb⟩
              isplitl [Hb]
              · iexists _
                iapply (Entails.of_eq (show ((bV1).view.loc (tV d L) ↦[(bV1).view.set]{fullShare} maxBlk (Rg m d L (4 * k.val + 1)) : sProp 𝕄)
                  = ((bV1).view.loc (tV d L) ↦{fullShare} maxBlk (Rg m d L (4 * k.val + 1))) from by
                    rw [Memref.IsWhole.set_eq_univ (Memref.isWhole_whole _)])) $$ Hb
              · iapply (Entails.of_eq ((pointsTo_congr (ℓ := (oV).view.loc (tV d L)) (fun j hj => write_val1 m d L hpre k (k1_off40_inb L k h8) hlt (m (oLoc d)) j hj)).trans
                  (congrArg (fun S => ((oV).view.loc (tV d L) ↦[S]{fullShare} Out m d : sProp 𝕄)) hsetW))) $$ Hch
            isplitl [Hfut]
            · iapply (Entails.of_eq (congrArg (fun a => ((oV).view.loc (tV d L) ↦[futSet L 1 a]{fullShare} m (oLoc d) : sProp 𝕄)) hfutE)) $$ Hfut
            iapply (Entails.of_eq (congrArg (fun a => ((oV).view.loc (tV d L) ↦[landSet L 1 a]{fullShare} Out m d : sProp 𝕄)) hlandE)) $$ Hland
          isplitl [HS2]; · iexact HS2
          isplitl [HS3]; · iexact HS3
          iapply (ow_intro d L O W)
          isplitr; · iexact Hmw
          iexists (insert (SemLoc.dma cc1_scratch14.sem, (default : HIx 1)) (insert (SemLoc.dma cc1_scratch10.sem, (default : HIx 1)) W'))
          isplitr
          · ipureintro; intro p hp
            rcases Finset.mem_insert.mp hp with rfl | hp
            · exact Or.inr rfl
            rcases Finset.mem_insert.mp hp with rfl | hp
            · exact Or.inr rfl
            · exact hW' p hp
          · iexact HO
    · intro h8
      have hN := nCh_cases L
      have hna : ¬ k.val < Nb L 1 := fun h => h8 ((cond8_iff L k).mpr (by unfold Nb at h; omega))
      iintro ⟨HS0, HS1, HS2, HS3, HOW⟩
      isplitl [HS0]; · iexact HS0
      isplitl [HS1]; · iapply (slot1_stay m d L (k' := k.val) hna) $$ HS1
      isplitl [HS2]; · iexact HS2
      isplitl [HS3]; · iexact HS3
      iexact HOW
    · refine wp_dite_else _ _ _ (Mid := iprop(Slot0 m d L (k.val + 1) ∗ Slot1 m d L (k.val + 1) ∗ Slot2 m d L (k.val + 1) ∗ Slot3 m d L k.val ∗ OW (F := F) d L O W)) ?_ ?_ ?_
      · intro h11 hK
        have hN := nCh_cases L
        have hact : k.val < Nb L 2 := by have := (cond11_iff L k).mp h11; unfold Nb; omega
        have hlt : 4 * k.val + 2 < nCh L := (cond11_iff L k).mp h11
        unfold Slot2 OW
        rw [if_pos hact, Nat.min_eq_left (Nat.le_of_lt hact)]
        by_cases hk0 : k.val = 0
        · rw [if_pos hk0]
          have hv97 : ¬ (Scalar.cmpi .ne (Scalar.extui (Scalar.cmpi .sge (Scalar.addi (Scalar.muli (Scf.iv 0#32 1#32 k.val) 4#32) 2#32) 4#32)) 0#32 = 1#1) :=
            fun h => by have := (sge2_iff L k).mp h; omega
          iintro ⟨HS0, HS1, ⟨⟨%D, HFl, HDw⟩, ⟨⟨%fb, Hb⟩, Hw⟩, Hfut, Hland⟩, HS3, ⟨#Hmw, %W', %hW', HO⟩⟩
          sl_exec
          ihave Hmw1 := (Transfers.MayWaits.elim (SemLoc.dma cc1_scratch11.sem)) $$ Hmw
          iapply (Transfers.wp_waitLocalO countersEmb 𝒱₀ (tV d L) none (default : HIx 1) rfl) $$ [HFl HO Hmw1]
          · isplitl [HFl]; · iexact HFl
            isplitl [HO]; · iexact HO
            iexact Hmw1
          iintro ⟨HD, Hg, HO⟩
          ihave HG := HDw $$ HD
          icases HG with ⟨Hr, Hx, Hy⟩
          sl_exec
          ihave Hland := (Entails.of_eq (congrArg (fun a => ((oV).view.loc (tV d L) ↦[landSet L 2 a]{fullShare} Out m d : sProp 𝕄)) (by omega : k.val - 1 = k.val))) $$ Hland
          first
          | (iapply (wp_use_bind _ _ _ (inner2 d L _ _ _ _ k h11 _ _)) $$ [Hr Hb])
          | (iapply (wp_use _ _ _ (inner2 d L _ _ _ _ k h11 _ _)) $$ [Hr Hb])
          · isplitl [Hr]; · iexact Hr
            iexact Hb
          iintro %a ⟨Hr, Hb⟩
          ihave Hfut := (pointsTo_split_subset (ℓ := (oV).view.loc (tV d L)) (chunk_sub_fut L (b := 2) (a := k.val) (by omega) hlt)).1 $$ Hfut
          icases Hfut with ⟨Hch, Hfut⟩
          ihave Hfut := (Entails.of_eq (congrArg (fun S => ((oV).view.loc (tV d L) ↦[S]{fullShare} m (oLoc d) : sProp 𝕄)) (fut_sdiff L (b := 2) (a := k.val) (by omega)))) $$ Hfut
          ihave Hch := (Entails.of_eq (congrArg (fun S => ((oV).view.loc (tV d L) ↦[S]{fullShare} m (oLoc d) : sProp 𝕄)) (set_oslice2 L k (k1_off58_inb L k h11)).symm)) $$ Hch
          sl_exec
          ihave Hb := (Entails.of_eq (show ((bV2).view.loc (tV d L) ↦{fullShare} maxBlk (Rg m d L (4 * k.val + 2)) : sProp 𝕄)
              = ((bV2).view.loc (tV d L) ↦[(bV2).view.set]{fullShare} maxBlk (Rg m d L (4 * k.val + 2))) from by
                rw [Memref.IsWhole.set_eq_univ (Memref.isWhole_whole _)])) $$ Hb
          iapply (Transfers.wp_dmaLocal countersEmb 𝒱₀ (tV d L) none (default : HIx 1) WN rfl (by decide) (Finset.Subset.refl _)) $$ [Hb Hch Hw]
          · isplitl [Hb]; · iexact Hb
            isplitl [Hch]; · iexact Hch
            iexact Hw
          iintro HflW
          by_cases hre : 4 * k.val + 2 + 4 < nCh L
          · have hc2 := (cond13_iff L k).mpr hre
            have h1' : k.val + 1 < Nb L 2 := by unfold Nb; omega
            have hoff : k1_off59 L k 0 = loff L + 128 * (4 * (k.val + 1) + 2) := by
              rw [off59_eq L k h11 hc2]; show loff L + 128 * (4 * k.val + 2 + 4) = _; omega
            have hfutE : k.val + 1 = k.val + 1 := rfl
            have hlandE : k.val = k.val + 1 - 1 := by omega
            have hsetW : (oV.slice (Rect.unit (s := S25000x128) (k1_off58 L k) S8x128.size (k1_off58_inb L k h11)) (fun _ => rfl)).view.set = chunkSet L (4 * (k.val + 1 - 1) + 2) := by
              rw [set_oslice2 L k _]; congr 1
            sl_exec
            have hR : (rV2).view.writes (Elt F) (Rg m d L (4 * k.val + 2)) [⟨Rect.whole S128x128, trip_ok.sl.gather0_4 m d L k hin h11 hc2⟩] = Rg m d L (4 * (k.val + 1) + 2) := by
              unfold trip_ok.sl.gather0_4
              exact gather_land2 m d L hpre (4 * (k.val + 1) + 2) (by omega) _ _ hoff _ _ _
            iapply hK
            isplitl [HS0]; · iexact HS0
            isplitl [HS1]; · iexact HS1
            isplitr [HS3 HO]
            · iapply (slot2_pp m d L (k' := k.val + 1) h1' (by omega))
              isplitl [Hg Hy Hr Hx]
              · iexists _
                isplitl [Hg]; · iexact Hg
                iintro ⟨⟨Hrs, Hxs⟩, Hys⟩
                ihave Hys := (pointsTo_split_subset (ℓ := (yV).view.loc (tV d L)) (Finset.subset_univ _)).2 $$ [Hys Hy]
                · isplitl [Hys]; · iexact Hys
                  iexact Hy
                ihave Hxs := (pointsTo_split_subset (ℓ := (xV).view.loc (tV d L)) (Finset.subset_univ _)).2 $$ [Hxs Hx]
                · isplitl [Hxs]; · iexact Hxs
                  iexact Hx
                ihave Hrs := (pointsTo_split_subset (ℓ := (rV2).view.loc (tV d L)) (Finset.subset_univ _)).2 $$ [Hrs Hr]
                · isplitl [Hrs]; · iexact Hrs
                  iexact Hr
                ihave Hrs := (Entails.of_eq (congrArg (fun f => ((rV2).view.loc (tV d L) ↦{fullShare} f : sProp 𝕄)) hR)) $$ Hrs
                isplitl [Hrs]; · iexact Hrs
                isplitl [Hxs]; · iexact Hxs
                iexact Hys
              isplitl [HflW]
              · iexists _
                isplitl [HflW]; · iexact HflW
                iintro ⟨Hch, Hb⟩
                isplitl [Hb]
                · iexists _
                  iapply (Entails.of_eq (show ((bV2).view.loc (tV d L) ↦[(bV2).view.set]{fullShare} maxBlk (Rg m d L (4 * k.val + 2)) : sProp 𝕄)
                    = ((bV2).view.loc (tV d L) ↦{fullShare} maxBlk (Rg m d L (4 * k.val + 2))) from by
                      rw [Memref.IsWhole.set_eq_univ (Memref.isWhole_whole _)])) $$ Hb
                · iapply (Entails.of_eq ((pointsTo_congr (ℓ := (oV).view.loc (tV d L)) (fun j hj => write_val2 m d L hpre k (k1_off58_inb L k h11) hlt (m (oLoc d)) j hj)).trans
                    (congrArg (fun S => ((oV).view.loc (tV d L) ↦[S]{fullShare} Out m d : sProp 𝕄)) hsetW))) $$ Hch
              isplitl [Hfut]
              · iapply (Entails.of_eq (congrArg (fun a => ((oV).view.loc (tV d L) ↦[futSet L 2 a]{fullShare} m (oLoc d) : sProp 𝕄)) hfutE)) $$ Hfut
              iapply (Entails.of_eq (congrArg (fun a => ((oV).view.loc (tV d L) ↦[landSet L 2 a]{fullShare} Out m d : sProp 𝕄)) hlandE)) $$ Hland
            isplitl [HS3]; · iexact HS3
            iapply (ow_intro d L O W)
            isplitr; · iexact Hmw
            iexists (insert (SemLoc.dma cc1_scratch11.sem, (default : HIx 1)) W')
            isplitr
            · ipureintro; intro p hp
              rcases Finset.mem_insert.mp hp with rfl | hp
              · exact Or.inr rfl
              · exact hW' p hp
            · iexact HO
          · have hc2 : ¬ (k1_cond13 L k = 1#1) := fun h => hre ((cond13_iff L k).mp h)
            have hNb : Nb L 2 = k.val + 1 := by unfold Nb at hact ⊢; omega
            have h1' : ¬ k.val + 1 < Nb L 2 := by omega
            have hfutE : k.val + 1 = Nb L 2 := hNb.symm
            have hlandE : k.val = Nb L 2 - 1 := by omega
            have hsetW : (oV.slice (Rect.unit (s := S25000x128) (k1_off58 L k) S8x128.size (k1_off58_inb L k h11)) (fun _ => rfl)).view.set = chunkSet L (4 * (Nb L 2 - 1) + 2) := by
              rw [set_oslice2 L k _, hNb]; congr 1
            sl_exec
            iapply hK
            isplitl [HS0]; · iexact HS0
            isplitl [HS1]; · iexact HS1
            isplitr [HS3 HO]
            · iapply (slot2_ip m d L (k' := k.val + 1) h1' (by omega))
              isplitl [Hg Hy Hr Hx]
              · isplitr [Hg]
                · isplitl [Hr]; · (iexists _; iexact Hr)
                  isplitl [Hx]; · iexact Hx
                  iexact Hy
                · iexact Hg
              isplitl [HflW]
              · iexists _
                isplitl [HflW]; · iexact HflW
                iintro ⟨Hch, Hb⟩
                isplitl [Hb]
                · iexists _
                  iapply (Entails.of_eq (show ((bV2).view.loc (tV d L) ↦[(bV2).view.set]{fullShare} maxBlk (Rg m d L (4 * k.val + 2)) : sProp 𝕄)
                    = ((bV2).view.loc (tV d L) ↦{fullShare} maxBlk (Rg m d L (4 * k.val + 2))) from by
                      rw [Memref.IsWhole.set_eq_univ (Memref.isWhole_whole _)])) $$ Hb
                · iapply (Entails.of_eq ((pointsTo_congr (ℓ := (oV).view.loc (tV d L)) (fun j hj => write_val2 m d L hpre k (k1_off58_inb L k h11) hlt (m (oLoc d)) j hj)).trans
                    (congrArg (fun S => ((oV).view.loc (tV d L) ↦[S]{fullShare} Out m d : sProp 𝕄)) hsetW))) $$ Hch
              isplitl [Hfut]
              · iapply (Entails.of_eq (congrArg (fun a => ((oV).view.loc (tV d L) ↦[futSet L 2 a]{fullShare} m (oLoc d) : sProp 𝕄)) hfutE)) $$ Hfut
              iapply (Entails.of_eq (congrArg (fun a => ((oV).view.loc (tV d L) ↦[landSet L 2 a]{fullShare} Out m d : sProp 𝕄)) hlandE)) $$ Hland
            isplitl [HS3]; · iexact HS3
            iapply (ow_intro d L O W)
            isplitr; · iexact Hmw
            iexists (insert (SemLoc.dma cc1_scratch11.sem, (default : HIx 1)) W')
            isplitr
            · ipureintro; intro p hp
              rcases Finset.mem_insert.mp hp with rfl | hp
              · exact Or.inr rfl
              · exact hW' p hp
            · iexact HO
        · rw [if_neg hk0]
          have hv97 := (sge2_iff L k).mpr (by omega)
          have hk1 : k.val - 1 + 1 = k.val := by omega
          have hlt' : 4 * (k.val - 1) + 2 < nCh L := by omega
          have hland : landSet L 2 (k.val - 1) ∪ chunkSet L (4 * (k.val - 1) + 2) = landSet L 2 k.val := by
            rw [land_union L (by omega) hlt', hk1]
          iintro ⟨HS0, HS1, ⟨⟨%D, HFl, HDw⟩, ⟨%D2, HFl2, HDw2⟩, Hfut, Hland⟩, HS3, ⟨#Hmw, %W', %hW', HO⟩⟩
          sl_exec
          ihave Hmw1 := (Transfers.MayWaits.elim (SemLoc.dma cc1_scratch11.sem)) $$ Hmw
          iapply (Transfers.wp_waitLocalO countersEmb 𝒱₀ (tV d L) none (default : HIx 1) rfl) $$ [HFl HO Hmw1]
          · isplitl [HFl]; · iexact HFl
            isplitl [HO]; · iexact HO
            iexact Hmw1
          iintro ⟨HD, Hg, HO⟩
          ihave HG := HDw $$ HD
          icases HG with ⟨Hr, Hx, Hy⟩
          sl_exec
          ihave Hmw1 := (Transfers.MayWaits.elim (SemLoc.dma cc1_scratch15.sem)) $$ Hmw
          iapply (Transfers.wp_waitLocalO countersEmb 𝒱₀ (tV d L) none (default : HIx 1) rfl) $$ [HFl2 HO Hmw1]
          · isplitl [HFl2]; · iexact HFl2
            isplitl [HO]; · iexact HO
            iexact Hmw1
          iintro ⟨HD2, Hw, HO⟩
          ihave HW := HDw2 $$ HD2
          icases HW with ⟨⟨%fb, Hb⟩, Hrows⟩
          ihave Hland := (pointsTo_union (ℓ := (oV).view.loc (tV d L)) (land_disj L (b := 2) (a := k.val - 1) (by omega))).2 $$ [Hland Hrows]
          · isplitl [Hland]; · iexact Hland
            iexact Hrows
          ihave Hland := (Entails.of_eq (congrArg (fun S => ((oV).view.loc (tV d L) ↦[S]{fullShare} Out m d : sProp 𝕄)) hland)) $$ Hland
          sl_exec
          first
          | (iapply (wp_use_bind _ _ _ (inner2 d L _ _ _ _ k h11 _ _)) $$ [Hr Hb])
          | (iapply (wp_use _ _ _ (inner2 d L _ _ _ _ k h11 _ _)) $$ [Hr Hb])
          · isplitl [Hr]; · iexact Hr
            iexact Hb
          iintro %a ⟨Hr, Hb⟩
          ihave Hfut := (pointsTo_split_subset (ℓ := (oV).view.loc (tV d L)) (chunk_sub_fut L (b := 2) (a := k.val) (by omega) hlt)).1 $$ Hfut
          icases Hfut with ⟨Hch, Hfut⟩
          ihave Hfut := (Entails.of_eq (congrArg (fun S => ((oV).view.loc (tV d L) ↦[S]{fullShare} m (oLoc d) : sProp 𝕄)) (fut_sdiff L (b := 2) (a := k.val) (by omega)))) $$ Hfut
          ihave Hch := (Entails.of_eq (congrArg (fun S => ((oV).view.loc (tV d L) ↦[S]{fullShare} m (oLoc d) : sProp 𝕄)) (set_oslice2 L k (k1_off58_inb L k h11)).symm)) $$ Hch
          sl_exec
          ihave Hb := (Entails.of_eq (show ((bV2).view.loc (tV d L) ↦{fullShare} maxBlk (Rg m d L (4 * k.val + 2)) : sProp 𝕄)
              = ((bV2).view.loc (tV d L) ↦[(bV2).view.set]{fullShare} maxBlk (Rg m d L (4 * k.val + 2))) from by
                rw [Memref.IsWhole.set_eq_univ (Memref.isWhole_whole _)])) $$ Hb
          iapply (Transfers.wp_dmaLocal countersEmb 𝒱₀ (tV d L) none (default : HIx 1) WN rfl (by decide) (Finset.Subset.refl _)) $$ [Hb Hch Hw]
          · isplitl [Hb]; · iexact Hb
            isplitl [Hch]; · iexact Hch
            iexact Hw
          iintro HflW
          by_cases hre : 4 * k.val + 2 + 4 < nCh L
          · have hc2 := (cond13_iff L k).mpr hre
            have h1' : k.val + 1 < Nb L 2 := by unfold Nb; omega
            have hoff : k1_off59 L k 0 = loff L + 128 * (4 * (k.val + 1) + 2) := by
              rw [off59_eq L k h11 hc2]; show loff L + 128 * (4 * k.val + 2 + 4) = _; omega
            have hfutE : k.val + 1 = k.val + 1 := rfl
            have hlandE : k.val = k.val + 1 - 1 := by omega
            have hsetW : (oV.slice (Rect.unit (s := S25000x128) (k1_off58 L k) S8x128.size (k1_off58_inb L k h11)) (fun _ => rfl)).view.set = chunkSet L (4 * (k.val + 1 - 1) + 2) := by
              rw [set_oslice2 L k _]; congr 1
            sl_exec
            have hR : (rV2).view.writes (Elt F) (Rg m d L (4 * k.val + 2)) [⟨Rect.whole S128x128, trip_ok.sl.gather0_5 m d L k hin h11 hc2⟩] = Rg m d L (4 * (k.val + 1) + 2) := by
              unfold trip_ok.sl.gather0_5
              exact gather_land2 m d L hpre (4 * (k.val + 1) + 2) (by omega) _ _ hoff _ _ _
            iapply hK
            isplitl [HS0]; · iexact HS0
            isplitl [HS1]; · iexact HS1
            isplitr [HS3 HO]
            · iapply (slot2_pp m d L (k' := k.val + 1) h1' (by omega))
              isplitl [Hg Hy Hr Hx]
              · iexists _
                isplitl [Hg]; · iexact Hg
                iintro ⟨⟨Hrs, Hxs⟩, Hys⟩
                ihave Hys := (pointsTo_split_subset (ℓ := (yV).view.loc (tV d L)) (Finset.subset_univ _)).2 $$ [Hys Hy]
                · isplitl [Hys]; · iexact Hys
                  iexact Hy
                ihave Hxs := (pointsTo_split_subset (ℓ := (xV).view.loc (tV d L)) (Finset.subset_univ _)).2 $$ [Hxs Hx]
                · isplitl [Hxs]; · iexact Hxs
                  iexact Hx
                ihave Hrs := (pointsTo_split_subset (ℓ := (rV2).view.loc (tV d L)) (Finset.subset_univ _)).2 $$ [Hrs Hr]
                · isplitl [Hrs]; · iexact Hrs
                  iexact Hr
                ihave Hrs := (Entails.of_eq (congrArg (fun f => ((rV2).view.loc (tV d L) ↦{fullShare} f : sProp 𝕄)) hR)) $$ Hrs
                isplitl [Hrs]; · iexact Hrs
                isplitl [Hxs]; · iexact Hxs
                iexact Hys
              isplitl [HflW]
              · iexists _
                isplitl [HflW]; · iexact HflW
                iintro ⟨Hch, Hb⟩
                isplitl [Hb]
                · iexists _
                  iapply (Entails.of_eq (show ((bV2).view.loc (tV d L) ↦[(bV2).view.set]{fullShare} maxBlk (Rg m d L (4 * k.val + 2)) : sProp 𝕄)
                    = ((bV2).view.loc (tV d L) ↦{fullShare} maxBlk (Rg m d L (4 * k.val + 2))) from by
                      rw [Memref.IsWhole.set_eq_univ (Memref.isWhole_whole _)])) $$ Hb
                · iapply (Entails.of_eq ((pointsTo_congr (ℓ := (oV).view.loc (tV d L)) (fun j hj => write_val2 m d L hpre k (k1_off58_inb L k h11) hlt (m (oLoc d)) j hj)).trans
                    (congrArg (fun S => ((oV).view.loc (tV d L) ↦[S]{fullShare} Out m d : sProp 𝕄)) hsetW))) $$ Hch
              isplitl [Hfut]
              · iapply (Entails.of_eq (congrArg (fun a => ((oV).view.loc (tV d L) ↦[futSet L 2 a]{fullShare} m (oLoc d) : sProp 𝕄)) hfutE)) $$ Hfut
              iapply (Entails.of_eq (congrArg (fun a => ((oV).view.loc (tV d L) ↦[landSet L 2 a]{fullShare} Out m d : sProp 𝕄)) hlandE)) $$ Hland
            isplitl [HS3]; · iexact HS3
            iapply (ow_intro d L O W)
            isplitr; · iexact Hmw
            iexists (insert (SemLoc.dma cc1_scratch15.sem, (default : HIx 1)) (insert (SemLoc.dma cc1_scratch11.sem, (default : HIx 1)) W'))
            isplitr
            · ipureintro; intro p hp
              rcases Finset.mem_insert.mp hp with rfl | hp
              · exact Or.inr rfl
              rcases Finset.mem_insert.mp hp with rfl | hp
              · exact Or.inr rfl
              · exact hW' p hp
            · iexact HO
          · have hc2 : ¬ (k1_cond13 L k = 1#1) := fun h => hre ((cond13_iff L k).mp h)
            have hNb : Nb L 2 = k.val + 1 := by unfold Nb at hact ⊢; omega
            have h1' : ¬ k.val + 1 < Nb L 2 := by omega
            have hfutE : k.val + 1 = Nb L 2 := hNb.symm
            have hlandE : k.val = Nb L 2 - 1 := by omega
            have hsetW : (oV.slice (Rect.unit (s := S25000x128) (k1_off58 L k) S8x128.size (k1_off58_inb L k h11)) (fun _ => rfl)).view.set = chunkSet L (4 * (Nb L 2 - 1) + 2) := by
              rw [set_oslice2 L k _, hNb]; congr 1
            sl_exec
            iapply hK
            isplitl [HS0]; · iexact HS0
            isplitl [HS1]; · iexact HS1
            isplitr [HS3 HO]
            · iapply (slot2_ip m d L (k' := k.val + 1) h1' (by omega))
              isplitl [Hg Hy Hr Hx]
              · isplitr [Hg]
                · isplitl [Hr]; · (iexists _; iexact Hr)
                  isplitl [Hx]; · iexact Hx
                  iexact Hy
                · iexact Hg
              isplitl [HflW]
              · iexists _
                isplitl [HflW]; · iexact HflW
                iintro ⟨Hch, Hb⟩
                isplitl [Hb]
                · iexists _
                  iapply (Entails.of_eq (show ((bV2).view.loc (tV d L) ↦[(bV2).view.set]{fullShare} maxBlk (Rg m d L (4 * k.val + 2)) : sProp 𝕄)
                    = ((bV2).view.loc (tV d L) ↦{fullShare} maxBlk (Rg m d L (4 * k.val + 2))) from by
                      rw [Memref.IsWhole.set_eq_univ (Memref.isWhole_whole _)])) $$ Hb
                · iapply (Entails.of_eq ((pointsTo_congr (ℓ := (oV).view.loc (tV d L)) (fun j hj => write_val2 m d L hpre k (k1_off58_inb L k h11) hlt (m (oLoc d)) j hj)).trans
                    (congrArg (fun S => ((oV).view.loc (tV d L) ↦[S]{fullShare} Out m d : sProp 𝕄)) hsetW))) $$ Hch
              isplitl [Hfut]
              · iapply (Entails.of_eq (congrArg (fun a => ((oV).view.loc (tV d L) ↦[futSet L 2 a]{fullShare} m (oLoc d) : sProp 𝕄)) hfutE)) $$ Hfut
              iapply (Entails.of_eq (congrArg (fun a => ((oV).view.loc (tV d L) ↦[landSet L 2 a]{fullShare} Out m d : sProp 𝕄)) hlandE)) $$ Hland
            isplitl [HS3]; · iexact HS3
            iapply (ow_intro d L O W)
            isplitr; · iexact Hmw
            iexists (insert (SemLoc.dma cc1_scratch15.sem, (default : HIx 1)) (insert (SemLoc.dma cc1_scratch11.sem, (default : HIx 1)) W'))
            isplitr
            · ipureintro; intro p hp
              rcases Finset.mem_insert.mp hp with rfl | hp
              · exact Or.inr rfl
              rcases Finset.mem_insert.mp hp with rfl | hp
              · exact Or.inr rfl
              · exact hW' p hp
            · iexact HO
      · intro h11
        have hN := nCh_cases L
        have hna : ¬ k.val < Nb L 2 := fun h => h11 ((cond11_iff L k).mpr (by unfold Nb at h; omega))
        iintro ⟨HS0, HS1, HS2, HS3, HOW⟩
        isplitl [HS0]; · iexact HS0
        isplitl [HS1]; · iexact HS1
        isplitl [HS2]; · iapply (slot2_stay m d L (k' := k.val) hna) $$ HS2
        isplitl [HS3]; · iexact HS3
        iexact HOW
      · refine wp_dite_else _ _ _ (Mid := iprop(Slot0 m d L (k.val + 1) ∗ Slot1 m d L (k.val + 1) ∗ Slot2 m d L (k.val + 1) ∗ Slot3 m d L (k.val + 1) ∗ OW (F := F) d L O W)) ?_ ?_ ?_
        · intro h14 hK
          have hN := nCh_cases L
          have hact : k.val < Nb L 3 := by have := (cond14_iff L k).mp h14; unfold Nb; omega
          have hlt : 4 * k.val + 3 < nCh L := (cond14_iff L k).mp h14
          unfold Slot3 OW
          rw [if_pos hact, Nat.min_eq_left (Nat.le_of_lt hact)]
          by_cases hk0 : k.val = 0
          · rw [if_pos hk0]
            have hv97 : ¬ (Scalar.cmpi .ne (Scalar.extui (Scalar.cmpi .sge (Scalar.addi (Scalar.muli (Scf.iv 0#32 1#32 k.val) 4#32) 3#32) 4#32)) 0#32 = 1#1) :=
              fun h => by have := (sge3_iff L k).mp h; omega
            iintro ⟨HS0, HS1, HS2, ⟨⟨%D, HFl, HDw⟩, ⟨⟨%fb, Hb⟩, Hw⟩, Hfut, Hland⟩, ⟨#Hmw, %W', %hW', HO⟩⟩
            sl_exec
            ihave Hmw1 := (Transfers.MayWaits.elim (SemLoc.dma cc1_scratch12.sem)) $$ Hmw
            iapply (Transfers.wp_waitLocalO countersEmb 𝒱₀ (tV d L) none (default : HIx 1) rfl) $$ [HFl HO Hmw1]
            · isplitl [HFl]; · iexact HFl
              isplitl [HO]; · iexact HO
              iexact Hmw1
            iintro ⟨HD, Hg, HO⟩
            ihave HG := HDw $$ HD
            icases HG with ⟨Hr, Hx, Hy⟩
            sl_exec
            ihave Hland := (Entails.of_eq (congrArg (fun a => ((oV).view.loc (tV d L) ↦[landSet L 3 a]{fullShare} Out m d : sProp 𝕄)) (by omega : k.val - 1 = k.val))) $$ Hland
            first
            | (iapply (wp_use_bind _ _ _ (inner3 d L _ _ _ _ k h14 _ _)) $$ [Hr Hb])
            | (iapply (wp_use _ _ _ (inner3 d L _ _ _ _ k h14 _ _)) $$ [Hr Hb])
            · isplitl [Hr]; · iexact Hr
              iexact Hb
            iintro %a ⟨Hr, Hb⟩
            ihave Hfut := (pointsTo_split_subset (ℓ := (oV).view.loc (tV d L)) (chunk_sub_fut L (b := 3) (a := k.val) (by omega) hlt)).1 $$ Hfut
            icases Hfut with ⟨Hch, Hfut⟩
            ihave Hfut := (Entails.of_eq (congrArg (fun S => ((oV).view.loc (tV d L) ↦[S]{fullShare} m (oLoc d) : sProp 𝕄)) (fut_sdiff L (b := 3) (a := k.val) (by omega)))) $$ Hfut
            ihave Hch := (Entails.of_eq (congrArg (fun S => ((oV).view.loc (tV d L) ↦[S]{fullShare} m (oLoc d) : sProp 𝕄)) (set_oslice3 L k (k1_off76_inb L k h14)).symm)) $$ Hch
            sl_exec
            ihave Hb := (Entails.of_eq (show ((bV3).view.loc (tV d L) ↦{fullShare} maxBlk (Rg m d L (4 * k.val + 3)) : sProp 𝕄)
                = ((bV3).view.loc (tV d L) ↦[(bV3).view.set]{fullShare} maxBlk (Rg m d L (4 * k.val + 3))) from by
                  rw [Memref.IsWhole.set_eq_univ (Memref.isWhole_whole _)])) $$ Hb
            iapply (Transfers.wp_dmaLocal countersEmb 𝒱₀ (tV d L) none (default : HIx 1) WN rfl (by decide) (Finset.Subset.refl _)) $$ [Hb Hch Hw]
            · isplitl [Hb]; · iexact Hb
              isplitl [Hch]; · iexact Hch
              iexact Hw
            iintro HflW
            by_cases hre : 4 * k.val + 3 + 4 < nCh L
            · have hc2 := (cond16_iff L k).mpr hre
              have h1' : k.val + 1 < Nb L 3 := by unfold Nb; omega
              have hoff : k1_off77 L k 0 = loff L + 128 * (4 * (k.val + 1) + 3) := by
                rw [off77_eq L k h14 hc2]; show loff L + 128 * (4 * k.val + 3 + 4) = _; omega
              have hfutE : k.val + 1 = k.val + 1 := rfl
              have hlandE : k.val = k.val + 1 - 1 := by omega
              have hsetW : (oV.slice (Rect.unit (s := S25000x128) (k1_off76 L k) S8x128.size (k1_off76_inb L k h14)) (fun _ => rfl)).view.set = chunkSet L (4 * (k.val + 1 - 1) + 3) := by
                rw [set_oslice3 L k _]; congr 1
              sl_exec
              have hR : (rV3).view.writes (Elt F) (Rg m d L (4 * k.val + 3)) [⟨Rect.whole S128x128, trip_ok.sl.gather0_6 m d L k hin h14 hc2⟩] = Rg m d L (4 * (k.val + 1) + 3) := by
                unfold trip_ok.sl.gather0_6
                exact gather_land3 m d L hpre (4 * (k.val + 1) + 3) (by omega) _ _ hoff _ _ _
              iapply hK
              isplitl [HS0]; · iexact HS0
              isplitl [HS1]; · iexact HS1
              isplitl [HS2]; · iexact HS2
              isplitr [HO]
              · iapply (slot3_pp m d L (k' := k.val + 1) h1' (by omega))
                isplitl [Hg Hy Hr Hx]
                · iexists _
                  isplitl [Hg]; · iexact Hg
                  iintro ⟨⟨Hrs, Hxs⟩, Hys⟩
                  ihave Hys := (pointsTo_split_subset (ℓ := (yV).view.loc (tV d L)) (Finset.subset_univ _)).2 $$ [Hys Hy]
                  · isplitl [Hys]; · iexact Hys
                    iexact Hy
                  ihave Hxs := (pointsTo_split_subset (ℓ := (xV).view.loc (tV d L)) (Finset.subset_univ _)).2 $$ [Hxs Hx]
                  · isplitl [Hxs]; · iexact Hxs
                    iexact Hx
                  ihave Hrs := (pointsTo_split_subset (ℓ := (rV3).view.loc (tV d L)) (Finset.subset_univ _)).2 $$ [Hrs Hr]
                  · isplitl [Hrs]; · iexact Hrs
                    iexact Hr
                  ihave Hrs := (Entails.of_eq (congrArg (fun f => ((rV3).view.loc (tV d L) ↦{fullShare} f : sProp 𝕄)) hR)) $$ Hrs
                  isplitl [Hrs]; · iexact Hrs
                  isplitl [Hxs]; · iexact Hxs
                  iexact Hys
                isplitl [HflW]
                · iexists _
                  isplitl [HflW]; · iexact HflW
                  iintro ⟨Hch, Hb⟩
                  isplitl [Hb]
                  · iexists _
                    iapply (Entails.of_eq (show ((bV3).view.loc (tV d L) ↦[(bV3).view.set]{fullShare} maxBlk (Rg m d L (4 * k.val + 3)) : sProp 𝕄)
                      = ((bV3).view.loc (tV d L) ↦{fullShare} maxBlk (Rg m d L (4 * k.val + 3))) from by
                        rw [Memref.IsWhole.set_eq_univ (Memref.isWhole_whole _)])) $$ Hb
                  · iapply (Entails.of_eq ((pointsTo_congr (ℓ := (oV).view.loc (tV d L)) (fun j hj => write_val3 m d L hpre k (k1_off76_inb L k h14) hlt (m (oLoc d)) j hj)).trans
                      (congrArg (fun S => ((oV).view.loc (tV d L) ↦[S]{fullShare} Out m d : sProp 𝕄)) hsetW))) $$ Hch
                isplitl [Hfut]
                · iapply (Entails.of_eq (congrArg (fun a => ((oV).view.loc (tV d L) ↦[futSet L 3 a]{fullShare} m (oLoc d) : sProp 𝕄)) hfutE)) $$ Hfut
                iapply (Entails.of_eq (congrArg (fun a => ((oV).view.loc (tV d L) ↦[landSet L 3 a]{fullShare} Out m d : sProp 𝕄)) hlandE)) $$ Hland
              iapply (ow_intro d L O W)
              isplitr; · iexact Hmw
              iexists (insert (SemLoc.dma cc1_scratch12.sem, (default : HIx 1)) W')
              isplitr
              · ipureintro; intro p hp
                rcases Finset.mem_insert.mp hp with rfl | hp
                · exact Or.inr rfl
                · exact hW' p hp
              · iexact HO
            · have hc2 : ¬ (k1_cond16 L k = 1#1) := fun h => hre ((cond16_iff L k).mp h)
              have hNb : Nb L 3 = k.val + 1 := by unfold Nb at hact ⊢; omega
              have h1' : ¬ k.val + 1 < Nb L 3 := by omega
              have hfutE : k.val + 1 = Nb L 3 := hNb.symm
              have hlandE : k.val = Nb L 3 - 1 := by omega
              have hsetW : (oV.slice (Rect.unit (s := S25000x128) (k1_off76 L k) S8x128.size (k1_off76_inb L k h14)) (fun _ => rfl)).view.set = chunkSet L (4 * (Nb L 3 - 1) + 3) := by
                rw [set_oslice3 L k _, hNb]; congr 1
              sl_exec
              iapply hK
              isplitl [HS0]; · iexact HS0
              isplitl [HS1]; · iexact HS1
              isplitl [HS2]; · iexact HS2
              isplitr [HO]
              · iapply (slot3_ip m d L (k' := k.val + 1) h1' (by omega))
                isplitl [Hg Hy Hr Hx]
                · isplitr [Hg]
                  · isplitl [Hr]; · (iexists _; iexact Hr)
                    isplitl [Hx]; · iexact Hx
                    iexact Hy
                  · iexact Hg
                isplitl [HflW]
                · iexists _
                  isplitl [HflW]; · iexact HflW
                  iintro ⟨Hch, Hb⟩
                  isplitl [Hb]
                  · iexists _
                    iapply (Entails.of_eq (show ((bV3).view.loc (tV d L) ↦[(bV3).view.set]{fullShare} maxBlk (Rg m d L (4 * k.val + 3)) : sProp 𝕄)
                      = ((bV3).view.loc (tV d L) ↦{fullShare} maxBlk (Rg m d L (4 * k.val + 3))) from by
                        rw [Memref.IsWhole.set_eq_univ (Memref.isWhole_whole _)])) $$ Hb
                  · iapply (Entails.of_eq ((pointsTo_congr (ℓ := (oV).view.loc (tV d L)) (fun j hj => write_val3 m d L hpre k (k1_off76_inb L k h14) hlt (m (oLoc d)) j hj)).trans
                      (congrArg (fun S => ((oV).view.loc (tV d L) ↦[S]{fullShare} Out m d : sProp 𝕄)) hsetW))) $$ Hch
                isplitl [Hfut]
                · iapply (Entails.of_eq (congrArg (fun a => ((oV).view.loc (tV d L) ↦[futSet L 3 a]{fullShare} m (oLoc d) : sProp 𝕄)) hfutE)) $$ Hfut
                iapply (Entails.of_eq (congrArg (fun a => ((oV).view.loc (tV d L) ↦[landSet L 3 a]{fullShare} Out m d : sProp 𝕄)) hlandE)) $$ Hland
              iapply (ow_intro d L O W)
              isplitr; · iexact Hmw
              iexists (insert (SemLoc.dma cc1_scratch12.sem, (default : HIx 1)) W')
              isplitr
              · ipureintro; intro p hp
                rcases Finset.mem_insert.mp hp with rfl | hp
                · exact Or.inr rfl
                · exact hW' p hp
              · iexact HO
          · rw [if_neg hk0]
            have hv97 := (sge3_iff L k).mpr (by omega)
            have hk1 : k.val - 1 + 1 = k.val := by omega
            have hlt' : 4 * (k.val - 1) + 3 < nCh L := by omega
            have hland : landSet L 3 (k.val - 1) ∪ chunkSet L (4 * (k.val - 1) + 3) = landSet L 3 k.val := by
              rw [land_union L (by omega) hlt', hk1]
            iintro ⟨HS0, HS1, HS2, ⟨⟨%D, HFl, HDw⟩, ⟨%D2, HFl2, HDw2⟩, Hfut, Hland⟩, ⟨#Hmw, %W', %hW', HO⟩⟩
            sl_exec
            ihave Hmw1 := (Transfers.MayWaits.elim (SemLoc.dma cc1_scratch12.sem)) $$ Hmw
            iapply (Transfers.wp_waitLocalO countersEmb 𝒱₀ (tV d L) none (default : HIx 1) rfl) $$ [HFl HO Hmw1]
            · isplitl [HFl]; · iexact HFl
              isplitl [HO]; · iexact HO
              iexact Hmw1
            iintro ⟨HD, Hg, HO⟩
            ihave HG := HDw $$ HD
            icases HG with ⟨Hr, Hx, Hy⟩
            sl_exec
            ihave Hmw1 := (Transfers.MayWaits.elim (SemLoc.dma cc1_scratch16.sem)) $$ Hmw
            iapply (Transfers.wp_waitLocalO countersEmb 𝒱₀ (tV d L) none (default : HIx 1) rfl) $$ [HFl2 HO Hmw1]
            · isplitl [HFl2]; · iexact HFl2
              isplitl [HO]; · iexact HO
              iexact Hmw1
            iintro ⟨HD2, Hw, HO⟩
            ihave HW := HDw2 $$ HD2
            icases HW with ⟨⟨%fb, Hb⟩, Hrows⟩
            ihave Hland := (pointsTo_union (ℓ := (oV).view.loc (tV d L)) (land_disj L (b := 3) (a := k.val - 1) (by omega))).2 $$ [Hland Hrows]
            · isplitl [Hland]; · iexact Hland
              iexact Hrows
            ihave Hland := (Entails.of_eq (congrArg (fun S => ((oV).view.loc (tV d L) ↦[S]{fullShare} Out m d : sProp 𝕄)) hland)) $$ Hland
            sl_exec
            first
            | (iapply (wp_use_bind _ _ _ (inner3 d L _ _ _ _ k h14 _ _)) $$ [Hr Hb])
            | (iapply (wp_use _ _ _ (inner3 d L _ _ _ _ k h14 _ _)) $$ [Hr Hb])
            · isplitl [Hr]; · iexact Hr
              iexact Hb
            iintro %a ⟨Hr, Hb⟩
            ihave Hfut := (pointsTo_split_subset (ℓ := (oV).view.loc (tV d L)) (chunk_sub_fut L (b := 3) (a := k.val) (by omega) hlt)).1 $$ Hfut
            icases Hfut with ⟨Hch, Hfut⟩
            ihave Hfut := (Entails.of_eq (congrArg (fun S => ((oV).view.loc (tV d L) ↦[S]{fullShare} m (oLoc d) : sProp 𝕄)) (fut_sdiff L (b := 3) (a := k.val) (by omega)))) $$ Hfut
            ihave Hch := (Entails.of_eq (congrArg (fun S => ((oV).view.loc (tV d L) ↦[S]{fullShare} m (oLoc d) : sProp 𝕄)) (set_oslice3 L k (k1_off76_inb L k h14)).symm)) $$ Hch
            sl_exec
            ihave Hb := (Entails.of_eq (show ((bV3).view.loc (tV d L) ↦{fullShare} maxBlk (Rg m d L (4 * k.val + 3)) : sProp 𝕄)
                = ((bV3).view.loc (tV d L) ↦[(bV3).view.set]{fullShare} maxBlk (Rg m d L (4 * k.val + 3))) from by
                  rw [Memref.IsWhole.set_eq_univ (Memref.isWhole_whole _)])) $$ Hb
            iapply (Transfers.wp_dmaLocal countersEmb 𝒱₀ (tV d L) none (default : HIx 1) WN rfl (by decide) (Finset.Subset.refl _)) $$ [Hb Hch Hw]
            · isplitl [Hb]; · iexact Hb
              isplitl [Hch]; · iexact Hch
              iexact Hw
            iintro HflW
            by_cases hre : 4 * k.val + 3 + 4 < nCh L
            · have hc2 := (cond16_iff L k).mpr hre
              have h1' : k.val + 1 < Nb L 3 := by unfold Nb; omega
              have hoff : k1_off77 L k 0 = loff L + 128 * (4 * (k.val + 1) + 3) := by
                rw [off77_eq L k h14 hc2]; show loff L + 128 * (4 * k.val + 3 + 4) = _; omega
              have hfutE : k.val + 1 = k.val + 1 := rfl
              have hlandE : k.val = k.val + 1 - 1 := by omega
              have hsetW : (oV.slice (Rect.unit (s := S25000x128) (k1_off76 L k) S8x128.size (k1_off76_inb L k h14)) (fun _ => rfl)).view.set = chunkSet L (4 * (k.val + 1 - 1) + 3) := by
                rw [set_oslice3 L k _]; congr 1
              sl_exec
              have hR : (rV3).view.writes (Elt F) (Rg m d L (4 * k.val + 3)) [⟨Rect.whole S128x128, trip_ok.sl.gather0_7 m d L k hin h14 hc2⟩] = Rg m d L (4 * (k.val + 1) + 3) := by
                unfold trip_ok.sl.gather0_7
                exact gather_land3 m d L hpre (4 * (k.val + 1) + 3) (by omega) _ _ hoff _ _ _
              iapply hK
              isplitl [HS0]; · iexact HS0
              isplitl [HS1]; · iexact HS1
              isplitl [HS2]; · iexact HS2
              isplitr [HO]
              · iapply (slot3_pp m d L (k' := k.val + 1) h1' (by omega))
                isplitl [Hg Hy Hr Hx]
                · iexists _
                  isplitl [Hg]; · iexact Hg
                  iintro ⟨⟨Hrs, Hxs⟩, Hys⟩
                  ihave Hys := (pointsTo_split_subset (ℓ := (yV).view.loc (tV d L)) (Finset.subset_univ _)).2 $$ [Hys Hy]
                  · isplitl [Hys]; · iexact Hys
                    iexact Hy
                  ihave Hxs := (pointsTo_split_subset (ℓ := (xV).view.loc (tV d L)) (Finset.subset_univ _)).2 $$ [Hxs Hx]
                  · isplitl [Hxs]; · iexact Hxs
                    iexact Hx
                  ihave Hrs := (pointsTo_split_subset (ℓ := (rV3).view.loc (tV d L)) (Finset.subset_univ _)).2 $$ [Hrs Hr]
                  · isplitl [Hrs]; · iexact Hrs
                    iexact Hr
                  ihave Hrs := (Entails.of_eq (congrArg (fun f => ((rV3).view.loc (tV d L) ↦{fullShare} f : sProp 𝕄)) hR)) $$ Hrs
                  isplitl [Hrs]; · iexact Hrs
                  isplitl [Hxs]; · iexact Hxs
                  iexact Hys
                isplitl [HflW]
                · iexists _
                  isplitl [HflW]; · iexact HflW
                  iintro ⟨Hch, Hb⟩
                  isplitl [Hb]
                  · iexists _
                    iapply (Entails.of_eq (show ((bV3).view.loc (tV d L) ↦[(bV3).view.set]{fullShare} maxBlk (Rg m d L (4 * k.val + 3)) : sProp 𝕄)
                      = ((bV3).view.loc (tV d L) ↦{fullShare} maxBlk (Rg m d L (4 * k.val + 3))) from by
                        rw [Memref.IsWhole.set_eq_univ (Memref.isWhole_whole _)])) $$ Hb
                  · iapply (Entails.of_eq ((pointsTo_congr (ℓ := (oV).view.loc (tV d L)) (fun j hj => write_val3 m d L hpre k (k1_off76_inb L k h14) hlt (m (oLoc d)) j hj)).trans
                      (congrArg (fun S => ((oV).view.loc (tV d L) ↦[S]{fullShare} Out m d : sProp 𝕄)) hsetW))) $$ Hch
                isplitl [Hfut]
                · iapply (Entails.of_eq (congrArg (fun a => ((oV).view.loc (tV d L) ↦[futSet L 3 a]{fullShare} m (oLoc d) : sProp 𝕄)) hfutE)) $$ Hfut
                iapply (Entails.of_eq (congrArg (fun a => ((oV).view.loc (tV d L) ↦[landSet L 3 a]{fullShare} Out m d : sProp 𝕄)) hlandE)) $$ Hland
              iapply (ow_intro d L O W)
              isplitr; · iexact Hmw
              iexists (insert (SemLoc.dma cc1_scratch16.sem, (default : HIx 1)) (insert (SemLoc.dma cc1_scratch12.sem, (default : HIx 1)) W'))
              isplitr
              · ipureintro; intro p hp
                rcases Finset.mem_insert.mp hp with rfl | hp
                · exact Or.inr rfl
                rcases Finset.mem_insert.mp hp with rfl | hp
                · exact Or.inr rfl
                · exact hW' p hp
              · iexact HO
            · have hc2 : ¬ (k1_cond16 L k = 1#1) := fun h => hre ((cond16_iff L k).mp h)
              have hNb : Nb L 3 = k.val + 1 := by unfold Nb at hact ⊢; omega
              have h1' : ¬ k.val + 1 < Nb L 3 := by omega
              have hfutE : k.val + 1 = Nb L 3 := hNb.symm
              have hlandE : k.val = Nb L 3 - 1 := by omega
              have hsetW : (oV.slice (Rect.unit (s := S25000x128) (k1_off76 L k) S8x128.size (k1_off76_inb L k h14)) (fun _ => rfl)).view.set = chunkSet L (4 * (Nb L 3 - 1) + 3) := by
                rw [set_oslice3 L k _, hNb]; congr 1
              sl_exec
              iapply hK
              isplitl [HS0]; · iexact HS0
              isplitl [HS1]; · iexact HS1
              isplitl [HS2]; · iexact HS2
              isplitr [HO]
              · iapply (slot3_ip m d L (k' := k.val + 1) h1' (by omega))
                isplitl [Hg Hy Hr Hx]
                · isplitr [Hg]
                  · isplitl [Hr]; · (iexists _; iexact Hr)
                    isplitl [Hx]; · iexact Hx
                    iexact Hy
                  · iexact Hg
                isplitl [HflW]
                · iexists _
                  isplitl [HflW]; · iexact HflW
                  iintro ⟨Hch, Hb⟩
                  isplitl [Hb]
                  · iexists _
                    iapply (Entails.of_eq (show ((bV3).view.loc (tV d L) ↦[(bV3).view.set]{fullShare} maxBlk (Rg m d L (4 * k.val + 3)) : sProp 𝕄)
                      = ((bV3).view.loc (tV d L) ↦{fullShare} maxBlk (Rg m d L (4 * k.val + 3))) from by
                        rw [Memref.IsWhole.set_eq_univ (Memref.isWhole_whole _)])) $$ Hb
                  · iapply (Entails.of_eq ((pointsTo_congr (ℓ := (oV).view.loc (tV d L)) (fun j hj => write_val3 m d L hpre k (k1_off76_inb L k h14) hlt (m (oLoc d)) j hj)).trans
                      (congrArg (fun S => ((oV).view.loc (tV d L) ↦[S]{fullShare} Out m d : sProp 𝕄)) hsetW))) $$ Hch
                isplitl [Hfut]
                · iapply (Entails.of_eq (congrArg (fun a => ((oV).view.loc (tV d L) ↦[futSet L 3 a]{fullShare} m (oLoc d) : sProp 𝕄)) hfutE)) $$ Hfut
                iapply (Entails.of_eq (congrArg (fun a => ((oV).view.loc (tV d L) ↦[landSet L 3 a]{fullShare} Out m d : sProp 𝕄)) hlandE)) $$ Hland
              iapply (ow_intro d L O W)
              isplitr; · iexact Hmw
              iexists (insert (SemLoc.dma cc1_scratch16.sem, (default : HIx 1)) (insert (SemLoc.dma cc1_scratch12.sem, (default : HIx 1)) W'))
              isplitr
              · ipureintro; intro p hp
                rcases Finset.mem_insert.mp hp with rfl | hp
                · exact Or.inr rfl
                rcases Finset.mem_insert.mp hp with rfl | hp
                · exact Or.inr rfl
                · exact hW' p hp
              · iexact HO
        · intro h14
          have hN := nCh_cases L
          have hna : ¬ k.val < Nb L 3 := fun h => h14 ((cond14_iff L k).mpr (by unfold Nb at h; omega))
          iintro ⟨HS0, HS1, HS2, HS3, HOW⟩
          isplitl [HS0]; · iexact HS0
          isplitl [HS1]; · iexact HS1
          isplitl [HS2]; · iexact HS2
          isplitl [HS3]; · iapply (slot3_stay m d L (k' := k.val) hna) $$ HS3
          iexact HOW
        · apply le_wp_ret
          all_goals exact wpE (defs₀ (F := F)) 𝒱₀ (tV d L) none

set_option maxHeartbeats 4000000 in
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ tileRes m d (cL L) (sL L) (m (oLoc d))
        ∗ scopedBufs (tV d L) ∗ scopedSems0 (tV d L) ∗ owes (tV d L) O W)
      ⊢ wp frame (wpE (defs₀ (F := F)) 𝒱₀ (tV d L) none) Set.univ
          (cc1_gm L yV (Memref.isWhole_whole _) iV (Memref.isWhole_whole _) oV (Memref.isWhole_whole _) xV (Memref.isWhole_whole _)
            rV0 (Memref.isWhole_whole _) rV1 (Memref.isWhole_whole _) rV2 (Memref.isWhole_whole _) rV3 (Memref.isWhole_whole _)
            bV0 (Memref.isWhole_whole _) bV1 (Memref.isWhole_whole _) bV2 (Memref.isWhole_whole _) bV3 (Memref.isWhole_whole _)
            cc1_scratch9 cc1_scratch10 cc1_scratch11 cc1_scratch12 cc1_scratch13 cc1_scratch14 cc1_scratch15 cc1_scratch16 cc1_scoped0)
          fun _ => iprop(tileRes m d (cL L) (sL L) (Out m d)
            ∗ scopedBufs (tV d L) ∗ scopedSems0 (tV d L)
            ∗ ∃ W', ⌜∀ p ∈ W', p ∈ W ∨ p.2 = none⌝ ∗ owes (tV d L) O W') := by
  simp only [cc1_gm_eq_skeleton]; unfold cc1_gm_skel
  rw [(K (F := F)).scopedBufs_V hF d (cV L) (jV L), SparseCore.Cfg.scopedSems0_V (Val := Elt F) d (cV L) (jV L), ownSems0_V, ownBufs_V]
  simp only [bufList, semList, List.map, sepList]
  unfold tileRes
  iintro ⟨#Hlv, -, ⟨Hy, Hi, Ho⟩, ⟨⟨%fx, Hx⟩, ⟨%fr0, Hr0⟩, ⟨%fr1, Hr1⟩, ⟨%fr2, Hr2⟩, ⟨%fr3, Hr3⟩, ⟨%fb0, Hb0⟩, ⟨%fb1, Hb1⟩, ⟨%fb2, Hb2⟩, ⟨%fb3, Hb3⟩, Hbufs⟩, ⟨Hs0, Hg0, Hg1, Hg2, Hg3, Hw0, Hw1, Hw2, Hw3, Hsems⟩, HO⟩
  ihave Hmw := (show levAts (K (F := F)).L (K (F := F)).lev ⊢ Transfers.MayWaits (tV d L) (default : HIx 1) O from
    (K (F := F)).mayWaits_none (thr := tV d L) hO) $$ Hlv
  ihave Hy := (Entails.of_eq (pts_yV (F := F) d L _ _).symm) $$ Hy
  ihave Hi := (Entails.of_eq (pts_iV (F := F) d L _ _).symm) $$ Hi
  ihave Ho := (Entails.of_eq (pts_oV (F := F) d L _ _).symm) $$ Ho
  ihave Hx := (Entails.of_eq (pts_scr (F := F) d L cc1_scratch0 _).symm) $$ Hx
  ihave Hr0 := (Entails.of_eq (pts_scr (F := F) d L cc1_scratch1 _).symm) $$ Hr0
  ihave Hr1 := (Entails.of_eq (pts_scr (F := F) d L cc1_scratch2 _).symm) $$ Hr1
  ihave Hr2 := (Entails.of_eq (pts_scr (F := F) d L cc1_scratch3 _).symm) $$ Hr2
  ihave Hr3 := (Entails.of_eq (pts_scr (F := F) d L cc1_scratch4 _).symm) $$ Hr3
  ihave Hb0 := (Entails.of_eq (pts_scr (F := F) d L cc1_scratch5 _).symm) $$ Hb0
  ihave Hb1 := (Entails.of_eq (pts_scr (F := F) d L cc1_scratch6 _).symm) $$ Hb1
  ihave Hb2 := (Entails.of_eq (pts_scr (F := F) d L cc1_scratch7 _).symm) $$ Hb2
  ihave Hb3 := (Entails.of_eq (pts_scr (F := F) d L cc1_scratch8 _).symm) $$ Hb3
  sl_exec
  have hX : View.write (Elt F) xV.view fx (tile_body.sl.dma0 m d L) Finset.univ = Xw m d L := by
    rw [View.write_whole_univ]; unfold tile_body.sl.dma0; exact fetch_eq m d L
  rw [hX]
  obtain ⟨hc1, hc2, hc3, hc4⟩ := cond1_true L
  have hin := hin_of_pre m d L hpre
  ihave Hy := (pointsTo_share (PosShare.mem_left_op_right _)).1 $$ Hy
  icases Hy with ⟨Hy, Hy0⟩
  ihave Hy := (pointsTo_share (PosShare.mem_left_op_right _)).1 $$ Hy
  icases Hy with ⟨Hy, Hy1⟩
  ihave Hy := (pointsTo_share (PosShare.mem_left_op_right _)).1 $$ Hy
  icases Hy with ⟨Hy3, Hy2⟩
  ihave Hx := (pointsTo_share (PosShare.mem_left_op_right _)).1 $$ Hx
  icases Hx with ⟨Hx, Hx0⟩
  ihave Hx := (pointsTo_share (PosShare.mem_left_op_right _)).1 $$ Hx
  icases Hx with ⟨Hx, Hx1⟩
  ihave Hx := (pointsTo_share (PosShare.mem_left_op_right _)).1 $$ Hx
  icases Hx with ⟨Hx3, Hx2⟩
  sl_exec
  sl_for (fun k (_ : PUnit) => iprop(Slot0 m d L k ∗ Slot1 m d L k ∗ Slot2 m d L k ∗ Slot3 m d L k ∗ OW (F := F) d L O W)) $$ [Hmw Hg0 Hy0 Hr0 Hx0 Hg1 Hy1 Hr1 Hx1 Hg2 Hy2 Hr2 Hx2 Hg3 Hy3 Hr3 Hx3 Hb0 Hb1 Hb2 Hb3 Hw0 Hw1 Hw2 Hw3 Ho HO]
  · intro k acc
    unfold tile_body.sl.prog.body_1
    exact trip_ok m d L hpre O W _ _ _ _ k acc
  · have hN : 0 < Nb L 0 ∧ 0 < Nb L 1 ∧ 0 < Nb L 2 ∧ 0 < Nb L 3 := by
      unfold Nb; rcases nCh_cases L with h | h <;> omega
    have hch : 3 < nCh L := by rcases nCh_cases L with h | h <;> omega
    have hR0 : (Memref.whole cc1_scratch1).view.writes (Elt F) fr0 [⟨Rect.whole cc1_scratch1.ty.shape, tile_body.sl.gather0 m d L hc1 hin⟩] = Rg m d L (4 * 0 + 0) := by
      have e := View.write_univ_eq_writes_whole (Val := Elt F) (View.whole cc1_scratch1) fr0 [] (tile_body.sl.gather0 m d L hc1 hin)
      rw [View.writes_nil, View.write_whole_univ] at e
      refine e.symm.trans ?_
      unfold tile_body.sl.gather0
      exact gather_val m d L hpre (4 * 0 + 0) (by omega) (k1_off2 L) _ (by rw [off2_eq L]; rfl) _ _
    have hP0 : ((rV0).view.loc (tV d L) ↦{fullShare} (Memref.whole cc1_scratch1).view.writes (Elt F) fr0 [⟨Rect.whole cc1_scratch1.ty.shape, tile_body.sl.gather0 m d L hc1 hin⟩] : sProp 𝕄)
        ⊢ (rV0).view.loc (tV d L) ↦{fullShare} Rg m d L (4 * 0 + 0) := Entails.of_eq (by rw [hR0])
    have hR1 : (Memref.whole cc1_scratch2).view.writes (Elt F) fr1 [⟨Rect.whole cc1_scratch2.ty.shape, tile_body.sl.gather1 m d L hc2 hin⟩] = Rg m d L (4 * 0 + 1) := by
      have e := View.write_univ_eq_writes_whole (Val := Elt F) (View.whole cc1_scratch2) fr1 [] (tile_body.sl.gather1 m d L hc2 hin)
      rw [View.writes_nil, View.write_whole_univ] at e
      refine e.symm.trans ?_
      unfold tile_body.sl.gather1
      exact gather_val m d L hpre (4 * 0 + 1) (by omega) (k1_off3 L) _ (by rw [off3_eq L]; rfl) _ _
    have hP1 : ((rV1).view.loc (tV d L) ↦{fullShare} (Memref.whole cc1_scratch2).view.writes (Elt F) fr1 [⟨Rect.whole cc1_scratch2.ty.shape, tile_body.sl.gather1 m d L hc2 hin⟩] : sProp 𝕄)
        ⊢ (rV1).view.loc (tV d L) ↦{fullShare} Rg m d L (4 * 0 + 1) := Entails.of_eq (by rw [hR1])
    have hR2 : (Memref.whole cc1_scratch3).view.writes (Elt F) fr2 [⟨Rect.whole cc1_scratch3.ty.shape, tile_body.sl.gather2 m d L hc3 hin⟩] = Rg m d L (4 * 0 + 2) := by
      have e := View.write_univ_eq_writes_whole (Val := Elt F) (View.whole cc1_scratch3) fr2 [] (tile_body.sl.gather2 m d L hc3 hin)
      rw [View.writes_nil, View.write_whole_univ] at e
      refine e.symm.trans ?_
      unfold tile_body.sl.gather2
      exact gather_val m d L hpre (4 * 0 + 2) (by omega) (k1_off4 L) _ (by rw [off4_eq L]; rfl) _ _
    have hP2 : ((rV2).view.loc (tV d L) ↦{fullShare} (Memref.whole cc1_scratch3).view.writes (Elt F) fr2 [⟨Rect.whole cc1_scratch3.ty.shape, tile_body.sl.gather2 m d L hc3 hin⟩] : sProp 𝕄)
        ⊢ (rV2).view.loc (tV d L) ↦{fullShare} Rg m d L (4 * 0 + 2) := Entails.of_eq (by rw [hR2])
    have hR3 : (Memref.whole cc1_scratch4).view.writes (Elt F) fr3 [⟨Rect.whole cc1_scratch4.ty.shape, tile_body.sl.gather3 m d L hc4 hin⟩] = Rg m d L (4 * 0 + 3) := by
      have e := View.write_univ_eq_writes_whole (Val := Elt F) (View.whole cc1_scratch4) fr3 [] (tile_body.sl.gather3 m d L hc4 hin)
      rw [View.writes_nil, View.write_whole_univ] at e
      refine e.symm.trans ?_
      unfold tile_body.sl.gather3
      exact gather_val m d L hpre (4 * 0 + 3) (by omega) (k1_off5 L) _ (by rw [off5_eq L]; rfl) _ _
    have hP3 : ((rV3).view.loc (tV d L) ↦{fullShare} (Memref.whole cc1_scratch4).view.writes (Elt F) fr3 [⟨Rect.whole cc1_scratch4.ty.shape, tile_body.sl.gather3 m d L hc4 hin⟩] : sProp 𝕄)
        ⊢ (rV3).view.loc (tV d L) ↦{fullShare} Rg m d L (4 * 0 + 3) := Entails.of_eq (by rw [hR3])
    have hOut : ((oV).view.loc (tV d L) ↦[outSet (wid (cL L) (sL L))]{fullShare} m (oLoc d) : sProp 𝕄)
        ⊢ iprop(((oV).view.loc (tV d L) ↦[futSet L 0 0]{fullShare} m (oLoc d)) ∗ ((oV).view.loc (tV d L) ↦[futSet L 1 0]{fullShare} m (oLoc d))
          ∗ ((oV).view.loc (tV d L) ↦[futSet L 2 0]{fullShare} m (oLoc d)) ∗ ((oV).view.loc (tV d L) ↦[futSet L 3 0]{fullShare} m (oLoc d))) := by
      rw [out_start L]
      have d23 : Disjoint (futSet L 2 0) (futSet L 3 0) := fut_disj L (by decide) 0 0
      have d1 : Disjoint (futSet L 1 0) (futSet L 2 0 ∪ futSet L 3 0) :=
        Finset.disjoint_union_right.mpr ⟨fut_disj L (by decide) 0 0, fut_disj L (by decide) 0 0⟩
      have d0 : Disjoint (futSet L 0 0) (futSet L 1 0 ∪ (futSet L 2 0 ∪ futSet L 3 0)) :=
        Finset.disjoint_union_right.mpr ⟨fut_disj L (by decide) 0 0,
          Finset.disjoint_union_right.mpr ⟨fut_disj L (by decide) 0 0, fut_disj L (by decide) 0 0⟩⟩
      iintro H
      ihave H := (pointsTo_union d0).1 $$ H
      icases H with ⟨H0, H⟩
      ihave H := (pointsTo_union d1).1 $$ H
      icases H with ⟨H1, H⟩
      ihave H := (pointsTo_union d23).1 $$ H
      icases H with ⟨H2, H3⟩
      isplitl [H0]; · iexact H0
      isplitl [H1]; · iexact H1
      isplitl [H2]; · iexact H2
      iexact H3
    have hS0 : ∀ D : sProp 𝕄, iprop(Transfers.Flight countersEmb (tV d L) (.dma cc1_scratch9.sem) default 524288 D
          ∗ (D -∗ iprop(((rV0).view.loc (tV d L) ↦{fullShare} Rg m d L (4 * 0 + 0)) ∗ ((xV).view.loc (tV d L) ↦{qx0} Xw m d L) ∗ ((yV).view.loc (tV d L) ↦{(qy0 L)} Ytc m d)))
          ∗ (∃ f, (bV0).view.loc (tV d L) ↦{fullShare} f) ∗ semVal (tV d L, .dma cc1_scratch13.sem) 0
          ∗ ((oV).view.loc (tV d L) ↦[futSet L 0 0]{fullShare} m (oLoc d)))
        ⊢ Slot0 m d L 0 := by
      intro D
      unfold Slot0
      rw [if_pos hN.1, Nat.zero_min, if_pos rfl, Nat.zero_sub, land_zero, pointsTo_empty]
      iintro ⟨Hg, Hd, Hb, Hw, Hf⟩
      isplitl [Hg Hd]
      · iexists D
        isplitl [Hg]; · iexact Hg
        iexact Hd
      isplitl [Hb Hw]
      · isplitl [Hb]; · iexact Hb
        iexact Hw
      isplitl [Hf]; · iexact Hf
      iempintro
    have hS1 : ∀ D : sProp 𝕄, iprop(Transfers.Flight countersEmb (tV d L) (.dma cc1_scratch10.sem) default 524288 D
          ∗ (D -∗ iprop(((rV1).view.loc (tV d L) ↦{fullShare} Rg m d L (4 * 0 + 1)) ∗ ((xV).view.loc (tV d L) ↦{qx1} Xw m d L) ∗ ((yV).view.loc (tV d L) ↦{(qy1 L)} Ytc m d)))
          ∗ (∃ f, (bV1).view.loc (tV d L) ↦{fullShare} f) ∗ semVal (tV d L, .dma cc1_scratch14.sem) 0
          ∗ ((oV).view.loc (tV d L) ↦[futSet L 1 0]{fullShare} m (oLoc d)))
        ⊢ Slot1 m d L 0 := by
      intro D
      unfold Slot1
      rw [if_pos hN.2.1, Nat.zero_min, if_pos rfl, Nat.zero_sub, land_zero, pointsTo_empty]
      iintro ⟨Hg, Hd, Hb, Hw, Hf⟩
      isplitl [Hg Hd]
      · iexists D
        isplitl [Hg]; · iexact Hg
        iexact Hd
      isplitl [Hb Hw]
      · isplitl [Hb]; · iexact Hb
        iexact Hw
      isplitl [Hf]; · iexact Hf
      iempintro
    have hS2 : ∀ D : sProp 𝕄, iprop(Transfers.Flight countersEmb (tV d L) (.dma cc1_scratch11.sem) default 524288 D
          ∗ (D -∗ iprop(((rV2).view.loc (tV d L) ↦{fullShare} Rg m d L (4 * 0 + 2)) ∗ ((xV).view.loc (tV d L) ↦{qx2} Xw m d L) ∗ ((yV).view.loc (tV d L) ↦{(qy2 L)} Ytc m d)))
          ∗ (∃ f, (bV2).view.loc (tV d L) ↦{fullShare} f) ∗ semVal (tV d L, .dma cc1_scratch15.sem) 0
          ∗ ((oV).view.loc (tV d L) ↦[futSet L 2 0]{fullShare} m (oLoc d)))
        ⊢ Slot2 m d L 0 := by
      intro D
      unfold Slot2
      rw [if_pos hN.2.2.1, Nat.zero_min, if_pos rfl, Nat.zero_sub, land_zero, pointsTo_empty]
      iintro ⟨Hg, Hd, Hb, Hw, Hf⟩
      isplitl [Hg Hd]
      · iexists D
        isplitl [Hg]; · iexact Hg
        iexact Hd
      isplitl [Hb Hw]
      · isplitl [Hb]; · iexact Hb
        iexact Hw
      isplitl [Hf]; · iexact Hf
      iempintro
    have hS3 : ∀ D : sProp 𝕄, iprop(Transfers.Flight countersEmb (tV d L) (.dma cc1_scratch12.sem) default 524288 D
          ∗ (D -∗ iprop(((rV3).view.loc (tV d L) ↦{fullShare} Rg m d L (4 * 0 + 3)) ∗ ((xV).view.loc (tV d L) ↦{qx3} Xw m d L) ∗ ((yV).view.loc (tV d L) ↦{(qy3 L)} Ytc m d)))
          ∗ (∃ f, (bV3).view.loc (tV d L) ↦{fullShare} f) ∗ semVal (tV d L, .dma cc1_scratch16.sem) 0
          ∗ ((oV).view.loc (tV d L) ↦[futSet L 3 0]{fullShare} m (oLoc d)))
        ⊢ Slot3 m d L 0 := by
      intro D
      unfold Slot3
      rw [if_pos hN.2.2.2, Nat.zero_min, if_pos rfl, Nat.zero_sub, land_zero, pointsTo_empty]
      iintro ⟨Hg, Hd, Hb, Hw, Hf⟩
      isplitl [Hg Hd]
      · iexists D
        isplitl [Hg]; · iexact Hg
        iexact Hd
      isplitl [Hb Hw]
      · isplitl [Hb]; · iexact Hb
        iexact Hw
      isplitl [Hf]; · iexact Hf
      iempintro
    have hOW : ∀ g : SemLoc sig × HIx 1, g.2 = none →
        iprop(Transfers.MayWaits (tV d L) (default : HIx 1) O ∗ owes (tV d L) O (insert g W)) ⊢ OW (F := F) d L O W := by
      intro g hg
      unfold OW
      iintro ⟨Hm, Ho⟩
      isplitl [Hm]; · iexact Hm
      iexists insert g W
      isplitr
      · ipureintro
        intro p hp
        rcases Finset.mem_insert.mp hp with rfl | h
        · exact Or.inr hg
        · exact Or.inl h
      · iexact Ho
    ihave Ho := hOut $$ Ho
    icases Ho with ⟨Hf0, Hf1, Hf2, Hf3⟩
    isplitl [Hg0 Hy0 Hr0 Hx0 Hb0 Hw0 Hf0]
    · iapply (hS0 _)
      isplitl [Hg0]; · iexact Hg0
      isplitl [Hy0 Hr0 Hx0]
      · iintro ⟨⟨Hr, Hx⟩, Hy⟩
        ihave Hr := (pointsTo_split_subset (Finset.subset_univ _)).2 $$ [Hr Hr0]
        · isplitl [Hr]; · iexact Hr
          iexact Hr0
        ihave Hr := hP0 $$ Hr
        ihave Hx := (pointsTo_split_subset (Finset.subset_univ _)).2 $$ [Hx Hx0]
        · isplitl [Hx]; · iexact Hx
          iexact Hx0
        ihave Hy := (pointsTo_split_subset (Finset.subset_univ _)).2 $$ [Hy Hy0]
        · isplitl [Hy]; · iexact Hy
          iexact Hy0
        isplitl [Hr]; · iexact Hr
        isplitl [Hx]; · iexact Hx
        iexact Hy
      isplitl [Hb0]; · iexists fb0; iexact Hb0
      isplitl [Hw0]; · iexact Hw0
      iexact Hf0
    isplitl [Hg1 Hy1 Hr1 Hx1 Hb1 Hw1 Hf1]
    · iapply (hS1 _)
      isplitl [Hg1]; · iexact Hg1
      isplitl [Hy1 Hr1 Hx1]
      · iintro ⟨⟨Hr, Hx⟩, Hy⟩
        ihave Hr := (pointsTo_split_subset (Finset.subset_univ _)).2 $$ [Hr Hr1]
        · isplitl [Hr]; · iexact Hr
          iexact Hr1
        ihave Hr := hP1 $$ Hr
        ihave Hx := (pointsTo_split_subset (Finset.subset_univ _)).2 $$ [Hx Hx1]
        · isplitl [Hx]; · iexact Hx
          iexact Hx1
        ihave Hy := (pointsTo_split_subset (Finset.subset_univ _)).2 $$ [Hy Hy1]
        · isplitl [Hy]; · iexact Hy
          iexact Hy1
        isplitl [Hr]; · iexact Hr
        isplitl [Hx]; · iexact Hx
        iexact Hy
      isplitl [Hb1]; · iexists fb1; iexact Hb1
      isplitl [Hw1]; · iexact Hw1
      iexact Hf1
    isplitl [Hg2 Hy3 Hr2 Hx3 Hb2 Hw2 Hf2]
    · iapply (hS2 _)
      isplitl [Hg2]; · iexact Hg2
      isplitl [Hy3 Hr2 Hx3]
      · iintro ⟨⟨Hr, Hx⟩, Hy⟩
        ihave Hr := (pointsTo_split_subset (Finset.subset_univ _)).2 $$ [Hr Hr2]
        · isplitl [Hr]; · iexact Hr
          iexact Hr2
        ihave Hr := hP2 $$ Hr
        ihave Hx := (pointsTo_split_subset (Finset.subset_univ _)).2 $$ [Hx Hx3]
        · isplitl [Hx]; · iexact Hx
          iexact Hx3
        ihave Hy := (pointsTo_split_subset (Finset.subset_univ _)).2 $$ [Hy Hy3]
        · isplitl [Hy]; · iexact Hy
          iexact Hy3
        isplitl [Hr]; · iexact Hr
        isplitl [Hx]; · iexact Hx
        iexact Hy
      isplitl [Hb2]; · iexists fb2; iexact Hb2
      isplitl [Hw2]; · iexact Hw2
      iexact Hf2
    isplitl [Hg3 Hy2 Hr3 Hx2 Hb3 Hw3 Hf3]
    · iapply (hS3 _)
      isplitl [Hg3]; · iexact Hg3
      isplitl [Hy2 Hr3 Hx2]
      · iintro ⟨⟨Hr, Hx⟩, Hy⟩
        ihave Hr := (pointsTo_split_subset (Finset.subset_univ _)).2 $$ [Hr Hr3]
        · isplitl [Hr]; · iexact Hr
          iexact Hr3
        ihave Hr := hP3 $$ Hr
        ihave Hx := (pointsTo_split_subset (Finset.subset_univ _)).2 $$ [Hx Hx2]
        · isplitl [Hx]; · iexact Hx
          iexact Hx2
        ihave Hy := (pointsTo_split_subset (Finset.subset_univ _)).2 $$ [Hy Hy2]
        · isplitl [Hy]; · iexact Hy
          iexact Hy2
        isplitl [Hr]; · iexact Hr
        isplitl [Hx]; · iexact Hx
        iexact Hy
      isplitl [Hb3]; · iexists fb3; iexact Hb3
      isplitl [Hw3]; · iexact Hw3
      iexact Hf3
    iapply (hOW (_, default) rfl)
    isplitr [HO]; · iexact Hmw
    iexact HO
  · have hgd : ∀ L' : grid1.Coords,
        Scalar.cmpi .ne (Scalar.extui (Scalar.cmpi .sgt (tile_body.sl.v21 L') 0#32)) 0#32 = 1#1
        ∧ Scalar.cmpi .ne (Scalar.extui (Scalar.cmpi .sgt (tile_body.sl.v21 L') 1#32)) 0#32 = 1#1
        ∧ Scalar.cmpi .ne (Scalar.extui (Scalar.cmpi .sgt (tile_body.sl.v21 L') 2#32)) 0#32 = 1#1
        ∧ Scalar.cmpi .ne (Scalar.extui (Scalar.cmpi .sgt (tile_body.sl.v21 L') 3#32)) 0#32 = 1#1 := by decide +kernel
    obtain ⟨hg0, hg1, hg2, hg3⟩ := hgd L
    have hT : Scf.trips (k1_t1_loop L).lb (k1_t1_loop L).ub (k1_t1_loop L).st = (nCh L + 3) / 4 := t1_trips L
    have hNb : ∀ b, b < 4 → ¬ (nCh L + 3) / 4 < Nb L b ∧ min ((nCh L + 3) / 4) (Nb L b) = Nb L b ∧ ¬ Nb L b = 0
        ∧ 4 * (Nb L b - 1) + b < nCh L ∧ Nb L b - 1 + 1 = Nb L b := by
      intro b hb; unfold Nb; rcases nCh_cases L with h | h <;> rw [h] <;> omega
    obtain ⟨hN0, hM0, hZ0, hC0, hS0⟩ := hNb 0 (by norm_num)
    obtain ⟨hN1, hM1, hZ1, hC1, hS1⟩ := hNb 1 (by norm_num)
    obtain ⟨hN2, hM2, hZ2, hC2, hS2⟩ := hNb 2 (by norm_num)
    obtain ⟨hN3, hM3, hZ3, hC3, hS3⟩ := hNb 3 (by norm_num)
    have j0 : iprop(((oV).view.loc (tV d L) ↦[landSet L 0 (Nb L 0 - 1)]{fullShare} Out m d) ∗ ((oV).view.loc (tV d L) ↦[chunkSet L (4 * (Nb L 0 - 1) + 0)]{fullShare} Out m d))
        ⊢ ((oV).view.loc (tV d L) ↦[landSet L 0 (Nb L 0)]{fullShare} Out m d : sProp 𝕄) := by
      have e := land_union L (b := 0) (a := Nb L 0 - 1) (by norm_num) hC0
      rw [hS0] at e
      rw [← e]; exact (pointsTo_union (land_disj L (by norm_num))).2
    have j1 : iprop(((oV).view.loc (tV d L) ↦[landSet L 1 (Nb L 1 - 1)]{fullShare} Out m d) ∗ ((oV).view.loc (tV d L) ↦[chunkSet L (4 * (Nb L 1 - 1) + 1)]{fullShare} Out m d))
        ⊢ ((oV).view.loc (tV d L) ↦[landSet L 1 (Nb L 1)]{fullShare} Out m d : sProp 𝕄) := by
      have e := land_union L (b := 1) (a := Nb L 1 - 1) (by norm_num) hC1
      rw [hS1] at e
      rw [← e]; exact (pointsTo_union (land_disj L (by norm_num))).2
    have j2 : iprop(((oV).view.loc (tV d L) ↦[landSet L 2 (Nb L 2 - 1)]{fullShare} Out m d) ∗ ((oV).view.loc (tV d L) ↦[chunkSet L (4 * (Nb L 2 - 1) + 2)]{fullShare} Out m d))
        ⊢ ((oV).view.loc (tV d L) ↦[landSet L 2 (Nb L 2)]{fullShare} Out m d : sProp 𝕄) := by
      have e := land_union L (b := 2) (a := Nb L 2 - 1) (by norm_num) hC2
      rw [hS2] at e
      rw [← e]; exact (pointsTo_union (land_disj L (by norm_num))).2
    have j3 : iprop(((oV).view.loc (tV d L) ↦[landSet L 3 (Nb L 3 - 1)]{fullShare} Out m d) ∗ ((oV).view.loc (tV d L) ↦[chunkSet L (4 * (Nb L 3 - 1) + 3)]{fullShare} Out m d))
        ⊢ ((oV).view.loc (tV d L) ↦[landSet L 3 (Nb L 3)]{fullShare} Out m d : sProp 𝕄) := by
      have e := land_union L (b := 3) (a := Nb L 3 - 1) (by norm_num) hC3
      rw [hS3] at e
      rw [← e]; exact (pointsTo_union (land_disj L (by norm_num))).2
    have jAll : iprop(((oV).view.loc (tV d L) ↦[landSet L 0 (Nb L 0)]{fullShare} Out m d) ∗ ((oV).view.loc (tV d L) ↦[landSet L 1 (Nb L 1)]{fullShare} Out m d)
          ∗ ((oV).view.loc (tV d L) ↦[landSet L 2 (Nb L 2)]{fullShare} Out m d) ∗ ((oV).view.loc (tV d L) ↦[landSet L 3 (Nb L 3)]{fullShare} Out m d))
        ⊢ (oLoc d ↦[outSet (wid (cL L) (sL L))]{fullShare} Out m d : sProp 𝕄) := by
      rw [← out_end L]
      refine (sep_mono_right (sep_mono_right (pointsTo_union (land_disj' L (by norm_num) _ _)).2)).trans ?_
      refine (sep_mono_right (pointsTo_union (Finset.disjoint_union_right.2 ⟨land_disj' L (by norm_num) _ _, land_disj' L (by norm_num) _ _⟩)).2).trans ?_
      exact (pointsTo_union (Finset.disjoint_union_right.2 ⟨land_disj' L (by norm_num) _ _,
        Finset.disjoint_union_right.2 ⟨land_disj' L (by norm_num) _ _, land_disj' L (by norm_num) _ _⟩⟩)).2
    rw [hT]
    unfold Slot0 Slot1 Slot2 Slot3 OW
    rw [if_neg hN0, if_neg hN1, if_neg hN2, if_neg hN3, hM0, hM1, hM2, hM3, if_neg hZ0, if_neg hZ1, if_neg hZ2, if_neg hZ3]
    iintro %acc ⟨⟨⟨⟨⟨%R0, Hr0⟩, Hx0, Hy0⟩, Hg0⟩, ⟨%D0, HF0, HD0⟩, Hfut0, Hland0⟩, ⟨⟨⟨⟨%R1, Hr1⟩, Hx1, Hy1⟩, Hg1⟩, ⟨%D1, HF1, HD1⟩, Hfut1, Hland1⟩, ⟨⟨⟨⟨%R2, Hr2⟩, Hx2, Hy2⟩, Hg2⟩, ⟨%D2, HF2, HD2⟩, Hfut2, Hland2⟩, ⟨⟨⟨⟨%R3, Hr3⟩, Hx3, Hy3⟩, Hg3⟩, ⟨%D3, HF3, HD3⟩, Hfut3, Hland3⟩, -, %W', %hW', HO⟩
    sl_for0 (t6_trips L)
    sl_exec
    ihave Hmw1 := (Transfers.MayWaits.elim (SemLoc.dma cc1_scratch13.sem)) $$ Hmw
    iapply (Transfers.wp_waitLocalO countersEmb 𝒱₀ (tV d L) none (default : HIx 1) rfl) $$ [HF0 HO Hmw1]
    · isplitl [HF0]; · iexact HF0
      isplitl [HO]; · iexact HO
      iexact Hmw1
    iintro ⟨HD0', Hw0, HO⟩
    ihave Hb0 := HD0 $$ HD0'
    icases Hb0 with ⟨⟨%fb0', Hb0⟩, Hch0⟩
    sl_exec
    ihave Hmw1 := (Transfers.MayWaits.elim (SemLoc.dma cc1_scratch14.sem)) $$ Hmw
    iapply (Transfers.wp_waitLocalO countersEmb 𝒱₀ (tV d L) none (default : HIx 1) rfl) $$ [HF1 HO Hmw1]
    · isplitl [HF1]; · iexact HF1
      isplitl [HO]; · iexact HO
      iexact Hmw1
    iintro ⟨HD1', Hw1, HO⟩
    ihave Hb1 := HD1 $$ HD1'
    icases Hb1 with ⟨⟨%fb1', Hb1⟩, Hch1⟩
    sl_exec
    ihave Hmw1 := (Transfers.MayWaits.elim (SemLoc.dma cc1_scratch15.sem)) $$ Hmw
    iapply (Transfers.wp_waitLocalO countersEmb 𝒱₀ (tV d L) none (default : HIx 1) rfl) $$ [HF2 HO Hmw1]
    · isplitl [HF2]; · iexact HF2
      isplitl [HO]; · iexact HO
      iexact Hmw1
    iintro ⟨HD2', Hw2, HO⟩
    ihave Hb2 := HD2 $$ HD2'
    icases Hb2 with ⟨⟨%fb2', Hb2⟩, Hch2⟩
    sl_exec
    ihave Hmw1 := (Transfers.MayWaits.elim (SemLoc.dma cc1_scratch16.sem)) $$ Hmw
    iapply (Transfers.wp_waitLocalO countersEmb 𝒱₀ (tV d L) none (default : HIx 1) rfl) $$ [HF3 HO Hmw1]
    · isplitl [HF3]; · iexact HF3
      isplitl [HO]; · iexact HO
      iexact Hmw1
    iintro ⟨HD3', Hw3, HO⟩
    ihave Hb3 := HD3 $$ HD3'
    icases Hb3 with ⟨⟨%fb3', Hb3⟩, Hch3⟩
    sl_exec
    sl_step
    ihave Hyl := (pointsTo_share (PosShare.mem_left_op_right (rq (cL L) (sL L)).left.left)).2 $$ [Hy2 Hy3]
    · first | (isplitl [Hy2] <;> iassumption) | (isplitl [Hy3] <;> iassumption)
    ihave Hyl := (pointsTo_share (PosShare.mem_left_op_right (rq (cL L) (sL L)).left)).2 $$ [Hyl Hy1]
    · isplitl [Hyl] <;> iassumption
    ihave Hy := (pointsTo_share (PosShare.mem_left_op_right (rq (cL L) (sL L)))).2 $$ [Hyl Hy0]
    · isplitl [Hyl] <;> iassumption
    ihave Hxl := (pointsTo_share (PosShare.mem_left_op_right (fullShare : PosShare TreeShare).left.left)).2 $$ [Hx2 Hx3]
    · first | (isplitl [Hx2] <;> iassumption) | (isplitl [Hx3] <;> iassumption)
    ihave Hxl := (pointsTo_share (PosShare.mem_left_op_right (fullShare : PosShare TreeShare).left)).2 $$ [Hxl Hx1]
    · isplitl [Hxl] <;> iassumption
    ihave Hx := (pointsTo_share (PosShare.mem_left_op_right (fullShare : PosShare TreeShare))).2 $$ [Hxl Hx0]
    · isplitl [Hxl] <;> iassumption
    ihave Hl0 := j0 $$ [Hland0 Hch0]
    · isplitl [Hland0] <;> iassumption
    ihave Hl1 := j1 $$ [Hland1 Hch1]
    · isplitl [Hland1] <;> iassumption
    ihave Hl2 := j2 $$ [Hland2 Hch2]
    · isplitl [Hland2] <;> iassumption
    ihave Hl3 := j3 $$ [Hland3 Hch3]
    · isplitl [Hland3] <;> iassumption
    ihave Ho := jAll $$ [Hl0 Hl1 Hl2 Hl3]
    · isplitl [Hl0]; · iexact Hl0
      isplitl [Hl1]; · iexact Hl1
      isplitl [Hl2]; · iexact Hl2
      iexact Hl3
    isplitl [Hy Hi Ho]
    · isplitl [Hy]; · iexact Hy
      isplitl [Hi]; · iexact Hi
      iexact Ho
    isplitl [Hx Hr0 Hr1 Hr2 Hr3 Hb0 Hb1 Hb2 Hb3 Hbufs]
    · isplitl [Hx]; · iexists _; iexact Hx
      isplitl [Hr0]; · iexists _; iexact Hr0
      isplitl [Hr1]; · iexists _; iexact Hr1
      isplitl [Hr2]; · iexists _; iexact Hr2
      isplitl [Hr3]; · iexists _; iexact Hr3
      isplitl [Hb0]; · iexists _; iexact Hb0
      isplitl [Hb1]; · iexists _; iexact Hb1
      isplitl [Hb2]; · iexists _; iexact Hb2
      isplitl [Hb3]; · iexists _; iexact Hb3
      iexact Hbufs
    isplitl [Hs0 Hg0 Hg1 Hg2 Hg3 Hw0 Hw1 Hw2 Hw3 Hsems]
    · isplitl [Hs0]; · iexact Hs0
      isplitl [Hg0]; · iexact Hg0
      isplitl [Hg1]; · iexact Hg1
      isplitl [Hg2]; · iexact Hg2
      isplitl [Hg3]; · iexact Hg3
      isplitl [Hw0]; · iexact Hw0
      isplitl [Hw1]; · iexact Hw1
      isplitl [Hw2]; · iexact Hw2
      isplitl [Hw3]; · iexact Hw3
      iexact Hsems
    iexists _; isplitr
    swap; · iexact HO
    ipureintro; intro p hp
    simp only [Finset.mem_insert] at hp
    rcases hp with rfl | rfl | rfl | rfl | hp
    exacts [Or.inr rfl, Or.inr rfl, Or.inr rfl, Or.inr rfl, hW' p hp]

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_gm (coordsV c s) yV (Memref.isWhole_whole _) iV (Memref.isWhole_whole _) oV (Memref.isWhole_whole _) xV (Memref.isWhole_whole _)
            rV0 (Memref.isWhole_whole _) rV1 (Memref.isWhole_whole _) rV2 (Memref.isWhole_whole _) rV3 (Memref.isWhole_whole _)
            bV0 (Memref.isWhole_whole _) bV1 (Memref.isWhole_whole _) bV2 (Memref.isWhole_whole _) bV3 (Memref.isWhole_whole _)
            cc1_scratch9 cc1_scratch10 cc1_scratch11 cc1_scratch12 cc1_scratch13 cc1_scratch14 cc1_scratch15 cc1_scratch16 cc1_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

end Cert.Proof.KI

end
-- ==== Proof.KI.TcRegion.lean ====
import proofs.«205778_g32538672235162_cont_8to1_b_712_45_alg».proof.Proof.KI.Setup
import proofs.«205778_g32538672235162_cont_8to1_b_712_45_alg».proof.Proof.Gen.KernelIdeal.Launch
import proofs.«205778_g32538672235162_cont_8to1_b_712_45_alg».proof.Proof.Gen.KernelIdeal.Points
import Idealize.ShloMosaic.Lib.Pipeline.FrameBody
import Idealize.ShloMosaic.Lib.Pipeline.Value
import Idealize.ShloMosaic.Lib.Tactic

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ)

namespace Tc

theorem hz2 : (![0, 0] : Fin 2 → ℕ) = fun _ => 0 := by funext a; fin_cases a <;> rfl

abbrev rX : Rect S10000x128 := Rect.unit (s := S10000x128) ![0, 0] S10000x128.size inb_S10000x128_S10000x128_0_0
abbrev rW : Rect S128x128 := Rect.unit (s := S128x128) ![0, 0] S128x128.size inb_S128x128_S128x128_0_0
abbrev rR : Rect S1x128 := Rect.unit (s := S1x128) ![0, 0] S1x128.size inb_S1x128_S1x128_0_0

set_option maxRecDepth 16384 in
theorem cover_whole (p0 : Vec F S10000x128 .f32) (y : S10000x128.Idx) :
    ∃ pc ∈ ([⟨Rect.unit ![0, 0] S10000x128.size inb_S10000x128_S10000x128_0_0, p0⟩] : List (View.Piece (Elt F) S10000x128 .f32)), y ∈ pc.1.set :=
  View.cover_of_tiled [⟨Rect.unit ![0, 0] S10000x128.size inb_S10000x128_S10000x128_0_0, p0⟩] S10000x128.size (by rfl) y

set_option maxHeartbeats 1000000 in
theorem run_body (c : Dev nD) (E : Set ℕ) (i : grid0.Coords)
    (a1 : Memref sig .tc .vmem S10000x128 .f32) (h1 : a1.IsWhole) (a2 : Memref sig .tc .vmem S128x128 .f32) (h2 : a2.IsWhole)
    (a3 : Memref sig .tc .vmem S1x128 .f32) (h3 : a3.IsWhole) (a4 : Memref sig .tc .vmem S1x128 .f32) (h4 : a4.IsWhole)
    (a5 : Memref sig .tc .vmem S10000x128 .f32) (h5 : a5.IsWhole)
    (x0 : Vec F S10000x128 .f32) (x1 : Vec F S128x128 .f32) (x2 x3 : Vec F S1x128 .f32) (Q : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ (∃ d, owns (c : Thread nD τ) a5 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare (k0_pay1 x0 x1 x2 x3 x1)) -∗ Q ⟨⟩))
      ⊢ wp frame (wpE (defs₀ (F := F)) 𝒱₀ (c : Thread nD τ) none) E (cc0__ln_proj_body i a1 h1 a2 h2 a3 h3 a4 h4 a5 h5) Q := by
  simp only [cc0__ln_proj_body_eq_skeleton]; unfold cc0__ln_proj_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [View.read_writes_eq_canon _ _ _ (cover_whole _), View.canon_unit_zero hz2]
  show k0_pay1 (View.ld (View.read (Elt F) a1.view f0) rX) (View.ld (View.read (Elt F) a2.view f1) rW) (View.ld (View.read (Elt F) a3.view f2) rR)
      (View.ld (View.read (Elt F) a4.view f3) rR) (View.ld (View.read (Elt F) a2.view f1) rW) = _
  rw [show View.ld (View.read (Elt F) a1.view f0) rX = View.read (Elt F) a1.view f0 from View.ld_unit_zero (S := S10000x128) hz2 _ _,
    show View.ld (View.read (Elt F) a2.view f1) rW = View.read (Elt F) a2.view f1 from View.ld_unit_zero (S := S128x128) hz2 _ _,
    show View.ld (View.read (Elt F) a3.view f2) rR = View.read (Elt F) a3.view f2 from View.ld_unit_zero (S := S1x128) hz2 _ _,
    show View.ld (View.read (Elt F) a4.view f3) rR = View.read (Elt F) a4.view f3 from View.ld_unit_zero (S := S1x128) hz2 _ _]

abbrev adm : (p : Fin 1) → (pcfgs (F := F) p).Adm := fun p => (cfgs p).toPCfg_adm

def Ar (d : Dev nD) (fy : Buf (Elt F) (yLoc d)) (w : Fin cfg0.W) : Buf (Elt F) ((cfg0.win w).arr.view.loc (d.tc : Thread nD τ)) :=
  match w with
  | ⟨0, _⟩ => m (xLoc d)
  | ⟨1, _⟩ => m (wLoc d)
  | ⟨2, _⟩ => (gRow m d : Buf (Elt F) ((SparseCore.T d).loc main_v0))
  | ⟨3, _⟩ => (bRow m d : Buf (Elt F) ((SparseCore.T d).loc main_v1))
  | ⟨4, _⟩ => fy

def iblk (d : Dev nD) (fy : Buf (Elt F) (yLoc d)) (w : Fin cfg0.W) (t : Fin cfg0.N) :
    ((cfg0.win w).xblock (cfg0.grid.coords t)).Idx → Elt F (cfg0.win w).elt :=
  ((cfg0.win w).blk t).view.read (Elt F) (Ar m d fy w)

def dat (d : Dev nD) (fy : Buf (Elt F) (yLoc d)) : Dat τ (Elt F) (HIx 1) ℕ UU ℕ cfg0 d where
  A := Ar m d fy
  after w t := match w with
    | ⟨0, _⟩ => iblk m d fy 0 t
    | ⟨1, _⟩ => iblk m d fy 1 t
    | ⟨2, _⟩ => iblk m d fy 2 t
    | ⟨3, _⟩ => iblk m d fy 3 t
    | ⟨4, _⟩ => k0_pay1 (iblk m d fy 0 t) (iblk m d fy 1 t) (iblk m d fy 2 t) (iblk m d fy 3 t) (iblk m d fy 1 t)
  Φ _ := Pipeline.scopedRest (Ix := HIx 1) (Name := ℕ) (U := UU) (Lvl := ℕ) (Val := Elt F) spec0 d
  q _ := fullShare
  owed _ := (K (F := F)).Otc d 0
  recorded _ := {p | (K (F := F)).lev ((SparseCore.T d), p.1) p.2 ≤ 0}

theorem A_eq (d : Dev nD) (fy : Buf (Elt F) (yLoc d)) (w : Fin cfg0.W) : (dat m d fy).A w = Ar m d fy w := by dsimp only [dat]

theorem after_0 (d : Dev nD) (fy) (t : Fin cfg0.N) : (dat m d fy).after 0 t = iblk m d fy 0 t := by dsimp only [dat]
theorem after_1 (d : Dev nD) (fy) (t : Fin cfg0.N) : (dat m d fy).after 1 t = iblk m d fy 1 t := by dsimp only [dat]
theorem after_2 (d : Dev nD) (fy) (t : Fin cfg0.N) : (dat m d fy).after 2 t = iblk m d fy 2 t := by dsimp only [dat]
theorem after_3 (d : Dev nD) (fy) (t : Fin cfg0.N) : (dat m d fy).after 3 t = iblk m d fy 3 t := by dsimp only [dat]
theorem after_4 (d : Dev nD) (fy) (t : Fin cfg0.N) : (dat m d fy).after 4 t
    = k0_pay1 (iblk m d fy 0 t) (iblk m d fy 1 t) (iblk m d fy 2 t) (iblk m d fy 3 t) (iblk m d fy 1 t) := by dsimp only [dat]

theorem before_0 (d : Dev nD) (fy) (t : Fin cfg0.N) (x) : (dat m d fy).before 0 t x = iblk m d fy 0 t :=
  ((dat m d fy).before_in_eq_fetched 0 rfl (fun _ => rfl) (fun _ _ _ => rfl) (fun t => by rw [after_0]; unfold Dat.blockOf iblk; rw [A_eq]; try rfl) t x).trans
    (by unfold Dat.fetched Dat.blockOf iblk; rw [A_eq]; try rfl)
theorem before_1 (d : Dev nD) (fy) (t : Fin cfg0.N) (x) : (dat m d fy).before 1 t x = iblk m d fy 1 t :=
  ((dat m d fy).before_in_eq_fetched 1 rfl (fun _ => rfl) (fun _ _ _ => rfl) (fun t => by rw [after_1]; unfold Dat.blockOf iblk; rw [A_eq]; try rfl) t x).trans
    (by unfold Dat.fetched Dat.blockOf iblk; rw [A_eq]; try rfl)
theorem before_2 (d : Dev nD) (fy) (t : Fin cfg0.N) (x) : (dat m d fy).before 2 t x = iblk m d fy 2 t :=
  ((dat m d fy).before_in_eq_fetched 2 rfl (fun _ => rfl) (fun _ _ _ => rfl) (fun t => by rw [after_2]; unfold Dat.blockOf iblk; rw [A_eq]; try rfl) t x).trans
    (by unfold Dat.fetched Dat.blockOf iblk; rw [A_eq]; try rfl)
theorem before_3 (d : Dev nD) (fy) (t : Fin cfg0.N) (x) : (dat m d fy).before 3 t x = iblk m d fy 3 t :=
  ((dat m d fy).before_in_eq_fetched 3 rfl (fun _ => rfl) (fun _ _ _ => rfl) (fun t => by rw [after_3]; unfold Dat.blockOf iblk; rw [A_eq]; try rfl) t x).trans
    (by unfold Dat.fetched Dat.blockOf iblk; rw [A_eq]; try rfl)

def bodyPre (d : Dev nD) (fy : Buf (Elt F) (yLoc d)) (t : Fin cfg0.N) : sProp 𝕄 :=
  iprop((dat m d fy).Φ t.castSucc ∗ (dat m d fy).owesAt none t.castSucc
    ∗ (∃ x, owns (d : Thread nD τ) (st0_0 t) fullShare ((dat m d fy).before 0 t x))
    ∗ (∃ x, owns (d : Thread nD τ) (st0_1 t) fullShare ((dat m d fy).before 1 t x))
    ∗ (∃ x, owns (d : Thread nD τ) (st0_2 t) fullShare ((dat m d fy).before 2 t x))
    ∗ (∃ x, owns (d : Thread nD τ) (st0_3 t) fullShare ((dat m d fy).before 3 t x))
    ∗ (∃ x, owns (d : Thread nD τ) (st0_4 t) fullShare ((dat m d fy).before 4 t x)))

def bodyPost (d : Dev nD) (fy : Buf (Elt F) (yLoc d)) (t : Fin cfg0.N) : sProp 𝕄 :=
  iprop((dat m d fy).Φ t.succ ∗ (dat m d fy).owesAt none t.succ
    ∗ owns (d : Thread nD τ) (st0_0 t) fullShare ((dat m d fy).after 0 t)
    ∗ owns (d : Thread nD τ) (st0_1 t) fullShare ((dat m d fy).after 1 t)
    ∗ owns (d : Thread nD τ) (st0_2 t) fullShare ((dat m d fy).after 2 t)
    ∗ owns (d : Thread nD τ) (st0_3 t) fullShare ((dat m d fy).after 3 t)
    ∗ owns (d : Thread nD τ) (st0_4 t) fullShare ((dat m d fy).after 4 t))

theorem sound_body (d : Dev nD) (fy : Buf (Elt F) (yLoc d)) (t : Fin cfg0.N) :
    bodyPre m d fy t ⊢ wp frame (wpE (defs₀ (F := F)) 𝒱₀ (d : Thread nD τ) none) Set.univ (bodyAt0 t) (fun _ => bodyPost m d fy t) := by
  unfold bodyPre bodyPost bodyAt0
  simp only [before_0, before_1, before_2, before_3]
  rw [show (dat m d fy).Φ t.succ = (dat m d fy).Φ t.castSucc from rfl,
    show (dat m d fy).owesAt none t.succ = (dat m d fy).owesAt none t.castSucc from rfl,
    after_0, after_1, after_2, after_3, after_4]
  iintro ⟨HΦ, Ho, ⟨%x0, H0⟩, ⟨%x1, H1⟩, ⟨%x2, H2⟩, ⟨%x3, H3⟩, ⟨%x4, H4⟩⟩
  iapply (run_body d Set.univ (grid0.coords t) _ _ _ _ _ _ _ _ _ _ (iblk m d fy 0 t) (iblk m d fy 1 t) (iblk m d fy 2 t) (iblk m d fy 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (d : Dev nD) (fy : Buf (Elt F) (yLoc d)) :
    BodyObligation (dat (F := F) m d fy) (defs₀ (F := F)) 𝒱₀ none Set.univ := fun t => by
  rw [bigSep_W0, bigSep_W0]
  exact sound_body m d fy t

theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem iblk_0 (d : Dev nD) (fy) (t : Fin cfg0.N) : iblk m d fy 0 t = xBlk m d (Fin.cast N_0 t) := by
  obtain ⟨e0, e1, -⟩ := idx_facts t
  funext y
  show m (xLoc d) (((cfg0.win 0).blk t).view.emb y) = m (xLoc d) (ix2 ⟨10000 * t.val + (y 0).val, _⟩ (y 1))
  refine congrArg _ (funext fun a => Fin.ext ?_)
  match a with
  | ⟨0, _⟩ => show win0_0.index t (0 : Fin 2) * 10000 + 1 * (y 0).val = 10000 * t.val + (y 0).val; omega
  | ⟨1, _⟩ => show win0_0.index t (1 : Fin 2) * 128 + 1 * (y 1).val = (y 1).val; omega

theorem iblk_1 (d : Dev nD) (fy) (t : Fin cfg0.N) : iblk m d fy 1 t = m (wLoc d) := by
  obtain ⟨-, -, e0, e1, -⟩ := idx_facts t
  funext y
  show m (wLoc d) (((cfg0.win 1).blk t).view.emb y) = m (wLoc d) y
  refine congrArg _ (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

theorem iblk_2 (d : Dev nD) (fy) (t : Fin cfg0.N) : iblk m d fy 2 t = gRow m d := by
  obtain ⟨-, -, -, -, e0, e1, -⟩ := idx_facts t
  funext y
  show gRow m d (((cfg0.win 2).blk t).view.emb y) = gRow m d y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 128 + 1 * (y 1).val = (y 1).val; omega

theorem iblk_3 (d : Dev nD) (fy) (t : Fin cfg0.N) : iblk m d fy 3 t = bRow m d := by
  obtain ⟨-, -, -, -, -, -, e0, e1, -⟩ := idx_facts t
  funext y
  show bRow m d (((cfg0.win 3).blk t).view.emb y) = bRow m d y
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 128 + 1 * (y 1).val = (y 1).val; omega

theorem Ytc_at (d : Dev nD) (b : Fin 10) (r : Fin 10000) (o : Fin 128) (j : S100000x128.Idx)
    (h0 : (j 0).val = 10000 * b.val + r.val) (h1 : j 1 = o) :
    Ytc m d j = k0_pay1 (xBlk m d b) (m (wLoc d)) (gRow m d) (bRow m d) (m (wLoc d)) (ix2 r o) := by
  unfold Ytc
  have hb : (⟨(j 0).val / 10000, by have h : (j 0).val < 100000 := (j 0).isLt; omega⟩ : Fin 10) = b :=
    Fin.ext (by show (j 0).val / 10000 = b.val; have := r.isLt; omega)
  have hr : (⟨(j 0).val % 10000, Nat.mod_lt _ (by norm_num)⟩ : Fin 10000) = r :=
    Fin.ext (by show (j 0).val % 10000 = r.val; have := r.isLt; omega)
  rw [hb, hr, h1]

theorem flushed_eq (d : Dev nD) (fy) (t : Fin cfg0.N) :
    (dat m d fy).flushed 4 t = ((cfg0.win 4).blk t).view.read (Elt F) (Ytc m d) := by
  obtain ⟨-, -, -, -, -, -, -, -, e0, e1⟩ := idx_facts t
  show (cfg0.win 4).cut (grid0.coords t) ((dat m d fy).after 4 t) = _
  rw [after_4, iblk_0, iblk_1, iblk_2, iblk_3]
  funext y
  show k0_pay1 (xBlk m d (Fin.cast N_0 t)) (m (wLoc d)) (gRow m d) (bRow m d) (m (wLoc d)) y = Ytc m d (((cfg0.win 4).blk t).view.emb y)
  rw [Ytc_at m d (Fin.cast N_0 t) (y 0) (y 1) _
    (by show win0_4.index t (0 : Fin 2) * 10000 + 1 * (y 0).val = 10000 * t.val + (y 0).val; omega)
    (Fin.ext (by show win0_4.index t (1 : Fin 2) * 128 + 1 * (y 1).val = (y 1).val; omega))]
  exact congrArg _ (eq_ix2 y)

theorem mem_blk4 (t : Fin cfg0.N) (i : S100000x128.Idx) :
    i ∈ ((cfg0.win 4).blk t).view.set ↔ ∀ a : Fin 2, win0_4.index t a * S10000x128.size a ≤ (i a).val ∧ (i a).val < win0_4.index t a * S10000x128.size a + S10000x128.size a := by
  show i ∈ ((View.whole main_v2).slice (win0_4.rect t)).set ↔ _
  rw [View.set_slice_whole, Rect.mem_set_unit]
  exact Iff.rfl

theorem cover4 (i : S100000x128.Idx) : ∃ t : Fin cfg0.N, (cfg0.win 4).flush t = true ∧ i ∈ ((cfg0.win 4).blk t).view.set := by
  have hi0 : (i 0).val < 100000 := (i 0).isLt
  have hi1 : (i 1).val < 128 := (i 1).isLt
  let t : Fin cfg0.N := Fin.cast N_0.symm ⟨(i 0).val / 10000, by omega⟩
  obtain ⟨-, -, -, -, -, -, -, -, e0, e1⟩ := idx_facts t
  have ht : t.val = (i 0).val / 10000 := rfl
  refine ⟨t, flush0_4 t, ?_⟩
  rw [mem_blk4]
  intro a
  match a with
  | ⟨0, _⟩ => show win0_4.index t (0 : Fin 2) * 10000 ≤ (i 0).val ∧ (i 0).val < win0_4.index t (0 : Fin 2) * 10000 + 10000; omega
  | ⟨1, _⟩ => show win0_4.index t (1 : Fin 2) * 128 ≤ (i 1).val ∧ (i 1).val < win0_4.index t (1 : Fin 2) * 128 + 128; omega

theorem final4 (d : Dev nD) (fy) : (dat m d fy).arrAt 4 cfg0.N = Ytc m d :=
  (dat m d fy).arrAt_eq_of_cover 4 (Ytc m d) (fun t _ => flushed_eq m d fy t) cover4

theorem final_in (d : Dev nD) (fy) (n : ℕ) :
    (dat m d fy).arrAt 0 n = m (xLoc d) ∧ (dat m d fy).arrAt 1 n = m (wLoc d)
    ∧ (dat m d fy).arrAt 2 n = (gRow m d : Buf (Elt F) ((SparseCore.T d).loc main_v0))
    ∧ (dat m d fy).arrAt 3 n = (bRow m d : Buf (Elt F) ((SparseCore.T d).loc main_v1)) :=
  ⟨((dat m d fy).arrAt_in 0 rfl n).trans (A_eq m d fy 0), ((dat m d fy).arrAt_in 1 rfl n).trans (A_eq m d fy 1),
    ((dat m d fy).arrAt_in 2 rfl n).trans (A_eq m d fy 2), ((dat m d fy).arrAt_in 3 rfl n).trans (A_eq m d fy 3)⟩

end Tc

open Tc

abbrev v0Loc (d : Dev nD) : Loc nD τ sig := (SparseCore.T d).loc main_v0
abbrev v1Loc (d : Dev nD) : Loc nD τ sig := (SparseCore.T d).loc main_v1

def regionIn (d : Dev nD) : sProp 𝕄 :=
  iprop((xLoc d ↦{fullShare} m (xLoc d)) ∗ (wLoc d ↦{fullShare} m (wLoc d)) ∗ (v0Loc d ↦{fullShare} (gRow m d : Buf (Elt F) (v0Loc d)))
    ∗ (v1Loc d ↦{fullShare} (bRow m d : Buf (Elt F) (v1Loc d))) ∗ ∃ f, yLoc d ↦{fullShare} f)
def regionOut (d : Dev nD) : sProp 𝕄 :=
  iprop((xLoc d ↦{fullShare} m (xLoc d)) ∗ (wLoc d ↦{fullShare} m (wLoc d)) ∗ (v0Loc d ↦{fullShare} (gRow m d : Buf (Elt F) (v0Loc d)))
    ∗ (v1Loc d ↦{fullShare} (bRow m d : Buf (Elt F) (v1Loc d))) ∗ yLoc d ↦{fullShare} Ytc m d)

def uR₀ : UR := initOf (Pipeline.cells cfgs cellOf_inj) (Pipeline.launchToks cfgs cellOf_inj)
def RG (d : Dev nD) : sProp 𝕄 := iprop(Pipeline.cellsGhost cfgs (EP (F := F)) 0 d ∗ Pipeline.toksInit cfgs (EP (F := F)) 0 d)

theorem fundRegion : (BI.own (EP (F := F) uR₀) : sProp 𝕄) ⊢ |={Set.univ}=> bigSep Finset.univ fun d : Dev nD => RG (F := F) d := by
  have h1 : ∀ (Φ : Fin 1 → sProp 𝕄), bigSep Finset.univ Φ = Φ 0 := fun Φ => by
    rw [show (Finset.univ : Finset (Fin 1)) = {0} from by decide, bigSep_singleton]
  unfold RG uR₀
  iintro Hu
  imod (Pipeline.fund_ghost cfgs (EP (F := F)) cellOf_inj) $$ Hu with ⟨Hg, Ht⟩
  imodintro
  simp only [h1]
  try rw [bigSep_sep']
  isplitl [Hg] <;> iassumption

namespace Tc

def regionAt (d : Dev nD) (fy : Buf (Elt F) (yLoc d)) : sProp 𝕄 :=
  iprop((xLoc d ↦{fullShare} m (xLoc d)) ∗ (wLoc d ↦{fullShare} m (wLoc d)) ∗ (v0Loc d ↦{fullShare} (gRow m d : Buf (Elt F) (v0Loc d)))
    ∗ (v1Loc d ↦{fullShare} (bRow m d : Buf (Elt F) (v1Loc d))) ∗ yLoc d ↦{fullShare} fy)

def tcTail (d : Dev nD) : sProp 𝕄 :=
  iprop(atPos EH ((K (F := F)).doneCell d) 0 ∅ 0 ∗ reached EH ((K (F := F)).doneCell d) 0
    ∗ (bigSep Finset.univ fun c : Fin τ.nSC => reached EH ((K (F := F)).startCell d c) ((K (F := F)).sRank c 0))
    ∗ bigSep (SparseCore.Cfg.callsFrom 0) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

theorem tcSt_split (d : Dev nD) :
    ((K (F := F)).tcSt EH d 0 : sProp 𝕄)
      = iprop((∃ W, ⌜(K (F := F)).WBelow (SparseCore.T d) W 0⌝ ∗ owes (SparseCore.T d) ((K (F := F)).Otc d 0) W) ∗ tcTail (F := F) d) := by
  unfold SparseCore.Cfg.tcSt tcTail; rfl

theorem Otc_none (d : Dev nD) (n : ℕ) (g : GSem nD τ sig) : (K (F := F)).Otc d n g none = 0 := by
  by_contra h
  have h' := SparseCore.Cfg.lev_of_Otc_pos (K := K (F := F)) (Nat.pos_of_ne_zero h)
  rw [SparseCore.Cfg.lev_none] at h'; omega

abbrev pdats (fy : (d : Dev nD) → Buf (Elt F) (yLoc d)) :
    (p : Fin 1) → (c : Dev nD) → Dat τ (Elt F) (HIx 1) ℕ UU ℕ (Pipeline.pin (pcfgs (F := F)) adm p) c :=
  fun _ c => dat m c (fy c)

set_option backward.isDefEq.respectTransparency.types false in
def reg (fy : (d : Dev nD) → Buf (Elt F) (yLoc d)) :
    Pipeline.RegionSeg (pcfgs (F := F)) adm (pdats m fy) (none : HIx 1) defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation m c (fy c)).loose
  hwaits c := Pipeline.cellsWaits_intro (Pipeline.pin (pcfgs (F := F)) adm) (pdats m fy) none 0 c fun w s t =>
    SparseCore.Cfg.mayWait_none (K := K (F := F)) _ (Otc_none c 0)
  pre c := iprop((K (F := F)).tcSt EH c 0 ∗ regionAt m c (fy c))
  post c := iprop((K (F := F)).tcSt EH c 0 ∗ regionOut m c)
  X _ := BI.emp
  Y _ := BI.emp
  Z c := tcTail c
  hentry c := by
    rw [Pipeline.ownSems0_none, tcSt_split, Pipeline.arrays_eq (Pipeline.pin (pcfgs (F := F)) adm) (pdats m fy) 0 c launch0.arr_whole
      ((pdats m fy 0 c).share_full fun _ => rfl), bigSep_W0]
    unfold regionAt
    iintro ⟨⟨⟨⟨%W, %hW, HO⟩, Htl⟩, Hx, Hw, Hg, Hb, Hy⟩, -, -⟩
    imodintro
    isplitl [Hx Hw Hg Hb Hy]
    · isplitl [Hx]; · iexact Hx
      isplitl [Hw]; · iexact Hw
      isplitl [Hg]; · iexact Hg
      isplitl [Hb]; · iexact Hb
      iexact Hy
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr; · iempintro
    iexact Htl
  hin c := by
    rw [show (pdats m fy 0 c).Φ 0 = Pipeline.scopedRest (Ix := HIx 1) (Name := ℕ) (U := UU) (Lvl := ℕ) (Val := Elt F) spec0 c from rfl]
    iintro ⟨-, -, Hr⟩; iexact Hr
  hout c := by
    rw [Pipeline.ownSems0_none, show (pdats m fy 0 c).Φ (Fin.last _) = Pipeline.scopedRest (Ix := HIx 1) (Name := ℕ) (U := UU) (Lvl := ℕ) (Val := Elt F) spec0 c from rfl]
    iintro Hr
    isplitr; · iempintro
    isplitr; · iempintro
    iexact Hr
  hexit c := by
    obtain ⟨h0, h1, h2, h3⟩ := final_in m c (fy c) cfg0.N
    rw [tcSt_split, Pipeline.arrays_eq (Pipeline.pin (pcfgs (F := F)) adm) (pdats m fy) 0 c launch0.arr_whole
      ((pdats m fy 0 c).share_full fun _ => rfl), bigSep_W0]
    rw [show (pdats m fy 0 c).arrAt 0 (Pipeline.pin (pcfgs (F := F)) adm 0).N = m (xLoc c) from h0,
      show (pdats m fy 0 c).arrAt 1 (Pipeline.pin (pcfgs (F := F)) adm 0).N = m (wLoc c) from h1,
      show (pdats m fy 0 c).arrAt 2 (Pipeline.pin (pcfgs (F := F)) adm 0).N = (gRow m c : Buf (Elt F) (v0Loc c)) from h2,
      show (pdats m fy 0 c).arrAt 3 (Pipeline.pin (pcfgs (F := F)) adm 0).N = (bRow m c : Buf (Elt F) (v1Loc c)) from h3,
      show (pdats m fy 0 c).arrAt 4 (Pipeline.pin (pcfgs (F := F)) adm 0).N = Ytc m c from final4 m c (fy c)]
    unfold regionOut
    iintro ⟨⟨Hx, Hw, Hg, Hb, Hy⟩, HO, -, Htl⟩
    imodintro
    isplitl [HO Htl]
    · isplitl [HO]
      · unfold Pipeline.Dat.owesAt Pipeline.owesWithin
        icases HO with ⟨%W, %hW, HO⟩
        iexists W; isplitr
        · ipureintro
          intro p hp
          rcases hW hp with h | ⟨w, s, rfl⟩
          · exact h
          · exact le_of_eq (SparseCore.Cfg.lev_none _ _)
        iexact HO
      iexact Htl
    isplitl [Hx]; · iexact Hx
    isplitl [Hw]; · iexact Hw
    isplitl [Hg]; · iexact Hg
    isplitl [Hb]; · iexact Hb
    iexact Hy

theorem reg_pre (fy : (d : Dev nD) → Buf (Elt F) (yLoc d)) (c : Dev nD) :
    (reg m fy).pre c = iprop((K (F := F)).tcSt EH c 0 ∗ regionAt m c (fy c)) := rfl
theorem reg_post (fy : (d : Dev nD) → Buf (Elt F) (yLoc d)) (c : Dev nD) :
    (reg m fy).post c = iprop((K (F := F)).tcSt EH c 0 ∗ regionOut m c) := rfl

def fyOf (d : Dev nD) (f : Buf (Elt F) (yLoc d)) : (c : Dev nD) → Buf (Elt F) (yLoc c) :=
  Function.update (fun c => m (yLoc c)) d f

theorem fyOf_self (d : Dev nD) (f : Buf (Elt F) (yLoc d)) : fyOf m d f d = f := Function.update_self _ _ _

end Tc

set_option backward.isDefEq.respectTransparency.types false in
theorem wp_region (κ : GSem nD τ sig → ℕ) (d : Dev nD) {α : Type}
    (k : PUnit → Prog (TpuEff nD τ sig (Elt F) (SparseCore.Sig (ΛP (F := F)) 1) .tc) α) (Φ : α → sProp 𝕄) :
    iprop((K (F := F)).ctx EH (P m) κ ∗ (K (F := F)).tcSt EH d 0 ∗ boundary (SparseCore.T d) ∗ RG d ∗ regionIn m d
        ∗ (iprop((K (F := F)).tcSt EH d 0 ∗ boundary (SparseCore.T d) ∗ regionOut m d)
            -∗ wp frame (wpE ((K (F := F)).defs (D (F := F))) 𝒱 (SparseCore.T d) none) Set.univ (k ⟨⟩) Φ))
      ⊢ wp frame (wpE ((K (F := F)).defs (D (F := F))) 𝒱 (SparseCore.T d) none) Set.univ
          (.op (.customCall (SparseCore.inner (Pipeline.entry 0)) ()) k) Φ := by
  unfold regionIn RG
  iintro ⟨#Hctx, Htc, Hbd, ⟨Hg, Ht⟩, ⟨Hx, Hw, Hv0, Hv1, %f, Hy⟩, Hk⟩
  ihave Hlev := (SparseCore.Cfg.ctx_levAts κ) $$ Hctx
  rw [show (Prog.op (.customCall (SparseCore.inner (Pipeline.entry 0)) ()) k : Prog (TpuEff nD τ sig (Elt F) (SparseCore.Sig (ΛP (F := F)) 1) .tc) α)
      = SparseCore.liftProg (Prog.op (.customCall (Pipeline.entry 0) ()) fun _ => .ret ⟨⟩) >>= k from rfl, wp_bind]
  iapply ((K (F := F)).wp_liftProg (D (F := F)) 𝒱 (SparseCore.T d) Set.univ none _ _)
  iapply (Pipeline.RegionSeg.wp (pcfgs (F := F)) adm (pdats m (fyOf m d f)) none cellOf_inj EP defs₀ 𝒱₀ (K (F := F)).L (K (F := F)).lev
    (reg m (fyOf m d f)) d none (fun u hu => by cases hu) (fun _ => .ret ⟨⟩) _)
  rw [reg_pre, reg_post]
  isplitl [Hk]
  · iintro ⟨Hbd, Htc, Hout⟩
    rw [wp_ret]
    imodintro
    iapply Hk
    isplitl [Htc]; · iexact Htc
    isplitl [Hbd]; · iexact Hbd
    iexact Hout
  isplitl [Hbd]; · iexact Hbd
  isplitl [Htc Hx Hw Hv0 Hv1 Hy]
  · isplitl [Htc]; · iexact Htc
    unfold regionAt
    rw [fyOf_self]
    isplitl [Hx]; · iexact Hx
    isplitl [Hw]; · iexact Hw
    isplitl [Hv0]; · iexact Hv0
    isplitl [Hv1]; · iexact Hv1
    iexact Hy
  isplitl [Hlev]; · iexact Hlev
  isplitl [Hg]; · iexact Hg
  iexact Ht

end Cert.Proof.KI

end
-- ==== Proof.KI.Split.lean ====
import proofs.«205778_g32538672235162_cont_8to1_b_712_45_alg».proof.Proof.KI.Setup
import Idealize.ShloMosaic.Lib.Pipeline.Value
import Idealize.ShloMosaic.Lib.ValueLayout

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

variable (m : (ℓ : Loc nD τ sig) → Buf (Elt F) ℓ) (ρ : Dev nD → PrngReg)

def widEquiv : Fin 2 × Fin 16 ≃ Fin 32 where
  toFun p := wid p.1 p.2
  invFun w := (⟨w.val % 2, Nat.mod_lt _ (by norm_num)⟩, ⟨w.val / 2, by have := w.isLt; omega⟩)
  left_inv := by
    rintro ⟨c, s⟩
    have hc := c.isLt
    have hs := s.isLt
    refine Prod.ext (Fin.ext ?_) (Fin.ext ?_)
    · show (2 * s.val + c.val) % 2 = c.val
      omega
    · show (2 * s.val + c.val) / 2 = s.val
      omega
  right_inv := by
    intro w
    refine Fin.ext ?_
    show 2 * (w.val / 2) + w.val % 2 = w.val
    omega

def tokEquiv : Fin 2 × Fin 16 ≃ Fin 32 where
  toFun p := tok p.1 p.2
  invFun i := (⟨i.val / 16, by have := i.isLt; omega⟩, ⟨i.val % 16, Nat.mod_lt _ (by norm_num)⟩)
  left_inv := by
    rintro ⟨c, s⟩
    have hc := c.isLt
    have hs := s.isLt
    refine Prod.ext (Fin.ext ?_) (Fin.ext ?_)
    · show (16 * c.val + s.val) / 16 = c.val
      omega
    · show (16 * c.val + s.val) % 16 = s.val
      omega
  right_inv := by
    intro i
    refine Fin.ext ?_
    show 16 * (i.val / 16) + i.val % 16 = i.val
    omega

theorem bigSep_two_sixteen {M : Type} [URA M] (e : Fin 2 × Fin 16 ≃ Fin 32) (Φ : Fin 32 → sProp M) :
    bigSep Finset.univ Φ = bigSep Finset.univ fun c : Fin 2 => bigSep Finset.univ fun s : Fin 16 => Φ (e (c, s)) := by
  rw [bigSep_univ_equiv e Φ, bigSep_univ_prod]

theorem outSet_disjoint (w w' : Fin 32) (h : w ≠ w') : Disjoint (outSet w) (outSet w') := by
  rw [Finset.disjoint_left]
  intro j hj hj'
  rw [outSet, Finset.mem_filter] at hj hj'
  have hne : w.val ≠ w'.val := fun e => h (Fin.ext e)
  omega

-- The row ranges [784 w, 784 (w + 1)) of w < 32, cut at 25000, cover every output row.
theorem outSet_cover : (Finset.univ : Finset (Fin 32)).biUnion outSet = Finset.univ := by
  refine Finset.ext fun j => ?_
  have h : (j 0).val < 25000 := (j 0).isLt
  refine ⟨fun _ => Finset.mem_univ _, fun _ => ?_⟩
  refine Finset.mem_biUnion.mpr ⟨⟨(j 0).val / 784, by omega⟩, Finset.mem_univ _, ?_⟩
  rw [outSet, Finset.mem_filter]
  refine ⟨Finset.mem_univ _, ?_, ?_⟩
  · show 784 * ((j 0).val / 784) ≤ (j 0).val
    omega
  · show (j 0).val < 784 * ((j 0).val / 784 + 1)
    omega

theorem out_rows (d : Dev nD) (f : Buf (Elt F) (oLoc d)) :
    (oLoc d ↦{fullShare} f : sProp 𝕄)
      ⊣⊢ bigSep Finset.univ fun c : Fin 2 => bigSep Finset.univ fun s : Fin 16 => oLoc d ↦[outSet (wid c s)]{fullShare} f := by
  have h : (oLoc d ↦[(Finset.univ : Finset (Fin 32)).biUnion outSet]{fullShare} f : sProp 𝕄)
      = bigSep Finset.univ fun w : Fin 32 => oLoc d ↦[outSet w]{fullShare} f :=
    pointsTo_biUnion (ℓ := oLoc d) Finset.univ outSet fun t _ t' _ hne => outSet_disjoint t t' hne
  rw [outSet_cover, bigSep_two_sixteen widEquiv] at h
  exact ⟨Entails.of_eq h, Entails.of_eq h.symm⟩

theorem toks32 {ℓ : Loc nD τ sig} (f : Buf (Elt F) ℓ) :
    (ℓ ↦{fullShare} f : sProp 𝕄)
      ⊣⊢ iprop((ℓ ↦{Transfers.shareDrop fullShare 32} f) ∗ bigSep Finset.univ fun c : Fin 2 => bigSep Finset.univ fun s : Fin 16 => ℓ ↦{rq c s} f) := by
  have h : (ℓ ↦{fullShare} f : sProp 𝕄)
      ⊣⊢ iprop((ℓ ↦{Transfers.shareDrop fullShare 32} f) ∗ bigSep Finset.univ fun i : Fin 32 => ℓ ↦{Transfers.shareTok fullShare 32 i} f) :=
    Transfers.pointsTo_toks fullShare 32
  rw [bigSep_two_sixteen tokEquiv] at h
  exact h

variable [FloatOps F]

theorem call_split (d : Dev nD) (fo : Buf (Elt F) (oLoc d)) :
    iprop((yLoc d ↦{fullShare} Ytc m d) ∗ (iLoc d ↦{fullShare} Iv m d) ∗ (oLoc d ↦{fullShare} fo))
      ⊣⊢ iprop((yLoc d ↦{Transfers.shareDrop fullShare 32} Ytc m d) ∗ (iLoc d ↦{Transfers.shareDrop fullShare 32} Iv m d)
          ∗ bigSep Finset.univ fun c : Fin 2 => bigSep Finset.univ fun s : Fin 16 => tileRes m d c s fo) := by
  have hY : (yLoc d ↦{fullShare} Ytc m d : sProp 𝕄) = _ := BI.equiv_iff.mp ⟨(toks32 (Ytc m d)).1, (toks32 (Ytc m d)).2⟩
  have hI : (iLoc d ↦{fullShare} Iv m d : sProp 𝕄) = _ := BI.equiv_iff.mp ⟨(toks32 (Iv m d)).1, (toks32 (Iv m d)).2⟩
  have hO : (oLoc d ↦{fullShare} fo : sProp 𝕄) = _ := BI.equiv_iff.mp ⟨(out_rows d fo).1, (out_rows d fo).2⟩
  rw [hY, hI, hO]
  unfold tileRes
  simp only [bigSep_sep']
  constructor
  · iintro ⟨⟨Yd, Ya⟩, ⟨Id, Ib⟩, Oc⟩
    isplitl [Yd]; · iexact Yd
    isplitl [Id]; · iexact Id
    isplitl [Ya]; · iexact Ya
    isplitl [Ib]; · iexact Ib
    iexact Oc
  · iintro ⟨Yd, Id, Ya, Ib, Oc⟩
    isplitl [Yd Ya]; · isplitl [Yd] <;> iassumption
    isplitl [Id Ib]; · isplitl [Id] <;> iassumption
    iexact Oc

theorem reshape_row (a : FVec F S128 .f32) :
    (shapeCast S1x128 a shapeCasts_S128_S1x128 : FVec F S1x128 .f32) = fun y => a (ix1 (y 1)) := by
  funext y
  have h0 : (y 0).val < 1 := (y 0).isLt
  refine shapeCast_apply a shapeCasts_S128_S1x128 y (ix1 (y 1)) ?_
  rw [Shape.rowMajor_val_one, Shape.rowMajor_val_two]
  show (y 1).val = (y 0).val * 128 + (y 1).val
  omega

theorem reshape_flat (a : IVec S25000x16 32) :
    (shapeCast S400000 a shapeCasts_S25000x16_S400000 : IVec S400000 32)
      = fun j => a (ix2 ⟨(j 0).val / 16, by have h : (j 0).val < 400000 := (j 0).isLt; omega⟩ ⟨(j 0).val % 16, Nat.mod_lt _ (by norm_num)⟩) := by
  funext j
  refine shapeCast_apply a shapeCasts_S25000x16_S400000 j _ ?_
  rw [Shape.rowMajor_val_two, Shape.rowMajor_val_one]
  show (j 0).val / 16 * 16 + (j 0).val % 16 = (j 0).val
  omega

end Cert.Proof.KI

end
-- ==== Proof.Spec.lean ====
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

def c128 : EReal := Ideal.ofBits .f32 0x43000000#32
def ceps : EReal := Ideal.ofBits .f32 0x3727C5AC#32

theorem c128_eq : c128 = ((128 : ℝ) : EReal) := by
  simp [c128, Ideal.ofBits, Ideal.ieee, -EReal.coe_mul]; norm_num

theorem ceps_eq : ceps = ((10995116 / 2 ^ 40 : ℝ) : EReal) := by
  simp [ceps, Ideal.ofBits, Ideal.ieee, -EReal.coe_mul]; norm_num

theorem pinf_eq : Ideal.ofBits .f32 0x7F800000#32 = (⊤ : EReal) := by
  simp [Ideal.ofBits, Ideal.ieee]

theorem ninf_eq : Ideal.ofBits .f32 0xFF800000#32 = (⊥ : EReal) := by
  simp [Ideal.ofBits, Ideal.ieee]

theorem zero_eq : Ideal.ofBits .f32 0x00000000#32 = (0 : EReal) := Ideal.ofBits_zero_f32

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem rsqrt_pos {p : ℝ} (hp : 0 < p) : Ideal.rsqrt (p : EReal) = (((Real.sqrt p)⁻¹ : ℝ) : EReal) := by
  rw [Ideal.rsqrt_coe, if_neg (not_lt.mpr hp.le), if_neg hp.ne']

theorem sqrt_pos {p : ℝ} (hp : 0 < p) : Ideal.sqrt (p : EReal) = ((Real.sqrt p : ℝ) : EReal) := by
  rw [Ideal.sqrt_coe, if_neg (not_lt.mpr hp.le)]

theorem div_sqrt_pos {p : ℝ} (hp : 0 < p) (a : ℝ) :
    Ideal.div (a : EReal) (Ideal.sqrt (p : EReal)) = ((a * (Real.sqrt p)⁻¹ : ℝ) : EReal) := by
  rw [sqrt_pos hp, Ideal.div_coe (Real.sqrt_pos.mpr hp).ne', one_div, ← EReal.coe_mul]

section Row

variable (x : Fin 128 → EReal) (W : Fin 128 → Fin 128 → EReal) (γ β : Fin 128 → EReal)

def mu : EReal := Ideal.div (∑ c, x c) c128
def ctr (c : Fin 128) : EReal := x c - mu x
def var : EReal := Ideal.div (∑ c, ctr x c * ctr x c) c128

def kerRow (o : Fin 128) : EReal :=
  (∑ c, (ctr x c * Ideal.rsqrt (var x + ceps)) * (W o c * γ c)) + ∑ c, β c * W o c

def refRow (o : Fin 128) : EReal :=
  ∑ c, (Ideal.div (ctr x c) (Ideal.sqrt (var x + ceps)) * γ c + β c) * W o c

-- With real entries both rows are finite real sums, equal term by term: the factor 1/√(var + ε) and γ move across the product and the β·W terms are summed apart.
theorem kerRow_eq_refRow (hx : ∀ c, ∃ r : ℝ, x c = (r : EReal)) (hW : ∀ o c, ∃ r : ℝ, W o c = (r : EReal))
    (hγ : ∀ c, ∃ r : ℝ, γ c = (r : EReal)) (hβ : ∀ c, ∃ r : ℝ, β c = (r : EReal)) (o : Fin 128) :
    kerRow x W γ β o = refRow x W γ β o := by
  choose xr hxr using hx
  choose Wr hWr using hW
  choose gr hgr using hγ
  choose br hbr using hβ
  obtain rfl : x = fun c => (xr c : EReal) := funext hxr
  have hmu : mu (fun c => (xr c : EReal)) = (((∑ c, xr c) * (1 / 128) : ℝ) : EReal) := by
    rw [mu, c128_eq, Ideal.div_coe (by norm_num : (128 : ℝ) ≠ 0), ← coe_sum, ← EReal.coe_mul]
  set m : ℝ := (∑ c, xr c) * (1 / 128) with hm
  have hctr : ∀ c, ctr (fun c => (xr c : EReal)) c = ((xr c - m : ℝ) : EReal) := by
    intro c; rw [ctr, hmu, ← EReal.coe_sub]
  have hvar : var (fun c => (xr c : EReal)) = (((∑ c, (xr c - m) * (xr c - m)) * (1 / 128) : ℝ) : EReal) := by
    rw [var, c128_eq, Ideal.div_coe (by norm_num : (128 : ℝ) ≠ 0)]
    simp only [hctr, ← EReal.coe_mul]
    rw [← coe_sum, ← EReal.coe_mul]
  set v : ℝ := (∑ c, (xr c - m) * (xr c - m)) * (1 / 128) with hv
  have hv0 : 0 ≤ v :=
    mul_nonneg (Finset.sum_nonneg fun c _ => mul_self_nonneg _) (by norm_num)
  have hp : 0 < v + 10995116 / 2 ^ 40 := by positivity
  have hsum : var (fun c => (xr c : EReal)) + ceps = ((v + 10995116 / 2 ^ 40 : ℝ) : EReal) := by
    rw [hvar, ceps_eq, ← EReal.coe_add]
  set p : ℝ := v + 10995116 / 2 ^ 40 with hpdef
  have hker : kerRow (fun c => (xr c : EReal)) W γ β o
      = ((∑ c, (xr c - m) * (Real.sqrt p)⁻¹ * (Wr o c * gr c) + ∑ c, br c * Wr o c : ℝ) : EReal) := by
    rw [kerRow, hsum, rsqrt_pos hp]
    simp only [hctr, hWr, hgr, hbr, ← EReal.coe_mul]
    rw [← coe_sum, ← coe_sum, ← EReal.coe_add]
  have href : refRow (fun c => (xr c : EReal)) W γ β o
      = ((∑ c, ((xr c - m) * (Real.sqrt p)⁻¹ * gr c + br c) * Wr o c : ℝ) : EReal) := by
    rw [refRow, hsum]
    simp only [hctr, hWr, hgr, hbr, div_sqrt_pos hp, ← EReal.coe_mul, ← EReal.coe_add]
    rw [← coe_sum]
  rw [hker, href, ← Finset.sum_add_distrib]
  congr 1
  refine Finset.sum_congr rfl fun c _ => ?_
  ring

end Row

def tree16 (v : Fin 16 → EReal) : EReal :=
  max (max (max (max (v 0) (v 1)) (max (v 2) (v 3))) (max (max (v 4) (v 5)) (max (v 6) (v 7))))
    (max (max (max (v 8) (v 9)) (max (v 10) (v 11))) (max (max (v 12) (v 13)) (max (v 14) (v 15))))

-- The balanced tree of sixteen maxima is the supremum over the sixteen.
theorem tree16_eq_sup (v : Fin 16 → EReal) : tree16 v = Finset.univ.sup v := by
  apply le_antisymm
  · unfold tree16
    repeat' apply max_le
    all_goals exact Finset.le_sup (f := v) (Finset.mem_univ _)
  · refine Finset.sup_le fun k _ => ?_
    fin_cases k <;> simp [tree16, le_max_iff]

def kerOut (X : Fin 100000 → Fin 128 → EReal) (W : Fin 128 → Fin 128 → EReal) (γ β : Fin 128 → EReal)
    (nbr : Fin 25000 → Fin 16 → Fin 100000) (r : Fin 25000) (o : Fin 128) : EReal :=
  tree16 fun k => kerRow (X (nbr r k)) W γ β o

def refOut (X : Fin 100000 → Fin 128 → EReal) (W : Fin 128 → Fin 128 → EReal) (γ β : Fin 128 → EReal)
    (nbr : Fin 25000 → Fin 16 → Fin 100000) (r : Fin 25000) (o : Fin 128) : EReal :=
  tree16 fun k => refRow (X (nbr r k)) W γ β o

theorem kerOut_eq_refOut (X : Fin 100000 → Fin 128 → EReal) (W : Fin 128 → Fin 128 → EReal) (γ β : Fin 128 → EReal)
    (nbr : Fin 25000 → Fin 16 → Fin 100000)
    (hX : ∀ n c, ∃ r : ℝ, X n c = (r : EReal)) (hW : ∀ o c, ∃ r : ℝ, W o c = (r : EReal))
    (hγ : ∀ c, ∃ r : ℝ, γ c = (r : EReal)) (hβ : ∀ c, ∃ r : ℝ, β c = (r : EReal)) (r : Fin 25000) (o : Fin 128) :
    kerOut X W γ β nbr r o = refOut X W γ β nbr r o := by
  unfold kerOut refOut
  congr 1; funext k
  exact kerRow_eq_refRow (X (nbr r k)) W γ β (hX _) hW hγ hβ o

def arr2 {n0 n1 : Nat} (a : (⟨2, ![n0, n1]⟩ : Shape).Idx → EReal) : Fin n0 → Fin n1 → EReal := fun i j => a (ix2 i j)
def arr1 {n : Nat} (a : (⟨1, ![n]⟩ : Shape).Idx → EReal) : Fin n → EReal := fun i => a (ix1 i)

def nbrOf (a : (⟨2, ![25000, 16]⟩ : Shape).Idx → BitVec 32) : Fin 25000 → Fin 16 → Fin 100000 :=
  fun r k => ⟨(a (ix2 r k)).toNat % 100000, Nat.mod_lt _ (by norm_num)⟩

theorem nbrOf_val (a : (⟨2, ![25000, 16]⟩ : Shape).Idx → BitVec 32) (h : ∀ j, (a j).toNat < 100000) (r : Fin 25000) (k : Fin 16) :
    (nbrOf a r k).val = (a (ix2 r k)).toNat := Nat.mod_eq_of_lt (h _)

def kerArr (X : (⟨2, ![100000, 128]⟩ : Shape).Idx → EReal) (W : (⟨2, ![128, 128]⟩ : Shape).Idx → EReal)
    (γ β : (⟨1, ![128]⟩ : Shape).Idx → EReal) (nbr : (⟨2, ![25000, 16]⟩ : Shape).Idx → BitVec 32) :
    (⟨2, ![25000, 128]⟩ : Shape).Idx → EReal :=
  fun j => kerOut (arr2 X) (arr2 W) (arr1 γ) (arr1 β) (nbrOf nbr) (j 0) (j 1)

def refArr (X : (⟨2, ![100000, 128]⟩ : Shape).Idx → EReal) (W : (⟨2, ![128, 128]⟩ : Shape).Idx → EReal)
    (γ β : (⟨1, ![128]⟩ : Shape).Idx → EReal) (nbr : (⟨2, ![25000, 16]⟩ : Shape).Idx → BitVec 32) :
    (⟨2, ![25000, 128]⟩ : Shape).Idx → EReal :=
  fun j => refOut (arr2 X) (arr2 W) (arr1 γ) (arr1 β) (nbrOf nbr) (j 0) (j 1)

-- Both sides take the same maximum over a centre's sixteen neighbours, of rows that agree by `kerRow_eq_refRow`.
theorem kerArr_eq_refArr (X : (⟨2, ![100000, 128]⟩ : Shape).Idx → EReal) (W : (⟨2, ![128, 128]⟩ : Shape).Idx → EReal)
    (γ β : (⟨1, ![128]⟩ : Shape).Idx → EReal) (nbr : (⟨2, ![25000, 16]⟩ : Shape).Idx → BitVec 32)
    (hX : ∀ j, ∃ r : ℝ, X j = (r : EReal)) (hW : ∀ j, ∃ r : ℝ, W j = (r : EReal))
    (hγ : ∀ j, ∃ r : ℝ, γ j = (r : EReal)) (hβ : ∀ j, ∃ r : ℝ, β j = (r : EReal)) :
    kerArr X W γ β nbr = refArr X W γ β nbr := by
  funext j
  exact kerOut_eq_refOut _ _ _ _ _ (fun n c => hX _) (fun o c => hW _) (fun c => hγ _) (fun c => hβ _) _ _

end Cert.Spec

end
-- ==== Proof.KI.TcValue.lean ====
import proofs.«205778_g32538672235162_cont_8to1_b_712_45_alg».proof.Proof.KI.Setup
import proofs.«205778_g32538672235162_cont_8to1_b_712_45_alg».proof.Proof.Spec
import Idealize.ShloMosaic.Lib.Pipeline.Value
import Idealize.ShloMosaic.Lib.ValueLayout
import Idealize.ShloMosaic.PureOps.Ideal.Laws

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

section Column
variable {α : Type}

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Column

theorem rowSum_apply {a b : ℕ} (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction (F := Ideal) .add [1] ⟨1, ![a]⟩ v 0x00000000#32 h hφ hacc (ix1 r) = ∑ c : Fin b, v (ix2 r c) := by
  refine (Ideal.multiReduction_add_single v _ h hφ hacc (ix1 r)).trans ?_
  refine Finset.sum_congr rfl fun c _ => congrArg v (funext fun ax => Fin.ext ?_)
  match ax with
  | ⟨0, _⟩ => rfl
  | ⟨1, _⟩ => rfl

theorem lhs_proj_0 (i : S10000x128.Idx) (q : dot_S10000x128_S128x128_S10000x128_1_1_0_0_n_n.contr.Idx) :
    (dot_S10000x128_S128x128_S10000x128_1_1_0_0_n_n.lhsIdx i q 0).val = (i 0).val := by
  unfold DotDims.lhsIdx
  rw [dif_neg (show ¬(0 : Fin S10000x128.rank) ∈ dot_S10000x128_S128x128_S10000x128_1_1_0_0_n_n.lhsBatch by decide),
    dif_pos (show (0 : Fin S10000x128.rank) ∈ dot_S10000x128_S128x128_S10000x128_1_1_0_0_n_n.lhsNonContracting by decide)]
  rfl

theorem lhs_proj_1 (i : S10000x128.Idx) (q : dot_S10000x128_S128x128_S10000x128_1_1_0_0_n_n.contr.Idx) :
    (dot_S10000x128_S128x128_S10000x128_1_1_0_0_n_n.lhsIdx i q 1).val = (q ⟨0, by decide⟩).val :=
  dot_S10000x128_S128x128_S10000x128_1_1_0_0_n_n.lhsIdx_val_of_single rfl i q

theorem rhs_proj_0 (i : S10000x128.Idx) (q : dot_S10000x128_S128x128_S10000x128_1_1_0_0_n_n.contr.Idx) :
    (dot_S10000x128_S128x128_S10000x128_1_1_0_0_n_n.rhsIdx i q 0).val = (i 1).val := by
  unfold DotDims.rhsIdx
  rw [dif_neg (show ¬(0 : Fin S128x128.rank) ∈ dot_S10000x128_S128x128_S10000x128_1_1_0_0_n_n.rhsBatch by decide),
    dif_pos (show (0 : Fin S128x128.rank) ∈ dot_S10000x128_S128x128_S10000x128_1_1_0_0_n_n.rhsNonContracting by decide)]
  rfl

theorem rhs_proj_1 (i : S10000x128.Idx) (q : dot_S10000x128_S128x128_S10000x128_1_1_0_0_n_n.contr.Idx) :
    (dot_S10000x128_S128x128_S10000x128_1_1_0_0_n_n.rhsIdx i q 1).val = (q ⟨0, by decide⟩).val :=
  dot_S10000x128_S128x128_S10000x128_1_1_0_0_n_n.rhsIdx_val_of_single rfl i q

theorem proj_apply (A : FVec Ideal S10000x128 .f32) (B : FVec Ideal S128x128 .f32) (r : Fin 10000) (o : Fin 128) :
    matmul dot_S10000x128_S128x128_S10000x128_1_1_0_0_n_n none A B (constant (F := Ideal) S10000x128 .f32 0x00000000#32) (ix2 r o)
      = ∑ c : Fin 128, A (ix2 r c) * B (ix2 o c) := by
  simp only [matmul]
  rw [Ideal.matmul_constant_zero_apply,
    ← Equiv.sum_comp (contrEquiv1 dot_S10000x128_S128x128_S10000x128_1_1_0_0_n_n 128 rfl rfl).symm]
  refine Finset.sum_congr rfl fun k _ => ?_
  have hk := contrEquiv1_symm_val dot_S10000x128_S128x128_S10000x128_1_1_0_0_n_n 128 rfl rfl k
  have el : dot_S10000x128_S128x128_S10000x128_1_1_0_0_n_n.lhsIdx (ix2 r o)
      ((contrEquiv1 dot_S10000x128_S128x128_S10000x128_1_1_0_0_n_n 128 rfl rfl).symm k) = ix2 r k := funext fun a => Fin.ext (by
    match a with
    | ⟨0, _⟩ => exact lhs_proj_0 _ _
    | ⟨1, _⟩ => exact (lhs_proj_1 _ _).trans hk)
  have er : dot_S10000x128_S128x128_S10000x128_1_1_0_0_n_n.rhsIdx (ix2 r o)
      ((contrEquiv1 dot_S10000x128_S128x128_S10000x128_1_1_0_0_n_n 128 rfl rfl).symm k) = ix2 o k := funext fun a => Fin.ext (by
    match a with
    | ⟨0, _⟩ => exact rhs_proj_0 _ _
    | ⟨1, _⟩ => exact (rhs_proj_1 _ _).trans hk)
  rw [el, er]

theorem lhs_bias_0 (i : S1x128.Idx) (q : dot_S1x128_S128x128_S1x128_1_1_0_0_n_n.contr.Idx) :
    (dot_S1x128_S128x128_S1x128_1_1_0_0_n_n.lhsIdx i q 0).val = (i 0).val := by
  unfold DotDims.lhsIdx
  rw [dif_neg (show ¬(0 : Fin S1x128.rank) ∈ dot_S1x128_S128x128_S1x128_1_1_0_0_n_n.lhsBatch by decide),
    dif_pos (show (0 : Fin S1x128.rank) ∈ dot_S1x128_S128x128_S1x128_1_1_0_0_n_n.lhsNonContracting by decide)]
  rfl

theorem lhs_bias_1 (i : S1x128.Idx) (q : dot_S1x128_S128x128_S1x128_1_1_0_0_n_n.contr.Idx) :
    (dot_S1x128_S128x128_S1x128_1_1_0_0_n_n.lhsIdx i q 1).val = (q ⟨0, by decide⟩).val :=
  dot_S1x128_S128x128_S1x128_1_1_0_0_n_n.lhsIdx_val_of_single rfl i q

theorem rhs_bias_0 (i : S1x128.Idx) (q : dot_S1x128_S128x128_S1x128_1_1_0_0_n_n.contr.Idx) :
    (dot_S1x128_S128x128_S1x128_1_1_0_0_n_n.rhsIdx i q 0).val = (i 1).val := by
  unfold DotDims.rhsIdx
  rw [dif_neg (show ¬(0 : Fin S128x128.rank) ∈ dot_S1x128_S128x128_S1x128_1_1_0_0_n_n.rhsBatch by decide),
    dif_pos (show (0 : Fin S128x128.rank) ∈ dot_S1x128_S128x128_S1x128_1_1_0_0_n_n.rhsNonContracting by decide)]
  rfl

theorem rhs_bias_1 (i : S1x128.Idx) (q : dot_S1x128_S128x128_S1x128_1_1_0_0_n_n.contr.Idx) :
    (dot_S1x128_S128x128_S1x128_1_1_0_0_n_n.rhsIdx i q 1).val = (q ⟨0, by decide⟩).val :=
  dot_S1x128_S128x128_S1x128_1_1_0_0_n_n.rhsIdx_val_of_single rfl i q

theorem bias_apply (A : FVec Ideal S1x128 .f32) (B : FVec Ideal S128x128 .f32) (u : Fin 1) (o : Fin 128) :
    matmul dot_S1x128_S128x128_S1x128_1_1_0_0_n_n none A B (constant (F := Ideal) S1x128 .f32 0x00000000#32) (ix2 u o)
      = ∑ c : Fin 128, A (ix2 u c) * B (ix2 o c) := by
  simp only [matmul]
  rw [Ideal.matmul_constant_zero_apply,
    ← Equiv.sum_comp (contrEquiv1 dot_S1x128_S128x128_S1x128_1_1_0_0_n_n 128 rfl rfl).symm]
  refine Finset.sum_congr rfl fun k _ => ?_
  have hk := contrEquiv1_symm_val dot_S1x128_S128x128_S1x128_1_1_0_0_n_n 128 rfl rfl k
  have el : dot_S1x128_S128x128_S1x128_1_1_0_0_n_n.lhsIdx (ix2 u o)
      ((contrEquiv1 dot_S1x128_S128x128_S1x128_1_1_0_0_n_n 128 rfl rfl).symm k) = ix2 u k := funext fun a => Fin.ext (by
    match a with
    | ⟨0, _⟩ => exact lhs_bias_0 _ _
    | ⟨1, _⟩ => exact (lhs_bias_1 _ _).trans hk)
  have er : dot_S1x128_S128x128_S1x128_1_1_0_0_n_n.rhsIdx (ix2 u o)
      ((contrEquiv1 dot_S1x128_S128x128_S1x128_1_1_0_0_n_n 128 rfl rfl).symm k) = ix2 o k := funext fun a => Fin.ext (by
    match a with
    | ⟨0, _⟩ => exact rhs_bias_0 _ _
    | ⟨1, _⟩ => exact (rhs_bias_1 _ _).trans hk)
  rw [el, er]

def rowOf (v : FVec Ideal S10000x128 .f32) (r : Fin 10000) : Fin 128 → EReal := fun c => v (ix2 r c)

def colMean (v : FVec Ideal S10000x128 .f32) : FVec Ideal S10000x1 .f32 :=
  divf (shapeCast S10000x1 (multiReduction .add [1] S10000 v 0x00000000#32 reduces_S10000x128_S10000 (.inl rfl) rfl) shapeCasts_S10000_S10000x1)
    (broadcast S10000x1 (Scalar.ofBits .f32 0x43000000#32))

def centred (v : FVec Ideal S10000x128 .f32) : FVec Ideal S10000x128 .f32 :=
  subf v (broadcastTo S10000x128 (colMean v) broadcasts_S10000x1_S10000x128)

def invStd (v : FVec Ideal S10000x128 .f32) : FVec Ideal S10000x1 .f32 :=
  rsqrt (addf (colMean (mulf (centred v) (centred v))) (broadcast S10000x1 (Scalar.ofBits .f32 0x3727C5AC#32)))

def normed (v : FVec Ideal S10000x128 .f32) : FVec Ideal S10000x128 .f32 :=
  mulf (centred v) (broadcastTo S10000x128 (invStd v) broadcasts_S10000x1_S10000x128)

def scaledW (W : FVec Ideal S128x128 .f32) (g : FVec Ideal S1x128 .f32) : FVec Ideal S128x128 .f32 :=
  mulf W (broadcastTo S128x128 (shapeCast S1x128 g shapeCasts_S1x128_S1x128) broadcasts_S1x128_S128x128)

theorem pay_eq (v : FVec Ideal S10000x128 .f32) (W : FVec Ideal S128x128 .f32) (g b : FVec Ideal S1x128 .f32) (W' : FVec Ideal S128x128 .f32) :
    k0_pay1 (F := Ideal) v W g b W'
      = addf (matmul dot_S10000x128_S128x128_S10000x128_1_1_0_0_n_n none (normed v) (scaledW W g) (constant (F := Ideal) S10000x128 .f32 0x00000000#32))
          (broadcastTo S10000x128
            (matmul dot_S1x128_S128x128_S1x128_1_1_0_0_n_n none (shapeCast S1x128 b shapeCasts_S1x128_S1x128) W' (constant (F := Ideal) S1x128 .f32 0x00000000#32))
            broadcasts_S1x128_S10000x128) := rfl

theorem colMean_apply (v : FVec Ideal S10000x128 .f32) (r : Fin 10000) (u : Fin 1) :
    colMean v (ix2 r u) = Ideal.div (∑ c : Fin 128, v (ix2 r c)) Cert.Spec.c128 :=
  congrArg (fun t => Ideal.div t Cert.Spec.c128) ((shapeCast_a_a1_apply _ _ r u).trans (rowSum_apply v _ _ _ r))

theorem centred_apply (v : FVec Ideal S10000x128 .f32) (r : Fin 10000) (c : Fin 128) :
    centred v (ix2 r c) = Cert.Spec.ctr (rowOf v r) c :=
  congrArg (fun t => v (ix2 r c) - t) ((broadcastTo_a1_ab_apply _ _ r c).trans (colMean_apply v r 0))

theorem invStd_apply (v : FVec Ideal S10000x128 .f32) (r : Fin 10000) (u : Fin 1) :
    invStd v (ix2 r u) = Ideal.rsqrt (Cert.Spec.var (rowOf v r) + Cert.Spec.ceps) := by
  have hsq : ∑ c : Fin 128, mulf (centred v) (centred v) (ix2 r c)
      = ∑ c : Fin 128, Cert.Spec.ctr (rowOf v r) c * Cert.Spec.ctr (rowOf v r) c :=
    Finset.sum_congr rfl fun c _ => congrArg₂ (· * ·) (centred_apply v r c) (centred_apply v r c)
  exact congrArg (fun t => Ideal.rsqrt (t + Cert.Spec.ceps))
    ((colMean_apply _ r u).trans (congrArg (fun t => Ideal.div t Cert.Spec.c128) hsq))

theorem normed_apply (v : FVec Ideal S10000x128 .f32) (r : Fin 10000) (c : Fin 128) :
    normed v (ix2 r c) = Cert.Spec.ctr (rowOf v r) c * Ideal.rsqrt (Cert.Spec.var (rowOf v r) + Cert.Spec.ceps) :=
  congrArg₂ (· * ·) (centred_apply v r c) ((broadcastTo_a1_ab_apply _ _ r c).trans (invStd_apply v r 0))

theorem scaledW_apply (W : FVec Ideal S128x128 .f32) (g : FVec Ideal S1x128 .f32) (o c : Fin 128) :
    scaledW W g (ix2 o c) = W (ix2 o c) * g (ix2 (0 : Fin 1) c) :=
  congrArg (fun t => W (ix2 o c) * t) ((broadcastTo_1b_ab_apply _ _ o c).trans (congrFun (shapeCast_self g _) _))

theorem pay_apply (v : FVec Ideal S10000x128 .f32) (W : FVec Ideal S128x128 .f32) (g b : FVec Ideal S1x128 .f32)
    (r : Fin 10000) (o : Fin 128) :
    k0_pay1 (F := Ideal) v W g b W (ix2 r o)
      = Cert.Spec.kerRow (rowOf v r) (fun o c => W (ix2 o c)) (fun c => g (ix2 (0 : Fin 1) c)) (fun c => b (ix2 (0 : Fin 1) c)) o := by
  refine (congrFun (pay_eq v W g b W) _).trans ((addf_apply _ _ _).trans (congrArg₂ (· + ·) ?_ ?_))
  · exact (proj_apply _ _ r o).trans
      (Finset.sum_congr rfl fun c _ => congrArg₂ (· * ·) (normed_apply v r c) (scaledW_apply W g o c))
  · exact (broadcastTo_1b_ab_apply _ _ r o).trans ((bias_apply _ _ 0 o).trans
      (Finset.sum_congr rfl fun c _ => congrArg (fun t => t * W (ix2 o c)) (congrFun (shapeCast_self b _) _)))

variable (m : (ℓ : Loc nD τ sig) → Buf (Elt Ideal) ℓ)

theorem Ytc_apply (d : Dev nD) (n : Fin 100000) (o : Fin 128) :
    Ytc (F := Ideal) m d (ix2 n o)
      = Cert.Spec.kerRow (Cert.Spec.arr2 (m (xLoc d)) n) (Cert.Spec.arr2 (m (wLoc d))) (Cert.Spec.arr1 (m (gLoc d))) (Cert.Spec.arr1 (m (bLoc d))) o := by
  unfold Ytc
  refine (pay_apply _ _ _ _ ⟨n.val % 10000, Nat.mod_lt _ (by norm_num)⟩ o).trans ?_
  have hx : rowOf (xBlk m d ⟨n.val / 10000, by have := n.isLt; omega⟩) ⟨n.val % 10000, Nat.mod_lt _ (by norm_num)⟩
      = Cert.Spec.arr2 (m (xLoc d)) n :=
    funext fun c => congrArg (fun i : Fin 100000 => m (xLoc d) (ix2 i c)) (Fin.ext (Nat.div_add_mod n.val 10000))
  exact congrArg (fun x => Cert.Spec.kerRow x (Cert.Spec.arr2 (m (wLoc d))) (Cert.Spec.arr1 (m (gLoc d))) (Cert.Spec.arr1 (m (bLoc d))) o) hx

theorem tree16F_ideal (v : Fin 16 → EReal) : tree16F (F := Ideal) v = Cert.Spec.tree16 v := rfl

theorem Iv_apply (d : Dev nD) (r : Fin 25000) (k : Fin 16) (h : 16 * r.val + k.val < 400000) :
    Iv (F := Ideal) m d (ix1 ⟨16 * r.val + k.val, h⟩) = m (nLoc d) (ix2 r k) :=
  congrArg (m (nLoc d)) (congrArg₂ (fun (a : Fin 25000) (b : Fin 16) => ix2 a b)
    (Fin.ext (by show (16 * r.val + k.val) / 16 = r.val; have := k.isLt; omega))
    (Fin.ext (by show (16 * r.val + k.val) % 16 = k.val; have := k.isLt; omega)))

-- At the extended reals the kernel's result is the specification's kernel-side array: each table row normalised and projected, then the tree maximum over the centre's sixteen neighbours.
theorem Out_eq (d : Dev nD) (hidx : ∀ j, (m (nLoc d) j).toNat < 100000) :
    Out (F := Ideal) m d = Cert.Spec.kerArr (m (xLoc d)) (m (wLoc d)) (m (gLoc d)) (m (bLoc d)) (m (nLoc d)) := by
  funext j
  obtain ⟨r, o, rfl⟩ : ∃ (r : Fin 25000) (o : Fin 128), j = ix2 r o := ⟨j 0, j 1, eq_ix2 j⟩
  unfold Out Gout Cert.Spec.kerArr Cert.Spec.kerOut
  refine (tree16F_ideal _).trans (congrArg Cert.Spec.tree16 (funext fun k => ?_))
  have key : ∀ n : Fin 100000, n = Cert.Spec.nbrOf (m (nLoc d)) r k →
      Ytc (F := Ideal) m d (ix2 n o)
        = Cert.Spec.kerRow (Cert.Spec.arr2 (m (xLoc d)) (Cert.Spec.nbrOf (m (nLoc d)) r k)) (Cert.Spec.arr2 (m (wLoc d)))
            (Cert.Spec.arr1 (m (gLoc d))) (Cert.Spec.arr1 (m (bLoc d))) o := by
    rintro n rfl; exact Ytc_apply m d _ o
  exact key _ (Fin.ext (congrArg (fun w : BitVec 32 => w.toNat % 100000) (Iv_apply m d r k _)))

end Cert.Proof.KI

end
-- ==== Proof.RefRun.lean ====
import proofs.«205778_g32538672235162_cont_8to1_b_712_45_alg».proof.ReferenceIdeal
import proofs.«205778_g32538672235162_cont_8to1_b_712_45_alg».proof.Proof.Gen.ReferenceIdeal
import Idealize.ShloMosaic.PureOps.Ideal
import Idealize.ShloMosaic.Lib.StableHlo.Run
import Idealize.ShloMosaic.Adequacy

noncomputable section

namespace Cert.ReferenceIdeal.RefRun

open Idealize.ShloMosaic Idealize.ShloMosaic.TcCoe Idealize.SL.Sem Cert.ReferenceIdeal Idealize.ShloMosaic.StableHlo
open Cert.ReferenceIdeal.Facts₀

variable [Cert.ReferenceIdeal.Facts]

section Line

variable {F : FTy → Type} [FloatOps F]

abbrev ops : List (HloOp τ sig (Elt F)) :=
  [ StableHlo.reshape main_arg8 main_v0 rfl shapeCasts_S25000x16_S400000,
    TRef.nullary main_call0.c (constantI S_ 32 0#32),
    TRef.unary main_call0.c main_call0.v0 (broadcastInDim S400000 ![] bcast_S_S400000),
    TRef.binary (.of main_v0) main_call0.v0 main_call0.v1 (cmpi .slt),
    TRef.nullary main_call0.c_0 (constantI S_ 32 100000#32),
    TRef.unary main_call0.c_0 main_call0.v2 (broadcastInDim S400000 ![] bcast_S_S400000),
    TRef.binary (.of main_v0) main_call0.v2 main_call0.v3 addi,
    TRef.ternary main_call0.v1 main_call0.v3 (.of main_v0) main_call0.call0.v0 select,
    TRef.unary main_call0.call0.v0 main_call0.v5 (broadcastInDim S400000x1 ![0] bcast_S400000_S400000x1_0),
    TRef.nullary main_call0.c_1 (constantI S1 32 99999#32),
    TRef.nullary main_call0.c_2 (constantI S_ 32 0#32),
    TRef.unary main_call0.c_2 main_call0.v6 (broadcastInDim S400000x1 ![] bcast_S_S400000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S400000x1 ![0, 1] bcast_S1x1_S400000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S400000x1_S400000_d1 h_S_),
    TRef.binary (.of main_arg1) main_call0.v5 main_call0.v13 (fun x i => Host.gather gather_S100000x128_S400000x1_S400000x128_1_0_n_n_0_1_1128 x i),
    TRef.unary main_call0.v12 main_call0.v14 (broadcastInDim S400000x128 ![0] bcast_S400000_S400000x128_0),
    TRef.nullary main_call0.cst (constant S_ .f32 0x7FC00000#32),
    TRef.unary main_call0.cst main_call0.v15 (broadcastInDim S400000x128 ![] bcast_S_S400000x128),
    TRef.ternary main_call0.v14 main_call0.v13 main_call0.v15 main_call0.v16 select,
    StableHlo.reshape main_v1 main_v2 rfl shapeCasts_S400000x128_S25000x16x128,
    StableHlo.nullary main_cst (constant S_ .f32 0x00000000#32),
    StableHlo.binary main_v2 main_cst main_v3 ((fun x v => Host.reduceAdd x v reducesTo_S25000x16x128_S25000x16_d2 h_S_) : (⟨S25000x16x128, .f32⟩ : BufTy).Contents (Elt F) → (⟨S_, .f32⟩ : BufTy).Contents (Elt F) → (⟨S25000x16, .f32⟩ : BufTy).Contents (Elt F)),
    StableHlo.unary main_v3 main_v4 (broadcastInDim S25000x16x1 ![0, 1] bcast_S25000x16_S25000x16x1_0_1 : (⟨S25000x16, .f32⟩ : BufTy).Contents (Elt F) → (⟨S25000x16x1, .f32⟩ : BufTy).Contents (Elt F)),
    StableHlo.nullary main_cst_0 (constant S_ .f32 0x43000000#32),
    StableHlo.unary main_cst_0 main_v5 (broadcastInDim S25000x16x1 ![] bcast_S_S25000x16x1 : (⟨S_, .f32⟩ : BufTy).Contents (Elt F) → (⟨S25000x16x1, .f32⟩ : BufTy).Contents (Elt F)),
    StableHlo.binary main_v4 main_v5 main_v6 (Host.divf : (⟨S25000x16x1, .f32⟩ : BufTy).Contents (Elt F) → (⟨S25000x16x1, .f32⟩ : BufTy).Contents (Elt F) → (⟨S25000x16x1, .f32⟩ : BufTy).Contents (Elt F)),
    StableHlo.nullary main_c (constantI S_ 32 0#32),
    TRef.nullary main_call1.cst (constant S_ .f32 0x00000000#32),
    TRef.binary (.of main_v2) main_call1.cst main_call1.v0 (fun x v => Host.reduceAdd x v reducesTo_S25000x16x128_S25000x16_d2 h_S_),
    TRef.unary main_call1.v0 main_call1.v1 (broadcastInDim S25000x16x1 ![0, 1] bcast_S25000x16_S25000x16x1_0_1),
    TRef.nullary main_call1.cst_0 (constant S_ .f32 0x43000000#32),
    TRef.unary main_call1.cst_0 main_call1.v2 (broadcastInDim S25000x16x1 ![] bcast_S_S25000x16x1),
    TRef.binary main_call1.v1 main_call1.v2 main_call1.v3 Host.divf,
    TRef.unary main_call1.v3 main_call1.v4 (broadcastInDim S25000x16x128 ![0, 1, 2] bcast_S25000x16x1_S25000x16x128_0_1_2),
    TRef.binary (.of main_v2) main_call1.v4 main_call1.v5 subf,
    TRef.binary main_call1.v5 main_call1.v5 main_call1.v6 mulf,
    TRef.unary (.of main_c) main_call1.v7 (sitofp .f32),
    TRef.nullary main_call1.cst_1 (constant S_ .f32 0x43000000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S25000x16x128_S25000x16_d2 h_S_),
    TRef.unary main_call1.v9 main_call1.v10 (broadcastInDim S25000x16x1 ![0, 1] bcast_S25000x16_S25000x16x1_0_1),
    TRef.unary main_call1.v8 main_call1.v11 (broadcastInDim S25000x16x1 ![] bcast_S_S25000x16x1),
    TRef.binary main_call1.v10 main_call1.v11 main_call1.v12 Host.divf,
    TRef.nullary main_call1.cst_3 (constant S_ .f32 0x00000000#32),
    TRef.binary main_call1.v8 main_call1.cst_3 main_call1.v13 (cmpf .ogt),
    TRef.nullary main_call1.cst_4 (constant S_ .f32 0x7FC00000#32),
    TRef.unary main_call1.cst_4 main_call1.call0.v0 id,
    TRef.unary main_call1.call0.v0 main_call1.call0.v1 (broadcastInDim S25000x16x1 ![] bcast_S_S25000x16x1),
    TRef.ternary main_call1.v13 main_call1.v12 main_call1.call0.v1 main_call1.call0.v2 (fun p a b => select (broadcastInDim S25000x16x1 ![] bcast_S_S25000x16x1 p) a b),
    StableHlo.unary main_v6 main_v8 (broadcastInDim S25000x16x128 ![0, 1, 2] bcast_S25000x16x1_S25000x16x128_0_1_2 : (⟨S25000x16x1, .f32⟩ : BufTy).Contents (Elt F) → (⟨S25000x16x128, .f32⟩ : BufTy).Contents (Elt F)),
    StableHlo.binary main_v2 main_v8 main_v9 (subf : (⟨S25000x16x128, .f32⟩ : BufTy).Contents (Elt F) → (⟨S25000x16x128, .f32⟩ : BufTy).Contents (Elt F) → (⟨S25000x16x128, .f32⟩ : BufTy).Contents (Elt F)),
    StableHlo.nullary main_cst_1 (constant S_ .f32 0x3727C5AC#32),
    StableHlo.unary main_cst_1 main_v10 (broadcastInDim S25000x16x1 ![] bcast_S_S25000x16x1 : (⟨S_, .f32⟩ : BufTy).Contents (Elt F) → (⟨S25000x16x1, .f32⟩ : BufTy).Contents (Elt F)),
    StableHlo.binary main_v7 main_v10 main_v11 (addf : (⟨S25000x16x1, .f32⟩ : BufTy).Contents (Elt F) → (⟨S25000x16x1, .f32⟩ : BufTy).Contents (Elt F) → (⟨S25000x16x1, .f32⟩ : BufTy).Contents (Elt F)),
    StableHlo.unary main_v11 main_v12 (Host.sqrt : (⟨S25000x16x1, .f32⟩ : BufTy).Contents (Elt F) → (⟨S25000x16x1, .f32⟩ : BufTy).Contents (Elt F)),
    StableHlo.unary main_v12 main_v13 (broadcastInDim S25000x16x128 ![0, 1, 2] bcast_S25000x16x1_S25000x16x128_0_1_2 : (⟨S25000x16x1, .f32⟩ : BufTy).Contents (Elt F) → (⟨S25000x16x128, .f32⟩ : BufTy).Contents (Elt F)),
    StableHlo.binary main_v9 main_v13 main_v14 (Host.divf : (⟨S25000x16x128, .f32⟩ : BufTy).Contents (Elt F) → (⟨S25000x16x128, .f32⟩ : BufTy).Contents (Elt F) → (⟨S25000x16x128, .f32⟩ : BufTy).Contents (Elt F)),
    StableHlo.unary main_arg4 main_v15 (broadcastInDim S1x1x128 ![2] bcast_S128_S1x1x128_2 : (⟨S128, .f32⟩ : BufTy).Contents (Elt F) → (⟨S1x1x128, .f32⟩ : BufTy).Contents (Elt F)),
    StableHlo.unary main_v15 main_v16 (broadcastInDim S25000x16x128 ![0, 1, 2] bcast_S1x1x128_S25000x16x128_0_1_2 : (⟨S1x1x128, .f32⟩ : BufTy).Contents (Elt F) → (⟨S25000x16x128, .f32⟩ : BufTy).Contents (Elt F)),
    StableHlo.binary main_v14 main_v16 main_v17 (mulf : (⟨S25000x16x128, .f32⟩ : BufTy).Contents (Elt F) → (⟨S25000x16x128, .f32⟩ : BufTy).Contents (Elt F) → (⟨S25000x16x128, .f32⟩ : BufTy).Contents (Elt F)),
    StableHlo.unary main_arg5 main_v18 (broadcastInDim S1x1x128 ![2] bcast_S128_S1x1x128_2 : (⟨S128, .f32⟩ : BufTy).Contents (Elt F) → (⟨S1x1x128, .f32⟩ : BufTy).Contents (Elt F)),
    StableHlo.unary main_v18 main_v19 (broadcastInDim S25000x16x128 ![0, 1, 2] bcast_S1x1x128_S25000x16x128_0_1_2 : (⟨S1x1x128, .f32⟩ : BufTy).Contents (Elt F) → (⟨S25000x16x128, .f32⟩ : BufTy).Contents (Elt F)),
    StableHlo.binary main_v17 main_v19 main_v20 (addf : (⟨S25000x16x128, .f32⟩ : BufTy).Contents (Elt F) → (⟨S25000x16x128, .f32⟩ : BufTy).Contents (Elt F) → (⟨S25000x16x128, .f32⟩ : BufTy).Contents (Elt F)),
    StableHlo.unary main_arg3 main_v21 ((transpose S128x128 [1, 0] · transposes_S128x128_S128x128_1_0) : (⟨S128x128, .f32⟩ : BufTy).Contents (Elt F) → (⟨S128x128, .f32⟩ : BufTy).Contents (Elt F)),
    StableHlo.binary main_v20 main_v21 main_v22 ((fun l r => Host.dotGeneral dot_S25000x16x128_S128x128_S25000x16x128_2_0_01_1_n_n none l r) : (⟨S25000x16x128, .f32⟩ : BufTy).Contents (Elt F) → (⟨S128x128, .f32⟩ : BufTy).Contents (Elt F) → (⟨S25000x16x128, .f32⟩ : BufTy).Contents (Elt F)),
    StableHlo.nullary main_cst_2 (constant S_ .f32 0xFF800000#32),
    StableHlo.binary main_v22 main_cst_2 main_v23 ((fun x v => Host.reduce FloatOps.maximumf x v reducesTo_S25000x16x128_S25000x128_d1 h_S_) : (⟨S25000x16x128, .f32⟩ : BufTy).Contents (Elt F) → (⟨S_, .f32⟩ : BufTy).Contents (Elt F) → (⟨S25000x128, .f32⟩ : BufTy).Contents (Elt F)) ]

set_option maxRecDepth 4096 in
set_option maxHeartbeats 3200000 in
theorem main_eq (c : Dev nD) : main (F := F) c = seq ops := by
  simp only [main, fn_take.body, fn_where.body, fn_var.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    reshape_bufs_sub .., nullary_bufs_sub .., binary_bufs_sub .., unary_bufs_sub .., nullary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., unary_bufs_sub ..,
    binary_bufs_sub .., nullary_bufs_sub .., binary_bufs_sub .., nullary_bufs_sub .., unary_bufs_sub .., unary_bufs_sub ..,
    ternary_bufs_sub .., unary_bufs_sub .., binary_bufs_sub .., nullary_bufs_sub .., unary_bufs_sub .., binary_bufs_sub ..,
    unary_bufs_sub .., unary_bufs_sub .., binary_bufs_sub .., unary_bufs_sub .., unary_bufs_sub .., binary_bufs_sub ..,
    unary_bufs_sub .., unary_bufs_sub .., binary_bufs_sub .., unary_bufs_sub .., binary_bufs_sub .., nullary_bufs_sub ..,
    binary_bufs_sub ..⟩

theorem arg0_kept (V : Valuation τ sig (Elt F)) : after ops V (Proc.devRef .tc main_arg0) = V (Proc.devRef .tc main_arg0) := by
  after_results_simp
theorem arg1_kept (V : Valuation τ sig (Elt F)) : after ops V (Proc.devRef .tc main_arg1) = V (Proc.devRef .tc main_arg1) := by
  after_results_simp
theorem arg2_kept (V : Valuation τ sig (Elt F)) : after ops V (Proc.devRef .tc main_arg2) = V (Proc.devRef .tc main_arg2) := by
  after_results_simp
theorem arg3_kept (V : Valuation τ sig (Elt F)) : after ops V (Proc.devRef .tc main_arg3) = V (Proc.devRef .tc main_arg3) := by
  after_results_simp
theorem arg4_kept (V : Valuation τ sig (Elt F)) : after ops V (Proc.devRef .tc main_arg4) = V (Proc.devRef .tc main_arg4) := by
  after_results_simp
theorem arg5_kept (V : Valuation τ sig (Elt F)) : after ops V (Proc.devRef .tc main_arg5) = V (Proc.devRef .tc main_arg5) := by
  after_results_simp
theorem arg6_kept (V : Valuation τ sig (Elt F)) : after ops V (Proc.devRef .tc main_arg6) = V (Proc.devRef .tc main_arg6) := by
  after_results_simp
theorem arg7_kept (V : Valuation τ sig (Elt F)) : after ops V (Proc.devRef .tc main_arg7) = V (Proc.devRef .tc main_arg7) := by
  after_results_simp
theorem arg8_kept (V : Valuation τ sig (Elt F)) : after ops V (Proc.devRef .tc main_arg8) = V (Proc.devRef .tc main_arg8) := by
  after_results_simp

end Line

def res (m : (ℓ : Loc nD τ sig) → Buf (Elt Ideal) ℓ) (c : Dev nD) : Buf (Elt Ideal) ((c.tc : Thread nD τ).loc main_v23) :=
  after ops (launchContents m c) (Proc.devRef .tc main_v23)

-- The operations composed in program order: the result is one pure term of the arguments, and no operation writes an argument.
theorem run (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩
      (fun r => ∀ c : Dev nD, r.2.mem ((c.tc : Thread nD τ).loc main_v23) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  exact (θ_run defs _ _).mono (fun _ h c => ⟨h c main_v23,
      (h c main_arg0).trans (arg0_kept _), (h c main_arg1).trans (arg1_kept _), (h c main_arg2).trans (arg2_kept _),
      (h c main_arg3).trans (arg3_kept _), (h c main_arg4).trans (arg4_kept _), (h c main_arg5).trans (arg5_kept _),
      (h c main_arg6).trans (arg6_kept _), (h c main_arg7).trans (arg7_kept _), (h c main_arg8).trans (arg8_kept _)⟩)
    (run_seq scopedRefs_eq scopedSems_eq defs main (fun _ => ops) main_eq (fun _ => ops_sub) m ρ)

end Cert.ReferenceIdeal.RefRun

end
-- ==== Proof.RefValue.lean ====
import proofs.«205778_g32538672235162_cont_8to1_b_712_45_alg».proof.Proof.RefRun
import proofs.«205778_g32538672235162_cont_8to1_b_712_45_alg».proof.Proof.Spec
import Idealize.ShloMosaic.Lib.ValueIdx
import Idealize.ShloMosaic.Lib.IdealHost
import Idealize.ShloMosaic.Lib.Pipeline.Value
import Idealize.ShloMosaic.Lib.StableHlo.Predicate
import Idealize.ShloMosaic.PureOps.Ideal.Laws
import Idealize.ShloMosaic.PureOps.Reduce

noncomputable section

namespace Cert.ReferenceIdeal.RefValue

open Idealize.ShloMosaic Idealize.ShloMosaic.TcCoe Idealize.SL.Sem Cert.ReferenceIdeal Idealize.ShloMosaic.ValueIdx
open Idealize.ShloMosaic.StableHlo.Predicate

variable [Cert.ReferenceIdeal.Facts]
open Cert.ReferenceIdeal.Facts₀

theorem gather_rows_idx_0 (idx : IVec S400000x1 32) (p : Fin 400000) (c : Fin 128) :
    (GatherDims.operandIdx gather_S100000x128_S400000x1_S400000x128_1_0_n_n_0_1_1128 (ix2 p c) idx (0 : Fin 2)).val
      = min (idx (ix2 p (0 : Fin 1))).toInt.toNat 99999 := by
  show GatherDims.start gather_S100000x128_S400000x1_S400000x128_1_0_n_n_0_1_1128 (ix2 p c) idx 0
      + GatherDims.batchCoord gather_S100000x128_S400000x1_S400000x128_1_0_n_n_0_1_1128 (ix2 p c) 0
      + GatherDims.offCoord gather_S100000x128_S400000x1_S400000x128_1_0_n_n_0_1_1128 (ix2 p c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (gather_S100000x128_S400000x1_S400000x128_1_0_n_n_0_1_1128).startIndexMap from List.mem_singleton.mpr rfl)]
  have hsi : GatherDims.siIdx gather_S100000x128_S400000x1_S400000x128_1_0_n_n_0_1_1128 (ix2 p c) ⟨List.idxOf (0 : Fin 2) (gather_S100000x128_S400000x1_S400000x128_1_0_n_n_0_1_1128).startIndexMap,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]
  rfl

theorem gather_rows_idx_1 (idx : IVec S400000x1 32) (p : Fin 400000) (c : Fin 128) :
    (GatherDims.operandIdx gather_S100000x128_S400000x1_S400000x128_1_0_n_n_0_1_1128 (ix2 p c) idx (1 : Fin 2)).val = c.val := by
  show GatherDims.start gather_S100000x128_S400000x1_S400000x128_1_0_n_n_0_1_1128 (ix2 p c) idx 1
      + GatherDims.batchCoord gather_S100000x128_S400000x1_S400000x128_1_0_n_n_0_1_1128 (ix2 p c) 1
      + GatherDims.offCoord gather_S100000x128_S400000x1_S400000x128_1_0_n_n_0_1_1128 (ix2 p c) 1 = _
  rw [GatherDims.batchCoord_eq_zero _ _ _ List.not_mem_nil]
  unfold GatherDims.start
  rw [dif_neg (show ¬ (1 : Fin 2) ∈ (gather_S100000x128_S400000x1_S400000x128_1_0_n_n_0_1_1128).startIndexMap from (by decide : ¬ (1 : Fin 2) ∈ ([0] : List (Fin 2))))]
  simp only [Nat.zero_add]
  unfold GatherDims.offCoord
  rw [dif_pos (show (1 : Fin 2) ∈ GatherDims.sKept gather_S100000x128_S400000x1_S400000x128_1_0_n_n_0_1_1128 from (by decide : (1 : Fin S100000x128.rank) ∈ S100000x128.kept (([0] : List (Fin S100000x128.rank)) ++ [])))]
  rfl

theorem gather_rows_apply (X : FVec Ideal S100000x128 .f32) (idx : IVec S400000x1 32) (p : Fin 400000) (c : Fin 128) :
    Host.gather gather_S100000x128_S400000x1_S400000x128_1_0_n_n_0_1_1128 X idx (ix2 p c)
      = X (ix2 ⟨min (idx (ix2 p (0 : Fin 1))).toInt.toNat 99999, by omega⟩ c) := by
  unfold Host.gather
  congr 1
  funext a
  refine Fin.ext ?_
  match a with
  | ⟨0, _⟩ => exact gather_rows_idx_0 idx p c
  | ⟨1, _⟩ => exact gather_rows_idx_1 idx p c

theorem red_col : S400000x1.Reduces [1] S400000 := by decide

theorem fold_andi_one (f : Fin 1 → BitVec 1) (b : BitVec 1) :
    Finset.fold IntOp.andi b f Finset.univ = IntOp.andi (f 0) b := by
  rw [Finset.univ_unique, Finset.fold_singleton]; rfl

theorem wrap_apply (i : IVec S400000 32) (q : S400000.Idx) (h : (i q).toNat < 100000) :
    select (cmpi .slt i (broadcastInDim S400000 ![] bcast_S_S400000 (constantI S_ 32 0#32)))
      (addi i (broadcastInDim S400000 ![] bcast_S_S400000 (constantI S_ 32 100000#32))) i q = i q := by
  rw [select_apply]
  have hc : cmpi .slt i (broadcastInDim S400000 ![] bcast_S_S400000 (constantI S_ 32 0#32)) q = 0#1 := by
    apply eq_zero_of_ne_one
    show ¬ IntOp.cmpi .slt (i q) (broadcastInDim S400000 ![] bcast_S_S400000 (constantI S_ 32 0#32) q) = 1#1
    rw [broadcastInDim_scalar_apply]
    show ¬ IntOp.cmpi .slt (i q) 0#32 = 1#1
    rw [slt_iff_toNat (by omega) (by decide)]
    exact Nat.not_lt_zero _
  rw [hc, select_zero]

theorem col_apply {α : Type} (v : S400000.Idx → α) (p : Fin 400000) :
    broadcastInDim S400000x1 ![0] bcast_S400000_S400000x1_0 v (ix2 p (0 : Fin 1)) = v (ix1 p) :=
  broadcastInDim_apply _ _ v _ (ix1 p) (fun a => match a with | ⟨0, _⟩ => rfl)

theorem mask_apply (j : IVec S400000x1 32) (p : Fin 400000) (h : (j (ix2 p (0 : Fin 1))).toNat < 100000) :
    Host.reduce IntOp.andi
      (andi (cmpi .sge j (broadcastInDim S400000x1 ![] bcast_S_S400000x1 (constantI S_ 32 0#32)))
        (cmpi .sle j (broadcastInDim S400000x1 ![0, 1] bcast_S1x1_S400000x1_0_1
          (broadcastInDim S1x1 ![1] bcast_S1_S1x1_1 (constantI S1 32 99999#32)))))
      (constantI S_ 1 1#1) reducesTo_S400000x1_S400000_d1 h_S_ (ix1 p) = 1#1 := by
  rw [Host.reduce_eq_fold_single IntOp.andi _ _ reducesTo_S400000x1_S400000_d1 red_col]
  refine (fold_andi_one _ _).trans ?_
  have hL : Shape.Reduces.lift red_col (ix1 p) (0 : Fin 1) = ix2 p (0 : Fin 1) := by
    funext a; refine Fin.ext ?_
    match a with
    | ⟨0, _⟩ => rfl
    | ⟨1, _⟩ => rfl
  have e1 : IntOp.cmpi .sge (j (ix2 p (0 : Fin 1))) 0#32 = 1#1 := (sge_iff_toNat (by omega) (by decide)).mpr (Nat.zero_le _)
  have e2 : IntOp.cmpi .sle (j (ix2 p (0 : Fin 1))) 99999#32 = 1#1 :=
    (sle_iff_toNat (by omega) (by decide)).mpr (by show _ ≤ 99999; omega)
  show IntOp.andi (IntOp.andi
      (IntOp.cmpi .sge (j (Shape.Reduces.lift red_col (ix1 p) (0 : Fin 1))) 0#32)
      (IntOp.cmpi .sle (j (Shape.Reduces.lift red_col (ix1 p) (0 : Fin 1))) 99999#32)) 1#1 = 1#1
  rw [hL, e1, e2]
  rfl

theorem maskrow_apply {α : Type} (v : S400000.Idx → α) (p : Fin 400000) (c : Fin 128) :
    broadcastInDim S400000x128 ![0] bcast_S400000_S400000x128_0 v (ix2 p c) = v (ix1 p) :=
  broadcastInDim_apply _ _ v _ (ix1 p) (fun a => match a with | ⟨0, _⟩ => rfl)

theorem flat_apply {α : Type} (v : S25000x16.Idx → α) (r : Fin 25000) (k : Fin 16) :
    shapeCast S400000 v shapeCasts_S25000x16_S400000 (ix1 ⟨r.val * 16 + k.val, by omega⟩) = v (ix2 r k) :=
  shapeCast_apply v _ _ (ix2 r k) (by
    rw [Shape.rowMajor_val_two, Shape.rowMajor_val_one]
    rfl)

theorem regroup_apply {α : Type} (v : S400000x128.Idx → α) (r : Fin 25000) (k : Fin 16) (c : Fin 128) :
    shapeCast S25000x16x128 v shapeCasts_S400000x128_S25000x16x128 (ix3 r k c)
      = v (ix2 ⟨r.val * 16 + k.val, by omega⟩ c) :=
  shapeCast_apply v _ _ (ix2 ⟨r.val * 16 + k.val, by omega⟩ c) (by
    rw [Shape.rowMajor_val_two, Shape.rowMajor_val_three]
    rfl)

def startOf (i : IVec S400000 32) : IVec S400000x1 32 :=
  broadcastInDim S400000x1 ![0] bcast_S400000_S400000x1_0
    (select (cmpi .slt i (broadcastInDim S400000 ![] bcast_S_S400000 (constantI S_ 32 0#32)))
      (addi i (broadcastInDim S400000 ![] bcast_S_S400000 (constantI S_ 32 100000#32))) i)

theorem startOf_apply (i : IVec S400000 32) (p : Fin 400000) (h : (i (ix1 p)).toNat < 100000) :
    startOf i (ix2 p (0 : Fin 1)) = i (ix1 p) := by
  unfold startOf
  rw [col_apply, wrap_apply i (ix1 p) h]

def takeOf (X : FVec Ideal S100000x128 .f32) (i : IVec S400000 32) : FVec Ideal S400000x128 .f32 :=
  select
    (broadcastInDim S400000x128 ![0] bcast_S400000_S400000x128_0
      (Host.reduce IntOp.andi
        (andi (cmpi .sge (startOf i) (broadcastInDim S400000x1 ![] bcast_S_S400000x1 (constantI S_ 32 0#32)))
          (cmpi .sle (startOf i) (broadcastInDim S400000x1 ![0, 1] bcast_S1x1_S400000x1_0_1
            (broadcastInDim S1x1 ![1] bcast_S1_S1x1_1 (constantI S1 32 99999#32)))))
        (constantI S_ 1 1#1) reducesTo_S400000x1_S400000_d1 h_S_))
    (Host.gather gather_S100000x128_S400000x1_S400000x128_1_0_n_n_0_1_1128 X (startOf i))
    (broadcastInDim S400000x128 ![] bcast_S_S400000x128 (constant (F := Ideal) S_ .f32 0x7FC00000#32))

theorem takeOf_apply (X : FVec Ideal S100000x128 .f32) (i : IVec S400000 32) (p : Fin 400000) (c : Fin 128)
    (h : (i (ix1 p)).toNat < 100000) :
    takeOf X i (ix2 p c) = X (ix2 ⟨(i (ix1 p)).toNat, h⟩ c) := by
  have hs := startOf_apply i p h
  unfold takeOf
  rw [select_apply, maskrow_apply, mask_apply (startOf i) p (by rw [hs]; exact h), select_one, gather_rows_apply]
  refine congrArg X ?_
  funext a
  refine Fin.ext ?_
  match a with
  | ⟨0, _⟩ =>
    show min (startOf i (ix2 p (0 : Fin 1))).toInt.toNat 99999 = (i (ix1 p)).toNat
    rw [hs, toInt_eq_toNat_of_lt (by omega)]
    show min (i (ix1 p)).toNat 99999 = _
    omega
  | ⟨1, _⟩ => rfl

def rowsOf (X : FVec Ideal S100000x128 .f32) (nbr : IVec S25000x16 32) : FVec Ideal S25000x16x128 .f32 :=
  shapeCast S25000x16x128 (takeOf X (shapeCast S400000 nbr shapeCasts_S25000x16_S400000)) shapeCasts_S400000x128_S25000x16x128

theorem rowsOf_apply (X : FVec Ideal S100000x128 .f32) (nbr : IVec S25000x16 32) (hidx : ∀ j, (nbr j).toNat < 100000)
    (r : Fin 25000) (k : Fin 16) (c : Fin 128) :
    rowsOf X nbr (ix3 r k c) = X (ix2 (Cert.Spec.nbrOf nbr r k) c) := by
  unfold rowsOf
  rw [regroup_apply]
  have hf := flat_apply nbr r k
  rw [takeOf_apply X _ ⟨r.val * 16 + k.val, by omega⟩ c (by rw [hf]; exact hidx _)]
  refine congrArg X ?_
  funext a
  refine Fin.ext ?_
  match a with
  | ⟨0, _⟩ =>
    show (shapeCast S400000 nbr shapeCasts_S25000x16_S400000 (ix1 ⟨r.val * 16 + k.val, by omega⟩)).toNat = (Cert.Spec.nbrOf nbr r k).val
    rw [hf, Cert.Spec.nbrOf_val nbr hidx]
  | ⟨1, _⟩ => rfl

theorem red_ch : S25000x16x128.Reduces [2] S25000x16 := by decide

theorem chsum_apply (Y : FVec Ideal S25000x16x128 .f32) (r : Fin 25000) (k : Fin 16) :
    Host.reduceAdd Y (constant (F := Ideal) S_ .f32 0x00000000#32) reducesTo_S25000x16x128_S25000x16_d2 h_S_ (ix2 r k)
      = ∑ c : Fin 128, Y (ix3 r k c) := by
  rw [hostReduceAdd_apply, Ideal.hostReduceAdd_single _ red_ch]
  show Ideal.ofBits .f32 0x00000000#32 + _ = _
  rw [Cert.Spec.zero_eq, zero_add]
  refine Finset.sum_congr rfl fun c _ => congrArg Y ?_
  funext a; refine Fin.ext ?_
  match a with
  | ⟨0, _⟩ => rfl
  | ⟨1, _⟩ => rfl
  | ⟨2, _⟩ => rfl

theorem keep_apply {α : Type} (v : S25000x16.Idx → α) (r : Fin 25000) (k : Fin 16) :
    broadcastInDim S25000x16x1 ![0, 1] bcast_S25000x16_S25000x16x1_0_1 v (ix3 r k (0 : Fin 1)) = v (ix2 r k) :=
  broadcastInDim_apply _ _ v _ (ix2 r k) (fun a => match a with | ⟨0, _⟩ => rfl | ⟨1, _⟩ => rfl)

theorem spread_apply {α : Type} (v : S25000x16x1.Idx → α) (r : Fin 25000) (k : Fin 16) (c : Fin 128) :
    broadcastInDim S25000x16x128 ![0, 1, 2] bcast_S25000x16x1_S25000x16x128_0_1_2 v (ix3 r k c) = v (ix3 r k (0 : Fin 1)) :=
  broadcastInDim_apply _ _ v _ (ix3 r k (0 : Fin 1))
    (fun a => match a with | ⟨0, _⟩ => rfl | ⟨1, _⟩ => rfl | ⟨2, _⟩ => rfl)

theorem chan_apply {α : Type} (v : S128.Idx → α) (r : Fin 25000) (k : Fin 16) (c : Fin 128) :
    broadcastInDim S25000x16x128 ![0, 1, 2] bcast_S1x1x128_S25000x16x128_0_1_2
      (broadcastInDim S1x1x128 ![2] bcast_S128_S1x1x128_2 v) (ix3 r k c) = v (ix1 c) := by
  rw [broadcastInDim_apply _ _ _ _ (ix3 (0 : Fin 1) (0 : Fin 1) c)
    (fun a => match a with | ⟨0, _⟩ => rfl | ⟨1, _⟩ => rfl | ⟨2, _⟩ => rfl)]
  exact broadcastInDim_apply _ _ v _ (ix1 c) (fun a => match a with | ⟨0, _⟩ => rfl)

def meanOf (Y : FVec Ideal S25000x16x128 .f32) : FVec Ideal S25000x16x1 .f32 :=
  Host.divf
    (broadcastInDim S25000x16x1 ![0, 1] bcast_S25000x16_S25000x16x1_0_1
      (Host.reduceAdd Y (constant (F := Ideal) S_ .f32 0x00000000#32) reducesTo_S25000x16x128_S25000x16_d2 h_S_))
    (broadcastInDim S25000x16x1 ![] bcast_S_S25000x16x1 (constant (F := Ideal) S_ .f32 0x43000000#32))

theorem meanOf_apply (Y : FVec Ideal S25000x16x128 .f32) (r : Fin 25000) (k : Fin 16) :
    meanOf Y (ix3 r k (0 : Fin 1)) = Cert.Spec.mu (fun c => Y (ix3 r k c)) := by
  unfold meanOf Cert.Spec.mu Cert.Spec.c128
  rw [hostDivf_apply, keep_apply, chsum_apply, broadcastInDim_scalar_apply]
  rfl

def ctrOf (Y : FVec Ideal S25000x16x128 .f32) : FVec Ideal S25000x16x128 .f32 :=
  subf Y (broadcastInDim S25000x16x128 ![0, 1, 2] bcast_S25000x16x1_S25000x16x128_0_1_2 (meanOf Y))

theorem ctrOf_apply (Y : FVec Ideal S25000x16x128 .f32) (r : Fin 25000) (k : Fin 16) (c : Fin 128) :
    ctrOf Y (ix3 r k c) = Cert.Spec.ctr (fun c => Y (ix3 r k c)) c := by
  unfold ctrOf Cert.Spec.ctr
  rw [subf_apply, spread_apply, meanOf_apply]

def nrmOf : FVec Ideal S_ .f32 :=
  subf (constant (F := Ideal) S_ .f32 0x43000000#32) (sitofp .f32 (constantI S_ 32 0#32))

theorem nrmOf_apply : nrmOf ix0 = Cert.Spec.c128 := by
  show Ideal.ofBits .f32 0x43000000#32 - (((0#32 : BitVec 32).toInt : ℝ) : EReal) = Cert.Spec.c128
  rw [BitVec.toInt_zero, Int.cast_zero, EReal.coe_zero, sub_zero]
  rfl

theorem nrmOf_pos : cmpf .ogt nrmOf (constant (F := Ideal) S_ .f32 0x00000000#32) ix0 = 1#1 := by
  rw [cmpf_apply, nrmOf_apply]
  show BitVec.ofBool (decide (Ideal.ofBits .f32 0x00000000#32 < Cert.Spec.c128)) = 1#1
  rw [Cert.Spec.zero_eq, Cert.Spec.c128_eq, decide_eq_true (EReal.coe_pos.mpr (by norm_num))]
  rfl

def varOf (Y : FVec Ideal S25000x16x128 .f32) : FVec Ideal S25000x16x1 .f32 :=
  select (broadcastInDim S25000x16x1 ![] bcast_S_S25000x16x1 (cmpf .ogt nrmOf (constant (F := Ideal) S_ .f32 0x00000000#32)))
    (Host.divf
      (broadcastInDim S25000x16x1 ![0, 1] bcast_S25000x16_S25000x16x1_0_1
        (Host.reduceAdd (mulf (ctrOf Y) (ctrOf Y)) (constant (F := Ideal) S_ .f32 0x00000000#32)
          reducesTo_S25000x16x128_S25000x16_d2 h_S_))
      (broadcastInDim S25000x16x1 ![] bcast_S_S25000x16x1 nrmOf))
    (broadcastInDim S25000x16x1 ![] bcast_S_S25000x16x1 (id (constant (F := Ideal) S_ .f32 0x7FC00000#32)))

theorem varOf_apply (Y : FVec Ideal S25000x16x128 .f32) (r : Fin 25000) (k : Fin 16) :
    varOf Y (ix3 r k (0 : Fin 1)) = Cert.Spec.var (fun c => Y (ix3 r k c)) := by
  unfold varOf Cert.Spec.var
  rw [select_apply, broadcastInDim_scalar_apply, nrmOf_pos, select_one, hostDivf_apply, keep_apply, chsum_apply,
    broadcastInDim_scalar_apply, nrmOf_apply]
  refine congrArg (fun s => Ideal.div s Cert.Spec.c128) (Finset.sum_congr rfl fun c _ => ?_)
  rw [mulf_apply, ctrOf_apply]

def normOf (Y : FVec Ideal S25000x16x128 .f32) (γ β : FVec Ideal S128 .f32) : FVec Ideal S25000x16x128 .f32 :=
  addf
    (mulf
      (Host.divf (ctrOf Y)
        (broadcastInDim S25000x16x128 ![0, 1, 2] bcast_S25000x16x1_S25000x16x128_0_1_2
          (Host.sqrt (addf (varOf Y)
            (broadcastInDim S25000x16x1 ![] bcast_S_S25000x16x1 (constant (F := Ideal) S_ .f32 0x3727C5AC#32))))))
      (broadcastInDim S25000x16x128 ![0, 1, 2] bcast_S1x1x128_S25000x16x128_0_1_2
        (broadcastInDim S1x1x128 ![2] bcast_S128_S1x1x128_2 γ)))
    (broadcastInDim S25000x16x128 ![0, 1, 2] bcast_S1x1x128_S25000x16x128_0_1_2
      (broadcastInDim S1x1x128 ![2] bcast_S128_S1x1x128_2 β))

theorem normOf_apply (Y : FVec Ideal S25000x16x128 .f32) (γ β : FVec Ideal S128 .f32) (r : Fin 25000) (k : Fin 16) (c : Fin 128) :
    normOf Y γ β (ix3 r k c)
      = Ideal.div (Cert.Spec.ctr (fun c => Y (ix3 r k c)) c)
          (Ideal.sqrt (Cert.Spec.var (fun c => Y (ix3 r k c)) + Cert.Spec.ceps)) * γ (ix1 c) + β (ix1 c) := by
  unfold normOf
  rw [addf_apply, mulf_apply, hostDivf_apply, ctrOf_apply, spread_apply, chan_apply, chan_apply]
  show Ideal.div _ (Ideal.sqrt (addf (varOf Y) _ (ix3 r k (0 : Fin 1)))) * _ + _ = _
  rw [addf_apply, varOf_apply, broadcastInDim_scalar_apply]
  rfl

theorem dot_rank : (dot_S25000x16x128_S128x128_S25000x16x128_2_0_01_1_n_n).contr.rank = 1 := rfl
theorem dot_size : (dot_S25000x16x128_S128x128_S25000x16x128_2_0_01_1_n_n).contr.size ⟨0, by rw [dot_rank]; exact Nat.one_pos⟩ = 128 := rfl

theorem dot_lhs_0 (j : S25000x16x128.Idx) (q : (dot_S25000x16x128_S128x128_S25000x16x128_2_0_01_1_n_n).contr.Idx) :
    (DotDims.lhsIdx dot_S25000x16x128_S128x128_S25000x16x128_2_0_01_1_n_n j q (0 : Fin 3)).val = (j 0).val := rfl
theorem dot_lhs_1 (j : S25000x16x128.Idx) (q : (dot_S25000x16x128_S128x128_S25000x16x128_2_0_01_1_n_n).contr.Idx) :
    (DotDims.lhsIdx dot_S25000x16x128_S128x128_S25000x16x128_2_0_01_1_n_n j q (1 : Fin 3)).val = (j 1).val := rfl
theorem dot_lhs_2 (j : S25000x16x128.Idx) (q : (dot_S25000x16x128_S128x128_S25000x16x128_2_0_01_1_n_n).contr.Idx) :
    (DotDims.lhsIdx dot_S25000x16x128_S128x128_S25000x16x128_2_0_01_1_n_n j q (2 : Fin 3)).val
      = (q ⟨0, by rw [dot_rank]; exact Nat.one_pos⟩).val :=
  DotDims.lhsIdx_val_of_single _ rfl j q
theorem dot_rhs_0 (j : S25000x16x128.Idx) (q : (dot_S25000x16x128_S128x128_S25000x16x128_2_0_01_1_n_n).contr.Idx) :
    (DotDims.rhsIdx dot_S25000x16x128_S128x128_S25000x16x128_2_0_01_1_n_n j q (0 : Fin 2)).val
      = (q ⟨0, by rw [dot_rank]; exact Nat.one_pos⟩).val :=
  DotDims.rhsIdx_val_of_single _ rfl j q
theorem dot_rhs_1 (j : S25000x16x128.Idx) (q : (dot_S25000x16x128_S128x128_S25000x16x128_2_0_01_1_n_n).contr.Idx) :
    (DotDims.rhsIdx dot_S25000x16x128_S128x128_S25000x16x128_2_0_01_1_n_n j q (1 : Fin 2)).val = (j 2).val := rfl

def projOf (Z : FVec Ideal S25000x16x128 .f32) (W : FVec Ideal S128x128 .f32) : FVec Ideal S25000x16x128 .f32 :=
  Host.dotGeneral dot_S25000x16x128_S128x128_S25000x16x128_2_0_01_1_n_n none Z
    (transpose S128x128 [1, 0] W transposes_S128x128_S128x128_1_0)

theorem projOf_apply (Z : FVec Ideal S25000x16x128 .f32) (W : FVec Ideal S128x128 .f32) (r : Fin 25000) (k : Fin 16) (o : Fin 128) :
    projOf Z W (ix3 r k o) = ∑ c : Fin 128, Z (ix3 r k c) * W (ix2 o c) := by
  unfold projOf
  simp only [Host.dotGeneral]
  rw [Ideal.dotGeneral_apply,
    ← Equiv.sum_comp (contrEquiv1 dot_S25000x16x128_S128x128_S25000x16x128_2_0_01_1_n_n 128 dot_rank dot_size).symm]
  refine Finset.sum_congr rfl fun c _ => ?_
  congr 1
  · refine congrArg Z ?_
    funext a; refine Fin.ext ?_
    match a with
    | ⟨0, _⟩ => exact dot_lhs_0 _ _
    | ⟨1, _⟩ => exact dot_lhs_1 _ _
    | ⟨2, _⟩ => exact (dot_lhs_2 _ _).trans (contrEquiv1_symm_val _ 128 dot_rank dot_size c)
  · refine transpose_apply [1, 0] W transposes_S128x128_S128x128_1_0 _ (ix2 o c) fun b => ?_
    match b with
    | ⟨0, _⟩ => exact ((dot_rhs_0 (ix3 r k o) _).trans (contrEquiv1_symm_val _ 128 dot_rank dot_size c)).symm
    | ⟨1, _⟩ => exact (dot_rhs_1 (ix3 r k o) _).symm

theorem red_nb : S25000x16x128.Reduces [1] S25000x128 := by decide

def maxOf (P : FVec Ideal S25000x16x128 .f32) : FVec Ideal S25000x128 .f32 :=
  Host.reduce FloatOps.maximumf P (constant (F := Ideal) S_ .f32 0xFF800000#32) reducesTo_S25000x16x128_S25000x128_d1 h_S_

theorem maxOf_apply (P : FVec Ideal S25000x16x128 .f32) (r : Fin 25000) (o : Fin 128) :
    maxOf P (ix2 r o) = Cert.Spec.tree16 fun k => P (ix3 r k o) := by
  unfold maxOf
  rw [Host.reduce_eq_fold_single FloatOps.maximumf _ _ reducesTo_S25000x16x128_S25000x128_d1 red_nb, Cert.Spec.tree16_eq_sup]
  have hv : (P ∘ Shape.Reduces.lift red_nb (ix2 r o)) = fun k : Fin 16 => P (ix3 r k o) := by
    funext k
    refine congrArg P ?_
    funext a; refine Fin.ext ?_
    match a with
    | ⟨0, _⟩ => rfl
    | ⟨1, _⟩ => rfl
    | ⟨2, _⟩ => rfl
  rw [hv]
  show Finset.fold max (Ideal.ofBits .f32 0xFF800000#32) _ _ = _
  rw [Cert.Spec.ninf_eq]
  rfl

def refOf (X : FVec Ideal S100000x128 .f32) (W : FVec Ideal S128x128 .f32) (γ β : FVec Ideal S128 .f32)
    (nbr : IVec S25000x16 32) : FVec Ideal S25000x128 .f32 :=
  maxOf (projOf (normOf (rowsOf X nbr) γ β) W)

theorem refOf_eq (X : FVec Ideal S100000x128 .f32) (W : FVec Ideal S128x128 .f32) (γ β : FVec Ideal S128 .f32)
    (nbr : IVec S25000x16 32) (hidx : ∀ j, (nbr j).toNat < 100000) :
    refOf X W γ β nbr = Cert.Spec.refArr X W γ β nbr := by
  funext j
  obtain ⟨r, o, rfl⟩ : ∃ (r : Fin 25000) (o : Fin 128), j = ix2 r o := ⟨j 0, j 1, eq_ix2 j⟩
  unfold refOf
  rw [maxOf_apply]
  show _ = Cert.Spec.refOut (Cert.Spec.arr2 X) (Cert.Spec.arr2 W) (Cert.Spec.arr1 γ) (Cert.Spec.arr1 β) (Cert.Spec.nbrOf nbr) r o
  unfold Cert.Spec.refOut
  refine congrArg Cert.Spec.tree16 (funext fun k => ?_)
  rw [projOf_apply]
  unfold Cert.Spec.refRow
  refine Finset.sum_congr rfl fun c _ => ?_
  rw [normOf_apply]
  have hx : (fun c => rowsOf X nbr (ix3 r k c)) = Cert.Spec.arr2 X (Cert.Spec.nbrOf nbr r k) := by
    funext c; exact rowsOf_apply X nbr hidx r k c
  rw [hx]
  rfl

set_option maxRecDepth 16384 in
theorem res_refOf (m : (ℓ : Loc nD τ sig) → Buf (Elt Ideal) ℓ) (c : Dev nD) :
    Cert.ReferenceIdeal.RefRun.res m c
      = refOf (m ((c.tc : Thread nD τ).loc main_arg1)) (m ((c.tc : Thread nD τ).loc main_arg3))
          (m ((c.tc : Thread nD τ).loc main_arg4)) (m ((c.tc : Thread nD τ).loc main_arg5)) (m ((c.tc : Thread nD τ).loc main_arg8)) := by
  unfold Cert.ReferenceIdeal.RefRun.res
  open Idealize.ShloMosaic.StableHlo in after_results_simp
  simp only [StableHlo.TRef.ofBuf, StableHlo.TRef.toBuf, cast_cast, cast_eq]
  unfold refOf maxOf projOf normOf varOf ctrOf meanOf nrmOf rowsOf takeOf startOf
  rfl

-- Read at (centre, channel), the reference's term is the specification's reference-side array.
theorem res_eq (m : (ℓ : Loc nD τ sig) → Buf (Elt Ideal) ℓ) (c : Dev nD)
    (hidx : ∀ j, (m ((c.tc : Thread nD τ).loc main_arg8) j).toNat < 100000) :
    Cert.ReferenceIdeal.RefRun.res m c
      = Cert.Spec.refArr (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg8)) := by
  rw [res_refOf]
  exact refOf_eq _ _ _ _ _ hidx

end Cert.ReferenceIdeal.RefValue

end
-- ==== Proof.Pre.lean ====
import proofs.«205778_g32538672235162_cont_8to1_b_712_45_alg».proof.Pre_input_domain
import proofs.«205778_g32538672235162_cont_8to1_b_712_45_alg».proof.Proof.Gen.Pre_input_domain
import proofs.«205778_g32538672235162_cont_8to1_b_712_45_alg».proof.Proof.Spec
import Idealize.ShloMosaic.PureOps.Ideal
import Idealize.ShloMosaic.Lib.ReduceAll
import Idealize.ShloMosaic.Lib.StableHlo.Predicate

noncomputable section

namespace Cert.Proof.Pre

open Idealize.ShloMosaic Cert.Pre_input_domain

instance : Subsingleton S_.Idx := ⟨fun a b => funext fun d => d.elim0⟩

theorem word_lt (w : BitVec 32) (h0 : IntOp.cmpi .sge w 0#32 = 1#1) (h1 : IntOp.cmpi .sle w 99999#32 = 1#1) :
    w.toNat < 100000 := by
  unfold IntOp.cmpi at h0 h1
  simp only [StableHlo.Predicate.ofBool_eq_one_iff, BitVec.sle, decide_eq_true_eq] at h0 h1
  have z : (0#32 : BitVec 32).toInt = 0 := by decide
  have t : (99999#32 : BitVec 32).toInt = 99999 := by decide
  rw [z] at h0
  rw [t] at h1
  rw [BitVec.toInt_eq_toNat_cond] at h0 h1
  have hw := w.isLt
  split at h0 <;> omega

theorem real_of_abs_lt (x : EReal) (h : Ideal.cmp .olt (max x (-x)) (Ideal.ofBits .f32 0x7F800000#32) = 1#1) :
    ∃ r : ℝ, x = (r : EReal) := by
  rw [Cert.Spec.pinf_eq] at h
  unfold Ideal.cmp at h
  simp only [StableHlo.Predicate.ofBool_eq_one_iff, decide_eq_true_eq] at h
  induction x using EReal.rec with
  | bot => simp at h
  | coe r => exact ⟨r, rfl⟩
  | top => simp at h

variable [Cert.Pre_input_domain.Facts]

-- A signed word between 0 and 99999 is below 100000 as a natural number; the range conjunct says this of every neighbour word, at any float instance.
theorem idx_lt {F : FTy → Type} [FloatOps F] (a0 : FVec F S100000x3 .f32) (a1 : FVec F S100000x128 .f32) (a2 : FVec F S25000x3 .f32)
    (a3 : FVec F S128x128 .f32) (a4 a5 : FVec F S128 .f32) (a6 a7 : IVec S1 32) (a8 : IVec S25000x16 32)
    (h : Cert.Pre_input_domain.fn (F := F) a0 a1 a2 a3 a4 a5 a6 a7 a8 = fun _ => 1#1) :
    ∀ j, (a8 j).toNat < 100000 := by
  intro j
  have h0 := congrFun h (fun d => d.elim0)
  dsimp only [fn, fn_part1, fn_part2, andi] at h0
  obtain ⟨_, h8⟩ := IntOp.andi_eq_one.1 h0
  have e := Host.reduce_andi_all _ _ _ _ _ h8 j
  obtain ⟨e0, e1⟩ := IntOp.andi_eq_one.1 e
  exact word_lt (a8 j) e0 e1

-- An entry with |x| < +∞ is a real number; the finiteness conjuncts say this of every float input.
theorem finite (a0 : FVec Ideal S100000x3 .f32) (a1 : FVec Ideal S100000x128 .f32) (a2 : FVec Ideal S25000x3 .f32)
    (a3 : FVec Ideal S128x128 .f32) (a4 a5 : FVec Ideal S128 .f32) (a6 a7 : IVec S1 32) (a8 : IVec S25000x16 32)
    (h : Cert.Pre_input_domain.fn (F := Ideal) a0 a1 a2 a3 a4 a5 a6 a7 a8 = fun _ => 1#1) :
    (∀ j, ∃ r : ℝ, a1 j = (r : EReal)) ∧ (∀ j, ∃ r : ℝ, a3 j = (r : EReal))
      ∧ (∀ j, ∃ r : ℝ, a4 j = (r : EReal)) ∧ (∀ j, ∃ r : ℝ, a5 j = (r : EReal)) := by
  have h0 := congrFun h (fun d => d.elim0)
  dsimp only [fn, fn_part1, fn_part2, andi] at h0
  obtain ⟨h07, _⟩ := IntOp.andi_eq_one.1 h0
  obtain ⟨h06, _⟩ := IntOp.andi_eq_one.1 h07
  obtain ⟨h05, _⟩ := IntOp.andi_eq_one.1 h06
  obtain ⟨h04, r5⟩ := IntOp.andi_eq_one.1 h05
  obtain ⟨h03, r4⟩ := IntOp.andi_eq_one.1 h04
  obtain ⟨h02, r3⟩ := IntOp.andi_eq_one.1 h03
  obtain ⟨h01, _⟩ := IntOp.andi_eq_one.1 h02
  obtain ⟨_, r1⟩ := IntOp.andi_eq_one.1 h01
  exact ⟨fun j => real_of_abs_lt (a1 j) (Host.reduce_andi_all _ _ _ _ _ r1 j),
    fun j => real_of_abs_lt (a3 j) (Host.reduce_andi_all _ _ _ _ _ r3 j),
    fun j => real_of_abs_lt (a4 j) (Host.reduce_andi_all _ _ _ _ _ r4 j),
    fun j => real_of_abs_lt (a5 j) (Host.reduce_andi_all _ _ _ _ _ r5 j)⟩

end Cert.Proof.Pre

end
-- ==== Proof.Claims.lean ====
import proofs.«205778_g32538672235162_cont_8to1_b_712_45_alg».proof.Defs
import proofs.«205778_g32538672235162_cont_8to1_b_712_45_alg».proof.Proof.Gen.Kernel
import proofs.«205778_g32538672235162_cont_8to1_b_712_45_alg».proof.Proof.Gen.KernelIdeal
import proofs.«205778_g32538672235162_cont_8to1_b_712_45_alg».proof.Proof.Gen.ReferenceIdeal
import proofs.«205778_g32538672235162_cont_8to1_b_712_45_alg».proof.Proof.Gen.Pre_input_domain
import proofs.«205778_g32538672235162_cont_8to1_b_712_45_alg».proof.Proof.KI.Main
import proofs.«205778_g32538672235162_cont_8to1_b_712_45_alg».proof.Proof.KI.TileBody
import proofs.«205778_g32538672235162_cont_8to1_b_712_45_alg».proof.Proof.KI.TcRegion
import proofs.«205778_g32538672235162_cont_8to1_b_712_45_alg».proof.Proof.KI.Split
import proofs.«205778_g32538672235162_cont_8to1_b_712_45_alg».proof.Proof.KI.TcValue
import proofs.«205778_g32538672235162_cont_8to1_b_712_45_alg».proof.Proof.RefRun
import proofs.«205778_g32538672235162_cont_8to1_b_712_45_alg».proof.Proof.RefValue
import proofs.«205778_g32538672235162_cont_8to1_b_712_45_alg».proof.Proof.Spec
import proofs.«205778_g32538672235162_cont_8to1_b_712_45_alg».proof.Proof.Pre

noncomputable section

namespace Cert.Proof.Claims

open Idealize.ShloMosaic Idealize.ShloMosaic.TcCoe Idealize.SL.Sem

variable {F : FTy → Type} [FloatOps F]

-- The idealization rewrote no operation: label by label the two programs' body tables unfold to the same term, at every float instance.
theorem defs₀_eq : Cert.Kernel.defs₀ (F := F) = Cert.KernelIdeal.defs₀ (F := F) := by
  funext κ ℓ a
  cases κ <;>
    exact match ℓ, a with
      | ⟨0, _⟩, _ => rfl
      | ⟨1, _⟩, _ => rfl
      | ⟨n + 2, h⟩, _ => absurd h (by omega)

theorem defs_eq : Cert.Kernel.defs (F := F) = Cert.KernelIdeal.defs (F := F) := by
  unfold Cert.Kernel.defs Cert.KernelIdeal.defs; rw [defs₀_eq]; rfl

-- The run at any float instance: every argument array kept, the result array at `Out`.
theorem run [∀ e, Nonempty (Elt F e)] (m : (ℓ : Loc Cert.KernelIdeal.nD Cert.KernelIdeal.τ Cert.KernelIdeal.sig) → Buf (Elt F) ℓ)
    (ρ : Dev Cert.KernelIdeal.nD → PrngReg) (hok : Cert.Proof.KI.PreOK m) :
    θ_run (Cert.KernelIdeal.defs (F := F)) (Cert.KernelIdeal.threads (F := F)) ⟨m, fun _ => 0, ρ⟩ (Cert.Proof.KI.QC m) :=
  Cert.Proof.KI.run_main m ρ (Cert.Proof.KI.tileObl m Cert.Proof.KI.facts hok) Cert.Proof.KI.uR₀ Cert.Proof.KI.RG
    Cert.Proof.KI.fundRegion (fun κ d _ k Φ => Cert.Proof.KI.wp_region m κ d k Φ) (fun d fo => Cert.Proof.KI.call_split m d fo)
    Cert.Proof.KI.reshape_row Cert.Proof.KI.reshape_flat

theorem frame_pi : Cert.frame_KernelIdeal := fun m ρ hpre =>
  (θ_run Cert.KernelIdeal.defs _ _).mono (fun _ h c => ⟨(h c).1, (h c).2.1, (h c).2.2.1, (h c).2.2.2.1, (h c).2.2.2.2.1, (h c).2.2.2.2.2.1,
      (h c).2.2.2.2.2.2.1, (h c).2.2.2.2.2.2.2.1, (h c).2.2.2.2.2.2.2.2.1⟩)
    (run m ρ fun d j => Cert.Proof.Pre.idx_lt (F := Ideal) _ _ _ _ _ _ _ _ _ (hpre d) j)

-- The word-level frame is the same run at the word-level instance; the range conjunct it needs is over integers only.
theorem frame_p : Cert.frame_Kernel := fun m ρ hpre => by
  rw [defs_eq]
  exact (θ_run Cert.KernelIdeal.defs _ _).mono (fun _ h c => ⟨(h c).1, (h c).2.1, (h c).2.2.1, (h c).2.2.2.1, (h c).2.2.2.2.1, (h c).2.2.2.2.2.1,
      (h c).2.2.2.2.2.2.1, (h c).2.2.2.2.2.2.2.1, (h c).2.2.2.2.2.2.2.2.1⟩)
    (run (F := Bits) m ρ fun d j => Cert.Proof.Pre.idx_lt (F := Bits) _ _ _ _ _ _ _ _ _ (hpre d) j)

theorem frame_ri : Cert.frame_ReferenceIdeal := fun m ρ _ =>
  (θ_run Cert.ReferenceIdeal.defs _ _).mono (fun _ h c => (h c).2) (Cert.ReferenceIdeal.RefRun.run m ρ)

theorem algebraic : Cert.algebraic_KernelIdeal_ReferenceIdeal := by
  intro m ρ m' ρ' hpre hagree
  have hok : Cert.Proof.KI.PreOK m := fun d j => Cert.Proof.Pre.idx_lt (F := Ideal) _ _ _ _ _ _ _ _ _ (hpre d) j
  refine ⟨fun c => Cert.Proof.KI.Out (F := Ideal) m c, fun c => m ((c.tc : Thread Cert.KernelIdeal.nD Cert.KernelIdeal.τ).loc Cert.KernelIdeal.main_arg2), fun c => m ((c.tc : Thread Cert.KernelIdeal.nD Cert.KernelIdeal.τ).loc Cert.KernelIdeal.main_arg7), ?_, ?_⟩
  · refine (θ_run Cert.KernelIdeal.defs _ _).mono (fun _ h c => ?_) (run m ρ hok)
    obtain ⟨h0, h1, h2, h3, h4, h5, h6, h7, h8, ho⟩ := h c
    exact ⟨ho, h2, h7, h0, h1, h2, h3, h4, h5, h6, h7, h8⟩
  · refine (θ_run Cert.ReferenceIdeal.defs _ _).mono (fun _ h c => ?_) (Cert.ReferenceIdeal.RefRun.run m' ρ')
    obtain ⟨hr, h0, h1, h2, h3, h4, h5, h6, h7, h8⟩ := h c
    obtain ⟨e0, e1, e2, e3, e4, e5, e6, e7, e8⟩ := hagree c
    obtain ⟨fx, fw, fg, fb⟩ := Cert.Proof.Pre.finite _ _ _ _ _ _ _ _ _ (hpre c)
    refine ⟨?_, h2.trans e2, h7.trans e7, h0, h1, h2, h3, h4, h5, h6, h7, h8⟩
    rw [hr, Cert.ReferenceIdeal.RefValue.res_eq m' c (fun j => by rw [e8]; exact hok c j), e1, e3, e4, e5, e8,
      ← Cert.Spec.kerArr_eq_refArr _ _ _ _ _ fx fw fg fb]
    exact (Cert.Proof.KI.Out_eq m c (hok c)).symm

end Cert.Proof.Claims

end
-- ==== Proof.lean ====
-- The claim from its five parts: three frames, the (empty) idealization ledger, and equal results at the extended reals.
import proofs.«205778_g32538672235162_cont_8to1_b_712_45_alg».proof.Proof.Claims

namespace Cert.Proof

theorem claim : Cert.Claim := ⟨Cert.Kernel.Gen.facts, Cert.KernelIdeal.Gen.facts, Cert.ReferenceIdeal.Gen.facts, Cert.Pre_input_domain.Gen.facts,
  Cert.Proof.Claims.frame_p, Cert.Proof.Claims.frame_pi, Cert.Proof.Claims.frame_ri, trivial, Cert.Proof.Claims.algebraic⟩

end Cert.Proof
